-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg1 : IVec S2x320000 32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_c_20 : IVec S_ 32 := constantI S_ 32 0#32
  let main_v54 : IVec S2x320000 32 := broadcastInDim S2x320000 ![] bcast_S_S2x320000 main_c_20
  let main_v55 : IVec S2x320000 1 := cmpi .sge main_arg1 main_v54
  let main_c_21 : IVec S_ 32 := constantI S_ 32 10000#32
  let main_v56 : IVec S2x320000 32 := broadcastInDim S2x320000 ![] bcast_S_S2x320000 main_c_21
  let main_v57 : IVec S2x320000 1 := cmpi .slt main_arg1 main_v56
  let main_v58 : IVec S2x320000 1 := andi main_v55 main_v57
  let main_c_22 : IVec S_ 1 := constantI S_ 1 1#1
  let main_v59 : IVec S_ 1 := (fun x v => Host.reduce IntOp.andi x v reducesTo_S2x320000_S_d0_1 h_S_) main_v58 main_c_22
  let main_v60 : IVec S_ 1 := andi main_v53 main_v59
  main_v60

def fn_part2 {F : FTy → Type} [FloatOps F] (main_arg1 : IVec S2x320000 32) (main_arg8 : FVec F S256x256 .f32) (main_arg9 : FVec F S256 .f32) (main_arg10 : FVec F S256x40 .f32) (main_arg11 : FVec F S40 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x40 .f32 := Host.absf main_arg10
  let main_cst_16 : FVec F S_ .f32 := constant S_ .f32 0x7F800000#32
  let main_v45 : FVec F S256x40 .f32 := broadcastInDim S256x40 ![] bcast_S_S256x40 main_cst_16
  let main_v46 : IVec S256x40 1 := cmpf .olt main_v44 main_v45
  let main_c_17 : IVec S_ 1 := constantI S_ 1 1#1
  let main_v47 : IVec S_ 1 := (fun x v => Host.reduce IntOp.andi x v reducesTo_S256x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg1 main_v48 main_v49 main_v50

def fn_part1 {F : FTy → Type} [FloatOps F] (main_arg1 : IVec S2x320000 32) (main_arg5 : FVec F S256 .f32) (main_arg6 : FVec F S256x256 .f32) (main_arg7 : FVec F S256 .f32) (main_arg8 : FVec F S256x256 .f32) (main_arg9 : FVec F S256 .f32) (main_arg10 : FVec F S256x40 .f32) (main_arg11 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S10000x256 .f32) (main_arg1 : IVec S2x320000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x40 .f32) (main_arg11 : FVec F S40 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_arg10 main_arg11 main_v13 main_v16
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S10240x256 : Shape := ⟨2, ![10240, 256]⟩
abbrev S256x128 : Shape := ⟨2, ![256, 128]⟩
abbrev S1 : Shape := ⟨1, ![1]⟩
abbrev S128 : Shape := ⟨1, ![128]⟩
abbrev S1x256 : Shape := ⟨2, ![1, 256]⟩
abbrev S1x128 : Shape := ⟨2, ![1, 128]⟩
abbrev S1280x256 : Shape := ⟨2, ![1280, 256]⟩
abbrev S1280x2560 : Shape := ⟨2, ![1280, 2560]⟩
abbrev S2560x256 : Shape := ⟨2, ![2560, 256]⟩
abbrev S10240x128 : Shape := ⟨2, ![10240, 128]⟩
abbrev S1280x128 : Shape := ⟨2, ![1280, 128]⟩
abbrev S2560x128 : Shape := ⟨2, ![2560, 128]⟩
abbrev S10000x40 : Shape := ⟨2, ![10000, 40]⟩
abbrev S10000x1 : Shape := ⟨2, ![10000, 1]⟩

abbrev nBuf : Space → Nat
  | .hbm => 121
  | .vmem => 44
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x40, .f32⟩
  | .hbm, ⟨11, _⟩ => ⟨S40, .f32⟩
  | .hbm, ⟨12, _⟩ => ⟨S10000, .i32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S330000, .i32⟩
  | .hbm, ⟨18, _⟩ => ⟨S330000, .i32⟩
  | .hbm, ⟨19, _⟩ => ⟨S_, .f32⟩
  | .hbm, ⟨20, _⟩ => ⟨S330000, .f32⟩
  | .hbm, ⟨21, _⟩ => ⟨S_, .f32⟩
  | .hbm, ⟨22, _⟩ => ⟨S10000, .f32⟩
  | .hbm, ⟨23, _⟩ => ⟨S330000x1, .i32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S_, .i32⟩
  | .hbm, ⟨36, _⟩ => ⟨S330000, .i32⟩
  | .hbm, ⟨37, _⟩ => ⟨S330000, .i1⟩
  | .hbm, ⟨38, _⟩ => ⟨S_, .i32⟩
  | .hbm, ⟨39, _⟩ => ⟨S330000, .i32⟩
  | .hbm, ⟨40, _⟩ => ⟨S330000, .i32⟩
  | .hbm, ⟨41, _⟩ => ⟨S330000, .i32⟩
  | .hbm, ⟨42, _⟩ => ⟨S330000x1, .i32⟩
  | .hbm, ⟨43, _⟩ => ⟨S330000, .f32⟩
  | .hbm, ⟨44, _⟩ => ⟨S_, .i32⟩
  | .hbm, ⟨45, _⟩ => ⟨S330000, .i32⟩
  | .hbm, ⟨46, _⟩ => ⟨S330000, .i1⟩
  | .hbm, ⟨47, _⟩ => ⟨S_, .i32⟩
  | .hbm, ⟨48, _⟩ => ⟨S330000, .i32⟩
  | .hbm, ⟨49, _⟩ => ⟨S330000, .i32⟩
  | .hbm, ⟨50, _⟩ => ⟨S330000, .i32⟩
  | .hbm, ⟨51, _⟩ => ⟨S330000x1, .i32⟩
  | .hbm, ⟨52, _⟩ => ⟨S330000, .f32⟩
  | .hbm, ⟨53, _⟩ => ⟨S330000, .f32⟩
  | .hbm, ⟨54, _⟩ => ⟨S_, .f32⟩
  | .hbm, ⟨55, _⟩ => ⟨S10240x10240, .f32⟩
  | .hbm, ⟨56, _⟩ => ⟨S_, .i32⟩
  | .hbm, ⟨57, _⟩ => ⟨S330000, .i32⟩
  | .hbm, ⟨58, _⟩ => ⟨S330000, .i1⟩
  | .hbm, ⟨59, _⟩ => ⟨S_, .i32⟩
  | .hbm, ⟨60, _⟩ => ⟨S330000, .i32⟩
  | .hbm, ⟨61, _⟩ => ⟨S330000, .i32⟩
  | .hbm, ⟨62, _⟩ => ⟨S330000, .i32⟩
  | .hbm, ⟨63, _⟩ => ⟨S_, .i32⟩
  | .hbm, ⟨64, _⟩ => ⟨S330000, .i32⟩
  | .hbm, ⟨65, _⟩ => ⟨S330000, .i1⟩
  | .hbm, ⟨66, _⟩ => ⟨S_, .i32⟩
  | .hbm, ⟨67, _⟩ => ⟨S330000, .i32⟩
  | .hbm, ⟨68, _⟩ => ⟨S330000, .i32⟩
  | .hbm, ⟨69, _⟩ => ⟨S330000, .i32⟩
  | .hbm, ⟨70, _⟩ => ⟨S330000x1, .i32⟩
  | .hbm, ⟨71, _⟩ => ⟨S330000x1, .i32⟩
  | .hbm, ⟨72, _⟩ => ⟨S330000x2, .i32⟩
  | .hbm, ⟨73, _⟩ => ⟨S10240x10240, .f32⟩
  | .hbm, ⟨74, _⟩ => ⟨S10240x10240, .bf16⟩
  | .hbm, ⟨75, _⟩ => ⟨S_, .i32⟩
  | .hbm, ⟨76, _⟩ => ⟨S_, .f32⟩
  | .hbm, ⟨77, _⟩ => ⟨S10240x256, .f32⟩
  | .hbm, ⟨78, _⟩ => ⟨S10240x256, .bf16⟩
  | .hbm, ⟨79, _⟩ => ⟨S256x256, .bf16⟩
  | .hbm, ⟨80, _⟩ => ⟨S256x256, .bf16⟩
  | .hbm, ⟨81, _⟩ => ⟨S256x256, .bf16⟩
  | .hbm, ⟨82, _⟩ => ⟨S256x256, .bf16⟩
  | .hbm, ⟨83, _⟩ => ⟨S_, .f32⟩
  | .hbm, ⟨84, _⟩ => ⟨S256x128, .f32⟩
  | .hbm, ⟨85, _⟩ => ⟨S_, .i32⟩
  | .hbm, ⟨86, _⟩ => ⟨S1, .i32⟩
  | .hbm, ⟨87, _⟩ => ⟨S256x128, .f32⟩
  | .hbm, ⟨88, _⟩ => ⟨S256x128, .bf16⟩
  | .hbm, ⟨89, _⟩ => ⟨S_, .f32⟩
  | .hbm, ⟨90, _⟩ => ⟨S128, .f32⟩
  | .hbm, ⟨91, _⟩ => ⟨S_, .i32⟩
  | .hbm, ⟨92, _⟩ => ⟨S1, .i32⟩
  | .hbm, ⟨93, _⟩ => ⟨S128, .f32⟩
  | .hbm, ⟨94, _⟩ => ⟨S1x256, .f32⟩
  | .hbm, ⟨95, _⟩ => ⟨S1x256, .f32⟩
  | .hbm, ⟨96, _⟩ => ⟨S1x256, .f32⟩
  | .hbm, ⟨97, _⟩ => ⟨S1x256, .f32⟩
  | .hbm, ⟨98, _⟩ => ⟨S1x128, .f32⟩
  | .hbm, ⟨99, _⟩ => ⟨S10240x256, .bf16⟩
  | .hbm, ⟨100, _⟩ => ⟨S10240x256, .bf16⟩
  | .hbm, ⟨101, _⟩ => ⟨S10240x256, .bf16⟩
  | .hbm, ⟨102, _⟩ => ⟨S10240x256, .bf16⟩
  | .hbm, ⟨103, _⟩ => ⟨S10240x128, .bf16⟩
  | .hbm, ⟨104, _⟩ => ⟨S10240x128, .f32⟩
  | .hbm, ⟨105, _⟩ => ⟨S10000x40, .f32⟩
  | .hbm, ⟨106, _⟩ => ⟨S_, .f32⟩
  | .hbm, ⟨107, _⟩ => ⟨S10000, .f32⟩
  | .hbm, ⟨108, _⟩ => ⟨S_, .f32⟩
  | .hbm, ⟨109, _⟩ => ⟨S10000, .f32⟩
  | .hbm, ⟨110, _⟩ => ⟨S10000, .f32⟩
  | .hbm, ⟨111, _⟩ => ⟨S10000x1, .f32⟩
  | .hbm, ⟨112, _⟩ => ⟨S10000x40, .f32⟩
  | .hbm, ⟨113, _⟩ => ⟨S10000x40, .f32⟩
  | .hbm, ⟨114, _⟩ => ⟨S10000x40, .f32⟩
  | .hbm, ⟨115, _⟩ => ⟨S_, .f32⟩
  | .hbm, ⟨116, _⟩ => ⟨S10000, .f32⟩
  | .hbm, ⟨117, _⟩ => ⟨S10000x1, .f32⟩
  | .hbm, ⟨118, _⟩ => ⟨S10000x1, .f32⟩
  | .hbm, ⟨119, _⟩ => ⟨S10000x40, .f32⟩
  | .hbm, ⟨120, _⟩ => ⟨S10000x40, .f32⟩
  | .local _ .vmem, ⟨0, _⟩ => ⟨S1280x256, .bf16⟩
  | .local _ .vmem, ⟨1, _⟩ => ⟨S1280x256, .bf16⟩
  | .local _ .vmem, ⟨2, _⟩ => ⟨S256x256, .bf16⟩
  | .local _ .vmem, ⟨3, _⟩ => ⟨S1280x256, .bf16⟩
  | .local _ .vmem, ⟨4, _⟩ => ⟨S1280x256, .bf16⟩
  | .local _ .vmem, ⟨5, _⟩ => ⟨S1280x2560, .bf16⟩
  | .local _ .vmem, ⟨6, _⟩ => ⟨S1280x2560, .bf16⟩
  | .local _ .vmem, ⟨7, _⟩ => ⟨S10240x256, .bf16⟩
  | .local _ .vmem, ⟨8, _⟩ => ⟨S1x256, .f32⟩
  | .local _ .vmem, ⟨9, _⟩ => ⟨S256x256, .bf16⟩
  | .local _ .vmem, ⟨10, _⟩ => ⟨S1280x256, .bf16⟩
  | .local _ .vmem, ⟨11, _⟩ => ⟨S1280x256, .bf16⟩
  | .local _ .vmem, ⟨12, _⟩ => ⟨S1280x256, .f32⟩
  | .local _ .vmem, ⟨13, _⟩ => ⟨S1280x2560, .bf16⟩
  | .local _ .vmem, ⟨14, _⟩ => ⟨S1280x2560, .bf16⟩
  | .local _ .vmem, ⟨15, _⟩ => ⟨S10240x256, .bf16⟩
  | .local _ .vmem, ⟨16, _⟩ => ⟨S1x256, .f32⟩
  | .local _ .vmem, ⟨17, _⟩ => ⟨S256x256, .bf16⟩
  | .local _ .vmem, ⟨18, _⟩ => ⟨S1280x256, .bf16⟩
  | .local _ .vmem, ⟨19, _⟩ => ⟨S1280x256, .bf16⟩
  | .local _ .vmem, ⟨20, _⟩ => ⟨S1280x256, .f32⟩
  | .local _ .vmem, ⟨21, _⟩ => ⟨S1280x2560, .bf16⟩
  | .local _ .vmem, ⟨22, _⟩ => ⟨S1280x2560, .bf16⟩
  | .local _ .vmem, ⟨23, _⟩ => ⟨S10240x256, .bf16⟩
  | .local _ .vmem, ⟨24, _⟩ => ⟨S1x256, .f32⟩
  | .local _ .vmem, ⟨25, _⟩ => ⟨S256x256, .bf16⟩
  | .local _ .vmem, ⟨26, _⟩ => ⟨S1280x256, .bf16⟩
  | .local _ .vmem, ⟨27, _⟩ => ⟨S1280x256, .bf16⟩
  | .local _ .vmem, ⟨28, _⟩ => ⟨S1280x256, .f32⟩
  | .local _ .vmem, ⟨29, _⟩ => ⟨S1280x2560, .bf16⟩
  | .local _ .vmem, ⟨30, _⟩ => ⟨S1280x2560, .bf16⟩
  | .local _ .vmem, ⟨31, _⟩ => ⟨S10240x256, .bf16⟩
  | .local _ .vmem, ⟨32, _⟩ => ⟨S1x256, .f32⟩
  | .local _ .vmem, ⟨33, _⟩ => ⟨S256x128, .bf16⟩
  | .local _ .vmem, ⟨34, _⟩ => ⟨S1280x128, .bf16⟩
  | .local _ .vmem, ⟨35, _⟩ => ⟨S1280x128, .bf16⟩
  | .local _ .vmem, ⟨36, _⟩ => ⟨S1280x256, .f32⟩
  | .local _ .vmem, ⟨37, _⟩ => ⟨S1280x2560, .bf16⟩
  | .local _ .vmem, ⟨38, _⟩ => ⟨S1280x2560, .bf16⟩
  | .local _ .vmem, ⟨39, _⟩ => ⟨S10240x128, .bf16⟩
  | .local _ .vmem, ⟨40, _⟩ => ⟨S1x128, .f32⟩
  | .local _ .vmem, ⟨41, _⟩ => ⟨S1280x128, .f32⟩
  | .local _ .vmem, ⟨42, _⟩ => ⟨S1280x128, .f32⟩
  | .local _ .vmem, ⟨43, _⟩ => ⟨S1280x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_c_11 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_c_14 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_c_16 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call2_cst : Ref sig .tc := ⟨.hbm, 106, rfl⟩
abbrev main_call2_v0 : Ref sig .tc := ⟨.hbm, 107, rfl⟩
abbrev main_call2_cst_0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_cst_1 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_v72 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2560_i32 : BitVec 32 := 2560#32
  let v3 : BitVec 32 := Scalar.muli arg1 c2560_i32
  v3
def k1_off1 (i : grid1.Coords) : Fin 2 → Nat :=
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1280x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c2560_i32 : BitVec 32 := 2560#32
  let v3 : BitVec 32 := Scalar.muli arg1 c2560_i32
  v3
def k2_off1 (i : grid2.Coords) : Fin 2 → Nat :=
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1280x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 4], ![false, false]⟩

def k3_mult1 (i : grid3.Coords) : BitVec 32 :=
  let arg1 : BitVec 32 := BitVec.ofNat 32 (i 1).val
  let c2560_i32 : BitVec 32 := 2560#32
  let v3 : BitVec 32 := Scalar.muli arg1 c2560_i32
  v3
def k3_off1 (i : grid3.Coords) : Fin 2 → Nat :=
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1280x2560 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S10240x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1280x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![8, 4], ![false, false]⟩

def k4_mult1 (i : grid4.Coords) : BitVec 32 :=
  let arg1 : BitVec 32 := BitVec.ofNat 32 (i 1).val
  let c2560_i32 : BitVec 32 := 2560#32
  let v3 : BitVec 32 := Scalar.muli arg1 c2560_i32
  v3
def k4_off1 (i : grid4.Coords) : Fin 2 → Nat :=
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  let c0 : Index := 0#32
  ![v5.toNat, 0]
def k4_cond2 (i : grid4.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1280x2560 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S10240x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S256x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1280x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![8, 4], ![false, false]⟩

def k5_mult1 (i : grid5.Coords) : BitVec 32 :=
  let arg1 : BitVec 32 := BitVec.ofNat 32 (i 1).val
  let c2560_i32 : BitVec 32 := 2560#32
  let v3 : BitVec 32 := Scalar.muli arg1 c2560_i32
  v3
def k5_off1 (i : grid5.Coords) : Fin 2 → Nat :=
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  let c0 : Index := 0#32
  ![v5.toNat, 0]
def k5_cond2 (i : grid5.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1280x2560 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S10240x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1280x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  pads_S10000x256_S10240x256_02400_000 : S10000x256.Pads (![0, 0] : Fin 2 → Nat) ![240, 0] ![0, 0] S10240x256
  h_S_ : 0 < S_.numel
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  shapeCasts_S256_S1x256 : S256.ShapeCasts S1x256
  shapeCasts_S128_S1x128 : S128.ShapeCasts S1x128
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S1280x256_S1280x256_0_0 : (Rect.unit (s := S1280x256) ![0, 0] S1280x256.size inb_S1280x256_S1280x256_0_0).PackedRows (EltTy.packing .bf16)
  h_S2560x256 : 0 < S2560x256.numel
  shapeCasts_S2560x256_S2560x256 : S2560x256.ShapeCasts S2560x256
  inb_S1280x2560_S1280x2560_0_0 : ∀ a, (![0, 0] : Fin 2 → Nat) a + S1280x2560.size a ≤ S1280x2560.size a
  h_S1280x2560 : 0 < S1280x2560.numel
  shapeCasts_S1280x2560_S1280x2560 : S1280x2560.ShapeCasts S1280x2560
  iota_S1280x256_d0_w32 : S1280x256.Iotas .tc 32 [0]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1280x256 : S1x256.Broadcasts S1280x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1280x128_S1280x128_0_0 : ∀ a, (![0, 0] : Fin 2 → Nat) a + S1280x128.size a ≤ S1280x128.size a
  h_S1280x128 : 0 < S1280x128.numel
  packedbf16_S1280x128_S1280x128_0_0 : (Rect.unit (s := S1280x128) ![0, 0] S1280x128.size inb_S1280x128_S1280x128_0_0).PackedRows (EltTy.packing .bf16)
  shapeCasts_S1280x128_S1280x128 : S1280x128.ShapeCasts S1280x128
  h_S2560x128 : 0 < S2560x128.numel
  shapeCasts_S2560x128_S2560x128 : S2560x128.ShapeCasts S2560x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  slices_S10240x128_S10000x40_0_0 : S10240x128.Slices ![0, 0] S10000x40
  reducesTo_S10000x40_S10000_d1 : S10000x40.ReducesTo [1] S10000
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  scatter_S256x128_S1_S256x40_01_n_1_0_wf : ScatterDims.WF S256x128 S1 S256x40 [0, 1] [] [1] 0
  scatter_S128_S1_S40_0_n_0_0_wf : ScatterDims.WF S128 S1 S40 [0] [] [0] 0
  dot_S1280x256_S256x256_S1280x256_1_0_0_1_n_n_wf : DotDims.WF S1280x256 S256x256 S1280x256 [1] [0] [0] [1] [] []
  dot_S1280x2560_S2560x256_S1280x256_1_0_0_1_n_n_wf : DotDims.WF S1280x2560 S2560x256 S1280x256 [1] [0] [0] [1] [] []
  dot_S1280x256_S256x128_S1280x128_1_0_0_1_n_n_wf : DotDims.WF S1280x256 S256x128 S1280x128 [1] [0] [0] [1] [] []
  dot_S1280x2560_S2560x128_S1280x128_1_0_0_1_n_n_wf : DotDims.WF S1280x2560 S2560x128 S1280x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x256.size a ≤ S10240x256.size a
  hwx0_0 : ∀ i : grid0.Coords, EltTy.bits .bf16 = 32 ∨ (Rect.block (s := S10240x256) S1280x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S10240x256.size a
  hwx0_2 : ∀ i : grid0.Coords, EltTy.bits .bf16 = 32 ∨ (Rect.block (s := S10240x256) S1280x256.size (cc0_transform_2 i) (hinb0_2 i)).WholeWords (EltTy.packing .bf16)
  hrank1 : 0 < grid1.rank
  k1_mult1_dvd : ∀ i : grid1.Coords, 2560 ∣ (k1_mult1 i).toNat
  k1_off1_inb : ∀ i : grid1.Coords, ∀ a, (k1_off1 i) a + S2560x256.size a ≤ S10240x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x2560.size a ≤ S10240x10240.size a
  hwx1_0 : ∀ i : grid1.Coords, EltTy.bits .bf16 = 32 ∨ (Rect.block (s := S10240x10240) S1280x2560.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1280x256.size a ≤ S10240x256.size a
  hwx1_4 : ∀ i : grid1.Coords, EltTy.bits .bf16 = 32 ∨ (Rect.block (s := S10240x256) S1280x256.size (cc1_transform_4 i) (hinb1_4 i)).WholeWords (EltTy.packing .bf16)
  hrank2 : 0 < grid2.rank
  k2_mult1_dvd : ∀ i : grid2.Coords, 2560 ∣ (k2_mult1 i).toNat
  k2_off1_inb : ∀ i : grid2.Coords, ∀ a, (k2_off1 i) a + S2560x256.size a ≤ S10240x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x2560.size a ≤ S10240x10240.size a
  hwx2_0 : ∀ i : grid2.Coords, EltTy.bits .bf16 = 32 ∨ (Rect.block (s := S10240x10240) S1280x2560.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x256.size a ≤ S10240x256.size a
  hwx2_1 : ∀ i : grid2.Coords, EltTy.bits .bf16 = 32 ∨ (Rect.block (s := S10240x256) S10240x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1280x256.size a ≤ S10240x256.size a
  hwx2_4 : ∀ i : grid2.Coords, EltTy.bits .bf16 = 32 ∨ (Rect.block (s := S10240x256) S1280x256.size (cc2_transform_4 i) (hinb2_4 i)).WholeWords (EltTy.packing .bf16)
  hrank3 : 0 < grid3.rank
  k3_mult1_dvd : ∀ i : grid3.Coords, 2560 ∣ (k3_mult1 i).toNat
  k3_off1_inb : ∀ i : grid3.Coords, ∀ a, (k3_off1 i) a + S2560x256.size a ≤ S10240x256.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x2560.size a ≤ S10240x10240.size a
  hwx3_0 : ∀ i : grid3.Coords, EltTy.bits .bf16 = 32 ∨ (Rect.block (s := S10240x10240) S1280x2560.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x256.size a ≤ S10240x256.size a
  hwx3_1 : ∀ i : grid3.Coords, EltTy.bits .bf16 = 32 ∨ (Rect.block (s := S10240x256) S10240x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1280x256.size a ≤ S10240x256.size a
  hwx3_4 : ∀ i : grid3.Coords, EltTy.bits .bf16 = 32 ∨ (Rect.block (s := S10240x256) S1280x256.size (cc3_transform_4 i) (hinb3_4 i)).WholeWords (EltTy.packing .bf16)
  hrank4 : 0 < grid4.rank
  k4_mult1_dvd : ∀ i : grid4.Coords, 2560 ∣ (k4_mult1 i).toNat
  k4_off1_inb : ∀ i : grid4.Coords, ∀ a, (k4_off1 i) a + S2560x256.size a ≤ S10240x256.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x2560.size a ≤ S10240x10240.size a
  hwx4_0 : ∀ i : grid4.Coords, EltTy.bits .bf16 = 32 ∨ (Rect.block (s := S10240x10240) S1280x2560.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10240x256.size a ≤ S10240x256.size a
  hwx4_1 : ∀ i : grid4.Coords, EltTy.bits .bf16 = 32 ∨ (Rect.block (s := S10240x256) S10240x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .bf16 = 32 ∨ (Rect.block (s := S256x128) S256x128.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1280x128.size a ≤ S10240x128.size a
  hwx4_4 : ∀ i : grid4.Coords, EltTy.bits .bf16 = 32 ∨ (Rect.block (s := S10240x128) S1280x128.size (cc4_transform_4 i) (hinb4_4 i)).WholeWords (EltTy.packing .bf16)
  hrank5 : 0 < grid5.rank
  k5_mult1_dvd : ∀ i : grid5.Coords, 2560 ∣ (k5_mult1 i).toNat
  k5_off1_inb : ∀ i : grid5.Coords, ∀ a, (k5_off1 i) a + S2560x128.size a ≤ S10240x128.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1280x2560.size a ≤ S10240x10240.size a
  hwx5_0 : ∀ i : grid5.Coords, EltTy.bits .bf16 = 32 ∨ (Rect.block (s := S10240x10240) S1280x2560.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10240x128.size a ≤ S10240x128.size a
  hwx5_1 : ∀ i : grid5.Coords, EltTy.bits .bf16 = 32 ∨ (Rect.block (s := S10240x128) S10240x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1280x128.size a ≤ S10240x128.size a
  hwx5_3 : ∀ i : grid5.Coords, EltTy.bits .f32 = 32 ∨ (Rect.block (s := S10240x128) S1280x128.size (cc5_transform_3 i) (hinb5_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def scatter_S256x128_S1_S256x40_01_n_1_0 : ScatterDims S256x128 S1 S256x40 where
  updateWindowDims := [0, 1]
  insertedWindowDims := []
  scatterDimsToOperandDims := [1]
  indexVectorDim := 0
  wf := scatter_S256x128_S1_S256x40_01_n_1_0_wf
def scatter_S128_S1_S40_0_n_0_0 : ScatterDims S128 S1 S40 where
  updateWindowDims := [0]
  insertedWindowDims := []
  scatterDimsToOperandDims := [0]
  indexVectorDim := 0
  wf := scatter_S128_S1_S40_0_n_0_0_wf
def dot_S1280x256_S256x256_S1280x256_1_0_0_1_n_n : DotDims S1280x256 S256x256 S1280x256 where
  lhsContracting := [1]
  rhsContracting := [0]
  lhsNonContracting := [0]
  rhsNonContracting := [1]
  lhsBatch := []
  rhsBatch := []
  wf := dot_S1280x256_S256x256_S1280x256_1_0_0_1_n_n_wf
def dot_S1280x2560_S2560x256_S1280x256_1_0_0_1_n_n : DotDims S1280x2560 S2560x256 S1280x256 where
  lhsContracting := [1]
  rhsContracting := [0]
  lhsNonContracting := [0]
  rhsNonContracting := [1]
  lhsBatch := []
  rhsBatch := []
  wf := dot_S1280x2560_S2560x256_S1280x256_1_0_0_1_n_n_wf
def dot_S1280x256_S256x128_S1280x128_1_0_0_1_n_n : DotDims S1280x256 S256x128 S1280x128 where
  lhsContracting := [1]
  rhsContracting := [0]
  lhsNonContracting := [0]
  rhsNonContracting := [1]
  lhsBatch := []
  rhsBatch := []
  wf := dot_S1280x256_S256x128_S1280x128_1_0_0_1_n_n_wf
def dot_S1280x2560_S2560x128_S1280x128_1_0_0_1_n_n : DotDims S1280x2560 S2560x128 S1280x128 where
  lhsContracting := [1]
  rhsContracting := [0]
  lhsNonContracting := [0]
  rhsNonContracting := [1]
  lhsBatch := []
  rhsBatch := []
  wf := dot_S1280x2560_S2560x128_S1280x128_1_0_0_1_n_n_wf

abbrev win0_0 : Pipeline.Window sig grid0 :=
  Pipeline.Window.ofSpec (Memref.whole main_v48) S1280x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v65) S1280x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1280x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1280x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v46) S1280x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S10240x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1280x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v46) S1280x2560.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S10240x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1280x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v46) S1280x2560.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S10240x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1280x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v46) S1280x2560.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S10240x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1280x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S10000x40 : Shape := ⟨2, ![10000, 40]⟩
abbrev S330000x40 : Shape := ⟨2, ![330000, 40]⟩
abbrev S1x40 : Shape := ⟨2, ![1, 40]⟩
abbrev S10000x1 : Shape := ⟨2, ![10000, 1]⟩

abbrev nBuf : Space → Nat
  | .hbm => 181
  | .vmem => 0
  | .smem => 0
  | _ => 0

abbrev hbmTy0_0 (i : Nat) : BufTy := match i % 128 with
  | 0 => ⟨S10000x256, .f32⟩
  | 1 => ⟨S2x320000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x40, .f32⟩
  | 11 => ⟨S40, .f32⟩
  | 12 => ⟨S10000, .i32⟩
  | 13 => ⟨S1x320000, .i32⟩
  | 14 => ⟨S320000, .i32⟩
  | 15 => ⟨S330000, .i32⟩
  | 16 => ⟨S1x320000, .i32⟩
  | 17 => ⟨S320000, .i32⟩
  | 18 => ⟨S330000, .i32⟩
  | 19 => ⟨S_, .f32⟩
  | 20 => ⟨S330000, .f32⟩
  | 21 => ⟨S_, .f32⟩
  | 22 => ⟨S10000, .f32⟩
  | 23 => ⟨S330000x1, .i32⟩
  | 24 => ⟨S10000, .f32⟩
  | 25 => ⟨S_, .f32⟩
  | 26 => ⟨S10000, .f32⟩
  | 27 => ⟨S10000, .i1⟩
  | 28 => ⟨S_, .f32⟩
  | 29 => ⟨S10000, .f32⟩
  | 30 => ⟨S10000, .f32⟩
  | 31 => ⟨S_, .f32⟩
  | 32 => ⟨S_, .f32⟩
  | 33 => ⟨S10000, .f32⟩
  | 34 => ⟨S10000, .f32⟩
  | 35 => ⟨S_, .i32⟩
  | 36 => ⟨S330000, .i32⟩
  | 37 => ⟨S330000, .i1⟩
  | 38 => ⟨S_, .i32⟩
  | 39 => ⟨S330000, .i32⟩
  | 40 => ⟨S330000, .i32⟩
  | 41 => ⟨S330000, .i32⟩
  | 42 => ⟨S330000x1, .i32⟩
  | 43 => ⟨S330000, .f32⟩
  | 44 => ⟨S_, .i32⟩
  | 45 => ⟨S330000, .i32⟩
  | 46 => ⟨S330000, .i1⟩
  | 47 => ⟨S_, .i32⟩
  | 48 => ⟨S330000, .i32⟩
  | 49 => ⟨S330000, .i32⟩
  | 50 => ⟨S330000, .i32⟩
  | 51 => ⟨S330000x1, .i32⟩
  | 52 => ⟨S330000, .f32⟩
  | 53 => ⟨S330000, .f32⟩
  | 54 => ⟨S10000x256, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x256, .f32⟩
  | 64 => ⟨S330000x1, .f32⟩
  | 65 => ⟨S330000x256, .f32⟩
  | 66 => ⟨S330000x256, .f32⟩
  | 67 => ⟨S_, .f32⟩
  | 68 => ⟨S10000x256, .f32⟩
  | 69 => ⟨S330000x1, .i32⟩
  | 70 => ⟨S10000x256, .f32⟩
  | 71 => ⟨S1x256, .f32⟩
  | 72 => ⟨S10000x256, .f32⟩
  | 73 => ⟨S10000x256, .f32⟩
  | 74 => ⟨S_, .f32⟩
  | 75 => ⟨S10000x256, .f32⟩
  | 76 => ⟨S10000x256, .f32⟩
  | 77 => ⟨S10000x256, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S330000x256, .f32⟩
  | 87 => ⟨S330000x1, .f32⟩
  | 88 => ⟨S330000x256, .f32⟩
  | 89 => ⟨S330000x256, .f32⟩
  | 90 => ⟨S_, .f32⟩
  | 91 => ⟨S10000x256, .f32⟩
  | 92 => ⟨S330000x1, .i32⟩
  | 93 => ⟨S10000x256, .f32⟩
  | 94 => ⟨S1x256, .f32⟩
  | 95 => ⟨S10000x256, .f32⟩
  | 96 => ⟨S10000x256, .f32⟩
  | 97 => ⟨S_, .f32⟩
  | 98 => ⟨S10000x256, .f32⟩
  | 99 => ⟨S10000x256, .f32⟩
  | 100 => ⟨S10000x256, .f32⟩
  | 101 => ⟨S_, .i32⟩
  | 102 => ⟨S330000, .i32⟩
  | 103 => ⟨S330000, .i1⟩
  | 104 => ⟨S_, .i32⟩
  | 105 => ⟨S330000, .i32⟩
  | 106 => ⟨S330000, .i32⟩
  | 107 => ⟨S330000, .i32⟩
  | 108 => ⟨S330000x1, .i32⟩
  | 109 => ⟨S330000x256, .f32⟩
  | 110 => ⟨S330000x1, .f32⟩
  | 111 => ⟨S330000x256, .f32⟩
  | 112 => ⟨S330000x256, .f32⟩
  | 113 => ⟨S_, .f32⟩
  | 114 => ⟨S10000x256, .f32⟩
  | 115 => ⟨S330000x1, .i32⟩
  | 116 => ⟨S10000x256, .f32⟩
  | 117 => ⟨S1x256, .f32⟩
  | 118 => ⟨S10000x256, .f32⟩
  | 119 => ⟨S10000x256, .f32⟩
  | 120 => ⟨S_, .f32⟩
  | 121 => ⟨S10000x256, .f32⟩
  | 122 => ⟨S10000x256, .f32⟩
  | 123 => ⟨S10000x256, .f32⟩
  | 124 => ⟨S_, .i32⟩
  | 125 => ⟨S330000, .i32⟩
  | 126 => ⟨S330000, .i1⟩
  | 127 => ⟨S_, .i32⟩
  | _ => ⟨S10000x256, .f32⟩

abbrev hbmTy0_1 (i : Nat) : BufTy := match i % 128 with
  | 0 => ⟨S330000, .i32⟩
  | 1 => ⟨S330000, .i32⟩
  | 2 => ⟨S330000, .i32⟩
  | 3 => ⟨S330000x1, .i32⟩
  | 4 => ⟨S330000x256, .f32⟩
  | 5 => ⟨S330000x1, .f32⟩
  | 6 => ⟨S330000x256, .f32⟩
  | 7 => ⟨S330000x256, .f32⟩
  | 8 => ⟨S_, .f32⟩
  | 9 => ⟨S10000x256, .f32⟩
  | 10 => ⟨S330000x1, .i32⟩
  | 11 => ⟨S10000x256, .f32⟩
  | 12 => ⟨S1x256, .f32⟩
  | 13 => ⟨S10000x256, .f32⟩
  | 14 => ⟨S10000x256, .f32⟩
  | 15 => ⟨S_, .f32⟩
  | 16 => ⟨S10000x256, .f32⟩
  | 17 => ⟨S10000x256, .f32⟩
  | 18 => ⟨S10000x40, .f32⟩
  | 19 => ⟨S_, .i32⟩
  | 20 => ⟨S330000, .i32⟩
  | 21 => ⟨S330000, .i1⟩
  | 22 => ⟨S_, .i32⟩
  | 23 => ⟨S330000, .i32⟩
  | 24 => ⟨S330000, .i32⟩
  | 25 => ⟨S330000, .i32⟩
  | 26 => ⟨S330000x1, .i32⟩
  | 27 => ⟨S330000x40, .f32⟩
  | 28 => ⟨S330000x1, .f32⟩
  | 29 => ⟨S330000x40, .f32⟩
  | 30 => ⟨S330000x40, .f32⟩
  | 31 => ⟨S_, .f32⟩
  | 32 => ⟨S10000x40, .f32⟩
  | 33 => ⟨S330000x1, .i32⟩
  | 34 => ⟨S10000x40, .f32⟩
  | 35 => ⟨S1x40, .f32⟩
  | 36 => ⟨S10000x40, .f32⟩
  | 37 => ⟨S10000x40, .f32⟩
  | 38 => ⟨S_, .f32⟩
  | 39 => ⟨S10000, .f32⟩
  | 40 => ⟨S_, .f32⟩
  | 41 => ⟨S10000, .f32⟩
  | 42 => ⟨S10000, .f32⟩
  | 43 => ⟨S10000x1, .f32⟩
  | 44 => ⟨S10000x40, .f32⟩
  | 45 => ⟨S10000x40, .f32⟩
  | 46 => ⟨S10000x40, .f32⟩
  | 47 => ⟨S_, .f32⟩
  | 48 => ⟨S10000, .f32⟩
  | 49 => ⟨S10000x1, .f32⟩
  | 50 => ⟨S10000x1, .f32⟩
  | 51 => ⟨S10000x40, .f32⟩
  | 52 => ⟨S10000x40, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_c_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call3_cst : Ref sig .tc := ⟨.hbm, 120, rfl⟩
abbrev main_call3_v0 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_c_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call4_cst : Ref sig .tc := ⟨.hbm, 143, rfl⟩
abbrev main_call4_v0 : Ref sig .tc := ⟨.hbm, 144, rfl⟩
abbrev main_v102 : Ref sig .tc := ⟨.hbm, 145, rfl⟩
abbrev main_v103 : Ref sig .tc := ⟨.hbm, 146, rfl⟩
abbrev main_c_19 : Ref sig .tc := ⟨.hbm, 147, rfl⟩
abbrev main_v104 : Ref sig .tc := ⟨.hbm, 148, rfl⟩
abbrev main_v105 : Ref sig .tc := ⟨.hbm, 149, rfl⟩
abbrev main_c_20 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_21 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_call5_cst : Ref sig .tc := ⟨.hbm, 166, rfl⟩
abbrev main_call5_v0 : Ref sig .tc := ⟨.hbm, 167, rfl⟩
abbrev main_call5_cst_0 : Ref sig .tc := ⟨.hbm, 168, rfl⟩
abbrev main_call5_v1 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_call5_v5 : Ref sig .tc := ⟨.hbm, 173, rfl⟩
abbrev main_call5_v6 : Ref sig .tc := ⟨.hbm, 174, rfl⟩
abbrev main_call5_cst_1 : Ref sig .tc := ⟨.hbm, 175, rfl⟩
abbrev main_call5_v7 : Ref sig .tc := ⟨.hbm, 176, rfl⟩
abbrev main_call5_v8 : Ref sig .tc := ⟨.hbm, 177, rfl⟩
abbrev main_call5_v9 : Ref sig .tc := ⟨.hbm, 178, rfl⟩
abbrev main_call5_v10 : Ref sig .tc := ⟨.hbm, 179, rfl⟩
abbrev main_v120 : Ref sig .tc := ⟨.hbm, 180, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S330000x1_S330000x40_0_1 : S330000x1.BroadcastsInDim S330000x40 (![0, 1] : Fin 2 → Fin S330000x40.rank)
  bcast_S_S10000x40 : S_.BroadcastsInDim S10000x40 (![] : Fin 0 → Fin S10000x40.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x256_S10000x256_1_0_0_1_n_n_wf : DotDims.WF S10000x256 S256x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x40_S10000x40_1_0_0_1_n_n_wf : DotDims.WF S10000x256 S256x40 S10000x40 [1] [0] [0] [1] [] []
  gather_S10000x40_S330000x1_S330000x40_1_0_n_n_0_1_140_wf : GatherDims.WF S10000x40 S330000x1 S330000x40 [1] [0] [] [0] [] 1 ![1, 40]
  scatter_S10000x40_S330000x1_S330000x40_1_0_0_1_wf : ScatterDims.WF S10000x40 S330000x1 S330000x40 [1] [0] [0] 1

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x40_S10000x40_1_0_0_1_n_n : DotDims S10000x256 S256x40 S10000x40 where
  lhsContracting := [1]
  rhsContracting := [0]
  lhsNonContracting := [0]
  rhsNonContracting := [1]
  lhsBatch := []
  rhsBatch := []
  wf := dot_S10000x256_S256x40_S10000x40_1_0_0_1_n_n_wf
def gather_S10000x40_S330000x1_S330000x40_1_0_n_n_0_1_140 : GatherDims S10000x40 S330000x1 S330000x40 where
  offsetDims := [1]
  collapsedSliceDims := [0]
  operandBatchingDims := []
  startIndicesBatchingDims := []
  startIndexMap := [0]
  indexVectorDim := 1
  sliceSizes := ![1, 40]
  wf := gather_S10000x40_S330000x1_S330000x40_1_0_n_n_0_1_140_wf
def scatter_S10000x40_S330000x1_S330000x40_1_0_0_1 : ScatterDims S10000x40 S330000x1 S330000x40 where
  updateWindowDims := [1]
  insertedWindowDims := [0]
  scatterDimsToOperandDims := [0]
  indexVectorDim := 1
  wf := scatter_S10000x40_S330000x1_S330000x40_1_0_0_1_wf

class Facts : Prop extends Facts₀ where

variable [Facts]
-- ==== Proof.K.R0.lean ====
import proofs.«427802_j60163901882525_3_alg».proof.Proof.Gen.Kernel.Launch
import proofs.«427802_j60163901882525_3_alg».proof.Proof.Gen.Kernel.Skeleton
import proofs.«427802_j60163901882525_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S1280x256 := Rect.unit (s := S1280x256) ![0, 0] S1280x256.size inb_S1280x256_S1280x256_0_0
abbrev rW : Rect S256x256 := Rect.unit (s := S256x256) ![0, 0] S256x256.size inb_S256x256_S256x256_0_0

def out0_2 (x0 : Vec F S1280x256 .bf16) (x1 : Vec F S256x256 .bf16) : Vec F S1280x256 .bf16 :=
  View.canon [⟨rX, k0_pay1 (View.ld x0 rX) (View.ld x1 rW)⟩]

theorem cover0_2 (p0 : Vec F S1280x256 .bf16) (y : S1280x256.Idx) :
    ∃ pc ∈ ([⟨rX, p0⟩] : List (View.Piece (Elt F) S1280x256 .bf16)), y ∈ pc.1.set :=
  View.cover_of_tiled [⟨rX, p0⟩] S1280x256.size (by rfl) y

set_option maxHeartbeats 1000000 in

theorem sound_kernel0 (c : Dev nD) (E : Set ℕ) (i : grid0.Coords)
    (arg0 : Memref sig .tc .vmem S1280x256 .bf16) (harg0 : arg0.IsWhole)
    (arg1 : Memref sig .tc .vmem S256x256 .bf16) (harg1 : arg1.IsWhole)
    (arg2 : Memref sig .tc .vmem S1280x256 .bf16) (harg2 : arg2.IsWhole)
    (x0 : Vec F S1280x256 .bf16) (x1 : Vec F S256x256 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_in (c : Dev nD) (t : Fin cfg0.N) : (dat0 V c).after 0 t = iblk0 V c 0 t := by dsimp only [dat0]
theorem after0_in1 (c : Dev nD) (t : Fin cfg0.N) : (dat0 V c).after 1 t = iblk0 V c 1 t := by dsimp only [dat0]
theorem after0_out (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_in V c) t d
theorem before0_1 (c : Dev nD) (t : Fin cfg0.N) (d) : (dat0 V c).before 1 t d = iblk0 V c 1 t :=
  before0_1_of V (dat0 V c) (A_eq0 V c 1) (after0_in1 V c) t d

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_in, after0_in1, after0_out]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Owns.lean ====
import proofs.«427802_j60163901882525_3_alg».proof.Proof.Gen.Kernel.Launch
import proofs.«427802_j60163901882525_3_alg».proof.Proof.Gen.Kernel.Skeleton
import proofs.«427802_j60163901882525_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Pieces that read back as `x` over any contents leave the memref owned at `x`. -/
theorem owns_of_writes (c : Dev nD) {s : Shape} {e : EltTy} {m : Memref sig .tc .vmem s e} {L : List (View.Piece (Elt F) s e)} {x : Vec F s e}
    (h : ∀ f, m.view.read (Elt F) (m.view.writes (Elt F) f L) = x) :
    (iprop(∃ f, m.view.loc (c : Thread nD τ) ↦[m.view.set]{fullShare} m.view.writes (Elt F) f L) : sProp 𝕄) ⊢ owns (c : Thread nD τ) m fullShare x := by
  iintro ⟨%f, H⟩; unfold owns; iexists _; isplitr
  · ipureintro; exact h f
  iexact H

/-- A whole memref owned at `x` is its buffer at the raw contents that read `x`. -/
theorem owns_eq_unread (c : Dev nD) {s : Shape} {e : EltTy} {m : Memref sig .tc .vmem s e} (h : m.IsWhole) (x : Vec F s e) :
    owns (c : Thread nD τ) m fullShare x = (m.view.loc (c : Thread nD τ) ↦[m.view.set]{fullShare} h.unread x : sProp 𝕄) := by
  have h1 : owns (c : Thread nD τ) m fullShare x ⊢ (m.view.loc (c : Thread nD τ) ↦[m.view.set]{fullShare} h.unread x : sProp 𝕄) := by
    unfold owns; iintro ⟨%f, %hf, H⟩; obtain rfl := h.eq_unread hf; iexact H
  have h2 : (m.view.loc (c : Thread nD τ) ↦[m.view.set]{fullShare} h.unread x : sProp 𝕄) ⊢ owns (c : Thread nD τ) m fullShare x := by
    unfold owns; iintro H; iexists _; isplitr; · ipureintro; exact h.read_unread x
    iexact H
  exact Entails.antisymm h1 h2
end Cert.Kernel.Hand

end
-- ==== Proof.K.R1Runs.lean ====
import proofs.«427802_j60163901882525_3_alg».proof.Proof.K.Owns
import proofs.«427802_j60163901882525_3_alg».proof.Proof.Gen.Kernel.Launch
import proofs.«427802_j60163901882525_3_alg».proof.Proof.Gen.Kernel.Skeleton
import proofs.«427802_j60163901882525_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two tests in closed form: the contraction coordinate is 0; it is the last one. -/
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-- The contraction step of point t is t mod 4: the first test holds at step 0, the second at step 3. -/
theorem hcond1 : ∀ t : Fin cfg1.N, (cond1_0 (grid1.coords t) ↔ t.val % 4 = 0) ∧ (cond1_1 (grid1.coords t) ↔ t.val % 4 = 3) := by decide +kernel

theorem liveAt1 : ∀ (w : Fin cfg1.W) (t : Fin cfg1.N), w ≠ 4 ∨ cond1_1 (grid1.coords t) → cfg1.idle w (grid1.coords t) = false := by decide +kernel
theorem idleAt1_4 : ∀ t : Fin cfg1.N, ¬cond1_1 (grid1.coords t) → cfg1.idle 4 (grid1.coords t) = true ∧ (cfg1.win 4).flush t = false := by decide +kernel

abbrev ms1_0 (t : Fin cfg1.N) : Memref sig .tc .vmem S1280x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1280x256 .bf16 := win1_4.stage (cfg1.slots t 4)
abbrev hs1_4 (t : Fin cfg1.N) : (ms1_4 t).IsWhole := hstage1_4 ((cfg1.slots t 4).cast nbuf1_4)

abbrev scM1_0 : Memref sig .tc .vmem S1280x256 .f32 := Memref.whole cc1_scratch0

/-- The region's invariant with the accumulator's assertion singled out. -/
abbrev Inv1 (c : Dev nD) (S : sProp 𝕄) : sProp 𝕄 :=
  iprop(iprop(S ∗ Pipeline.scopedRestBut (Ix := Unit) (Name := ℕ) (U := UR sig nD τ) (Lvl := ℕ) (Val := Elt F) spec1 c [cc1_scratch0]) ∗ (∃ r, prngReg c r))

theorem PhiA1_eq (c : Dev nD) :
    (Pipeline.ΦA spec1 c : sProp 𝕄)
      = Inv1 c iprop((∃ d, owns (c : Thread nD τ) scM1_0 fullShare d)) := by
  unfold Pipeline.ΦA; rw [scopedRest1_split]; simp only [scM1_0, owns_whole]; try rfl

variable (V : (c : Dev nD) → (b : Ref sig .tc) → Buf (Elt F) ((c : Thread nD τ).loc b))

/-- Window w's block at point t, read off its array's contents at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.Kernel.Hand

end
-- ==== Proof.K.R1Body.lean ====
import proofs.«427802_j60163901882525_3_alg».proof.Proof.K.R1Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

/-- The rows of the resident operand that a point's contraction step reads. -/
abbrev slice1 (i : grid1.Coords) : Rect S10240x256 := Rect.unit (s := S10240x256) (k1_off1 i) S2560x256.size (k1_off1_inb i)

/-- The output block's shape. -/
abbrev SO1 : Shape :=
  S1280x256

variable (c : Dev nD) {i : grid1.Coords} {arg2 : Memref sig .tc .vmem S1280x2560 .bf16} {harg2 : arg2.IsWhole}
  {arg3 : Memref sig .tc .vmem S10240x256 .bf16} {harg3 : arg3.IsWhole} {arg4 : Memref sig .tc .vmem S1x256 .f32} {harg4 : arg4.IsWhole}
  {arg5 : Memref sig .tc .vmem S256x256 .bf16} {harg5 : arg5.IsWhole} {arg6 : Memref sig .tc .vmem S1280x256 .bf16} {harg6 : arg6.IsWhole}
  {arg7 : Memref sig .tc .vmem S1280x256 .f32} {harg7 : arg7.IsWhole}
  (xa : Vec F S1280x2560 .bf16) (xb : Vec F S10240x256 .bf16) (xc : Vec F S1x256 .f32) (xd : Vec F S256x256 .bf16) (xs0 : Vec F S1280x256 .f32)

set_option maxHeartbeats 4000000 in
/-- The body at a first contraction step, framed by `R` (the output buffer is not touched); the witness is the pieces it writes to the
    accumulator, which enters at anything. -/
noncomputable def kernelRun1_A (hcF : cond1_0 i) (hcL : ¬cond1_1 i) :
    { LS0 : List (View.Piece (Elt F) S1280x256 .f32) // ∀ (R : sProp 𝕄) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ R ∗ (∃ d, owns (c : Thread nD τ) arg7 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ R ∗ (∃ f, arg7.view.loc (c : Thread nD τ) ↦[arg7.view.set]{fullShare} arg7.view.writes (Elt F) f LS0)) -∗ K ⟨⟩))
          ⊢ wp frame (wpE (defs₀ (F := F)) Variants.none c none) Set.univ (cc1__agg_fused_kernel i arg2 harg2 arg3 harg3 arg4 harg4 arg5 harg5 arg6 harg6 arg7 harg7) K } := by
  refine ⟨?_, fun R K => ?run⟩
  case run =>
    rw [owns_eq_unread c harg2, owns_eq_unread c harg3, owns_eq_unread c harg4, owns_eq_unread c harg5]
    simp only [cc1__agg_fused_kernel_eq_skeleton]; unfold cc1__agg_fused_kernel_skel; unfold owns
    iintro ⟨Ha, Hb, Hc, Hd, HR, ⟨%ds0, %fs0, -, HS0⟩, Hk⟩
    sl_exec (disch := first | exact hcF | exact hcL)
    sl_step
    iapply Hk
    iframe Ha Hb Hc Hd HR
    iexists _; iexact HS0

/-- Its stores tile the accumulator, which is left at the block product added to zero. -/
theorem sacc1_A (hcF : cond1_0 i) (hcL : ¬cond1_1 i) (f : arg7.view.ty.Contents (Elt F)) :
    arg7.view.read (Elt F) (arg7.view.writes (Elt F) f (kernelRun1_A c (harg2 := harg2) (harg3 := harg3) (harg4 := harg4) (harg5 := harg5) (harg6 := harg6) (harg7 := harg7) xa xb xc xd hcF hcL).1)
      = k1_pay2 (View.ld xb (slice1 i)) (k1_pay1 (F := F)) xa := by
  refine (View.read_writes_eq_canon _ _ _ (View.cover_of_tiledL _ S1280x256.size ?_)).trans ?_
  · sl_kernel_rfl
  unfold kernelRun1_A
  dsimp only
  sl_unfold_words
  rw [View.canon_cons_unit_zero (S := S1280x256) hz1, View.readCov_unit_zero (S := S1280x256) _ hz1]
  (simp only [View.readAt_eq_ld, harg2.read_unread, harg3.read_unread, View.ld_unit_zero (S := S1280x2560) hz1]) <;> rfl

set_option maxHeartbeats 4000000 in
/-- The body at a middle contraction step: the accumulator enters at `xs0`. -/
noncomputable def kernelRun1_B (hcF : ¬cond1_0 i) (hcL : ¬cond1_1 i) :
    { LS0 : List (View.Piece (Elt F) S1280x256 .f32) // ∀ (R : sProp 𝕄) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ R ∗ owns (c : Thread nD τ) arg7 fullShare xs0
            ∗ (iprop(owns (c : Thread nD τ) arg2 fullShare xa ∗ owns (c : Thread nD τ) arg3 fullShare xb ∗ owns (c : Thread nD τ) arg4 fullShare xc ∗ owns (c : Thread nD τ) arg5 fullShare xd ∗ R ∗ (∃ f, arg7.view.loc (c : Thread nD τ) ↦[arg7.view.set]{fullShare} arg7.view.writes (Elt F) f LS0)) -∗ K ⟨⟩))
          ⊢ wp frame (wpE (defs₀ (F := F)) Variants.none c none) Set.univ (cc1__agg_fused_kernel i arg2 harg2 arg3 harg3 arg4 harg4 arg5 harg5 arg6 harg6 arg7 harg7) K } := by
  refine ⟨?_, fun R K => ?run⟩
  case run =>
    rw [owns_eq_unread c harg2, owns_eq_unread c harg3, owns_eq_unread c harg4, owns_eq_unread c harg5, owns_eq_unread c harg7]
    simp only [cc1__agg_fused_kernel_eq_skeleton]; unfold cc1__agg_fused_kernel_skel
    iintro ⟨Ha, Hb, Hc, Hd, HR, HS0, Hk⟩
    sl_exec (disch := first | exact hcF | exact hcL)
    sl_step
    iapply Hk
    iframe Ha Hb Hc Hd HR
    iexists _; iexact HS0

/-- Its store covers the accumulator, left at the block product added to what it held. -/
theorem sacc1_B (hcF : ¬cond1_0 i) (hcL : ¬cond1_1 i) (f : arg7.view.ty.Contents (Elt F)) :
    arg7.view.read (Elt F) (arg7.view.writes (Elt F) f (kernelRun1_B c (harg2 := harg2) (harg3 := harg3) (harg4 := harg4) (harg5 := harg5) (harg6 := harg6) (harg7 := harg7) xa xb xc xd xs0 hcF hcL).1)
      = k1_pay2 (View.ld xb (slice1 i)) xs0 xa := by
  refine (View.read_writes_eq_canon _ _ _ (View.cover_of_tiledL _ S1280x256.size ?_)).trans ?_
  · sl_kernel_rfl
  unfold kernelRun1_B
  dsimp only
  sl_unfold_words
  rw [View.canon_unit_zero (S := S1280x256) hz1]
  (simp only [View.readAt_eq_ld, harg2.read_unread, harg3.read_unread, harg7.read_unread, View.ld_unit_zero (S := S1280x2560) hz1, View.ld_unit_zero (S := S1280x256) hz1]) <;> rfl

set_option maxHeartbeats 4000000 in
/-- The body at a last contraction step; the output buffer enters at any member of a family `g`, and the witnesses are the pieces
    written to it and to the accumulator. -/
noncomputable def kernelRun1_C (hcF : ¬cond1_0 i) (hcL : cond1_1 i) :
    Σ' (L4 : List (View.Piece (Elt F) S1280x256 .bf16)), { LS0 : List (View.Piece (Elt F) S1280x256 .f32) //
      ∀ {D : Type} (g : D → Vec F S1280x256 .bf16) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ (∃ d, owns (c : Thread nD τ) arg6 fullShare (g d)) ∗ owns (c : Thread nD τ) arg7 fullShare xs0
            ∗ (iprop(owns (c : Thread nD τ) arg2 fullShare xa ∗ owns (c : Thread nD τ) arg3 fullShare xb ∗ owns (c : Thread nD τ) arg4 fullShare xc ∗ owns (c : Thread nD τ) arg5 fullShare xd ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) Set.univ (cc1__agg_fused_kernel i arg2 harg2 arg3 harg3 arg4 harg4 arg5 harg5 arg6 harg6 arg7 harg7) K } := by
  refine ⟨?_, ?_, fun g K => ?run⟩
  case run =>
    rw [owns_eq_unread c harg2, owns_eq_unread c harg3, owns_eq_unread c harg4, owns_eq_unread c harg5, owns_eq_unread c harg7]
    simp only [cc1__agg_fused_kernel_eq_skeleton]; unfold cc1__agg_fused_kernel_skel; unfold owns
    iintro ⟨Ha, Hb, Hc, Hd, ⟨%de, %fe, -, He⟩, HS0, Hk⟩
    sl_exec (disch := first | exact hcF | exact hcL)
    sl_step
    iapply Hk
    iframe Ha Hb Hc Hd
    isplitl [He]; · iexists _; iexact He
    iexists _; iexact HS0

/-- Each of its two stores covers its buffer: the accumulator as at a middle step, the output block the epilogue of the finished
    accumulator, the bias and the next weights. -/
theorem sres1_C (hcF : ¬cond1_0 i) (hcL : cond1_1 i) :
    (∀ f, arg7.view.read (Elt F) (arg7.view.writes (Elt F) f (kernelRun1_C c (harg2 := harg2) (harg3 := harg3) (harg4 := harg4) (harg5 := harg5) (harg6 := harg6) (harg7 := harg7) xa xb xc xd xs0 hcF hcL).2.1) = k1_pay2 (View.ld xb (slice1 i)) xs0 xa)
      ∧ ∀ f, arg6.view.read (Elt F) (arg6.view.writes (Elt F) f (kernelRun1_C c (harg2 := harg2) (harg3 := harg3) (harg4 := harg4) (harg5 := harg5) (harg6 := harg6) (harg7 := harg7) xa xb xc xd xs0 hcF hcL).1)
          = k1_pay3 i (k1_pay2 (View.ld xb (slice1 i)) xs0 xa) xc xd := by
  constructor <;> intro f
  · refine (View.read_writes_eq_canon _ _ _ (View.cover_of_tiledL _ S1280x256.size (by sl_kernel_rfl))).trans ?_
    unfold kernelRun1_C
    dsimp only
    sl_unfold_words
    rw [View.canon_unit_zero (S := S1280x256) hz1]
    (simp only [View.readCov_unit_zero (S := S1280x256) _ hz1, View.readAt_eq_ld, harg2.read_unread, harg3.read_unread, harg4.read_unread, harg5.read_unread, harg7.read_unread,
      View.ld_unit_zero (S := S1280x2560) hz1, View.ld_unit_zero (S := S1280x256) hz1, View.ld_unit_zero (S := S1x256) hz1, View.ld_unit_zero (S := S256x256) hz1]) <;> rfl
  · refine (View.read_writes_eq_canon _ _ _ (View.cover_of_tiledL _ SO1.size (by sl_kernel_rfl))).trans ?_
    unfold kernelRun1_C
    dsimp only
    sl_unfold_words
    rw [View.canon_unit_zero (S := SO1) hz1]
    (simp only [View.readCov_unit_zero (S := S1280x256) _ hz1, View.readAt_eq_ld, harg2.read_unread, harg3.read_unread, harg4.read_unread, harg5.read_unread, harg7.read_unread,
      View.ld_unit_zero (S := S1280x2560) hz1, View.ld_unit_zero (S := S1280x256) hz1, View.ld_unit_zero (S := S1x256) hz1, View.ld_unit_zero (S := S256x256) hz1]) <;> rfl

end Cert.Kernel.Hand

end
-- ==== Proof.K.R1.lean ====
import proofs.«427802_j60163901882525_3_alg».proof.Proof.K.R1Runs
import proofs.«427802_j60163901882525_3_alg».proof.Proof.K.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ablk1 (c : Dev nD) (t : Fin cfg1.N) : Vec F S1280x2560 .bf16 := iblk1 V c 0 t
abbrev bblk1 (c : Dev nD) (t : Fin cfg1.N) : Vec F S1x256 .f32 := iblk1 V c 2 t
abbrev wblk1 (c : Dev nD) (t : Fin cfg1.N) : Vec F S256x256 .bf16 := iblk1 V c 3 t

/-- The rows of the resident operand that point t's contraction step multiplies. -/
abbrev xwblk1 (c : Dev nD) (t : Fin cfg1.N) : Vec F S10240x256 .bf16 := iblk1 V c 1 t

def xwSlice1 (c : Dev nD) (t : Fin cfg1.N) : Vec F S2560x256 .bf16 := View.ld (xwblk1 V c t) (slice1 (grid1.coords t))

/-- The accumulator after point n: reset to the point's block product at a first contraction step, otherwise that product added to what the point before left. -/
def acc1 (c : Dev nD) : (n : ℕ) → n < cfg1.N → Vec F S1280x256 .f32
  | 0, hn => k1_pay2 (xwSlice1 V c ⟨0, hn⟩) (k1_pay1 (F := F)) (ablk1 V c ⟨0, hn⟩)
  | n + 1, hn =>
    if (n + 1) % 4 = 0 then k1_pay2 (xwSlice1 V c ⟨n + 1, hn⟩) (k1_pay1 (F := F)) (ablk1 V c ⟨n + 1, hn⟩)
    else k1_pay2 (xwSlice1 V c ⟨n + 1, hn⟩) (acc1 c n (Nat.lt_of_succ_lt hn)) (ablk1 V c ⟨n + 1, hn⟩)

theorem acc1_first (c : Dev nD) (t : Fin cfg1.N) (h : t.val % 4 = 0) :
    acc1 V c t.val t.isLt = k1_pay2 (xwSlice1 V c t) (k1_pay1 (F := F)) (iblk1 V c 0 t) := by
  obtain ⟨n, hn⟩ := t
  cases n with
  | zero => rfl
  | succ n => exact if_pos h

theorem acc1_next (c : Dev nD) (t : Fin cfg1.N) (h : ¬ t.val % 4 = 0) :
    acc1 V c t.val t.isLt = k1_pay2 (xwSlice1 V c t) (acc1 V c (t.val - 1) (Nat.lt_of_le_of_lt (Nat.sub_le _ _) t.isLt)) (iblk1 V c 0 t) := by
  obtain ⟨n, hn⟩ := t
  cases n with
  | zero => exact absurd (Nat.zero_mod 4) h
  | succ n => exact if_neg h

/-- Between points the accumulator is held at what the last point left; before the first point, at arbitrary contents. -/
def PhiS1 (c : Dev nD) : (n : ℕ) → n ≤ cfg1.N → sProp 𝕄
  | 0, _ => Pipeline.ΦA spec1 c
  | n + 1, hn => Inv1 c (owns (c : Thread nD τ) scM1_0 fullShare (acc1 V c n hn))

/-- The proof data: every input buffer is handed back at its block, the output buffer at the epilogue of the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (grid1.coords t) (acc1 V c t.val t.isLt) (bblk1 V c t) (wblk1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_out (c : Dev nD) (t : Fin cfg1.N) (h : t.val % 4 = 3) :
    (dat1 V c).after 4 t = k1_pay3 (grid1.coords t) (acc1 V c t.val t.isLt) (iblk1 V c 2 t) (iblk1 V c 3 t) := rfl

/-- Every input buffer holds its window's block, before the body and after it. -/
theorem in1 (c : Dev nD) (t : Fin cfg1.N) : ∀ w : Fin cfg1.W, w ≠ 4 →
    (∀ d, (dat1 V c).before w t d = (dat1 V c).after w t)
      ∧ (dat1 V c).leavesExact w t = owns (c : Thread nD τ) ((cfg1.win w).stage (cfg1.slots t w)) fullShare ((dat1 V c).after w t)
  | ⟨0, _⟩, hw | ⟨1, _⟩, hw | ⟨2, _⟩, hw | ⟨3, _⟩, hw =>
    ⟨fun d => ((dat1 V c).before_in_eq_fetched _ rfl (fun _ => rfl) (fun _ _ _ => rfl) (fun _ => rfl) t d).trans rfl,
      by unfold Dat.leavesExact; rw [liveAt1 _ t (.inl hw)] <;> rfl⟩
  | ⟨4, _⟩, h => absurd rfl h

/-- Before a point other than the first the accumulator is owned at what the point before left. -/
theorem Phi1_pos (c : Dev nD) : ∀ (t : Fin (cfg1.N + 1)) (hz : t.val ≠ 0),
    (dat1 V c).Φ t = Inv1 c (owns (c : Thread nD τ) scM1_0 fullShare (acc1 V c (t.val - 1) (by have := t.isLt; omega)))
  | ⟨0, _⟩, hz => absurd rfl hz
  | ⟨n + 1, _⟩, _ => rfl

/-- Every invariant entails the entry invariant: forget what the accumulator holds. -/
theorem Phi_out1 (c : Dev nD) : ∀ t : Fin (cfg1.N + 1), (dat1 V c).Φ t ⊢ Inv1 c iprop((∃ d, owns (c : Thread nD τ) scM1_0 fullShare d))
  | ⟨0, _⟩ => Entails.of_eq (PhiA1_eq c)
  | ⟨n + 1, h⟩ => by
    rw [Phi1_pos V c ⟨n + 1, h⟩ (Nat.succ_ne_zero n)]
    unfold Inv1
    iintro ⟨⟨HS0, Hr⟩, Hg⟩
    iframe Hr Hg
    iexists _; iexact HS0

theorem hin1 (c : Dev nD) : Pipeline.ΦA spec1 c ⊢ (dat1 V c).Φ 0 := Entails.of_eq rfl

theorem hout1 (c : Dev nD) : (dat1 V c).Φ (Fin.last cfg1.N) ⊢ Pipeline.ΦA spec1 c := by
  rw [PhiA1_eq]; exact Phi_out1 V c _

/-- The body at a point is the first layer's aggregation kernel on this region's buffers. -/
theorem bodyAt1_eq (t : Fin cfg1.N) : bodyAt1 (F := F) t = cc1__agg_fused_kernel (grid1.coords t) (ms1_0 t) (hs1_0 t) (ms1_1 t) (hs1_1 t) (ms1_2 t) (hs1_2 t) (ms1_3 t) (hs1_3 t) (ms1_4 t) (hs1_4 t) scM1_0 (Memref.isWhole_whole _) := rfl

/-- A body run on the five buffers and the accumulator yields the obligation at t: the rest of the invariant is framed. -/
theorem frame1 (c : Dev nD) (t : Fin cfg1.N) {S Q4 SQ : sProp 𝕄}
    (hΦ : (dat1 V c).Φ t.castSucc ⊢ Inv1 c S)
    (hS : SQ ⊢ owns (c : Thread nD τ) scM1_0 fullShare (acc1 V c t.val t.isLt))
    (h4 : Q4 ⊢ (dat1 V c).leavesExact 4 t)
    (run : ∀ K : PUnit → sProp 𝕄,
      iprop(owns (c : Thread nD τ) (ms1_0 t) fullShare ((dat1 V c).after 0 t) ∗ owns (c : Thread nD τ) (ms1_1 t) fullShare ((dat1 V c).after 1 t) ∗ owns (c : Thread nD τ) (ms1_2 t) fullShare ((dat1 V c).after 2 t) ∗ owns (c : Thread nD τ) (ms1_3 t) fullShare ((dat1 V c).after 3 t)
          ∗ (∃ d, owns (c : Thread nD τ) (ms1_4 t) fullShare ((dat1 V c).before 4 t d)) ∗ S
          ∗ (iprop(owns (c : Thread nD τ) (ms1_0 t) fullShare ((dat1 V c).after 0 t) ∗ owns (c : Thread nD τ) (ms1_1 t) fullShare ((dat1 V c).after 1 t) ∗ owns (c : Thread nD τ) (ms1_2 t) fullShare ((dat1 V c).after 2 t) ∗ owns (c : Thread nD τ) (ms1_3 t) fullShare ((dat1 V c).after 3 t) ∗ Q4 ∗ SQ) -∗ K ⟨⟩))
        ⊢ wp frame (wpE (defs₀ (F := F)) Variants.none c none) Set.univ (cc1__agg_fused_kernel (grid1.coords t) (ms1_0 t) (hs1_0 t) (ms1_1 t) (hs1_1 t) (ms1_2 t) (hs1_2 t) (ms1_3 t) (hs1_3 t) (ms1_4 t) (hs1_4 t) scM1_0 (Memref.isWhole_whole _)) K) :
    iprop((dat1 V c).Φ t.castSucc ∗ (dat1 V c).owesAt () t.castSucc
        ∗ (∃ d, owns (c : Thread nD τ) (ms1_0 t) fullShare ((dat1 V c).before 0 t d)) ∗ (∃ d, owns (c : Thread nD τ) (ms1_1 t) fullShare ((dat1 V c).before 1 t d))
        ∗ (∃ d, owns (c : Thread nD τ) (ms1_2 t) fullShare ((dat1 V c).before 2 t d)) ∗ (∃ d, owns (c : Thread nD τ) (ms1_3 t) fullShare ((dat1 V c).before 3 t d))
        ∗ (∃ d, owns (c : Thread nD τ) (ms1_4 t) fullShare ((dat1 V c).before 4 t d)))
      ⊢ wp frame (wpE (defs₀ (F := F)) Variants.none c none) Set.univ (bodyAt1 t) fun _ => iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t ∗ (dat1 V c).leavesExact 4 t) := by
  simp only [(in1 V c t 0 (by decide)).1, (in1 V c t 1 (by decide)).1, (in1 V c t 2 (by decide)).1, (in1 V c t 3 (by decide)).1]
  rw [bodyAt1_eq, (in1 V c t 0 (by decide)).2, (in1 V c t 1 (by decide)).2, (in1 V c t 2 (by decide)).2, (in1 V c t 3 (by decide)).2,
    show (dat1 V c).owesAt () t.succ = (dat1 V c).owesAt () t.castSucc from rfl,
    show (dat1 V c).Φ t.succ = Inv1 c (owns (c : Thread nD τ) scM1_0 fullShare (acc1 V c t.val t.isLt)) from rfl]
  unfold Inv1
  iintro ⟨HΦ, Ho, ⟨%d0, H0⟩, ⟨%d1, H1⟩, ⟨%d2, H2⟩, ⟨%d3, H3⟩, H4⟩
  ihave HΦ' := hΦ $$ HΦ
  icases HΦ' with ⟨⟨HS, Hr⟩, Hg⟩
  iapply (run _)
  iframe H0 H1 H2 H3 H4 HS
  iintro ⟨H0, H1, H2, H3, H4, HS⟩
  ihave HS := hS $$ HS
  ihave H4 := h4 $$ H4
  iframe

set_option maxHeartbeats 1000000 in
/-- The body obligation: the point's contraction step says which of the three runs the body is. -/
theorem body_obligation1 (c : Dev nD) : BodyObligation (dat1 (F := F) V c) (defs₀ (F := F)) Variants.none () Set.univ := fun t => by
  rw [bigSep_W1, bigSep_W1]
  have hidle : ∀ hcL : ¬cond1_1 (grid1.coords t), (iprop(∃ d, owns (c : Thread nD τ) (ms1_4 t) fullShare ((dat1 V c).before 4 t d)) : sProp 𝕄) ⊢ (dat1 V c).leavesExact 4 t :=
    fun hcL => Entails.of_eq (Dat.leavesExact_idle (dat1 V c) 4 t (idleAt1_4 t hcL).1 (idleAt1_4 t hcL).2).symm
  by_cases h0 : t.val % 4 = 0
  · have hcF := (hcond1 t).1.mpr h0
    have hcL : ¬cond1_1 (grid1.coords t) := fun h => by have := (hcond1 t).2.mp h; omega
    exact frame1 V c t (Phi_out1 V c _) (owns_of_writes c fun f => (sacc1_A c _ _ _ _ hcF hcL f).trans (acc1_first V c t h0).symm) (hidle hcL)
      fun K => (kernelRun1_A c _ _ _ _ hcF hcL).2 _ K
  · have hcF : ¬cond1_0 (grid1.coords t) := fun h => h0 ((hcond1 t).1.mp h)
    have hΦ := Entails.of_eq (Phi1_pos V c t.castSucc fun e => h0 (by rw [show t.val = 0 from e]))
    by_cases h3 : t.val % 4 = 3
    · have hcL := (hcond1 t).2.mpr h3
      refine frame1 V c t hΦ (owns_of_writes c fun f => ((sres1_C c _ _ _ _ _ hcF hcL).1 f).trans (acc1_next V c t h0).symm) ?_
        fun K => (kernelRun1_C c _ _ _ _ _ hcF hcL).2.2 _ K
      rw [show (dat1 V c).leavesExact 4 t = owns (c : Thread nD τ) (ms1_4 t) fullShare ((dat1 V c).after 4 t) from by
        unfold Dat.leavesExact; rw [liveAt1 4 t (.inr hcL)]]
      exact owns_of_writes c fun f => ((sres1_C c _ _ _ _ _ hcF hcL).2 f).trans (by rw [after1_out V c t h3, acc1_next V c t h0] <;> rfl)
    · have hcL : ¬cond1_1 (grid1.coords t) := fun h => h3 ((hcond1 t).2.mp h)
      exact frame1 V c t hΦ (owns_of_writes c fun f => (sacc1_B c _ _ _ _ _ hcF hcL f).trans (acc1_next V c t h0).symm) (hidle hcL)
        fun K => (kernelRun1_B c _ _ _ _ (acc1 V c (t.val - 1) _) hcF hcL).2 _ K

end Cert.Kernel.Hand

end
-- ==== Proof.K.R2Runs.lean ====
import proofs.«427802_j60163901882525_3_alg».proof.Proof.K.Owns
import proofs.«427802_j60163901882525_3_alg».proof.Proof.Gen.Kernel.Launch
import proofs.«427802_j60163901882525_3_alg».proof.Proof.Gen.Kernel.Skeleton
import proofs.«427802_j60163901882525_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two tests in closed form: the contraction coordinate is 0; it is the last one. -/
abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

/-- The contraction step of point t is t mod 4: the first test holds at step 0, the second at step 3. -/
theorem hcond2 : ∀ t : Fin cfg2.N, (cond2_0 (grid2.coords t) ↔ t.val % 4 = 0) ∧ (cond2_1 (grid2.coords t) ↔ t.val % 4 = 3) := by decide +kernel

theorem liveAt2 : ∀ (w : Fin cfg2.W) (t : Fin cfg2.N), w ≠ 4 ∨ cond2_1 (grid2.coords t) → cfg2.idle w (grid2.coords t) = false := by decide +kernel
theorem idleAt2_4 : ∀ t : Fin cfg2.N, ¬cond2_1 (grid2.coords t) → cfg2.idle 4 (grid2.coords t) = true ∧ (cfg2.win 4).flush t = false := by decide +kernel

abbrev ms2_0 (t : Fin cfg2.N) : Memref sig .tc .vmem S1280x2560 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10240x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1280x256 .bf16 := win2_4.stage (cfg2.slots t 4)
abbrev hs2_4 (t : Fin cfg2.N) : (ms2_4 t).IsWhole := hstage2_4 ((cfg2.slots t 4).cast nbuf2_4)

abbrev scM2_0 : Memref sig .tc .vmem S1280x256 .f32 := Memref.whole cc2_scratch0

/-- The region's invariant with the accumulator's assertion singled out. -/
abbrev Inv2 (c : Dev nD) (S : sProp 𝕄) : sProp 𝕄 :=
  iprop(iprop(S ∗ Pipeline.scopedRestBut (Ix := Unit) (Name := ℕ) (U := UR sig nD τ) (Lvl := ℕ) (Val := Elt F) spec2 c [cc2_scratch0]) ∗ (∃ r, prngReg c r))

theorem PhiA2_eq (c : Dev nD) :
    (Pipeline.ΦA spec2 c : sProp 𝕄)
      = Inv2 c iprop((∃ d, owns (c : Thread nD τ) scM2_0 fullShare d)) := by
  unfold Pipeline.ΦA; rw [scopedRest2_split]; simp only [scM2_0, owns_whole]; try rfl

variable (V : (c : Dev nD) → (b : Ref sig .tc) → Buf (Elt F) ((c : Thread nD τ).loc b))

/-- Window w's block at point t, read off its array's contents at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Cert.Kernel.Hand

end
-- ==== Proof.K.R2.lean ====
import proofs.«427802_j60163901882525_3_alg».proof.Proof.K.R2Runs
import proofs.«427802_j60163901882525_3_alg».proof.Proof.K.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ablk2 (c : Dev nD) (t : Fin cfg2.N) : Vec F S1280x2560 .bf16 := iblk2 V c 0 t
abbrev bblk2 (c : Dev nD) (t : Fin cfg2.N) : Vec F S1x256 .f32 := iblk2 V c 2 t
abbrev wblk2 (c : Dev nD) (t : Fin cfg2.N) : Vec F S256x256 .bf16 := iblk2 V c 3 t

/-- The rows of the resident operand that point t's contraction step multiplies. -/
abbrev xwblk2 (c : Dev nD) (t : Fin cfg2.N) : Vec F S10240x256 .bf16 := iblk2 V c 1 t

def xwSlice2 (c : Dev nD) (t : Fin cfg2.N) : Vec F S2560x256 .bf16 := View.ld (xwblk2 V c t) (slice1 (grid2.coords t))

/-- The accumulator after point n: reset to the point's block product at a first contraction step, otherwise that product added to what the point before left. -/
def acc2 (c : Dev nD) : (n : ℕ) → n < cfg2.N → Vec F S1280x256 .f32
  | 0, hn => k1_pay2 (xwSlice2 V c ⟨0, hn⟩) (k1_pay1 (F := F)) (ablk2 V c ⟨0, hn⟩)
  | n + 1, hn =>
    if (n + 1) % 4 = 0 then k1_pay2 (xwSlice2 V c ⟨n + 1, hn⟩) (k1_pay1 (F := F)) (ablk2 V c ⟨n + 1, hn⟩)
    else k1_pay2 (xwSlice2 V c ⟨n + 1, hn⟩) (acc2 c n (Nat.lt_of_succ_lt hn)) (ablk2 V c ⟨n + 1, hn⟩)

theorem acc2_first (c : Dev nD) (t : Fin cfg2.N) (h : t.val % 4 = 0) :
    acc2 V c t.val t.isLt = k1_pay2 (xwSlice2 V c t) (k1_pay1 (F := F)) (iblk2 V c 0 t) := by
  obtain ⟨n, hn⟩ := t
  cases n with
  | zero => rfl
  | succ n => exact if_pos h

theorem acc2_next (c : Dev nD) (t : Fin cfg2.N) (h : ¬ t.val % 4 = 0) :
    acc2 V c t.val t.isLt = k1_pay2 (xwSlice2 V c t) (acc2 V c (t.val - 1) (Nat.lt_of_le_of_lt (Nat.sub_le _ _) t.isLt)) (iblk2 V c 0 t) := by
  obtain ⟨n, hn⟩ := t
  cases n with
  | zero => exact absurd (Nat.zero_mod 4) h
  | succ n => exact if_neg h

/-- Between points the accumulator is held at what the last point left; before the first point, at arbitrary contents. -/
def PhiS2 (c : Dev nD) : (n : ℕ) → n ≤ cfg2.N → sProp 𝕄
  | 0, _ => Pipeline.ΦA spec2 c
  | n + 1, hn => Inv2 c (owns (c : Thread nD τ) scM2_0 fullShare (acc2 V c n hn))

/-- The proof data: every input buffer is handed back at its block, the output buffer at the epilogue of the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k1_pay3 (grid2.coords t) (acc2 V c t.val t.isLt) (bblk2 V c t) (wblk2 V c t)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_out (c : Dev nD) (t : Fin cfg2.N) (h : t.val % 4 = 3) :
    (dat2 V c).after 4 t = k1_pay3 (grid2.coords t) (acc2 V c t.val t.isLt) (iblk2 V c 2 t) (iblk2 V c 3 t) := rfl

/-- Every input buffer holds its window's block, before the body and after it. -/
theorem in2 (c : Dev nD) (t : Fin cfg2.N) : ∀ w : Fin cfg2.W, w ≠ 4 →
    (∀ d, (dat2 V c).before w t d = (dat2 V c).after w t)
      ∧ (dat2 V c).leavesExact w t = owns (c : Thread nD τ) ((cfg2.win w).stage (cfg2.slots t w)) fullShare ((dat2 V c).after w t)
  | ⟨0, _⟩, hw | ⟨1, _⟩, hw | ⟨2, _⟩, hw | ⟨3, _⟩, hw =>
    ⟨fun d => ((dat2 V c).before_in_eq_fetched _ rfl (fun _ => rfl) (fun _ _ _ => rfl) (fun _ => rfl) t d).trans rfl,
      by unfold Dat.leavesExact; rw [liveAt2 _ t (.inl hw)] <;> rfl⟩
  | ⟨4, _⟩, h => absurd rfl h

/-- Before a point other than the first the accumulator is owned at what the point before left. -/
theorem Phi2_pos (c : Dev nD) : ∀ (t : Fin (cfg2.N + 1)) (hz : t.val ≠ 0),
    (dat2 V c).Φ t = Inv2 c (owns (c : Thread nD τ) scM2_0 fullShare (acc2 V c (t.val - 1) (by have := t.isLt; omega)))
  | ⟨0, _⟩, hz => absurd rfl hz
  | ⟨n + 1, _⟩, _ => rfl

/-- Every invariant entails the entry invariant: forget what the accumulator holds. -/
theorem Phi_out2 (c : Dev nD) : ∀ t : Fin (cfg2.N + 1), (dat2 V c).Φ t ⊢ Inv2 c iprop((∃ d, owns (c : Thread nD τ) scM2_0 fullShare d))
  | ⟨0, _⟩ => Entails.of_eq (PhiA2_eq c)
  | ⟨n + 1, h⟩ => by
    rw [Phi2_pos V c ⟨n + 1, h⟩ (Nat.succ_ne_zero n)]
    unfold Inv2
    iintro ⟨⟨HS0, Hr⟩, Hg⟩
    iframe Hr Hg
    iexists _; iexact HS0

theorem hin2 (c : Dev nD) : Pipeline.ΦA spec2 c ⊢ (dat2 V c).Φ 0 := Entails.of_eq rfl

theorem hout2 (c : Dev nD) : (dat2 V c).Φ (Fin.last cfg2.N) ⊢ Pipeline.ΦA spec2 c := by
  rw [PhiA2_eq]; exact Phi_out2 V c _

/-- The body at a point is the first layer's aggregation kernel on this region's buffers. -/
theorem bodyAt2_eq (t : Fin cfg2.N) : bodyAt2 (F := F) t = cc1__agg_fused_kernel (grid2.coords t) (ms2_0 t) (hs2_0 t) (ms2_1 t) (hs2_1 t) (ms2_2 t) (hs2_2 t) (ms2_3 t) (hs2_3 t) (ms2_4 t) (hs2_4 t) scM2_0 (Memref.isWhole_whole _) := rfl

/-- A body run on the five buffers and the accumulator yields the obligation at t: the rest of the invariant is framed. -/
theorem frame2 (c : Dev nD) (t : Fin cfg2.N) {S Q4 SQ : sProp 𝕄}
    (hΦ : (dat2 V c).Φ t.castSucc ⊢ Inv2 c S)
    (hS : SQ ⊢ owns (c : Thread nD τ) scM2_0 fullShare (acc2 V c t.val t.isLt))
    (h4 : Q4 ⊢ (dat2 V c).leavesExact 4 t)
    (run : ∀ K : PUnit → sProp 𝕄,
      iprop(owns (c : Thread nD τ) (ms2_0 t) fullShare ((dat2 V c).after 0 t) ∗ owns (c : Thread nD τ) (ms2_1 t) fullShare ((dat2 V c).after 1 t) ∗ owns (c : Thread nD τ) (ms2_2 t) fullShare ((dat2 V c).after 2 t) ∗ owns (c : Thread nD τ) (ms2_3 t) fullShare ((dat2 V c).after 3 t)
          ∗ (∃ d, owns (c : Thread nD τ) (ms2_4 t) fullShare ((dat2 V c).before 4 t d)) ∗ S
          ∗ (iprop(owns (c : Thread nD τ) (ms2_0 t) fullShare ((dat2 V c).after 0 t) ∗ owns (c : Thread nD τ) (ms2_1 t) fullShare ((dat2 V c).after 1 t) ∗ owns (c : Thread nD τ) (ms2_2 t) fullShare ((dat2 V c).after 2 t) ∗ owns (c : Thread nD τ) (ms2_3 t) fullShare ((dat2 V c).after 3 t) ∗ Q4 ∗ SQ) -∗ K ⟨⟩))
        ⊢ wp frame (wpE (defs₀ (F := F)) Variants.none c none) Set.univ (cc1__agg_fused_kernel (grid2.coords t) (ms2_0 t) (hs2_0 t) (ms2_1 t) (hs2_1 t) (ms2_2 t) (hs2_2 t) (ms2_3 t) (hs2_3 t) (ms2_4 t) (hs2_4 t) scM2_0 (Memref.isWhole_whole _)) K) :
    iprop((dat2 V c).Φ t.castSucc ∗ (dat2 V c).owesAt () t.castSucc
        ∗ (∃ d, owns (c : Thread nD τ) (ms2_0 t) fullShare ((dat2 V c).before 0 t d)) ∗ (∃ d, owns (c : Thread nD τ) (ms2_1 t) fullShare ((dat2 V c).before 1 t d))
        ∗ (∃ d, owns (c : Thread nD τ) (ms2_2 t) fullShare ((dat2 V c).before 2 t d)) ∗ (∃ d, owns (c : Thread nD τ) (ms2_3 t) fullShare ((dat2 V c).before 3 t d))
        ∗ (∃ d, owns (c : Thread nD τ) (ms2_4 t) fullShare ((dat2 V c).before 4 t d)))
      ⊢ wp frame (wpE (defs₀ (F := F)) Variants.none c none) Set.univ (bodyAt2 t) fun _ => iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t ∗ (dat2 V c).leavesExact 4 t) := by
  simp only [(in2 V c t 0 (by decide)).1, (in2 V c t 1 (by decide)).1, (in2 V c t 2 (by decide)).1, (in2 V c t 3 (by decide)).1]
  rw [bodyAt2_eq, (in2 V c t 0 (by decide)).2, (in2 V c t 1 (by decide)).2, (in2 V c t 2 (by decide)).2, (in2 V c t 3 (by decide)).2,
    show (dat2 V c).owesAt () t.succ = (dat2 V c).owesAt () t.castSucc from rfl,
    show (dat2 V c).Φ t.succ = Inv2 c (owns (c : Thread nD τ) scM2_0 fullShare (acc2 V c t.val t.isLt)) from rfl]
  unfold Inv2
  iintro ⟨HΦ, Ho, ⟨%d0, H0⟩, ⟨%d1, H1⟩, ⟨%d2, H2⟩, ⟨%d3, H3⟩, H4⟩
  ihave HΦ' := hΦ $$ HΦ
  icases HΦ' with ⟨⟨HS, Hr⟩, Hg⟩
  iapply (run _)
  iframe H0 H1 H2 H3 H4 HS
  iintro ⟨H0, H1, H2, H3, H4, HS⟩
  ihave HS := hS $$ HS
  ihave H4 := h4 $$ H4
  iframe

set_option maxHeartbeats 1000000 in
/-- The body obligation: the point's contraction step says which of the three runs the body is. -/
theorem body_obligation2 (c : Dev nD) : BodyObligation (dat2 (F := F) V c) (defs₀ (F := F)) Variants.none () Set.univ := fun t => by
  rw [bigSep_W2, bigSep_W2]
  have hidle : ∀ hcL : ¬cond2_1 (grid2.coords t), (iprop(∃ d, owns (c : Thread nD τ) (ms2_4 t) fullShare ((dat2 V c).before 4 t d)) : sProp 𝕄) ⊢ (dat2 V c).leavesExact 4 t :=
    fun hcL => Entails.of_eq (Dat.leavesExact_idle (dat2 V c) 4 t (idleAt2_4 t hcL).1 (idleAt2_4 t hcL).2).symm
  by_cases h0 : t.val % 4 = 0
  · have hcF := (hcond2 t).1.mpr h0
    have hcL : ¬cond2_1 (grid2.coords t) := fun h => by have := (hcond2 t).2.mp h; omega
    exact frame2 V c t (Phi_out2 V c _) (owns_of_writes c fun f => (sacc1_A c _ _ _ _ hcF hcL f).trans (acc2_first V c t h0).symm) (hidle hcL)
      fun K => (kernelRun1_A c _ _ _ _ hcF hcL).2 _ K
  · have hcF : ¬cond2_0 (grid2.coords t) := fun h => h0 ((hcond2 t).1.mp h)
    have hΦ := Entails.of_eq (Phi2_pos V c t.castSucc fun e => h0 (by rw [show t.val = 0 from e]))
    by_cases h3 : t.val % 4 = 3
    · have hcL := (hcond2 t).2.mpr h3
      refine frame2 V c t hΦ (owns_of_writes c fun f => ((sres1_C c _ _ _ _ _ hcF hcL).1 f).trans (acc2_next V c t h0).symm) ?_
        fun K => (kernelRun1_C c _ _ _ _ _ hcF hcL).2.2 _ K
      rw [show (dat2 V c).leavesExact 4 t = owns (c : Thread nD τ) (ms2_4 t) fullShare ((dat2 V c).after 4 t) from by
        unfold Dat.leavesExact; rw [liveAt2 4 t (.inr hcL)]]
      exact owns_of_writes c fun f => ((sres1_C c _ _ _ _ _ hcF hcL).2 f).trans (by rw [after2_out V c t h3, acc2_next V c t h0] <;> rfl)
    · have hcL : ¬cond2_1 (grid2.coords t) := fun h => h3 ((hcond2 t).2.mp h)
      exact frame2 V c t hΦ (owns_of_writes c fun f => (sacc1_B c _ _ _ _ _ hcF hcL f).trans (acc2_next V c t h0).symm) (hidle hcL)
        fun K => (kernelRun1_B c _ _ _ _ (acc2 V c (t.val - 1) _) hcF hcL).2 _ K

end Cert.Kernel.Hand

end
-- ==== Proof.K.R3Runs.lean ====
import proofs.«427802_j60163901882525_3_alg».proof.Proof.K.Owns
import proofs.«427802_j60163901882525_3_alg».proof.Proof.Gen.Kernel.Launch
import proofs.«427802_j60163901882525_3_alg».proof.Proof.Gen.Kernel.Skeleton
import proofs.«427802_j60163901882525_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two tests in closed form: the contraction coordinate is 0; it is the last one. -/
abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

/-- The contraction step of point t is t mod 4: the first test holds at step 0, the second at step 3. -/
theorem hcond3 : ∀ t : Fin cfg3.N, (cond3_0 (grid3.coords t) ↔ t.val % 4 = 0) ∧ (cond3_1 (grid3.coords t) ↔ t.val % 4 = 3) := by decide +kernel

theorem liveAt3 : ∀ (w : Fin cfg3.W) (t : Fin cfg3.N), w ≠ 4 ∨ cond3_1 (grid3.coords t) → cfg3.idle w (grid3.coords t) = false := by decide +kernel
theorem idleAt3_4 : ∀ t : Fin cfg3.N, ¬cond3_1 (grid3.coords t) → cfg3.idle 4 (grid3.coords t) = true ∧ (cfg3.win 4).flush t = false := by decide +kernel

abbrev ms3_0 (t : Fin cfg3.N) : Memref sig .tc .vmem S1280x2560 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10240x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x256 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1280x256 .bf16 := win3_4.stage (cfg3.slots t 4)
abbrev hs3_4 (t : Fin cfg3.N) : (ms3_4 t).IsWhole := hstage3_4 ((cfg3.slots t 4).cast nbuf3_4)

abbrev scM3_0 : Memref sig .tc .vmem S1280x256 .f32 := Memref.whole cc3_scratch0

/-- The region's invariant with the accumulator's assertion singled out. -/
abbrev Inv3 (c : Dev nD) (S : sProp 𝕄) : sProp 𝕄 :=
  iprop(iprop(S ∗ Pipeline.scopedRestBut (Ix := Unit) (Name := ℕ) (U := UR sig nD τ) (Lvl := ℕ) (Val := Elt F) spec3 c [cc3_scratch0]) ∗ (∃ r, prngReg c r))

theorem PhiA3_eq (c : Dev nD) :
    (Pipeline.ΦA spec3 c : sProp 𝕄)
      = Inv3 c iprop((∃ d, owns (c : Thread nD τ) scM3_0 fullShare d)) := by
  unfold Pipeline.ΦA; rw [scopedRest3_split]; simp only [scM3_0, owns_whole]; try rfl

variable (V : (c : Dev nD) → (b : Ref sig .tc) → Buf (Elt F) ((c : Thread nD τ).loc b))

/-- Window w's block at point t, read off its array's contents at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Cert.Kernel.Hand

end
-- ==== Proof.K.R3.lean ====
import proofs.«427802_j60163901882525_3_alg».proof.Proof.K.R3Runs
import proofs.«427802_j60163901882525_3_alg».proof.Proof.K.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ablk3 (c : Dev nD) (t : Fin cfg3.N) : Vec F S1280x2560 .bf16 := iblk3 V c 0 t
abbrev bblk3 (c : Dev nD) (t : Fin cfg3.N) : Vec F S1x256 .f32 := iblk3 V c 2 t
abbrev wblk3 (c : Dev nD) (t : Fin cfg3.N) : Vec F S256x256 .bf16 := iblk3 V c 3 t

/-- The rows of the resident operand that point t's contraction step multiplies. -/
abbrev xwblk3 (c : Dev nD) (t : Fin cfg3.N) : Vec F S10240x256 .bf16 := iblk3 V c 1 t

def xwSlice3 (c : Dev nD) (t : Fin cfg3.N) : Vec F S2560x256 .bf16 := View.ld (xwblk3 V c t) (slice1 (grid3.coords t))

/-- The accumulator after point n: reset to the point's block product at a first contraction step, otherwise that product added to what the point before left. -/
def acc3 (c : Dev nD) : (n : ℕ) → n < cfg3.N → Vec F S1280x256 .f32
  | 0, hn => k1_pay2 (xwSlice3 V c ⟨0, hn⟩) (k1_pay1 (F := F)) (ablk3 V c ⟨0, hn⟩)
  | n + 1, hn =>
    if (n + 1) % 4 = 0 then k1_pay2 (xwSlice3 V c ⟨n + 1, hn⟩) (k1_pay1 (F := F)) (ablk3 V c ⟨n + 1, hn⟩)
    else k1_pay2 (xwSlice3 V c ⟨n + 1, hn⟩) (acc3 c n (Nat.lt_of_succ_lt hn)) (ablk3 V c ⟨n + 1, hn⟩)

theorem acc3_first (c : Dev nD) (t : Fin cfg3.N) (h : t.val % 4 = 0) :
    acc3 V c t.val t.isLt = k1_pay2 (xwSlice3 V c t) (k1_pay1 (F := F)) (iblk3 V c 0 t) := by
  obtain ⟨n, hn⟩ := t
  cases n with
  | zero => rfl
  | succ n => exact if_pos h

theorem acc3_next (c : Dev nD) (t : Fin cfg3.N) (h : ¬ t.val % 4 = 0) :
    acc3 V c t.val t.isLt = k1_pay2 (xwSlice3 V c t) (acc3 V c (t.val - 1) (Nat.lt_of_le_of_lt (Nat.sub_le _ _) t.isLt)) (iblk3 V c 0 t) := by
  obtain ⟨n, hn⟩ := t
  cases n with
  | zero => exact absurd (Nat.zero_mod 4) h
  | succ n => exact if_neg h

/-- Between points the accumulator is held at what the last point left; before the first point, at arbitrary contents. -/
def PhiS3 (c : Dev nD) : (n : ℕ) → n ≤ cfg3.N → sProp 𝕄
  | 0, _ => Pipeline.ΦA spec3 c
  | n + 1, hn => Inv3 c (owns (c : Thread nD τ) scM3_0 fullShare (acc3 V c n hn))

/-- The proof data: every input buffer is handed back at its block, the output buffer at the epilogue of the accumulator. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k1_pay3 (grid3.coords t) (acc3 V c t.val t.isLt) (bblk3 V c t) (wblk3 V c t)
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_out (c : Dev nD) (t : Fin cfg3.N) (h : t.val % 4 = 3) :
    (dat3 V c).after 4 t = k1_pay3 (grid3.coords t) (acc3 V c t.val t.isLt) (iblk3 V c 2 t) (iblk3 V c 3 t) := rfl

/-- Every input buffer holds its window's block, before the body and after it. -/
theorem in3 (c : Dev nD) (t : Fin cfg3.N) : ∀ w : Fin cfg3.W, w ≠ 4 →
    (∀ d, (dat3 V c).before w t d = (dat3 V c).after w t)
      ∧ (dat3 V c).leavesExact w t = owns (c : Thread nD τ) ((cfg3.win w).stage (cfg3.slots t w)) fullShare ((dat3 V c).after w t)
  | ⟨0, _⟩, hw | ⟨1, _⟩, hw | ⟨2, _⟩, hw | ⟨3, _⟩, hw =>
    ⟨fun d => ((dat3 V c).before_in_eq_fetched _ rfl (fun _ => rfl) (fun _ _ _ => rfl) (fun _ => rfl) t d).trans rfl,
      by unfold Dat.leavesExact; rw [liveAt3 _ t (.inl hw)] <;> rfl⟩
  | ⟨4, _⟩, h => absurd rfl h

/-- Before a point other than the first the accumulator is owned at what the point before left. -/
theorem Phi3_pos (c : Dev nD) : ∀ (t : Fin (cfg3.N + 1)) (hz : t.val ≠ 0),
    (dat3 V c).Φ t = Inv3 c (owns (c : Thread nD τ) scM3_0 fullShare (acc3 V c (t.val - 1) (by have := t.isLt; omega)))
  | ⟨0, _⟩, hz => absurd rfl hz
  | ⟨n + 1, _⟩, _ => rfl

/-- Every invariant entails the entry invariant: forget what the accumulator holds. -/
theorem Phi_out3 (c : Dev nD) : ∀ t : Fin (cfg3.N + 1), (dat3 V c).Φ t ⊢ Inv3 c iprop((∃ d, owns (c : Thread nD τ) scM3_0 fullShare d))
  | ⟨0, _⟩ => Entails.of_eq (PhiA3_eq c)
  | ⟨n + 1, h⟩ => by
    rw [Phi3_pos V c ⟨n + 1, h⟩ (Nat.succ_ne_zero n)]
    unfold Inv3
    iintro ⟨⟨HS0, Hr⟩, Hg⟩
    iframe Hr Hg
    iexists _; iexact HS0

theorem hin3 (c : Dev nD) : Pipeline.ΦA spec3 c ⊢ (dat3 V c).Φ 0 := Entails.of_eq rfl

theorem hout3 (c : Dev nD) : (dat3 V c).Φ (Fin.last cfg3.N) ⊢ Pipeline.ΦA spec3 c := by
  rw [PhiA3_eq]; exact Phi_out3 V c _

/-- The body at a point is the first layer's aggregation kernel on this region's buffers. -/
theorem bodyAt3_eq (t : Fin cfg3.N) : bodyAt3 (F := F) t = cc1__agg_fused_kernel (grid3.coords t) (ms3_0 t) (hs3_0 t) (ms3_1 t) (hs3_1 t) (ms3_2 t) (hs3_2 t) (ms3_3 t) (hs3_3 t) (ms3_4 t) (hs3_4 t) scM3_0 (Memref.isWhole_whole _) := rfl

/-- A body run on the five buffers and the accumulator yields the obligation at t: the rest of the invariant is framed. -/
theorem frame3 (c : Dev nD) (t : Fin cfg3.N) {S Q4 SQ : sProp 𝕄}
    (hΦ : (dat3 V c).Φ t.castSucc ⊢ Inv3 c S)
    (hS : SQ ⊢ owns (c : Thread nD τ) scM3_0 fullShare (acc3 V c t.val t.isLt))
    (h4 : Q4 ⊢ (dat3 V c).leavesExact 4 t)
    (run : ∀ K : PUnit → sProp 𝕄,
      iprop(owns (c : Thread nD τ) (ms3_0 t) fullShare ((dat3 V c).after 0 t) ∗ owns (c : Thread nD τ) (ms3_1 t) fullShare ((dat3 V c).after 1 t) ∗ owns (c : Thread nD τ) (ms3_2 t) fullShare ((dat3 V c).after 2 t) ∗ owns (c : Thread nD τ) (ms3_3 t) fullShare ((dat3 V c).after 3 t)
          ∗ (∃ d, owns (c : Thread nD τ) (ms3_4 t) fullShare ((dat3 V c).before 4 t d)) ∗ S
          ∗ (iprop(owns (c : Thread nD τ) (ms3_0 t) fullShare ((dat3 V c).after 0 t) ∗ owns (c : Thread nD τ) (ms3_1 t) fullShare ((dat3 V c).after 1 t) ∗ owns (c : Thread nD τ) (ms3_2 t) fullShare ((dat3 V c).after 2 t) ∗ owns (c : Thread nD τ) (ms3_3 t) fullShare ((dat3 V c).after 3 t) ∗ Q4 ∗ SQ) -∗ K ⟨⟩))
        ⊢ wp frame (wpE (defs₀ (F := F)) Variants.none c none) Set.univ (cc1__agg_fused_kernel (grid3.coords t) (ms3_0 t) (hs3_0 t) (ms3_1 t) (hs3_1 t) (ms3_2 t) (hs3_2 t) (ms3_3 t) (hs3_3 t) (ms3_4 t) (hs3_4 t) scM3_0 (Memref.isWhole_whole _)) K) :
    iprop((dat3 V c).Φ t.castSucc ∗ (dat3 V c).owesAt () t.castSucc
        ∗ (∃ d, owns (c : Thread nD τ) (ms3_0 t) fullShare ((dat3 V c).before 0 t d)) ∗ (∃ d, owns (c : Thread nD τ) (ms3_1 t) fullShare ((dat3 V c).before 1 t d))
        ∗ (∃ d, owns (c : Thread nD τ) (ms3_2 t) fullShare ((dat3 V c).before 2 t d)) ∗ (∃ d, owns (c : Thread nD τ) (ms3_3 t) fullShare ((dat3 V c).before 3 t d))
        ∗ (∃ d, owns (c : Thread nD τ) (ms3_4 t) fullShare ((dat3 V c).before 4 t d)))
      ⊢ wp frame (wpE (defs₀ (F := F)) Variants.none c none) Set.univ (bodyAt3 t) fun _ => iprop((dat3 V c).Φ t.succ ∗ (dat3 V c).owesAt () t.succ
        ∗ (dat3 V c).leavesExact 0 t ∗ (dat3 V c).leavesExact 1 t ∗ (dat3 V c).leavesExact 2 t ∗ (dat3 V c).leavesExact 3 t ∗ (dat3 V c).leavesExact 4 t) := by
  simp only [(in3 V c t 0 (by decide)).1, (in3 V c t 1 (by decide)).1, (in3 V c t 2 (by decide)).1, (in3 V c t 3 (by decide)).1]
  rw [bodyAt3_eq, (in3 V c t 0 (by decide)).2, (in3 V c t 1 (by decide)).2, (in3 V c t 2 (by decide)).2, (in3 V c t 3 (by decide)).2,
    show (dat3 V c).owesAt () t.succ = (dat3 V c).owesAt () t.castSucc from rfl,
    show (dat3 V c).Φ t.succ = Inv3 c (owns (c : Thread nD τ) scM3_0 fullShare (acc3 V c t.val t.isLt)) from rfl]
  unfold Inv3
  iintro ⟨HΦ, Ho, ⟨%d0, H0⟩, ⟨%d1, H1⟩, ⟨%d2, H2⟩, ⟨%d3, H3⟩, H4⟩
  ihave HΦ' := hΦ $$ HΦ
  icases HΦ' with ⟨⟨HS, Hr⟩, Hg⟩
  iapply (run _)
  iframe H0 H1 H2 H3 H4 HS
  iintro ⟨H0, H1, H2, H3, H4, HS⟩
  ihave HS := hS $$ HS
  ihave H4 := h4 $$ H4
  iframe

set_option maxHeartbeats 1000000 in
/-- The body obligation: the point's contraction step says which of the three runs the body is. -/
theorem body_obligation3 (c : Dev nD) : BodyObligation (dat3 (F := F) V c) (defs₀ (F := F)) Variants.none () Set.univ := fun t => by
  rw [bigSep_W3, bigSep_W3]
  have hidle : ∀ hcL : ¬cond3_1 (grid3.coords t), (iprop(∃ d, owns (c : Thread nD τ) (ms3_4 t) fullShare ((dat3 V c).before 4 t d)) : sProp 𝕄) ⊢ (dat3 V c).leavesExact 4 t :=
    fun hcL => Entails.of_eq (Dat.leavesExact_idle (dat3 V c) 4 t (idleAt3_4 t hcL).1 (idleAt3_4 t hcL).2).symm
  by_cases h0 : t.val % 4 = 0
  · have hcF := (hcond3 t).1.mpr h0
    have hcL : ¬cond3_1 (grid3.coords t) := fun h => by have := (hcond3 t).2.mp h; omega
    exact frame3 V c t (Phi_out3 V c _) (owns_of_writes c fun f => (sacc1_A c _ _ _ _ hcF hcL f).trans (acc3_first V c t h0).symm) (hidle hcL)
      fun K => (kernelRun1_A c _ _ _ _ hcF hcL).2 _ K
  · have hcF : ¬cond3_0 (grid3.coords t) := fun h => h0 ((hcond3 t).1.mp h)
    have hΦ := Entails.of_eq (Phi3_pos V c t.castSucc fun e => h0 (by rw [show t.val = 0 from e]))
    by_cases h3 : t.val % 4 = 3
    · have hcL := (hcond3 t).2.mpr h3
      refine frame3 V c t hΦ (owns_of_writes c fun f => ((sres1_C c _ _ _ _ _ hcF hcL).1 f).trans (acc3_next V c t h0).symm) ?_
        fun K => (kernelRun1_C c _ _ _ _ _ hcF hcL).2.2 _ K
      rw [show (dat3 V c).leavesExact 4 t = owns (c : Thread nD τ) (ms3_4 t) fullShare ((dat3 V c).after 4 t) from by
        unfold Dat.leavesExact; rw [liveAt3 4 t (.inr hcL)]]
      exact owns_of_writes c fun f => ((sres1_C c _ _ _ _ _ hcF hcL).2 f).trans (by rw [after3_out V c t h3, acc3_next V c t h0] <;> rfl)
    · have hcL : ¬cond3_1 (grid3.coords t) := fun h => h3 ((hcond3 t).2.mp h)
      exact frame3 V c t hΦ (owns_of_writes c fun f => (sacc1_B c _ _ _ _ _ hcF hcL f).trans (acc3_next V c t h0).symm) (hidle hcL)
        fun K => (kernelRun1_B c _ _ _ _ (acc3 V c (t.val - 1) _) hcF hcL).2 _ K

end Cert.Kernel.Hand

end
-- ==== Proof.K.R4Runs.lean ====
import proofs.«427802_j60163901882525_3_alg».proof.Proof.K.Owns
import proofs.«427802_j60163901882525_3_alg».proof.Proof.Gen.Kernel.Launch
import proofs.«427802_j60163901882525_3_alg».proof.Proof.Gen.Kernel.Skeleton
import proofs.«427802_j60163901882525_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two tests in closed form: the contraction coordinate is 0; it is the last one. -/
abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1

/-- The contraction step of point t is t mod 4: the first test holds at step 0, the second at step 3. -/
theorem hcond4 : ∀ t : Fin cfg4.N, (cond4_0 (grid4.coords t) ↔ t.val % 4 = 0) ∧ (cond4_1 (grid4.coords t) ↔ t.val % 4 = 3) := by decide +kernel

theorem liveAt4 : ∀ (w : Fin cfg4.W) (t : Fin cfg4.N), w ≠ 4 ∨ cond4_1 (grid4.coords t) → cfg4.idle w (grid4.coords t) = false := by decide +kernel
theorem idleAt4_4 : ∀ t : Fin cfg4.N, ¬cond4_1 (grid4.coords t) → cfg4.idle 4 (grid4.coords t) = true ∧ (cfg4.win 4).flush t = false := by decide +kernel

abbrev ms4_0 (t : Fin cfg4.N) : Memref sig .tc .vmem S1280x2560 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10240x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x128 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1280x128 .bf16 := win4_4.stage (cfg4.slots t 4)
abbrev hs4_4 (t : Fin cfg4.N) : (ms4_4 t).IsWhole := hstage4_4 ((cfg4.slots t 4).cast nbuf4_4)

abbrev scM4_0 : Memref sig .tc .vmem S1280x256 .f32 := Memref.whole cc4_scratch0

/-- The region's invariant with the accumulator's assertion singled out. -/
abbrev Inv4 (c : Dev nD) (S : sProp 𝕄) : sProp 𝕄 :=
  iprop(iprop(S ∗ Pipeline.scopedRestBut (Ix := Unit) (Name := ℕ) (U := UR sig nD τ) (Lvl := ℕ) (Val := Elt F) spec4 c [cc4_scratch0]) ∗ (∃ r, prngReg c r))

theorem PhiA4_eq (c : Dev nD) :
    (Pipeline.ΦA spec4 c : sProp 𝕄)
      = Inv4 c iprop((∃ d, owns (c : Thread nD τ) scM4_0 fullShare d)) := by
  unfold Pipeline.ΦA; rw [scopedRest4_split]; simp only [scM4_0, owns_whole]; try rfl

variable (V : (c : Dev nD) → (b : Ref sig .tc) → Buf (Elt F) ((c : Thread nD τ).loc b))

/-- Window w's block at point t, read off its array's contents at the region's entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

end Cert.Kernel.Hand

end
-- ==== Proof.K.R4Body.lean ====
import proofs.«427802_j60163901882525_3_alg».proof.Proof.K.R4Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

/-- The rows of the resident operand that a point's contraction step reads. -/
abbrev slice4 (i : grid4.Coords) : Rect S10240x256 := Rect.unit (s := S10240x256) (k4_off1 i) S2560x256.size (k4_off1_inb i)

/-- The output block's shape. -/
abbrev SO4 : Shape :=
  S1280x128

variable (c : Dev nD) {i : grid4.Coords} {arg2 : Memref sig .tc .vmem S1280x2560 .bf16} {harg2 : arg2.IsWhole}
  {arg3 : Memref sig .tc .vmem S10240x256 .bf16} {harg3 : arg3.IsWhole} {arg4 : Memref sig .tc .vmem S1x256 .f32} {harg4 : arg4.IsWhole}
  {arg5 : Memref sig .tc .vmem S256x128 .bf16} {harg5 : arg5.IsWhole} {arg6 : Memref sig .tc .vmem S1280x128 .bf16} {harg6 : arg6.IsWhole}
  {arg7 : Memref sig .tc .vmem S1280x256 .f32} {harg7 : arg7.IsWhole}
  (xa : Vec F S1280x2560 .bf16) (xb : Vec F S10240x256 .bf16) (xc : Vec F S1x256 .f32) (xd : Vec F S256x128 .bf16) (xs0 : Vec F S1280x256 .f32)

set_option maxHeartbeats 4000000 in
/-- The body at a first contraction step, framed by `R` (the output buffer is not touched); the witness is the pieces it writes to the
    accumulator, which enters at anything. -/
noncomputable def kernelRun4_A (hcF : cond4_0 i) (hcL : ¬cond4_1 i) :
    { LS0 : List (View.Piece (Elt F) S1280x256 .f32) // ∀ (R : sProp 𝕄) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ R ∗ (∃ d, owns (c : Thread nD τ) arg7 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ R ∗ (∃ f, arg7.view.loc (c : Thread nD τ) ↦[arg7.view.set]{fullShare} arg7.view.writes (Elt F) f LS0)) -∗ K ⟨⟩))
          ⊢ wp frame (wpE (defs₀ (F := F)) Variants.none c none) Set.univ (cc4__agg_fused_kernel i arg2 harg2 arg3 harg3 arg4 harg4 arg5 harg5 arg6 harg6 arg7 harg7) K } := by
  refine ⟨?_, fun R K => ?run⟩
  case run =>
    rw [owns_eq_unread c harg2, owns_eq_unread c harg3, owns_eq_unread c harg4, owns_eq_unread c harg5]
    simp only [cc4__agg_fused_kernel_eq_skeleton]; unfold cc4__agg_fused_kernel_skel; unfold owns
    iintro ⟨Ha, Hb, Hc, Hd, HR, ⟨%ds0, %fs0, -, HS0⟩, Hk⟩
    sl_exec (disch := first | exact hcF | exact hcL)
    sl_step
    iapply Hk
    iframe Ha Hb Hc Hd HR
    iexists _; iexact HS0

/-- Its stores tile the accumulator, which is left at the block product added to zero. -/
theorem sacc4_A (hcF : cond4_0 i) (hcL : ¬cond4_1 i) (f : arg7.view.ty.Contents (Elt F)) :
    arg7.view.read (Elt F) (arg7.view.writes (Elt F) f (kernelRun4_A c (harg2 := harg2) (harg3 := harg3) (harg4 := harg4) (harg5 := harg5) (harg6 := harg6) (harg7 := harg7) xa xb xc xd hcF hcL).1)
      = k4_pay2 (View.ld xb (slice4 i)) (k4_pay1 (F := F)) xa := by
  refine (View.read_writes_eq_canon _ _ _ (View.cover_of_tiledL _ S1280x256.size ?_)).trans ?_
  · sl_kernel_rfl
  unfold kernelRun4_A
  dsimp only
  sl_unfold_words
  rw [View.canon_cons_unit_zero (S := S1280x256) hz4, View.readCov_unit_zero (S := S1280x256) _ hz4]
  (simp only [View.readAt_eq_ld, harg2.read_unread, harg3.read_unread, View.ld_unit_zero (S := S1280x2560) hz4]) <;> rfl

set_option maxHeartbeats 4000000 in
/-- The body at a middle contraction step: the accumulator enters at `xs0`. -/
noncomputable def kernelRun4_B (hcF : ¬cond4_0 i) (hcL : ¬cond4_1 i) :
    { LS0 : List (View.Piece (Elt F) S1280x256 .f32) // ∀ (R : sProp 𝕄) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ R ∗ owns (c : Thread nD τ) arg7 fullShare xs0
            ∗ (iprop(owns (c : Thread nD τ) arg2 fullShare xa ∗ owns (c : Thread nD τ) arg3 fullShare xb ∗ owns (c : Thread nD τ) arg4 fullShare xc ∗ owns (c : Thread nD τ) arg5 fullShare xd ∗ R ∗ (∃ f, arg7.view.loc (c : Thread nD τ) ↦[arg7.view.set]{fullShare} arg7.view.writes (Elt F) f LS0)) -∗ K ⟨⟩))
          ⊢ wp frame (wpE (defs₀ (F := F)) Variants.none c none) Set.univ (cc4__agg_fused_kernel i arg2 harg2 arg3 harg3 arg4 harg4 arg5 harg5 arg6 harg6 arg7 harg7) K } := by
  refine ⟨?_, fun R K => ?run⟩
  case run =>
    rw [owns_eq_unread c harg2, owns_eq_unread c harg3, owns_eq_unread c harg4, owns_eq_unread c harg5, owns_eq_unread c harg7]
    simp only [cc4__agg_fused_kernel_eq_skeleton]; unfold cc4__agg_fused_kernel_skel
    iintro ⟨Ha, Hb, Hc, Hd, HR, HS0, Hk⟩
    sl_exec (disch := first | exact hcF | exact hcL)
    sl_step
    iapply Hk
    iframe Ha Hb Hc Hd HR
    iexists _; iexact HS0

/-- Its store covers the accumulator, left at the block product added to what it held. -/
theorem sacc4_B (hcF : ¬cond4_0 i) (hcL : ¬cond4_1 i) (f : arg7.view.ty.Contents (Elt F)) :
    arg7.view.read (Elt F) (arg7.view.writes (Elt F) f (kernelRun4_B c (harg2 := harg2) (harg3 := harg3) (harg4 := harg4) (harg5 := harg5) (harg6 := harg6) (harg7 := harg7) xa xb xc xd xs0 hcF hcL).1)
      = k4_pay2 (View.ld xb (slice4 i)) xs0 xa := by
  refine (View.read_writes_eq_canon _ _ _ (View.cover_of_tiledL _ S1280x256.size ?_)).trans ?_
  · sl_kernel_rfl
  unfold kernelRun4_B
  dsimp only
  sl_unfold_words
  rw [View.canon_unit_zero (S := S1280x256) hz4]
  (simp only [View.readAt_eq_ld, harg2.read_unread, harg3.read_unread, harg7.read_unread, View.ld_unit_zero (S := S1280x2560) hz4, View.ld_unit_zero (S := S1280x256) hz4]) <;> rfl

set_option maxHeartbeats 4000000 in
/-- The body at a last contraction step; the output buffer enters at any member of a family `g`, and the witnesses are the pieces
    written to it and to the accumulator. -/
noncomputable def kernelRun4_C (hcF : ¬cond4_0 i) (hcL : cond4_1 i) :
    Σ' (L4 : List (View.Piece (Elt F) S1280x128 .bf16)), { LS0 : List (View.Piece (Elt F) S1280x256 .f32) //
      ∀ {D : Type} (g : D → Vec F S1280x128 .bf16) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ (∃ d, owns (c : Thread nD τ) arg6 fullShare (g d)) ∗ owns (c : Thread nD τ) arg7 fullShare xs0
            ∗ (iprop(owns (c : Thread nD τ) arg2 fullShare xa ∗ owns (c : Thread nD τ) arg3 fullShare xb ∗ owns (c : Thread nD τ) arg4 fullShare xc ∗ owns (c : Thread nD τ) arg5 fullShare xd ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) Set.univ (cc4__agg_fused_kernel i arg2 harg2 arg3 harg3 arg4 harg4 arg5 harg5 arg6 harg6 arg7 harg7) K } := by
  refine ⟨?_, ?_, fun g K => ?run⟩
  case run =>
    rw [owns_eq_unread c harg2, owns_eq_unread c harg3, owns_eq_unread c harg4, owns_eq_unread c harg5, owns_eq_unread c harg7]
    simp only [cc4__agg_fused_kernel_eq_skeleton]; unfold cc4__agg_fused_kernel_skel; unfold owns
    iintro ⟨Ha, Hb, Hc, Hd, ⟨%de, %fe, -, He⟩, HS0, Hk⟩
    sl_exec (disch := first | exact hcF | exact hcL)
    sl_step
    iapply Hk
    iframe Ha Hb Hc Hd
    isplitl [He]; · iexists _; iexact He
    iexists _; iexact HS0

/-- Each of its two stores covers its buffer: the accumulator as at a middle step, the output block the epilogue of the finished
    accumulator, the bias and the next weights. -/
theorem sres4_C (hcF : ¬cond4_0 i) (hcL : cond4_1 i) :
    (∀ f, arg7.view.read (Elt F) (arg7.view.writes (Elt F) f (kernelRun4_C c (harg2 := harg2) (harg3 := harg3) (harg4 := harg4) (harg5 := harg5) (harg6 := harg6) (harg7 := harg7) xa xb xc xd xs0 hcF hcL).2.1) = k4_pay2 (View.ld xb (slice4 i)) xs0 xa)
      ∧ ∀ f, arg6.view.read (Elt F) (arg6.view.writes (Elt F) f (kernelRun4_C c (harg2 := harg2) (harg3 := harg3) (harg4 := harg4) (harg5 := harg5) (harg6 := harg6) (harg7 := harg7) xa xb xc xd xs0 hcF hcL).1)
          = k4_pay3 i (k4_pay2 (View.ld xb (slice4 i)) xs0 xa) xc xd := by
  constructor <;> intro f
  · refine (View.read_writes_eq_canon _ _ _ (View.cover_of_tiledL _ S1280x256.size (by sl_kernel_rfl))).trans ?_
    unfold kernelRun4_C
    dsimp only
    sl_unfold_words
    rw [View.canon_unit_zero (S := S1280x256) hz4]
    (simp only [View.readCov_unit_zero (S := S1280x256) _ hz4, View.readAt_eq_ld, harg2.read_unread, harg3.read_unread, harg4.read_unread, harg5.read_unread, harg7.read_unread,
      View.ld_unit_zero (S := S1280x2560) hz4, View.ld_unit_zero (S := S1280x256) hz4, View.ld_unit_zero (S := S1x256) hz4, View.ld_unit_zero (S := S256x128) hz4]) <;> rfl
  · refine (View.read_writes_eq_canon _ _ _ (View.cover_of_tiledL _ SO4.size (by sl_kernel_rfl))).trans ?_
    unfold kernelRun4_C
    dsimp only
    sl_unfold_words
    rw [View.canon_unit_zero (S := SO4) hz4]
    (simp only [View.readCov_unit_zero (S := S1280x256) _ hz4, View.readAt_eq_ld, harg2.read_unread, harg3.read_unread, harg4.read_unread, harg5.read_unread, harg7.read_unread,
      View.ld_unit_zero (S := S1280x2560) hz4, View.ld_unit_zero (S := S1280x256) hz4, View.ld_unit_zero (S := S1x256) hz4, View.ld_unit_zero (S := S256x128) hz4]) <;> rfl

end Cert.Kernel.Hand

end
-- ==== Proof.K.R4.lean ====
import proofs.«427802_j60163901882525_3_alg».proof.Proof.K.R4Runs
import proofs.«427802_j60163901882525_3_alg».proof.Proof.K.R4Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ablk4 (c : Dev nD) (t : Fin cfg4.N) : Vec F S1280x2560 .bf16 := iblk4 V c 0 t
abbrev bblk4 (c : Dev nD) (t : Fin cfg4.N) : Vec F S1x256 .f32 := iblk4 V c 2 t
abbrev wblk4 (c : Dev nD) (t : Fin cfg4.N) : Vec F S256x128 .bf16 := iblk4 V c 3 t

/-- The rows of the resident operand that point t's contraction step multiplies. -/
abbrev xwblk4 (c : Dev nD) (t : Fin cfg4.N) : Vec F S10240x256 .bf16 := iblk4 V c 1 t

def xwSlice4 (c : Dev nD) (t : Fin cfg4.N) : Vec F S2560x256 .bf16 := View.ld (xwblk4 V c t) (slice4 (grid4.coords t))

/-- The accumulator after point n: reset to the point's block product at a first contraction step, otherwise that product added to what the point before left. -/
def acc4 (c : Dev nD) : (n : ℕ) → n < cfg4.N → Vec F S1280x256 .f32
  | 0, hn => k4_pay2 (xwSlice4 V c ⟨0, hn⟩) (k4_pay1 (F := F)) (ablk4 V c ⟨0, hn⟩)
  | n + 1, hn =>
    if (n + 1) % 4 = 0 then k4_pay2 (xwSlice4 V c ⟨n + 1, hn⟩) (k4_pay1 (F := F)) (ablk4 V c ⟨n + 1, hn⟩)
    else k4_pay2 (xwSlice4 V c ⟨n + 1, hn⟩) (acc4 c n (Nat.lt_of_succ_lt hn)) (ablk4 V c ⟨n + 1, hn⟩)

theorem acc4_first (c : Dev nD) (t : Fin cfg4.N) (h : t.val % 4 = 0) :
    acc4 V c t.val t.isLt = k4_pay2 (xwSlice4 V c t) (k4_pay1 (F := F)) (iblk4 V c 0 t) := by
  obtain ⟨n, hn⟩ := t
  cases n with
  | zero => rfl
  | succ n => exact if_pos h

theorem acc4_next (c : Dev nD) (t : Fin cfg4.N) (h : ¬ t.val % 4 = 0) :
    acc4 V c t.val t.isLt = k4_pay2 (xwSlice4 V c t) (acc4 V c (t.val - 1) (Nat.lt_of_le_of_lt (Nat.sub_le _ _) t.isLt)) (iblk4 V c 0 t) := by
  obtain ⟨n, hn⟩ := t
  cases n with
  | zero => exact absurd (Nat.zero_mod 4) h
  | succ n => exact if_neg h

/-- Between points the accumulator is held at what the last point left; before the first point, at arbitrary contents. -/
def PhiS4 (c : Dev nD) : (n : ℕ) → n ≤ cfg4.N → sProp 𝕄
  | 0, _ => Pipeline.ΦA spec4 c
  | n + 1, hn => Inv4 c (owns (c : Thread nD τ) scM4_0 fullShare (acc4 V c n hn))

/-- The proof data: every input buffer is handed back at its block, the output buffer at the epilogue of the accumulator. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (grid4.coords t) (acc4 V c t.val t.isLt) (bblk4 V c t) (wblk4 V c t)
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_out (c : Dev nD) (t : Fin cfg4.N) (h : t.val % 4 = 3) :
    (dat4 V c).after 4 t = k4_pay3 (grid4.coords t) (acc4 V c t.val t.isLt) (iblk4 V c 2 t) (iblk4 V c 3 t) := rfl

/-- Every input buffer holds its window's block, before the body and after it. -/
theorem in4 (c : Dev nD) (t : Fin cfg4.N) : ∀ w : Fin cfg4.W, w ≠ 4 →
    (∀ d, (dat4 V c).before w t d = (dat4 V c).after w t)
      ∧ (dat4 V c).leavesExact w t = owns (c : Thread nD τ) ((cfg4.win w).stage (cfg4.slots t w)) fullShare ((dat4 V c).after w t)
  | ⟨0, _⟩, hw | ⟨1, _⟩, hw | ⟨2, _⟩, hw | ⟨3, _⟩, hw =>
    ⟨fun d => ((dat4 V c).before_in_eq_fetched _ rfl (fun _ => rfl) (fun _ _ _ => rfl) (fun _ => rfl) t d).trans rfl,
      by unfold Dat.leavesExact; rw [liveAt4 _ t (.inl hw)] <;> rfl⟩
  | ⟨4, _⟩, h => absurd rfl h

/-- Before a point other than the first the accumulator is owned at what the point before left. -/
theorem Phi4_pos (c : Dev nD) : ∀ (t : Fin (cfg4.N + 1)) (hz : t.val ≠ 0),
    (dat4 V c).Φ t = Inv4 c (owns (c : Thread nD τ) scM4_0 fullShare (acc4 V c (t.val - 1) (by have := t.isLt; omega)))
  | ⟨0, _⟩, hz => absurd rfl hz
  | ⟨n + 1, _⟩, _ => rfl

/-- Every invariant entails the entry invariant: forget what the accumulator holds. -/
theorem Phi_out4 (c : Dev nD) : ∀ t : Fin (cfg4.N + 1), (dat4 V c).Φ t ⊢ Inv4 c iprop((∃ d, owns (c : Thread nD τ) scM4_0 fullShare d))
  | ⟨0, _⟩ => Entails.of_eq (PhiA4_eq c)
  | ⟨n + 1, h⟩ => by
    rw [Phi4_pos V c ⟨n + 1, h⟩ (Nat.succ_ne_zero n)]
    unfold Inv4
    iintro ⟨⟨HS0, Hr⟩, Hg⟩
    iframe Hr Hg
    iexists _; iexact HS0

theorem hin4 (c : Dev nD) : Pipeline.ΦA spec4 c ⊢ (dat4 V c).Φ 0 := Entails.of_eq rfl

theorem hout4 (c : Dev nD) : (dat4 V c).Φ (Fin.last cfg4.N) ⊢ Pipeline.ΦA spec4 c := by
  rw [PhiA4_eq]; exact Phi_out4 V c _

/-- The body at a point is the first layer's aggregation kernel on this region's buffers. -/
theorem bodyAt4_eq (t : Fin cfg4.N) : bodyAt4 (F := F) t = cc4__agg_fused_kernel (grid4.coords t) (ms4_0 t) (hs4_0 t) (ms4_1 t) (hs4_1 t) (ms4_2 t) (hs4_2 t) (ms4_3 t) (hs4_3 t) (ms4_4 t) (hs4_4 t) scM4_0 (Memref.isWhole_whole _) := rfl

/-- A body run on the five buffers and the accumulator yields the obligation at t: the rest of the invariant is framed. -/
theorem frame4 (c : Dev nD) (t : Fin cfg4.N) {S Q4 SQ : sProp 𝕄}
    (hΦ : (dat4 V c).Φ t.castSucc ⊢ Inv4 c S)
    (hS : SQ ⊢ owns (c : Thread nD τ) scM4_0 fullShare (acc4 V c t.val t.isLt))
    (h4 : Q4 ⊢ (dat4 V c).leavesExact 4 t)
    (run : ∀ K : PUnit → sProp 𝕄,
      iprop(owns (c : Thread nD τ) (ms4_0 t) fullShare ((dat4 V c).after 0 t) ∗ owns (c : Thread nD τ) (ms4_1 t) fullShare ((dat4 V c).after 1 t) ∗ owns (c : Thread nD τ) (ms4_2 t) fullShare ((dat4 V c).after 2 t) ∗ owns (c : Thread nD τ) (ms4_3 t) fullShare ((dat4 V c).after 3 t)
          ∗ (∃ d, owns (c : Thread nD τ) (ms4_4 t) fullShare ((dat4 V c).before 4 t d)) ∗ S
          ∗ (iprop(owns (c : Thread nD τ) (ms4_0 t) fullShare ((dat4 V c).after 0 t) ∗ owns (c : Thread nD τ) (ms4_1 t) fullShare ((dat4 V c).after 1 t) ∗ owns (c : Thread nD τ) (ms4_2 t) fullShare ((dat4 V c).after 2 t) ∗ owns (c : Thread nD τ) (ms4_3 t) fullShare ((dat4 V c).after 3 t) ∗ Q4 ∗ SQ) -∗ K ⟨⟩))
        ⊢ wp frame (wpE (defs₀ (F := F)) Variants.none c none) Set.univ (cc4__agg_fused_kernel (grid4.coords t) (ms4_0 t) (hs4_0 t) (ms4_1 t) (hs4_1 t) (ms4_2 t) (hs4_2 t) (ms4_3 t) (hs4_3 t) (ms4_4 t) (hs4_4 t) scM4_0 (Memref.isWhole_whole _)) K) :
    iprop((dat4 V c).Φ t.castSucc ∗ (dat4 V c).owesAt () t.castSucc
        ∗ (∃ d, owns (c : Thread nD τ) (ms4_0 t) fullShare ((dat4 V c).before 0 t d)) ∗ (∃ d, owns (c : Thread nD τ) (ms4_1 t) fullShare ((dat4 V c).before 1 t d))
        ∗ (∃ d, owns (c : Thread nD τ) (ms4_2 t) fullShare ((dat4 V c).before 2 t d)) ∗ (∃ d, owns (c : Thread nD τ) (ms4_3 t) fullShare ((dat4 V c).before 3 t d))
        ∗ (∃ d, owns (c : Thread nD τ) (ms4_4 t) fullShare ((dat4 V c).before 4 t d)))
      ⊢ wp frame (wpE (defs₀ (F := F)) Variants.none c none) Set.univ (bodyAt4 t) fun _ => iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t ∗ (dat4 V c).leavesExact 4 t) := by
  simp only [(in4 V c t 0 (by decide)).1, (in4 V c t 1 (by decide)).1, (in4 V c t 2 (by decide)).1, (in4 V c t 3 (by decide)).1]
  rw [bodyAt4_eq, (in4 V c t 0 (by decide)).2, (in4 V c t 1 (by decide)).2, (in4 V c t 2 (by decide)).2, (in4 V c t 3 (by decide)).2,
    show (dat4 V c).owesAt () t.succ = (dat4 V c).owesAt () t.castSucc from rfl,
    show (dat4 V c).Φ t.succ = Inv4 c (owns (c : Thread nD τ) scM4_0 fullShare (acc4 V c t.val t.isLt)) from rfl]
  unfold Inv4
  iintro ⟨HΦ, Ho, ⟨%d0, H0⟩, ⟨%d1, H1⟩, ⟨%d2, H2⟩, ⟨%d3, H3⟩, H4⟩
  ihave HΦ' := hΦ $$ HΦ
  icases HΦ' with ⟨⟨HS, Hr⟩, Hg⟩
  iapply (run _)
  iframe H0 H1 H2 H3 H4 HS
  iintro ⟨H0, H1, H2, H3, H4, HS⟩
  ihave HS := hS $$ HS
  ihave H4 := h4 $$ H4
  iframe

set_option maxHeartbeats 1000000 in
/-- The body obligation: the point's contraction step says which of the three runs the body is. -/
theorem body_obligation4 (c : Dev nD) : BodyObligation (dat4 (F := F) V c) (defs₀ (F := F)) Variants.none () Set.univ := fun t => by
  rw [bigSep_W4, bigSep_W4]
  have hidle : ∀ hcL : ¬cond4_1 (grid4.coords t), (iprop(∃ d, owns (c : Thread nD τ) (ms4_4 t) fullShare ((dat4 V c).before 4 t d)) : sProp 𝕄) ⊢ (dat4 V c).leavesExact 4 t :=
    fun hcL => Entails.of_eq (Dat.leavesExact_idle (dat4 V c) 4 t (idleAt4_4 t hcL).1 (idleAt4_4 t hcL).2).symm
  by_cases h0 : t.val % 4 = 0
  · have hcF := (hcond4 t).1.mpr h0
    have hcL : ¬cond4_1 (grid4.coords t) := fun h => by have := (hcond4 t).2.mp h; omega
    exact frame4 V c t (Phi_out4 V c _) (owns_of_writes c fun f => (sacc4_A c _ _ _ _ hcF hcL f).trans (acc4_first V c t h0).symm) (hidle hcL)
      fun K => (kernelRun4_A c _ _ _ _ hcF hcL).2 _ K
  · have hcF : ¬cond4_0 (grid4.coords t) := fun h => h0 ((hcond4 t).1.mp h)
    have hΦ := Entails.of_eq (Phi4_pos V c t.castSucc fun e => h0 (by rw [show t.val = 0 from e]))
    by_cases h3 : t.val % 4 = 3
    · have hcL := (hcond4 t).2.mpr h3
      refine frame4 V c t hΦ (owns_of_writes c fun f => ((sres4_C c _ _ _ _ _ hcF hcL).1 f).trans (acc4_next V c t h0).symm) ?_
        fun K => (kernelRun4_C c _ _ _ _ _ hcF hcL).2.2 _ K
      rw [show (dat4 V c).leavesExact 4 t = owns (c : Thread nD τ) (ms4_4 t) fullShare ((dat4 V c).after 4 t) from by
        unfold Dat.leavesExact; rw [liveAt4 4 t (.inr hcL)]]
      exact owns_of_writes c fun f => ((sres4_C c _ _ _ _ _ hcF hcL).2 f).trans (by rw [after4_out V c t h3, acc4_next V c t h0] <;> rfl)
    · have hcL : ¬cond4_1 (grid4.coords t) := fun h => h3 ((hcond4 t).2.mp h)
      exact frame4 V c t hΦ (owns_of_writes c fun f => (sacc4_B c _ _ _ _ _ hcF hcL f).trans (acc4_next V c t h0).symm) (hidle hcL)
        fun K => (kernelRun4_B c _ _ _ _ (acc4 V c (t.val - 1) _) hcF hcL).2 _ K

end Cert.Kernel.Hand

end
-- ==== Proof.K.R5Runs.lean ====
import proofs.«427802_j60163901882525_3_alg».proof.Proof.K.Owns
import proofs.«427802_j60163901882525_3_alg».proof.Proof.Gen.Kernel.Launch
import proofs.«427802_j60163901882525_3_alg».proof.Proof.Gen.Kernel.Skeleton
import proofs.«427802_j60163901882525_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What window `w`'s array holds on entry, read at the block point `t` selects. -/
def iblk5 (V : (c : Dev nD) → (b : Ref sig .tc) → Buf (Elt F) ((c : Thread nD τ).loc b)) (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
abbrev cond5_1 (i : grid5.Coords) : Prop := k5_cond2 i = 1#1

/-- The contraction step of point `t` is `t mod 4`: the first branch is taken at step 0, the second at step 3. -/
theorem hcond5 : ∀ t : Fin cfg5.N, (cond5_0 (grid5.coords t) ↔ t.val % 4 = 0) ∧ (cond5_1 (grid5.coords t) ↔ t.val % 4 = 3) := by decide +kernel

theorem liveAt5 : ∀ (w : Fin cfg5.W) (t : Fin cfg5.N), w ≠ 3 ∨ cond5_1 (grid5.coords t) → cfg5.idle w (grid5.coords t) = false := by decide +kernel
theorem idleAt5_3 : ∀ t : Fin cfg5.N, ¬cond5_1 (grid5.coords t) → cfg5.idle 3 (grid5.coords t) = true ∧ (cfg5.win 3).flush t = false := by decide +kernel

abbrev ms5_0 (t : Fin cfg5.N) : Memref sig .tc .vmem S1280x2560 .bf16 := win5_0.stage (cfg5.slots t 0)
abbrev ms5_1 (t : Fin cfg5.N) : Memref sig .tc .vmem S10240x128 .bf16 := win5_1.stage (cfg5.slots t 1)
abbrev ms5_2 (t : Fin cfg5.N) : Memref sig .tc .vmem S1x128 .f32 := win5_2.stage (cfg5.slots t 2)
abbrev ms5_3 (t : Fin cfg5.N) : Memref sig .tc .vmem S1280x128 .f32 := win5_3.stage (cfg5.slots t 3)
abbrev scM5_0 : Memref sig .tc .vmem S1280x128 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

/-- The entry invariant splits off the accumulator, owned at some contents. -/
theorem PhiA5_eq (c : Dev nD) :
    (Pipeline.ΦA spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

end Cert.Kernel.Hand

end
-- ==== Proof.K.R5RunA.lean ====
import proofs.«427802_j60163901882525_3_alg».proof.Proof.K.R5Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

/-- Rows `2560 k` to `2560 k + 2559` of the feature matrix, `k` the contraction step of `i`. -/
abbrev slice5 (i : grid5.Coords) : Rect S10240x128 := Rect.unit (s := S10240x128) (k5_off1 i) S2560x128.size (k5_off1_inb i)

variable (c : Dev nD) {i : grid5.Coords} {arg2 : Memref sig .tc .vmem S1280x2560 .bf16} {harg2 : arg2.IsWhole} {arg3 : Memref sig .tc .vmem S10240x128 .bf16} {harg3 : arg3.IsWhole}
  {arg4 : Memref sig .tc .vmem S1x128 .f32} {harg4 : arg4.IsWhole} {arg5 : Memref sig .tc .vmem S1280x128 .f32} {harg5 : arg5.IsWhole} {arg6 : Memref sig .tc .vmem S1280x128 .f32} {harg6 : arg6.IsWhole}
  (x0 : Vec F S1280x2560 .bf16) (x1 : Vec F S10240x128 .bf16) (x2 : Vec F S1x128 .f32)

/-- The body at a first contraction step, framed by `R`; the witness is the pieces it writes to the accumulator, which enters at anything. -/
noncomputable def kernelRun5_A (hc0 : cond5_0 i) (hc1 : ¬cond5_1 i) :
    { LS0 : List (View.Piece (Elt F) S1280x128 .f32) // ∀ (R : sProp 𝕄) (K : PUnit → sProp 𝕄),
        iprop(owns (c : Thread nD τ) arg2 fullShare x0 ∗ owns (c : Thread nD τ) arg3 fullShare x1 ∗ owns (c : Thread nD τ) arg4 fullShare x2 ∗ R ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ R ∗ (∃ f, arg6.view.loc (c : Thread nD τ) ↦[arg6.view.set]{fullShare} arg6.view.writes (Elt F) f LS0)) -∗ K ⟨⟩))
          ⊢ wp frame (wpE (defs₀ (F := F)) Variants.none c none) Set.univ (cc5__agg_final_kernel i arg2 harg2 arg3 harg3 arg4 harg4 arg5 harg5 arg6 harg6) K } := by
  refine ⟨?_, fun R K => ?run⟩
  case run =>
    rw [owns_eq_unread c harg2, owns_eq_unread c harg3, owns_eq_unread c harg4]
    simp only [cc5__agg_final_kernel_eq_skeleton]; unfold cc5__agg_final_kernel_skel; unfold owns
    iintro ⟨H0, H1, H2, HR, ⟨%ds0, %fs0, -, HS0⟩, Hk⟩
    sl_exec (disch := first | exact hc0 | exact hc1)
    sl_step
    iapply Hk
    iframe H0 H1 H2 HR
    iexists _; iexact HS0

/-- Its two stores tile the accumulator, which is left at the product added to the zero block. -/
theorem sacc5_A (hc0 : cond5_0 i) (hc1 : ¬cond5_1 i) (f : arg6.view.ty.Contents (Elt F)) :
    arg6.view.read (Elt F) (arg6.view.writes (Elt F) f (kernelRun5_A c (harg2 := harg2) (harg3 := harg3) (harg4 := harg4) (harg5 := harg5) (harg6 := harg6) x0 x1 x2 hc0 hc1).1)
      = k5_pay2 (View.ld x1 (slice5 i)) (k5_pay1 (F := F)) x0 := by
  refine (View.read_writes_eq_canon _ _ _ (View.cover_of_tiledL _ S1280x128.size ?_)).trans ?_
  · sl_kernel_rfl
  unfold kernelRun5_A
  dsimp only
  sl_unfold_words
  rw [View.canon_cons_unit_zero (S := S1280x128) hz5, View.readCov_unit_zero (S := S1280x128) _ hz5]
  simp only [View.readAt_eq_ld, harg2.read_unread, harg3.read_unread, View.ld_unit_zero (S := S1280x2560) hz5]
  rfl

end Cert.Kernel.Hand

end
-- ==== Proof.K.R5RunB.lean ====
import proofs.«427802_j60163901882525_3_alg».proof.Proof.K.R5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) {i : grid5.Coords} {arg2 : Memref sig .tc .vmem S1280x2560 .bf16} {harg2 : arg2.IsWhole} {arg3 : Memref sig .tc .vmem S10240x128 .bf16} {harg3 : arg3.IsWhole}
  {arg4 : Memref sig .tc .vmem S1x128 .f32} {harg4 : arg4.IsWhole} {arg5 : Memref sig .tc .vmem S1280x128 .f32} {harg5 : arg5.IsWhole} {arg6 : Memref sig .tc .vmem S1280x128 .f32} {harg6 : arg6.IsWhole}
  (x0 : Vec F S1280x2560 .bf16) (x1 : Vec F S10240x128 .bf16) (x2 : Vec F S1x128 .f32)
  (xs0 : Vec F S1280x128 .f32)

/-- The body at a middle contraction step, framed by `R`; the accumulator enters at `xs0`. -/
noncomputable def kernelRun5_B (hc0 : ¬cond5_0 i) (hc1 : ¬cond5_1 i) :
    { LS0 : List (View.Piece (Elt F) S1280x128 .f32) // ∀ (R : sProp 𝕄) (K : PUnit → sProp 𝕄),
        iprop(owns (c : Thread nD τ) arg2 fullShare x0 ∗ owns (c : Thread nD τ) arg3 fullShare x1 ∗ owns (c : Thread nD τ) arg4 fullShare x2 ∗ R ∗ owns (c : Thread nD τ) arg6 fullShare xs0
            ∗ (iprop(owns (c : Thread nD τ) arg2 fullShare x0 ∗ owns (c : Thread nD τ) arg3 fullShare x1 ∗ owns (c : Thread nD τ) arg4 fullShare x2 ∗ R ∗ (∃ f, arg6.view.loc (c : Thread nD τ) ↦[arg6.view.set]{fullShare} arg6.view.writes (Elt F) f LS0)) -∗ K ⟨⟩))
          ⊢ wp frame (wpE (defs₀ (F := F)) Variants.none c none) Set.univ (cc5__agg_final_kernel i arg2 harg2 arg3 harg3 arg4 harg4 arg5 harg5 arg6 harg6) K } := by
  refine ⟨?_, fun R K => ?run⟩
  case run =>
    rw [owns_eq_unread c harg2, owns_eq_unread c harg3, owns_eq_unread c harg4, owns_eq_unread c harg6]
    simp only [cc5__agg_final_kernel_eq_skeleton]; unfold cc5__agg_final_kernel_skel
    iintro ⟨H0, H1, H2, HR, HS0, Hk⟩
    sl_exec (disch := first | exact hc0 | exact hc1)
    sl_step
    iapply Hk
    iframe H0 H1 H2 HR
    iexists _; iexact HS0

/-- Its one store covers the accumulator, which is left at the product added to what it held. -/
theorem sacc5_B (hc0 : ¬cond5_0 i) (hc1 : ¬cond5_1 i) (f : arg6.view.ty.Contents (Elt F)) :
    arg6.view.read (Elt F) (arg6.view.writes (Elt F) f (kernelRun5_B c (harg2 := harg2) (harg3 := harg3) (harg4 := harg4) (harg5 := harg5) (harg6 := harg6) x0 x1 x2 xs0 hc0 hc1).1)
      = k5_pay2 (View.ld x1 (slice5 i)) xs0 x0 := by
  refine (View.read_writes_eq_canon _ _ _ (View.cover_of_tiledL _ S1280x128.size ?_)).trans ?_
  · sl_kernel_rfl
  unfold kernelRun5_B
  dsimp only
  sl_unfold_words
  rw [View.canon_unit_zero (S := S1280x128) hz5]
  simp only [View.readAt_eq_ld, harg2.read_unread, harg3.read_unread, harg6.read_unread, View.ld_unit_zero (S := S1280x2560) hz5, View.ld_unit_zero (S := S1280x128) hz5]
  rfl

end Cert.Kernel.Hand

end
-- ==== Proof.K.R5RunC.lean ====
import proofs.«427802_j60163901882525_3_alg».proof.Proof.K.R5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) {i : grid5.Coords} {arg2 : Memref sig .tc .vmem S1280x2560 .bf16} {harg2 : arg2.IsWhole} {arg3 : Memref sig .tc .vmem S10240x128 .bf16} {harg3 : arg3.IsWhole}
  {arg4 : Memref sig .tc .vmem S1x128 .f32} {harg4 : arg4.IsWhole} {arg5 : Memref sig .tc .vmem S1280x128 .f32} {harg5 : arg5.IsWhole} {arg6 : Memref sig .tc .vmem S1280x128 .f32} {harg6 : arg6.IsWhole}
  (x0 : Vec F S1280x2560 .bf16) (x1 : Vec F S10240x128 .bf16) (x2 : Vec F S1x128 .f32)
  (xs0 : Vec F S1280x128 .f32)

/-- The body at a last contraction step; the output buffer enters at any member of a family `g`, and the witnesses are the pieces written to it and to the accumulator. -/
noncomputable def kernelRun5_C (hc0 : ¬cond5_0 i) (hc1 : cond5_1 i) :
    Σ' (L3 : List (View.Piece (Elt F) S1280x128 .f32)), { LS0 : List (View.Piece (Elt F) S1280x128 .f32) //
      ∀ {D : Type} (g : D → Vec F S1280x128 .f32) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare (g d)) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) Set.univ (cc5__agg_final_kernel i arg2 harg2 arg3 harg3 arg4 harg4 arg5 harg5 arg6 harg6) K } := by
  refine ⟨?_, ?_, fun g K => ?run⟩
  case run =>
    rw [owns_eq_unread c harg2, owns_eq_unread c harg3, owns_eq_unread c harg4, owns_eq_unread c harg6]
    simp only [cc5__agg_final_kernel_eq_skeleton]; unfold cc5__agg_final_kernel_skel; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

/-- Each of its two stores covers its buffer: the accumulator is left at the product added to what it held, the output buffer at that plus the bias row. -/
theorem sres5_C (hc0 : ¬cond5_0 i) (hc1 : cond5_1 i) :
    (∀ f, arg6.view.read (Elt F) (arg6.view.writes (Elt F) f (kernelRun5_C c (harg2 := harg2) (harg3 := harg3) (harg4 := harg4) (harg5 := harg5) (harg6 := harg6) x0 x1 x2 xs0 hc0 hc1).2.1) = k5_pay2 (View.ld x1 (slice5 i)) xs0 x0)
      ∧ ∀ f, arg5.view.read (Elt F) (arg5.view.writes (Elt F) f (kernelRun5_C c (harg2 := harg2) (harg3 := harg3) (harg4 := harg4) (harg5 := harg5) (harg6 := harg6) x0 x1 x2 xs0 hc0 hc1).1) = k5_pay3 (k5_pay2 (View.ld x1 (slice5 i)) xs0 x0) x2 := by
  constructor <;> intro f <;> refine (View.read_writes_eq_canon _ _ _ (View.cover_of_tiledL _ S1280x128.size ?_)).trans ?_
  case left.refine_1 | right.refine_1 => sl_kernel_rfl
  all_goals
    unfold kernelRun5_C
    dsimp only
    sl_unfold_words
    rw [View.canon_unit_zero (S := S1280x128) hz5]
    simp only [View.readAt_eq_ld, harg2.read_unread, harg3.read_unread, harg4.read_unread, harg6.read_unread, View.readCov_unit_zero (S := S1280x128) _ hz5, View.ld_unit_zero (S := S1280x2560) hz5, View.ld_unit_zero (S := S1280x128) hz5, View.ld_unit_zero (S := S1x128) hz5]
    rfl
end Cert.Kernel.Hand

end
-- ==== Proof.K.R5.lean ====
import proofs.«427802_j60163901882525_3_alg».proof.Proof.K.R5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

abbrev ablk5 (c : Dev nD) (t : Fin cfg5.N) : Vec F S1280x2560 .bf16 := iblk5 V c 0 t
abbrev xwblk5 (c : Dev nD) (t : Fin cfg5.N) : Vec F S10240x128 .bf16 := iblk5 V c 1 t
abbrev bblk5 (c : Dev nD) (t : Fin cfg5.N) : Vec F S1x128 .f32 := iblk5 V c 2 t

/-- The feature rows that meet the adjacency block of point `t`. -/
def xwSlice5 (c : Dev nD) (t : Fin cfg5.N) : Vec F S2560x128 .bf16 := View.ld (xwblk5 V c t) (slice5 (grid5.coords t))

/-- The partial sum after point `n`: restarted at each step 0, otherwise the previous sum plus this point's product. -/
def acc5 (c : Dev nD) : (n : ℕ) → n < cfg5.N → Vec F S1280x128 .f32
  | 0, hn => k5_pay2 (xwSlice5 V c ⟨0, hn⟩) (k5_pay1 (F := F)) (ablk5 V c ⟨0, hn⟩)
  | n + 1, hn =>
    if (n + 1) % 4 = 0 then k5_pay2 (xwSlice5 V c ⟨n + 1, hn⟩) (k5_pay1 (F := F)) (ablk5 V c ⟨n + 1, hn⟩)
    else k5_pay2 (xwSlice5 V c ⟨n + 1, hn⟩) (acc5 c n (Nat.lt_of_succ_lt hn)) (ablk5 V c ⟨n + 1, hn⟩)

theorem acc5_first (c : Dev nD) (t : Fin cfg5.N) (h : t.val % 4 = 0) :
    acc5 V c t.val t.isLt = k5_pay2 (xwSlice5 V c t) (k5_pay1 (F := F)) (iblk5 V c 0 t) := by
  obtain ⟨n, hn⟩ := t
  cases n with
  | zero => rfl
  | succ n => exact if_pos h

theorem acc5_next (c : Dev nD) (t : Fin cfg5.N) (h : ¬ t.val % 4 = 0) :
    acc5 V c t.val t.isLt = k5_pay2 (xwSlice5 V c t) (acc5 V c (t.val - 1) (Nat.lt_of_le_of_lt (Nat.sub_le _ _) t.isLt)) (iblk5 V c 0 t) := by
  obtain ⟨n, hn⟩ := t
  cases n with
  | zero => exact absurd (Nat.zero_mod _) h
  | succ n => exact if_neg h

/-- The invariant before point `n`: the entry invariant at 0, otherwise the accumulator at `acc5 (n - 1)` beside the rest. -/
def PhiS5 (c : Dev nD) : (n : ℕ) → n ≤ cfg5.N → sProp 𝕄
  | 0, _ => Pipeline.ΦA spec5 c
  | n + 1, hn => iprop(iprop(owns (c : Thread nD τ) scM5_0 fullShare (acc5 V c n hn) ∗ rest5 (F := F) c) ∗ (∃ r, prngReg c r))

/-- Inputs are left as found; the output block is the partial sum plus the bias row. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (bblk5 V c t)
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_out (c : Dev nD) (t : Fin cfg5.N) (h : t.val % 4 = 3) :
    (dat5 V c).after 3 t = k5_pay3 (acc5 V c t.val t.isLt) (iblk5 V c 2 t) := rfl

/-- An input window's buffer holds, before the body and after it, what the proof data name after it. -/
theorem in5 (c : Dev nD) (t : Fin cfg5.N) : ∀ w : Fin cfg5.W, w ≠ 3 →
    (∀ d, (dat5 V c).before w t d = (dat5 V c).after w t)
      ∧ (dat5 V c).leavesExact w t = owns (c : Thread nD τ) ((cfg5.win w).stage (cfg5.slots t w)) fullShare ((dat5 V c).after w t)
  | ⟨0, _⟩, hw | ⟨1, _⟩, hw | ⟨2, _⟩, hw =>
    ⟨fun d => ((dat5 V c).before_in_eq_fetched _ rfl (fun _ => rfl) (fun _ _ _ => rfl) (fun _ => rfl) t d).trans rfl,
      by unfold Dat.leavesExact; rw [liveAt5 _ t (.inl hw)] <;> rfl⟩
  | ⟨3, _⟩, h => absurd rfl h

/-- Before a point other than the first the accumulator is owned at what the point before left. -/
theorem Phi5_pos (c : Dev nD) : ∀ (t : Fin (cfg5.N + 1)) (hz : t.val ≠ 0),
    (dat5 V c).Φ t = iprop(iprop(owns (c : Thread nD τ) scM5_0 fullShare (acc5 V c (t.val - 1) (by have := t.isLt; omega)) ∗ rest5 (F := F) c) ∗ (∃ r, prngReg c r))
  | ⟨0, _⟩, hz => absurd rfl hz
  | ⟨n + 1, _⟩, _ => rfl

/-- Every invariant entails the entry invariant: forget what the accumulator holds. -/
theorem Phi_out5 (c : Dev nD) : ∀ t : Fin (cfg5.N + 1), (dat5 V c).Φ t ⊢ iprop(iprop((∃ d, owns (c : Thread nD τ) scM5_0 fullShare d) ∗ rest5 (F := F) c) ∗ (∃ r, prngReg c r))
  | ⟨0, _⟩ => Entails.of_eq (PhiA5_eq c)
  | ⟨n + 1, h⟩ => by
    rw [Phi5_pos V c ⟨n + 1, h⟩ (Nat.succ_ne_zero n)]
    iintro ⟨⟨HS0, Hr⟩, Hg⟩
    iframe Hr Hg
    iexists _; iexact HS0

theorem hin5 (c : Dev nD) : Pipeline.ΦA spec5 c ⊢ (dat5 V c).Φ 0 := Entails.of_eq rfl

theorem hout5 (c : Dev nD) : (dat5 V c).Φ (Fin.last cfg5.N) ⊢ Pipeline.ΦA spec5 c := by
  rw [PhiA5_eq]; exact Phi_out5 V c _

/-- A body run on the four buffers and the accumulator yields the obligation at `t`: the rest of the invariant is framed. -/
theorem frame5 (c : Dev nD) (t : Fin cfg5.N) {S Q3 SQ : sProp 𝕄}
    (hΦ : (dat5 V c).Φ t.castSucc ⊢ iprop(iprop(S ∗ rest5 (F := F) c) ∗ (∃ r, prngReg c r)))
    (hS : SQ ⊢ owns (c : Thread nD τ) scM5_0 fullShare (acc5 V c t.val t.isLt))
    (h3 : Q3 ⊢ (dat5 V c).leavesExact 3 t)
    (run : ∀ K : PUnit → sProp 𝕄,
      iprop(owns (c : Thread nD τ) (ms5_0 t) fullShare ((dat5 V c).after 0 t) ∗ owns (c : Thread nD τ) (ms5_1 t) fullShare ((dat5 V c).after 1 t) ∗ owns (c : Thread nD τ) (ms5_2 t) fullShare ((dat5 V c).after 2 t)
          ∗ (∃ d, owns (c : Thread nD τ) (ms5_3 t) fullShare ((dat5 V c).before 3 t d)) ∗ S
          ∗ (iprop(owns (c : Thread nD τ) (ms5_0 t) fullShare ((dat5 V c).after 0 t) ∗ owns (c : Thread nD τ) (ms5_1 t) fullShare ((dat5 V c).after 1 t) ∗ owns (c : Thread nD τ) (ms5_2 t) fullShare ((dat5 V c).after 2 t) ∗ Q3 ∗ SQ) -∗ K ⟨⟩))
        ⊢ wp frame (wpE (defs₀ (F := F)) Variants.none c none) Set.univ (bodyAt5 t) K) :
    iprop((dat5 V c).Φ t.castSucc ∗ (dat5 V c).owesAt () t.castSucc
        ∗ (∃ d, owns (c : Thread nD τ) (ms5_0 t) fullShare ((dat5 V c).before 0 t d)) ∗ (∃ d, owns (c : Thread nD τ) (ms5_1 t) fullShare ((dat5 V c).before 1 t d))
        ∗ (∃ d, owns (c : Thread nD τ) (ms5_2 t) fullShare ((dat5 V c).before 2 t d)) ∗ (∃ d, owns (c : Thread nD τ) (ms5_3 t) fullShare ((dat5 V c).before 3 t d)))
      ⊢ wp frame (wpE (defs₀ (F := F)) Variants.none c none) Set.univ (bodyAt5 t) fun _ => iprop((dat5 V c).Φ t.succ ∗ (dat5 V c).owesAt () t.succ
        ∗ (dat5 V c).leavesExact 0 t ∗ (dat5 V c).leavesExact 1 t ∗ (dat5 V c).leavesExact 2 t ∗ (dat5 V c).leavesExact 3 t) := by
  simp only [(in5 V c t 0 (by decide)).1, (in5 V c t 1 (by decide)).1, (in5 V c t 2 (by decide)).1]
  rw [(in5 V c t 0 (by decide)).2, (in5 V c t 1 (by decide)).2, (in5 V c t 2 (by decide)).2, show (dat5 V c).owesAt () t.succ = (dat5 V c).owesAt () t.castSucc from rfl,
    show (dat5 V c).Φ t.succ = iprop(iprop(owns (c : Thread nD τ) scM5_0 fullShare (acc5 V c t.val t.isLt) ∗ rest5 (F := F) c) ∗ (∃ r, prngReg c r)) from rfl]
  iintro ⟨HΦ, Ho, ⟨%d0, H0⟩, ⟨%d1, H1⟩, ⟨%d2, H2⟩, H3⟩
  ihave HΦ' := hΦ $$ HΦ
  icases HΦ' with ⟨⟨HS, Hr⟩, Hg⟩
  iapply (run _)
  iframe H0 H1 H2 H3 HS
  iintro ⟨H0, H1, H2, H3, HS⟩
  ihave HS := hS $$ HS
  ihave H3 := h3 $$ H3
  iframe

/-- The body obligation: the point's number mod 4 says which of the three runs the body is. -/
theorem body_obligation5 (c : Dev nD) : BodyObligation (dat5 (F := F) V c) (defs₀ (F := F)) Variants.none () Set.univ := fun t => by
  rw [bigSep_W5, bigSep_W5]
  have hidle : ∀ hc1 : ¬cond5_1 (grid5.coords t), (iprop(∃ d, owns (c : Thread nD τ) (ms5_3 t) fullShare ((dat5 V c).before 3 t d)) : sProp 𝕄) ⊢ (dat5 V c).leavesExact 3 t :=
    fun hc1 => Entails.of_eq (Dat.leavesExact_idle (dat5 V c) 3 t (idleAt5_3 t hc1).1 (idleAt5_3 t hc1).2).symm
  by_cases h0 : t.val % 4 = 0
  · have hc0 := (hcond5 t).1.mpr h0
    have hc1 : ¬cond5_1 (grid5.coords t) := fun h => by have := (hcond5 t).2.mp h; omega
    exact frame5 V c t (Phi_out5 V c _) (owns_of_writes c fun f => (sacc5_A c _ _ _ hc0 hc1 f).trans (acc5_first V c t h0).symm) (hidle hc1)
      fun K => (kernelRun5_A c _ _ _ hc0 hc1).2 _ K
  · have hc0 : ¬cond5_0 (grid5.coords t) := fun h => h0 ((hcond5 t).1.mp h)
    have hΦ := Entails.of_eq (Phi5_pos V c t.castSucc fun e => h0 (by rw [show t.val = 0 from e]))
    by_cases h1 : t.val % 4 = 3
    · have hc1 := (hcond5 t).2.mpr h1
      refine frame5 V c t hΦ (owns_of_writes c fun f => ((sres5_C c _ _ _ _ hc0 hc1).1 f).trans (acc5_next V c t h0).symm) ?_
        fun K => (kernelRun5_C c _ _ _ _ hc0 hc1).2.2 _ K
      rw [show (dat5 V c).leavesExact 3 t = owns (c : Thread nD τ) (ms5_3 t) fullShare ((dat5 V c).after 3 t) from by
        unfold Dat.leavesExact; rw [liveAt5 3 t (.inr hc1)]]
      exact owns_of_writes c fun f => ((sres5_C c _ _ _ _ hc0 hc1).2 f).trans (by rw [after5_out V c t h1, acc5_next V c t h0] <;> rfl)
    · have hc1 : ¬cond5_1 (grid5.coords t) := fun h => h1 ((hcond5 t).2.mp h)
      exact frame5 V c t hΦ (owns_of_writes c fun f => (sacc5_B c _ _ _ _ hc0 hc1 f).trans (acc5_next V c t h0).symm) (hidle hc1)
        fun K => (kernelRun5_B c _ _ _ _ hc0 hc1).2 _ K

end Region5

end Cert.Kernel.Hand

end
-- ==== Proof.K.Frame.lean ====
import proofs.«427802_j60163901882525_3_alg».proof.Proof.K.R0
import proofs.«427802_j60163901882525_3_alg».proof.Proof.K.R1
import proofs.«427802_j60163901882525_3_alg».proof.Proof.K.R2
import proofs.«427802_j60163901882525_3_alg».proof.Proof.K.R3
import proofs.«427802_j60163901882525_3_alg».proof.Proof.K.R4
import proofs.«427802_j60163901882525_3_alg».proof.Proof.K.R5
import proofs.«427802_j60163901882525_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Ent : Type := (c : Dev nD) → (b : Ref sig .tc) → Buf (Elt F) ((c : Thread nD τ).loc b)

/-- Stage by stage: a region is entered from the stage before it and leaves that stage updated at its one output array. -/
def E0 : Ent (F := F) := fun c b => Gen.V5 m c b
def U6 (c : Dev nD) : Valuation τ sig (Elt F) :=
  Function.update (Gen.V5 m c) main_v65 ((dat0 (E0 m) c).arrAt 2 cfg0.N)
def E1 : Ent (F := F) := fun c b => U6 m c b
def U7 (c : Dev nD) : Valuation τ sig (Elt F) :=
  Function.update (U6 m c) main_v66 ((dat1 (E1 m) c).arrAt 4 cfg1.N)
def E2 : Ent (F := F) := fun c b => U7 m c b
def U8 (c : Dev nD) : Valuation τ sig (Elt F) :=
  Function.update (U7 m c) main_v67 ((dat2 (E2 m) c).arrAt 4 cfg2.N)
def E3 : Ent (F := F) := fun c b => U8 m c b
def U9 (c : Dev nD) : Valuation τ sig (Elt F) :=
  Function.update (U8 m c) main_v68 ((dat3 (E3 m) c).arrAt 4 cfg3.N)
def E4 : Ent (F := F) := fun c b => U9 m c b
def U10 (c : Dev nD) : Valuation τ sig (Elt F) :=
  Function.update (U9 m c) main_v69 ((dat4 (E4 m) c).arrAt 4 cfg4.N)
def E5 : Ent (F := F) := fun c b => U10 m c b
def U11 (c : Dev nD) : Valuation τ sig (Elt F) :=
  Function.update (U10 m c) main_v70 ((dat5 (E5 m) c).arrAt 3 cfg5.N)

def outs : Gen.Outs (F := F) := fun j r c => match j with
  | 6 => U6 m c r | 7 => U7 m c r | 8 => U8 m c r | 9 => U9 m c r | 10 => U10 m c r | 11 => U11 m c r
  | _ => Gen.V5 m c r

/-- A valuation updated at one buffer: the new contents there, the old everywhere else, and equal data give equal updates. -/
theorem upd_self (V : Valuation τ sig (Elt F)) (o : DevRef τ sig) (x : o.ty.Contents (Elt F)) : Function.update V o x o = x :=
  Function.update_self ..
theorem upd_ne (V : Valuation τ sig (Elt F)) {o b : Ref sig .tc} (x : (o : DevRef τ sig).ty.Contents (Elt F)) (h : b ≠ o) :
    Function.update V o x b = V b := by
  apply Function.update_of_ne; exact StableHlo.devRef_ne_of_ne h
theorem upd_congr {V U : Valuation τ sig (Elt F)} (h : V = U) (o : DevRef τ sig) {x y : o.ty.Contents (Elt F)} (hx : x = y) :
    Function.update V o x = Function.update U o y := h ▸ hx ▸ rfl

theorem E0_eq (c : Dev nD) (b : Ref sig .tc) : E0 m c b = Gen.V5 m c (Proc.devRef .tc b) := rfl
theorem outs_6 (c : Dev nD) : outs m 6 main_v65 c = (dat0 (E0 m) c).arrAt 2 cfg0.N := by
  show U6 m c main_v65 = _; exact upd_self ..
theorem V6_eq (c : Dev nD) : Gen.V6 m (outs m) c = U6 m c := upd_congr rfl _ (outs_6 m c)
theorem E1_eq (c : Dev nD) (b : Ref sig .tc) : E1 m c b = Gen.V6 m (outs m) c (Proc.devRef .tc b) := (congrFun (V6_eq m c) _).symm
theorem outs_7 (c : Dev nD) : outs m 7 main_v66 c = (dat1 (E1 m) c).arrAt 4 cfg1.N := by
  show U7 m c main_v66 = _; exact upd_self ..
theorem V7_eq (c : Dev nD) : Gen.V7 m (outs m) c = U7 m c := upd_congr (V6_eq m c) _ (outs_7 m c)
theorem E2_eq (c : Dev nD) (b : Ref sig .tc) : E2 m c b = Gen.V7 m (outs m) c (Proc.devRef .tc b) := (congrFun (V7_eq m c) _).symm
theorem outs_8 (c : Dev nD) : outs m 8 main_v67 c = (dat2 (E2 m) c).arrAt 4 cfg2.N := by
  show U8 m c main_v67 = _; exact upd_self ..
theorem V8_eq (c : Dev nD) : Gen.V8 m (outs m) c = U8 m c := upd_congr (V7_eq m c) _ (outs_8 m c)
theorem E3_eq (c : Dev nD) (b : Ref sig .tc) : E3 m c b = Gen.V8 m (outs m) c (Proc.devRef .tc b) := (congrFun (V8_eq m c) _).symm
theorem outs_9 (c : Dev nD) : outs m 9 main_v68 c = (dat3 (E3 m) c).arrAt 4 cfg3.N := by
  show U9 m c main_v68 = _; exact upd_self ..
theorem V9_eq (c : Dev nD) : Gen.V9 m (outs m) c = U9 m c := upd_congr (V8_eq m c) _ (outs_9 m c)
theorem E4_eq (c : Dev nD) (b : Ref sig .tc) : E4 m c b = Gen.V9 m (outs m) c (Proc.devRef .tc b) := (congrFun (V9_eq m c) _).symm
theorem outs_10 (c : Dev nD) : outs m 10 main_v69 c = (dat4 (E4 m) c).arrAt 4 cfg4.N := by
  show U10 m c main_v69 = _; exact upd_self ..
theorem V10_eq (c : Dev nD) : Gen.V10 m (outs m) c = U10 m c := upd_congr (V9_eq m c) _ (outs_10 m c)
theorem E5_eq (c : Dev nD) (b : Ref sig .tc) : E5 m c b = Gen.V10 m (outs m) c (Proc.devRef .tc b) := (congrFun (V10_eq m c) _).symm
theorem outs_11 (c : Dev nD) : outs m 11 main_v70 c = (dat5 (E5 m) c).arrAt 3 cfg5.N := by
  show U11 m c main_v70 = _; exact upd_self ..
theorem V11_eq (c : Dev nD) : Gen.V11 m (outs m) c = U11 m c := upd_congr (V10_eq m c) _ (outs_11 m c)

/-- Input arrays keep their entry contents, so the stage updated at the output array has every array's final contents and agrees with the entry stage elsewhere. -/
theorem step {cfg : Cfg sig Λ₀} {c : Dev nD} (dat : Dat τ (Elt F) Unit ℕ (UR sig nD τ) ℕ cfg c) {U U' : Valuation τ sig (Elt F)}
    (o : Fin cfg.W) (hU' : U' = Function.update U (Pipeline.arrRef cfg.spec o) (dat.arrAt o cfg.N))
    (hA : ∀ w, dat.A w = U (Pipeline.arrRef cfg.spec w))
    (hio : ∀ w, w ≠ o → (cfg.win w).isOut = false ∧ Pipeline.arrRef cfg.spec w ≠ Pipeline.arrRef cfg.spec o) :
    (∀ w, dat.arrAt w cfg.N = U' (Pipeline.arrRef cfg.spec w)) ∧
      ∀ b, b ∉ Finset.univ.image (Pipeline.arrRef cfg.spec) → U' b = U b := by
  subst hU'
  refine ⟨fun w => ?_, fun b hb => upd_ne _ _ fun e => hb (Finset.mem_image.mpr ⟨o, Finset.mem_univ _, e.symm⟩)⟩
  by_cases h : w = o
  · subst h; exact (upd_self ..).symm
  · exact ((dat.arrAt_in w (hio w h).1 _).trans (hA w)).trans (upd_ne _ _ (hio w h).2).symm

def pdats : (p : Fin 6) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
  | ⟨5, _⟩ => fun c => dat5 (E5 m) c
abbrev L : GSem nD τ sig → Finset Unit := fun _ => ∅
abbrev lv : GSem nD τ sig → Unit → ℕ := fun _ _ => 0
/-- The rest of a core's state, carried unchanged past every item. -/
abbrev R (c : Dev nD) : sProp 𝕄 := iprop((∃ r, prngReg c r) ∗ ∃ W, owes (c : Thread nD τ) (0 : CellTallies nD τ sig Unit) W)

set_option backward.isDefEq.respectTransparency.types false in
/-- The segment of region `p`, from the unscoped buffers at stage `V` to stage `V'`, given its body facts and that `V'` is `V` updated at the output array `o`. -/
def mkReg (p : Fin 6) (kit : Pipeline.LaunchFacts (nD := nD) (τ := τ) cfgs p) {V V' U U' : Dev nD → Valuation τ sig (Elt F)}
    (hV : ∀ c, V c = U c) (hV' : ∀ c, V' c = U' c)
    (hbody : ∀ c, BodyObligation (pdats m p c) (defs₀ (F := F)) Variants.none () Set.univ)
    (hA : ∀ c w, (pdats m p c).A w = U c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (o : Fin (cfgs p).W)
    (hU' : ∀ c, U' c = Function.update (U c) (Pipeline.arrRef (cfgs p).spec o) ((pdats m p c).arrAt o (cfgs p).N))
    (hio : ∀ w, w ≠ o → ((cfgs p).win w).isOut = false ∧ Pipeline.arrRef (cfgs p).spec w ≠ Pipeline.arrRef (cfgs p).spec o)
    (howed : ∀ c t, (pdats m p c).owed t = 0) (hq : ∀ c w, (pdats m p c).q w = fullShare)
    (hrec : ∀ c, (pdats m p c).recorded 0 = Set.univ) :
    Pipeline.RegionSeg (pcfgs (F := F)) Gen.adm (pdats m) () defs₀ Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    obtain rfl := funext hV
    rw [Pipeline.ownSems0_none]
    have hsplit := Pipeline.arrays_of_unscopedBufs (p := p) (pcfgs (F := F)) Gen.adm (pdats m) kit.win kit.arr_whole c
      ((pdats m p c).share_full (hq c)) (fun b => V c b) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec c]; trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro HΦ
    ihave H := h $$ HΦ
    icases H with ⟨Hr, Hp⟩
    isplitl [Hp]; · iexact Hp
    isplitr; · iempintro
    iexact Hr
  hexit c := by
    obtain rfl := funext hV
    obtain rfl := funext hV'
    obtain ⟨hF, hrest⟩ := step (pdats m p c) o (hU' c) (hA c) hio
    have hjoin := Pipeline.unscopedBufs_of_arrays (p := p) (pcfgs (F := F)) Gen.adm (Ix := Unit) (Name := ℕ) (U := UR sig nD τ) (Lvl := ℕ)
      kit.win kit.arr_whole c (pdats m) ((pdats m p c).share_full (hq c))
      (fun b => V c b) (fun b => V' c b) ((pdats m p c).arrAt · (cfgs p).N) hF hrest
    rw [Pipeline.unscopedBufs_held c (V' c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

def reg0 : Pipeline.RegionSeg (pcfgs (F := F)) Gen.adm (pdats m) () defs₀ Variants.none L lv 0 :=
  mkReg m 0 launch0 (fun _ => rfl) (V6_eq m) (body_obligation0 (E0 m)) (A_eq0 (E0 m)) (hin0 (E0 m)) (hout0 (E0 m))
    2 (fun _ => rfl) (by decide) (fun _ _ => rfl) (fun _ _ => rfl) fun _ => rfl
def reg1 : Pipeline.RegionSeg (pcfgs (F := F)) Gen.adm (pdats m) () defs₀ Variants.none L lv 1 :=
  mkReg m 1 launch1 (V6_eq m) (V7_eq m) (body_obligation1 (E1 m)) (A_eq1 (E1 m)) (hin1 (E1 m)) (hout1 (E1 m))
    4 (fun _ => rfl) (by decide) (fun _ _ => rfl) (fun _ _ => rfl) fun _ => rfl
def reg2 : Pipeline.RegionSeg (pcfgs (F := F)) Gen.adm (pdats m) () defs₀ Variants.none L lv 2 :=
  mkReg m 2 launch2 (V7_eq m) (V8_eq m) (body_obligation2 (E2 m)) (A_eq2 (E2 m)) (hin2 (E2 m)) (hout2 (E2 m))
    4 (fun _ => rfl) (by decide) (fun _ _ => rfl) (fun _ _ => rfl) fun _ => rfl
def reg3 : Pipeline.RegionSeg (pcfgs (F := F)) Gen.adm (pdats m) () defs₀ Variants.none L lv 3 :=
  mkReg m 3 launch3 (V8_eq m) (V9_eq m) (body_obligation3 (E3 m)) (A_eq3 (E3 m)) (hin3 (E3 m)) (hout3 (E3 m))
    4 (fun _ => rfl) (by decide) (fun _ _ => rfl) (fun _ _ => rfl) fun _ => rfl
def reg4 : Pipeline.RegionSeg (pcfgs (F := F)) Gen.adm (pdats m) () defs₀ Variants.none L lv 4 :=
  mkReg m 4 launch4 (V9_eq m) (V10_eq m) (body_obligation4 (E4 m)) (A_eq4 (E4 m)) (hin4 (E4 m)) (hout4 (E4 m))
    4 (fun _ => rfl) (by decide) (fun _ _ => rfl) (fun _ _ => rfl) fun _ => rfl
def reg5 : Pipeline.RegionSeg (pcfgs (F := F)) Gen.adm (pdats m) () defs₀ Variants.none L lv 5 :=
  mkReg m 5 launch5 (V10_eq m) (V11_eq m) (body_obligation5 (E5 m)) (A_eq5 (E5 m)) (hin5 (E5 m)) (hout5 (E5 m))
    3 (fun _ => rfl) (by decide) (fun _ _ => rfl) (fun _ _ => rfl) fun _ => rfl

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ u₀) ∗ bigSep Finset.univ fun _ : Dev nD => (BI.emp : sProp 𝕄)) := by
  iintro Hu; imodintro
  isplitl [Hu]
  · iapply (show (ownU u₀ : sProp 𝕄)
        ⊢ BI.own (emb₁ u₀) from .rfl)
    iexact Hu
  iapply (show (BI.emp : sProp 𝕄) ⊢ bigSep Finset.univ (fun _ : Dev nD => (BI.emp : sProp 𝕄)) from by rw [BI.bigSep_emp_const])
  iempintro
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO
theorem hE6 (c : Dev nD) : R (F := F) c ⊢ (iprop(∃ W, owes (c : Thread nD τ) (0 : CellTallies nD τ sig Unit) W) : sProp 𝕄) := by
  iintro ⟨-, HO⟩; iexact HO
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond (m := m) (EP := emb₁) (ι := ()) (𝒱₀ := Variants.none) (L := L) (lv := lv) (hL := fun _ _ => rfl) (ρ := ρ)
    (outs := outs m) (pdats := pdats m) (O₀ := 0) (G := fun _ => iprop(emp))
    (u₀ := u₀) (hu₀ := hu₀)
    (E := fun _ c => R c) (hE0 := hE0 ρ) (hE6 := hE6)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
abbrev segs (c : Dev nD) : List (Pipeline.Seg (pcfgs (F := F)) Gen.adm (pdats m) () defs₀ Variants.none L lv) :=
  Gen.segs m (outs m) Variants.none L lv (fun _ c => R c) () (pdats m) (reg0 m) (reg1 m) (reg2 m) (reg3 m) (reg4 m) (reg5 m) c
set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V13 m (outs m) c b) := by
  refine Pipeline.θ_run_regions_kit_dev (pcfgs (F := F)) Gen.adm (pdats m) () cellOf_inj emb₁ defs₀ Variants.none L lv m ρ main
    (segs m)
    (fun c Q => by
      rewrite [main_chain c, Pipeline.Seg.run_eq_chain,
        show (segs m c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          StableHlo.seq hostOps6,
          StableHlo.seq hostOps6_1 ] from rfl]
      exact .rfl)
    (fun c => by simp only [segs, Gen.segs, Pipeline.Seg.pipes_host, Pipeline.Seg.pipes_region, Pipeline.Seg.pipes_nil]; decide)
    (0 : Dev nD → CellTallies nD τ sig Unit) (fun _ _ => rfl) (fun _ => iprop(emp))
    u₀ hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, .rfl, .rfl, sep_mono .rfl (hE6 c)⟩)
    (hinit := ?_)
    (QY := fun c s => ∀ b ∈ Pipeline.ucRefs τ sig, s.mem ((c : Thread nD τ).1, b) = Gen.V13 m (outs m) c b)
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    imodintro
    iapply (pointsTo_read_all (Pipeline.ucRefs τ sig) (fun b => ((c : Thread nD τ).1, b)) (Gen.V13 m (outs m) c) s')
    isplitl [Hh] <;> iassumption
end Cert.Kernel.Hand
end
-- ==== Proof.KI.R0.lean ====
import proofs.«427802_j60163901882525_3_alg».proof.Proof.Gen.KernelIdeal.Launch
import proofs.«427802_j60163901882525_3_alg».proof.Proof.Gen.KernelIdeal.Skeleton
import proofs.«427802_j60163901882525_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S1280x256 := Rect.unit (s := S1280x256) ![0, 0] S1280x256.size inb_S1280x256_S1280x256_0_0
abbrev rW : Rect S256x256 := Rect.unit (s := S256x256) ![0, 0] S256x256.size inb_S256x256_S256x256_0_0

def out0_2 (x0 : Vec F S1280x256 .bf16) (x1 : Vec F S256x256 .bf16) : Vec F S1280x256 .bf16 :=
  View.canon [⟨rX, k0_pay1 (View.ld x0 rX) (View.ld x1 rW)⟩]

theorem cover0_2 (p0 : Vec F S1280x256 .bf16) (y : S1280x256.Idx) :
    ∃ pc ∈ ([⟨rX, p0⟩] : List (View.Piece (Elt F) S1280x256 .bf16)), y ∈ pc.1.set :=
  View.cover_of_tiled [⟨rX, p0⟩] S1280x256.size (by rfl) y

set_option maxHeartbeats 1000000 in

theorem sound_kernel0 (c : Dev nD) (E : Set ℕ) (i : grid0.Coords)
    (arg0 : Memref sig .tc .vmem S1280x256 .bf16) (harg0 : arg0.IsWhole)
    (arg1 : Memref sig .tc .vmem S256x256 .bf16) (harg1 : arg1.IsWhole)
    (arg2 : Memref sig .tc .vmem S1280x256 .bf16) (harg2 : arg2.IsWhole)
    (x0 : Vec F S1280x256 .bf16) (x1 : Vec F S256x256 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_in (c : Dev nD) (t : Fin cfg0.N) : (dat0 V c).after 0 t = iblk0 V c 0 t := by dsimp only [dat0]
theorem after0_in1 (c : Dev nD) (t : Fin cfg0.N) : (dat0 V c).after 1 t = iblk0 V c 1 t := by dsimp only [dat0]
theorem after0_out (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_in V c) t d
theorem before0_1 (c : Dev nD) (t : Fin cfg0.N) (d) : (dat0 V c).before 1 t d = iblk0 V c 1 t :=
  before0_1_of V (dat0 V c) (A_eq0 V c 1) (after0_in1 V c) t d

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_in, after0_in1, after0_out]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Owns.lean ====
import proofs.«427802_j60163901882525_3_alg».proof.Proof.Gen.KernelIdeal.Launch
import proofs.«427802_j60163901882525_3_alg».proof.Proof.Gen.KernelIdeal.Skeleton
import proofs.«427802_j60163901882525_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Pieces that read back as `x` over any contents leave the memref owned at `x`. -/
theorem owns_of_writes (c : Dev nD) {s : Shape} {e : EltTy} {m : Memref sig .tc .vmem s e} {L : List (View.Piece (Elt F) s e)} {x : Vec F s e}
    (h : ∀ f, m.view.read (Elt F) (m.view.writes (Elt F) f L) = x) :
    (iprop(∃ f, m.view.loc (c : Thread nD τ) ↦[m.view.set]{fullShare} m.view.writes (Elt F) f L) : sProp 𝕄) ⊢ owns (c : Thread nD τ) m fullShare x := by
  iintro ⟨%f, H⟩; unfold owns; iexists _; isplitr
  · ipureintro; exact h f
  iexact H

/-- A whole memref owned at `x` is its buffer at the raw contents that read `x`. -/
theorem owns_eq_unread (c : Dev nD) {s : Shape} {e : EltTy} {m : Memref sig .tc .vmem s e} (h : m.IsWhole) (x : Vec F s e) :
    owns (c : Thread nD τ) m fullShare x = (m.view.loc (c : Thread nD τ) ↦[m.view.set]{fullShare} h.unread x : sProp 𝕄) := by
  have h1 : owns (c : Thread nD τ) m fullShare x ⊢ (m.view.loc (c : Thread nD τ) ↦[m.view.set]{fullShare} h.unread x : sProp 𝕄) := by
    unfold owns; iintro ⟨%f, %hf, H⟩; obtain rfl := h.eq_unread hf; iexact H
  have h2 : (m.view.loc (c : Thread nD τ) ↦[m.view.set]{fullShare} h.unread x : sProp 𝕄) ⊢ owns (c : Thread nD τ) m fullShare x := by
    unfold owns; iintro H; iexists _; isplitr; · ipureintro; exact h.read_unread x
    iexact H
  exact Entails.antisymm h1 h2
end Cert.KernelIdeal.Hand

end
-- ==== Proof.KI.R1Runs.lean ====
import proofs.«427802_j60163901882525_3_alg».proof.Proof.KI.Owns
import proofs.«427802_j60163901882525_3_alg».proof.Proof.Gen.KernelIdeal.Launch
import proofs.«427802_j60163901882525_3_alg».proof.Proof.Gen.KernelIdeal.Skeleton
import proofs.«427802_j60163901882525_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two tests in closed form: the contraction coordinate is 0; it is the last one. -/
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-- The contraction step of point t is t mod 4: the first test holds at step 0, the second at step 3. -/
theorem hcond1 : ∀ t : Fin cfg1.N, (cond1_0 (grid1.coords t) ↔ t.val % 4 = 0) ∧ (cond1_1 (grid1.coords t) ↔ t.val % 4 = 3) := by decide +kernel

theorem liveAt1 : ∀ (w : Fin cfg1.W) (t : Fin cfg1.N), w ≠ 4 ∨ cond1_1 (grid1.coords t) → cfg1.idle w (grid1.coords t) = false := by decide +kernel
theorem idleAt1_4 : ∀ t : Fin cfg1.N, ¬cond1_1 (grid1.coords t) → cfg1.idle 4 (grid1.coords t) = true ∧ (cfg1.win 4).flush t = false := by decide +kernel

abbrev ms1_0 (t : Fin cfg1.N) : Memref sig .tc .vmem S1280x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1280x256 .bf16 := win1_4.stage (cfg1.slots t 4)
abbrev hs1_4 (t : Fin cfg1.N) : (ms1_4 t).IsWhole := hstage1_4 ((cfg1.slots t 4).cast nbuf1_4)

abbrev scM1_0 : Memref sig .tc .vmem S1280x256 .f32 := Memref.whole cc1_scratch0

/-- The region's invariant with the accumulator's assertion singled out. -/
abbrev Inv1 (c : Dev nD) (S : sProp 𝕄) : sProp 𝕄 :=
  iprop(iprop(S ∗ Pipeline.scopedRestBut (Ix := Unit) (Name := ℕ) (U := UR sig nD τ) (Lvl := ℕ) (Val := Elt F) spec1 c [cc1_scratch0]) ∗ (∃ r, prngReg c r))

theorem PhiA1_eq (c : Dev nD) :
    (Pipeline.ΦA spec1 c : sProp 𝕄)
      = Inv1 c iprop((∃ d, owns (c : Thread nD τ) scM1_0 fullShare d)) := by
  unfold Pipeline.ΦA; rw [scopedRest1_split]; simp only [scM1_0, owns_whole]; try rfl

variable (V : (c : Dev nD) → (b : Ref sig .tc) → Buf (Elt F) ((c : Thread nD τ).loc b))

/-- Window w's block at point t, read off its array's contents at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.KernelIdeal.Hand

end
-- ==== Proof.KI.R1Body.lean ====
import proofs.«427802_j60163901882525_3_alg».proof.Proof.KI.R1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

/-- The rows of the resident operand that a point's contraction step reads. -/
abbrev slice1 (i : grid1.Coords) : Rect S10240x256 := Rect.unit (s := S10240x256) (k1_off1 i) S2560x256.size (k1_off1_inb i)

/-- The output block's shape. -/
abbrev SO1 : Shape :=
  S1280x256

variable (c : Dev nD) {i : grid1.Coords} {arg2 : Memref sig .tc .vmem S1280x2560 .bf16} {harg2 : arg2.IsWhole}
  {arg3 : Memref sig .tc .vmem S10240x256 .bf16} {harg3 : arg3.IsWhole} {arg4 : Memref sig .tc .vmem S1x256 .f32} {harg4 : arg4.IsWhole}
  {arg5 : Memref sig .tc .vmem S256x256 .bf16} {harg5 : arg5.IsWhole} {arg6 : Memref sig .tc .vmem S1280x256 .bf16} {harg6 : arg6.IsWhole}
  {arg7 : Memref sig .tc .vmem S1280x256 .f32} {harg7 : arg7.IsWhole}
  (xa : Vec F S1280x2560 .bf16) (xb : Vec F S10240x256 .bf16) (xc : Vec F S1x256 .f32) (xd : Vec F S256x256 .bf16) (xs0 : Vec F S1280x256 .f32)

set_option maxHeartbeats 4000000 in
/-- The body at a first contraction step, framed by `R` (the output buffer is not touched); the witness is the pieces it writes to the
    accumulator, which enters at anything. -/
noncomputable def kernelRun1_A (hcF : cond1_0 i) (hcL : ¬cond1_1 i) :
    { LS0 : List (View.Piece (Elt F) S1280x256 .f32) // ∀ (R : sProp 𝕄) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ R ∗ (∃ d, owns (c : Thread nD τ) arg7 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ R ∗ (∃ f, arg7.view.loc (c : Thread nD τ) ↦[arg7.view.set]{fullShare} arg7.view.writes (Elt F) f LS0)) -∗ K ⟨⟩))
          ⊢ wp frame (wpE (defs₀ (F := F)) Variants.none c none) Set.univ (cc1__agg_fused_kernel i arg2 harg2 arg3 harg3 arg4 harg4 arg5 harg5 arg6 harg6 arg7 harg7) K } := by
  refine ⟨?_, fun R K => ?run⟩
  case run =>
    rw [owns_eq_unread c harg2, owns_eq_unread c harg3, owns_eq_unread c harg4, owns_eq_unread c harg5]
    simp only [cc1__agg_fused_kernel_eq_skeleton]; unfold cc1__agg_fused_kernel_skel; unfold owns
    iintro ⟨Ha, Hb, Hc, Hd, HR, ⟨%ds0, %fs0, -, HS0⟩, Hk⟩
    sl_exec (disch := first | exact hcF | exact hcL)
    sl_step
    iapply Hk
    iframe Ha Hb Hc Hd HR
    iexists _; iexact HS0

/-- Its stores tile the accumulator, which is left at the block product added to zero. -/
theorem sacc1_A (hcF : cond1_0 i) (hcL : ¬cond1_1 i) (f : arg7.view.ty.Contents (Elt F)) :
    arg7.view.read (Elt F) (arg7.view.writes (Elt F) f (kernelRun1_A c (harg2 := harg2) (harg3 := harg3) (harg4 := harg4) (harg5 := harg5) (harg6 := harg6) (harg7 := harg7) xa xb xc xd hcF hcL).1)
      = k1_pay2 (View.ld xb (slice1 i)) (k1_pay1 (F := F)) xa := by
  refine (View.read_writes_eq_canon _ _ _ (View.cover_of_tiledL _ S1280x256.size ?_)).trans ?_
  · sl_kernel_rfl
  unfold kernelRun1_A
  dsimp only
  sl_unfold_words
  rw [View.canon_cons_unit_zero (S := S1280x256) hz1, View.readCov_unit_zero (S := S1280x256) _ hz1]
  (simp only [View.readAt_eq_ld, harg2.read_unread, harg3.read_unread, View.ld_unit_zero (S := S1280x2560) hz1]) <;> rfl

set_option maxHeartbeats 4000000 in
/-- The body at a middle contraction step: the accumulator enters at `xs0`. -/
noncomputable def kernelRun1_B (hcF : ¬cond1_0 i) (hcL : ¬cond1_1 i) :
    { LS0 : List (View.Piece (Elt F) S1280x256 .f32) // ∀ (R : sProp 𝕄) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ R ∗ owns (c : Thread nD τ) arg7 fullShare xs0
            ∗ (iprop(owns (c : Thread nD τ) arg2 fullShare xa ∗ owns (c : Thread nD τ) arg3 fullShare xb ∗ owns (c : Thread nD τ) arg4 fullShare xc ∗ owns (c : Thread nD τ) arg5 fullShare xd ∗ R ∗ (∃ f, arg7.view.loc (c : Thread nD τ) ↦[arg7.view.set]{fullShare} arg7.view.writes (Elt F) f LS0)) -∗ K ⟨⟩))
          ⊢ wp frame (wpE (defs₀ (F := F)) Variants.none c none) Set.univ (cc1__agg_fused_kernel i arg2 harg2 arg3 harg3 arg4 harg4 arg5 harg5 arg6 harg6 arg7 harg7) K } := by
  refine ⟨?_, fun R K => ?run⟩
  case run =>
    rw [owns_eq_unread c harg2, owns_eq_unread c harg3, owns_eq_unread c harg4, owns_eq_unread c harg5, owns_eq_unread c harg7]
    simp only [cc1__agg_fused_kernel_eq_skeleton]; unfold cc1__agg_fused_kernel_skel
    iintro ⟨Ha, Hb, Hc, Hd, HR, HS0, Hk⟩
    sl_exec (disch := first | exact hcF | exact hcL)
    sl_step
    iapply Hk
    iframe Ha Hb Hc Hd HR
    iexists _; iexact HS0

/-- Its store covers the accumulator, left at the block product added to what it held. -/
theorem sacc1_B (hcF : ¬cond1_0 i) (hcL : ¬cond1_1 i) (f : arg7.view.ty.Contents (Elt F)) :
    arg7.view.read (Elt F) (arg7.view.writes (Elt F) f (kernelRun1_B c (harg2 := harg2) (harg3 := harg3) (harg4 := harg4) (harg5 := harg5) (harg6 := harg6) (harg7 := harg7) xa xb xc xd xs0 hcF hcL).1)
      = k1_pay2 (View.ld xb (slice1 i)) xs0 xa := by
  refine (View.read_writes_eq_canon _ _ _ (View.cover_of_tiledL _ S1280x256.size ?_)).trans ?_
  · sl_kernel_rfl
  unfold kernelRun1_B
  dsimp only
  sl_unfold_words
  rw [View.canon_unit_zero (S := S1280x256) hz1]
  (simp only [View.readAt_eq_ld, harg2.read_unread, harg3.read_unread, harg7.read_unread, View.ld_unit_zero (S := S1280x2560) hz1, View.ld_unit_zero (S := S1280x256) hz1]) <;> rfl

set_option maxHeartbeats 4000000 in
/-- The body at a last contraction step; the output buffer enters at any member of a family `g`, and the witnesses are the pieces
    written to it and to the accumulator. -/
noncomputable def kernelRun1_C (hcF : ¬cond1_0 i) (hcL : cond1_1 i) :
    Σ' (L4 : List (View.Piece (Elt F) S1280x256 .bf16)), { LS0 : List (View.Piece (Elt F) S1280x256 .f32) //
      ∀ {D : Type} (g : D → Vec F S1280x256 .bf16) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ (∃ d, owns (c : Thread nD τ) arg6 fullShare (g d)) ∗ owns (c : Thread nD τ) arg7 fullShare xs0
            ∗ (iprop(owns (c : Thread nD τ) arg2 fullShare xa ∗ owns (c : Thread nD τ) arg3 fullShare xb ∗ owns (c : Thread nD τ) arg4 fullShare xc ∗ owns (c : Thread nD τ) arg5 fullShare xd ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) Set.univ (cc1__agg_fused_kernel i arg2 harg2 arg3 harg3 arg4 harg4 arg5 harg5 arg6 harg6 arg7 harg7) K } := by
  refine ⟨?_, ?_, fun g K => ?run⟩
  case run =>
    rw [owns_eq_unread c harg2, owns_eq_unread c harg3, owns_eq_unread c harg4, owns_eq_unread c harg5, owns_eq_unread c harg7]
    simp only [cc1__agg_fused_kernel_eq_skeleton]; unfold cc1__agg_fused_kernel_skel; unfold owns
    iintro ⟨Ha, Hb, Hc, Hd, ⟨%de, %fe, -, He⟩, HS0, Hk⟩
    sl_exec (disch := first | exact hcF | exact hcL)
    sl_step
    iapply Hk
    iframe Ha Hb Hc Hd
    isplitl [He]; · iexists _; iexact He
    iexists _; iexact HS0

/-- Each of its two stores covers its buffer: the accumulator as at a middle step, the output block the epilogue of the finished
    accumulator, the bias and the next weights. -/
theorem sres1_C (hcF : ¬cond1_0 i) (hcL : cond1_1 i) :
    (∀ f, arg7.view.read (Elt F) (arg7.view.writes (Elt F) f (kernelRun1_C c (harg2 := harg2) (harg3 := harg3) (harg4 := harg4) (harg5 := harg5) (harg6 := harg6) (harg7 := harg7) xa xb xc xd xs0 hcF hcL).2.1) = k1_pay2 (View.ld xb (slice1 i)) xs0 xa)
      ∧ ∀ f, arg6.view.read (Elt F) (arg6.view.writes (Elt F) f (kernelRun1_C c (harg2 := harg2) (harg3 := harg3) (harg4 := harg4) (harg5 := harg5) (harg6 := harg6) (harg7 := harg7) xa xb xc xd xs0 hcF hcL).1)
          = k1_pay3 i (k1_pay2 (View.ld xb (slice1 i)) xs0 xa) xc xd := by
  constructor <;> intro f
  · refine (View.read_writes_eq_canon _ _ _ (View.cover_of_tiledL _ S1280x256.size (by sl_kernel_rfl))).trans ?_
    unfold kernelRun1_C
    dsimp only
    sl_unfold_words
    rw [View.canon_unit_zero (S := S1280x256) hz1]
    (simp only [View.readCov_unit_zero (S := S1280x256) _ hz1, View.readAt_eq_ld, harg2.read_unread, harg3.read_unread, harg4.read_unread, harg5.read_unread, harg7.read_unread,
      View.ld_unit_zero (S := S1280x2560) hz1, View.ld_unit_zero (S := S1280x256) hz1, View.ld_unit_zero (S := S1x256) hz1, View.ld_unit_zero (S := S256x256) hz1]) <;> rfl
  · refine (View.read_writes_eq_canon _ _ _ (View.cover_of_tiledL _ SO1.size (by sl_kernel_rfl))).trans ?_
    unfold kernelRun1_C
    dsimp only
    sl_unfold_words
    rw [View.canon_unit_zero (S := SO1) hz1]
    (simp only [View.readCov_unit_zero (S := S1280x256) _ hz1, View.readAt_eq_ld, harg2.read_unread, harg3.read_unread, harg4.read_unread, harg5.read_unread, harg7.read_unread,
      View.ld_unit_zero (S := S1280x2560) hz1, View.ld_unit_zero (S := S1280x256) hz1, View.ld_unit_zero (S := S1x256) hz1, View.ld_unit_zero (S := S256x256) hz1]) <;> rfl

end Cert.KernelIdeal.Hand

end
-- ==== Proof.KI.R1.lean ====
import proofs.«427802_j60163901882525_3_alg».proof.Proof.KI.R1Runs
import proofs.«427802_j60163901882525_3_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ablk1 (c : Dev nD) (t : Fin cfg1.N) : Vec F S1280x2560 .bf16 := iblk1 V c 0 t
abbrev bblk1 (c : Dev nD) (t : Fin cfg1.N) : Vec F S1x256 .f32 := iblk1 V c 2 t
abbrev wblk1 (c : Dev nD) (t : Fin cfg1.N) : Vec F S256x256 .bf16 := iblk1 V c 3 t

/-- The rows of the resident operand that point t's contraction step multiplies. -/
abbrev xwblk1 (c : Dev nD) (t : Fin cfg1.N) : Vec F S10240x256 .bf16 := iblk1 V c 1 t

def xwSlice1 (c : Dev nD) (t : Fin cfg1.N) : Vec F S2560x256 .bf16 := View.ld (xwblk1 V c t) (slice1 (grid1.coords t))

/-- The accumulator after point n: reset to the point's block product at a first contraction step, otherwise that product added to what the point before left. -/
def acc1 (c : Dev nD) : (n : ℕ) → n < cfg1.N → Vec F S1280x256 .f32
  | 0, hn => k1_pay2 (xwSlice1 V c ⟨0, hn⟩) (k1_pay1 (F := F)) (ablk1 V c ⟨0, hn⟩)
  | n + 1, hn =>
    if (n + 1) % 4 = 0 then k1_pay2 (xwSlice1 V c ⟨n + 1, hn⟩) (k1_pay1 (F := F)) (ablk1 V c ⟨n + 1, hn⟩)
    else k1_pay2 (xwSlice1 V c ⟨n + 1, hn⟩) (acc1 c n (Nat.lt_of_succ_lt hn)) (ablk1 V c ⟨n + 1, hn⟩)

theorem acc1_first (c : Dev nD) (t : Fin cfg1.N) (h : t.val % 4 = 0) :
    acc1 V c t.val t.isLt = k1_pay2 (xwSlice1 V c t) (k1_pay1 (F := F)) (iblk1 V c 0 t) := by
  obtain ⟨n, hn⟩ := t
  cases n with
  | zero => rfl
  | succ n => exact if_pos h

theorem acc1_next (c : Dev nD) (t : Fin cfg1.N) (h : ¬ t.val % 4 = 0) :
    acc1 V c t.val t.isLt = k1_pay2 (xwSlice1 V c t) (acc1 V c (t.val - 1) (Nat.lt_of_le_of_lt (Nat.sub_le _ _) t.isLt)) (iblk1 V c 0 t) := by
  obtain ⟨n, hn⟩ := t
  cases n with
  | zero => exact absurd (Nat.zero_mod 4) h
  | succ n => exact if_neg h

/-- Between points the accumulator is held at what the last point left; before the first point, at arbitrary contents. -/
def PhiS1 (c : Dev nD) : (n : ℕ) → n ≤ cfg1.N → sProp 𝕄
  | 0, _ => Pipeline.ΦA spec1 c
  | n + 1, hn => Inv1 c (owns (c : Thread nD τ) scM1_0 fullShare (acc1 V c n hn))

/-- The proof data: every input buffer is handed back at its block, the output buffer at the epilogue of the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (grid1.coords t) (acc1 V c t.val t.isLt) (bblk1 V c t) (wblk1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_out (c : Dev nD) (t : Fin cfg1.N) (h : t.val % 4 = 3) :
    (dat1 V c).after 4 t = k1_pay3 (grid1.coords t) (acc1 V c t.val t.isLt) (iblk1 V c 2 t) (iblk1 V c 3 t) := rfl

/-- Every input buffer holds its window's block, before the body and after it. -/
theorem in1 (c : Dev nD) (t : Fin cfg1.N) : ∀ w : Fin cfg1.W, w ≠ 4 →
    (∀ d, (dat1 V c).before w t d = (dat1 V c).after w t)
      ∧ (dat1 V c).leavesExact w t = owns (c : Thread nD τ) ((cfg1.win w).stage (cfg1.slots t w)) fullShare ((dat1 V c).after w t)
  | ⟨0, _⟩, hw | ⟨1, _⟩, hw | ⟨2, _⟩, hw | ⟨3, _⟩, hw =>
    ⟨fun d => ((dat1 V c).before_in_eq_fetched _ rfl (fun _ => rfl) (fun _ _ _ => rfl) (fun _ => rfl) t d).trans rfl,
      by unfold Dat.leavesExact; rw [liveAt1 _ t (.inl hw)] <;> rfl⟩
  | ⟨4, _⟩, h => absurd rfl h

/-- Before a point other than the first the accumulator is owned at what the point before left. -/
theorem Phi1_pos (c : Dev nD) : ∀ (t : Fin (cfg1.N + 1)) (hz : t.val ≠ 0),
    (dat1 V c).Φ t = Inv1 c (owns (c : Thread nD τ) scM1_0 fullShare (acc1 V c (t.val - 1) (by have := t.isLt; omega)))
  | ⟨0, _⟩, hz => absurd rfl hz
  | ⟨n + 1, _⟩, _ => rfl

/-- Every invariant entails the entry invariant: forget what the accumulator holds. -/
theorem Phi_out1 (c : Dev nD) : ∀ t : Fin (cfg1.N + 1), (dat1 V c).Φ t ⊢ Inv1 c iprop((∃ d, owns (c : Thread nD τ) scM1_0 fullShare d))
  | ⟨0, _⟩ => Entails.of_eq (PhiA1_eq c)
  | ⟨n + 1, h⟩ => by
    rw [Phi1_pos V c ⟨n + 1, h⟩ (Nat.succ_ne_zero n)]
    unfold Inv1
    iintro ⟨⟨HS0, Hr⟩, Hg⟩
    iframe Hr Hg
    iexists _; iexact HS0

theorem hin1 (c : Dev nD) : Pipeline.ΦA spec1 c ⊢ (dat1 V c).Φ 0 := Entails.of_eq rfl

theorem hout1 (c : Dev nD) : (dat1 V c).Φ (Fin.last cfg1.N) ⊢ Pipeline.ΦA spec1 c := by
  rw [PhiA1_eq]; exact Phi_out1 V c _

/-- The body at a point is the first layer's aggregation kernel on this region's buffers. -/
theorem bodyAt1_eq (t : Fin cfg1.N) : bodyAt1 (F := F) t = cc1__agg_fused_kernel (grid1.coords t) (ms1_0 t) (hs1_0 t) (ms1_1 t) (hs1_1 t) (ms1_2 t) (hs1_2 t) (ms1_3 t) (hs1_3 t) (ms1_4 t) (hs1_4 t) scM1_0 (Memref.isWhole_whole _) := rfl

/-- A body run on the five buffers and the accumulator yields the obligation at t: the rest of the invariant is framed. -/
theorem frame1 (c : Dev nD) (t : Fin cfg1.N) {S Q4 SQ : sProp 𝕄}
    (hΦ : (dat1 V c).Φ t.castSucc ⊢ Inv1 c S)
    (hS : SQ ⊢ owns (c : Thread nD τ) scM1_0 fullShare (acc1 V c t.val t.isLt))
    (h4 : Q4 ⊢ (dat1 V c).leavesExact 4 t)
    (run : ∀ K : PUnit → sProp 𝕄,
      iprop(owns (c : Thread nD τ) (ms1_0 t) fullShare ((dat1 V c).after 0 t) ∗ owns (c : Thread nD τ) (ms1_1 t) fullShare ((dat1 V c).after 1 t) ∗ owns (c : Thread nD τ) (ms1_2 t) fullShare ((dat1 V c).after 2 t) ∗ owns (c : Thread nD τ) (ms1_3 t) fullShare ((dat1 V c).after 3 t)
          ∗ (∃ d, owns (c : Thread nD τ) (ms1_4 t) fullShare ((dat1 V c).before 4 t d)) ∗ S
          ∗ (iprop(owns (c : Thread nD τ) (ms1_0 t) fullShare ((dat1 V c).after 0 t) ∗ owns (c : Thread nD τ) (ms1_1 t) fullShare ((dat1 V c).after 1 t) ∗ owns (c : Thread nD τ) (ms1_2 t) fullShare ((dat1 V c).after 2 t) ∗ owns (c : Thread nD τ) (ms1_3 t) fullShare ((dat1 V c).after 3 t) ∗ Q4 ∗ SQ) -∗ K ⟨⟩))
        ⊢ wp frame (wpE (defs₀ (F := F)) Variants.none c none) Set.univ (cc1__agg_fused_kernel (grid1.coords t) (ms1_0 t) (hs1_0 t) (ms1_1 t) (hs1_1 t) (ms1_2 t) (hs1_2 t) (ms1_3 t) (hs1_3 t) (ms1_4 t) (hs1_4 t) scM1_0 (Memref.isWhole_whole _)) K) :
    iprop((dat1 V c).Φ t.castSucc ∗ (dat1 V c).owesAt () t.castSucc
        ∗ (∃ d, owns (c : Thread nD τ) (ms1_0 t) fullShare ((dat1 V c).before 0 t d)) ∗ (∃ d, owns (c : Thread nD τ) (ms1_1 t) fullShare ((dat1 V c).before 1 t d))
        ∗ (∃ d, owns (c : Thread nD τ) (ms1_2 t) fullShare ((dat1 V c).before 2 t d)) ∗ (∃ d, owns (c : Thread nD τ) (ms1_3 t) fullShare ((dat1 V c).before 3 t d))
        ∗ (∃ d, owns (c : Thread nD τ) (ms1_4 t) fullShare ((dat1 V c).before 4 t d)))
      ⊢ wp frame (wpE (defs₀ (F := F)) Variants.none c none) Set.univ (bodyAt1 t) fun _ => iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t ∗ (dat1 V c).leavesExact 4 t) := by
  simp only [(in1 V c t 0 (by decide)).1, (in1 V c t 1 (by decide)).1, (in1 V c t 2 (by decide)).1, (in1 V c t 3 (by decide)).1]
  rw [bodyAt1_eq, (in1 V c t 0 (by decide)).2, (in1 V c t 1 (by decide)).2, (in1 V c t 2 (by decide)).2, (in1 V c t 3 (by decide)).2,
    show (dat1 V c).owesAt () t.succ = (dat1 V c).owesAt () t.castSucc from rfl,
    show (dat1 V c).Φ t.succ = Inv1 c (owns (c : Thread nD τ) scM1_0 fullShare (acc1 V c t.val t.isLt)) from rfl]
  unfold Inv1
  iintro ⟨HΦ, Ho, ⟨%d0, H0⟩, ⟨%d1, H1⟩, ⟨%d2, H2⟩, ⟨%d3, H3⟩, H4⟩
  ihave HΦ' := hΦ $$ HΦ
  icases HΦ' with ⟨⟨HS, Hr⟩, Hg⟩
  iapply (run _)
  iframe H0 H1 H2 H3 H4 HS
  iintro ⟨H0, H1, H2, H3, H4, HS⟩
  ihave HS := hS $$ HS
  ihave H4 := h4 $$ H4
  iframe

set_option maxHeartbeats 1000000 in
/-- The body obligation: the point's contraction step says which of the three runs the body is. -/
theorem body_obligation1 (c : Dev nD) : BodyObligation (dat1 (F := F) V c) (defs₀ (F := F)) Variants.none () Set.univ := fun t => by
  rw [bigSep_W1, bigSep_W1]
  have hidle : ∀ hcL : ¬cond1_1 (grid1.coords t), (iprop(∃ d, owns (c : Thread nD τ) (ms1_4 t) fullShare ((dat1 V c).before 4 t d)) : sProp 𝕄) ⊢ (dat1 V c).leavesExact 4 t :=
    fun hcL => Entails.of_eq (Dat.leavesExact_idle (dat1 V c) 4 t (idleAt1_4 t hcL).1 (idleAt1_4 t hcL).2).symm
  by_cases h0 : t.val % 4 = 0
  · have hcF := (hcond1 t).1.mpr h0
    have hcL : ¬cond1_1 (grid1.coords t) := fun h => by have := (hcond1 t).2.mp h; omega
    exact frame1 V c t (Phi_out1 V c _) (owns_of_writes c fun f => (sacc1_A c _ _ _ _ hcF hcL f).trans (acc1_first V c t h0).symm) (hidle hcL)
      fun K => (kernelRun1_A c _ _ _ _ hcF hcL).2 _ K
  · have hcF : ¬cond1_0 (grid1.coords t) := fun h => h0 ((hcond1 t).1.mp h)
    have hΦ := Entails.of_eq (Phi1_pos V c t.castSucc fun e => h0 (by rw [show t.val = 0 from e]))
    by_cases h3 : t.val % 4 = 3
    · have hcL := (hcond1 t).2.mpr h3
      refine frame1 V c t hΦ (owns_of_writes c fun f => ((sres1_C c _ _ _ _ _ hcF hcL).1 f).trans (acc1_next V c t h0).symm) ?_
        fun K => (kernelRun1_C c _ _ _ _ _ hcF hcL).2.2 _ K
      rw [show (dat1 V c).leavesExact 4 t = owns (c : Thread nD τ) (ms1_4 t) fullShare ((dat1 V c).after 4 t) from by
        unfold Dat.leavesExact; rw [liveAt1 4 t (.inr hcL)]]
      exact owns_of_writes c fun f => ((sres1_C c _ _ _ _ _ hcF hcL).2 f).trans (by rw [after1_out V c t h3, acc1_next V c t h0] <;> rfl)
    · have hcL : ¬cond1_1 (grid1.coords t) := fun h => h3 ((hcond1 t).2.mp h)
      exact frame1 V c t hΦ (owns_of_writes c fun f => (sacc1_B c _ _ _ _ _ hcF hcL f).trans (acc1_next V c t h0).symm) (hidle hcL)
        fun K => (kernelRun1_B c _ _ _ _ (acc1 V c (t.val - 1) _) hcF hcL).2 _ K

end Cert.KernelIdeal.Hand

end
-- ==== Proof.KI.R2Runs.lean ====
import proofs.«427802_j60163901882525_3_alg».proof.Proof.KI.Owns
import proofs.«427802_j60163901882525_3_alg».proof.Proof.Gen.KernelIdeal.Launch
import proofs.«427802_j60163901882525_3_alg».proof.Proof.Gen.KernelIdeal.Skeleton
import proofs.«427802_j60163901882525_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two tests in closed form: the contraction coordinate is 0; it is the last one. -/
abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

/-- The contraction step of point t is t mod 4: the first test holds at step 0, the second at step 3. -/
theorem hcond2 : ∀ t : Fin cfg2.N, (cond2_0 (grid2.coords t) ↔ t.val % 4 = 0) ∧ (cond2_1 (grid2.coords t) ↔ t.val % 4 = 3) := by decide +kernel

theorem liveAt2 : ∀ (w : Fin cfg2.W) (t : Fin cfg2.N), w ≠ 4 ∨ cond2_1 (grid2.coords t) → cfg2.idle w (grid2.coords t) = false := by decide +kernel
theorem idleAt2_4 : ∀ t : Fin cfg2.N, ¬cond2_1 (grid2.coords t) → cfg2.idle 4 (grid2.coords t) = true ∧ (cfg2.win 4).flush t = false := by decide +kernel

abbrev ms2_0 (t : Fin cfg2.N) : Memref sig .tc .vmem S1280x2560 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10240x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1280x256 .bf16 := win2_4.stage (cfg2.slots t 4)
abbrev hs2_4 (t : Fin cfg2.N) : (ms2_4 t).IsWhole := hstage2_4 ((cfg2.slots t 4).cast nbuf2_4)

abbrev scM2_0 : Memref sig .tc .vmem S1280x256 .f32 := Memref.whole cc2_scratch0

/-- The region's invariant with the accumulator's assertion singled out. -/
abbrev Inv2 (c : Dev nD) (S : sProp 𝕄) : sProp 𝕄 :=
  iprop(iprop(S ∗ Pipeline.scopedRestBut (Ix := Unit) (Name := ℕ) (U := UR sig nD τ) (Lvl := ℕ) (Val := Elt F) spec2 c [cc2_scratch0]) ∗ (∃ r, prngReg c r))

theorem PhiA2_eq (c : Dev nD) :
    (Pipeline.ΦA spec2 c : sProp 𝕄)
      = Inv2 c iprop((∃ d, owns (c : Thread nD τ) scM2_0 fullShare d)) := by
  unfold Pipeline.ΦA; rw [scopedRest2_split]; simp only [scM2_0, owns_whole]; try rfl

variable (V : (c : Dev nD) → (b : Ref sig .tc) → Buf (Elt F) ((c : Thread nD τ).loc b))

/-- Window w's block at point t, read off its array's contents at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Cert.KernelIdeal.Hand

end
-- ==== Proof.KI.R2.lean ====
import proofs.«427802_j60163901882525_3_alg».proof.Proof.KI.R2Runs
import proofs.«427802_j60163901882525_3_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ablk2 (c : Dev nD) (t : Fin cfg2.N) : Vec F S1280x2560 .bf16 := iblk2 V c 0 t
abbrev bblk2 (c : Dev nD) (t : Fin cfg2.N) : Vec F S1x256 .f32 := iblk2 V c 2 t
abbrev wblk2 (c : Dev nD) (t : Fin cfg2.N) : Vec F S256x256 .bf16 := iblk2 V c 3 t

/-- The rows of the resident operand that point t's contraction step multiplies. -/
abbrev xwblk2 (c : Dev nD) (t : Fin cfg2.N) : Vec F S10240x256 .bf16 := iblk2 V c 1 t

def xwSlice2 (c : Dev nD) (t : Fin cfg2.N) : Vec F S2560x256 .bf16 := View.ld (xwblk2 V c t) (slice1 (grid2.coords t))

/-- The accumulator after point n: reset to the point's block product at a first contraction step, otherwise that product added to what the point before left. -/
def acc2 (c : Dev nD) : (n : ℕ) → n < cfg2.N → Vec F S1280x256 .f32
  | 0, hn => k1_pay2 (xwSlice2 V c ⟨0, hn⟩) (k1_pay1 (F := F)) (ablk2 V c ⟨0, hn⟩)
  | n + 1, hn =>
    if (n + 1) % 4 = 0 then k1_pay2 (xwSlice2 V c ⟨n + 1, hn⟩) (k1_pay1 (F := F)) (ablk2 V c ⟨n + 1, hn⟩)
    else k1_pay2 (xwSlice2 V c ⟨n + 1, hn⟩) (acc2 c n (Nat.lt_of_succ_lt hn)) (ablk2 V c ⟨n + 1, hn⟩)

theorem acc2_first (c : Dev nD) (t : Fin cfg2.N) (h : t.val % 4 = 0) :
    acc2 V c t.val t.isLt = k1_pay2 (xwSlice2 V c t) (k1_pay1 (F := F)) (iblk2 V c 0 t) := by
  obtain ⟨n, hn⟩ := t
  cases n with
  | zero => rfl
  | succ n => exact if_pos h

theorem acc2_next (c : Dev nD) (t : Fin cfg2.N) (h : ¬ t.val % 4 = 0) :
    acc2 V c t.val t.isLt = k1_pay2 (xwSlice2 V c t) (acc2 V c (t.val - 1) (Nat.lt_of_le_of_lt (Nat.sub_le _ _) t.isLt)) (iblk2 V c 0 t) := by
  obtain ⟨n, hn⟩ := t
  cases n with
  | zero => exact absurd (Nat.zero_mod 4) h
  | succ n => exact if_neg h

/-- Between points the accumulator is held at what the last point left; before the first point, at arbitrary contents. -/
def PhiS2 (c : Dev nD) : (n : ℕ) → n ≤ cfg2.N → sProp 𝕄
  | 0, _ => Pipeline.ΦA spec2 c
  | n + 1, hn => Inv2 c (owns (c : Thread nD τ) scM2_0 fullShare (acc2 V c n hn))

/-- The proof data: every input buffer is handed back at its block, the output buffer at the epilogue of the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k1_pay3 (grid2.coords t) (acc2 V c t.val t.isLt) (bblk2 V c t) (wblk2 V c t)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_out (c : Dev nD) (t : Fin cfg2.N) (h : t.val % 4 = 3) :
    (dat2 V c).after 4 t = k1_pay3 (grid2.coords t) (acc2 V c t.val t.isLt) (iblk2 V c 2 t) (iblk2 V c 3 t) := rfl

/-- Every input buffer holds its window's block, before the body and after it. -/
theorem in2 (c : Dev nD) (t : Fin cfg2.N) : ∀ w : Fin cfg2.W, w ≠ 4 →
    (∀ d, (dat2 V c).before w t d = (dat2 V c).after w t)
      ∧ (dat2 V c).leavesExact w t = owns (c : Thread nD τ) ((cfg2.win w).stage (cfg2.slots t w)) fullShare ((dat2 V c).after w t)
  | ⟨0, _⟩, hw | ⟨1, _⟩, hw | ⟨2, _⟩, hw | ⟨3, _⟩, hw =>
    ⟨fun d => ((dat2 V c).before_in_eq_fetched _ rfl (fun _ => rfl) (fun _ _ _ => rfl) (fun _ => rfl) t d).trans rfl,
      by unfold Dat.leavesExact; rw [liveAt2 _ t (.inl hw)] <;> rfl⟩
  | ⟨4, _⟩, h => absurd rfl h

/-- Before a point other than the first the accumulator is owned at what the point before left. -/
theorem Phi2_pos (c : Dev nD) : ∀ (t : Fin (cfg2.N + 1)) (hz : t.val ≠ 0),
    (dat2 V c).Φ t = Inv2 c (owns (c : Thread nD τ) scM2_0 fullShare (acc2 V c (t.val - 1) (by have := t.isLt; omega)))
  | ⟨0, _⟩, hz => absurd rfl hz
  | ⟨n + 1, _⟩, _ => rfl

/-- Every invariant entails the entry invariant: forget what the accumulator holds. -/
theorem Phi_out2 (c : Dev nD) : ∀ t : Fin (cfg2.N + 1), (dat2 V c).Φ t ⊢ Inv2 c iprop((∃ d, owns (c : Thread nD τ) scM2_0 fullShare d))
  | ⟨0, _⟩ => Entails.of_eq (PhiA2_eq c)
  | ⟨n + 1, h⟩ => by
    rw [Phi2_pos V c ⟨n + 1, h⟩ (Nat.succ_ne_zero n)]
    unfold Inv2
    iintro ⟨⟨HS0, Hr⟩, Hg⟩
    iframe Hr Hg
    iexists _; iexact HS0

theorem hin2 (c : Dev nD) : Pipeline.ΦA spec2 c ⊢ (dat2 V c).Φ 0 := Entails.of_eq rfl

theorem hout2 (c : Dev nD) : (dat2 V c).Φ (Fin.last cfg2.N) ⊢ Pipeline.ΦA spec2 c := by
  rw [PhiA2_eq]; exact Phi_out2 V c _

/-- The body at a point is the first layer's aggregation kernel on this region's buffers. -/
theorem bodyAt2_eq (t : Fin cfg2.N) : bodyAt2 (F := F) t = cc1__agg_fused_kernel (grid2.coords t) (ms2_0 t) (hs2_0 t) (ms2_1 t) (hs2_1 t) (ms2_2 t) (hs2_2 t) (ms2_3 t) (hs2_3 t) (ms2_4 t) (hs2_4 t) scM2_0 (Memref.isWhole_whole _) := rfl

/-- A body run on the five buffers and the accumulator yields the obligation at t: the rest of the invariant is framed. -/
theorem frame2 (c : Dev nD) (t : Fin cfg2.N) {S Q4 SQ : sProp 𝕄}
    (hΦ : (dat2 V c).Φ t.castSucc ⊢ Inv2 c S)
    (hS : SQ ⊢ owns (c : Thread nD τ) scM2_0 fullShare (acc2 V c t.val t.isLt))
    (h4 : Q4 ⊢ (dat2 V c).leavesExact 4 t)
    (run : ∀ K : PUnit → sProp 𝕄,
      iprop(owns (c : Thread nD τ) (ms2_0 t) fullShare ((dat2 V c).after 0 t) ∗ owns (c : Thread nD τ) (ms2_1 t) fullShare ((dat2 V c).after 1 t) ∗ owns (c : Thread nD τ) (ms2_2 t) fullShare ((dat2 V c).after 2 t) ∗ owns (c : Thread nD τ) (ms2_3 t) fullShare ((dat2 V c).after 3 t)
          ∗ (∃ d, owns (c : Thread nD τ) (ms2_4 t) fullShare ((dat2 V c).before 4 t d)) ∗ S
          ∗ (iprop(owns (c : Thread nD τ) (ms2_0 t) fullShare ((dat2 V c).after 0 t) ∗ owns (c : Thread nD τ) (ms2_1 t) fullShare ((dat2 V c).after 1 t) ∗ owns (c : Thread nD τ) (ms2_2 t) fullShare ((dat2 V c).after 2 t) ∗ owns (c : Thread nD τ) (ms2_3 t) fullShare ((dat2 V c).after 3 t) ∗ Q4 ∗ SQ) -∗ K ⟨⟩))
        ⊢ wp frame (wpE (defs₀ (F := F)) Variants.none c none) Set.univ (cc1__agg_fused_kernel (grid2.coords t) (ms2_0 t) (hs2_0 t) (ms2_1 t) (hs2_1 t) (ms2_2 t) (hs2_2 t) (ms2_3 t) (hs2_3 t) (ms2_4 t) (hs2_4 t) scM2_0 (Memref.isWhole_whole _)) K) :
    iprop((dat2 V c).Φ t.castSucc ∗ (dat2 V c).owesAt () t.castSucc
        ∗ (∃ d, owns (c : Thread nD τ) (ms2_0 t) fullShare ((dat2 V c).before 0 t d)) ∗ (∃ d, owns (c : Thread nD τ) (ms2_1 t) fullShare ((dat2 V c).before 1 t d))
        ∗ (∃ d, owns (c : Thread nD τ) (ms2_2 t) fullShare ((dat2 V c).before 2 t d)) ∗ (∃ d, owns (c : Thread nD τ) (ms2_3 t) fullShare ((dat2 V c).before 3 t d))
        ∗ (∃ d, owns (c : Thread nD τ) (ms2_4 t) fullShare ((dat2 V c).before 4 t d)))
      ⊢ wp frame (wpE (defs₀ (F := F)) Variants.none c none) Set.univ (bodyAt2 t) fun _ => iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t ∗ (dat2 V c).leavesExact 4 t) := by
  simp only [(in2 V c t 0 (by decide)).1, (in2 V c t 1 (by decide)).1, (in2 V c t 2 (by decide)).1, (in2 V c t 3 (by decide)).1]
  rw [bodyAt2_eq, (in2 V c t 0 (by decide)).2, (in2 V c t 1 (by decide)).2, (in2 V c t 2 (by decide)).2, (in2 V c t 3 (by decide)).2,
    show (dat2 V c).owesAt () t.succ = (dat2 V c).owesAt () t.castSucc from rfl,
    show (dat2 V c).Φ t.succ = Inv2 c (owns (c : Thread nD τ) scM2_0 fullShare (acc2 V c t.val t.isLt)) from rfl]
  unfold Inv2
  iintro ⟨HΦ, Ho, ⟨%d0, H0⟩, ⟨%d1, H1⟩, ⟨%d2, H2⟩, ⟨%d3, H3⟩, H4⟩
  ihave HΦ' := hΦ $$ HΦ
  icases HΦ' with ⟨⟨HS, Hr⟩, Hg⟩
  iapply (run _)
  iframe H0 H1 H2 H3 H4 HS
  iintro ⟨H0, H1, H2, H3, H4, HS⟩
  ihave HS := hS $$ HS
  ihave H4 := h4 $$ H4
  iframe

set_option maxHeartbeats 1000000 in
/-- The body obligation: the point's contraction step says which of the three runs the body is. -/
theorem body_obligation2 (c : Dev nD) : BodyObligation (dat2 (F := F) V c) (defs₀ (F := F)) Variants.none () Set.univ := fun t => by
  rw [bigSep_W2, bigSep_W2]
  have hidle : ∀ hcL : ¬cond2_1 (grid2.coords t), (iprop(∃ d, owns (c : Thread nD τ) (ms2_4 t) fullShare ((dat2 V c).before 4 t d)) : sProp 𝕄) ⊢ (dat2 V c).leavesExact 4 t :=
    fun hcL => Entails.of_eq (Dat.leavesExact_idle (dat2 V c) 4 t (idleAt2_4 t hcL).1 (idleAt2_4 t hcL).2).symm
  by_cases h0 : t.val % 4 = 0
  · have hcF := (hcond2 t).1.mpr h0
    have hcL : ¬cond2_1 (grid2.coords t) := fun h => by have := (hcond2 t).2.mp h; omega
    exact frame2 V c t (Phi_out2 V c _) (owns_of_writes c fun f => (sacc1_A c _ _ _ _ hcF hcL f).trans (acc2_first V c t h0).symm) (hidle hcL)
      fun K => (kernelRun1_A c _ _ _ _ hcF hcL).2 _ K
  · have hcF : ¬cond2_0 (grid2.coords t) := fun h => h0 ((hcond2 t).1.mp h)
    have hΦ := Entails.of_eq (Phi2_pos V c t.castSucc fun e => h0 (by rw [show t.val = 0 from e]))
    by_cases h3 : t.val % 4 = 3
    · have hcL := (hcond2 t).2.mpr h3
      refine frame2 V c t hΦ (owns_of_writes c fun f => ((sres1_C c _ _ _ _ _ hcF hcL).1 f).trans (acc2_next V c t h0).symm) ?_
        fun K => (kernelRun1_C c _ _ _ _ _ hcF hcL).2.2 _ K
      rw [show (dat2 V c).leavesExact 4 t = owns (c : Thread nD τ) (ms2_4 t) fullShare ((dat2 V c).after 4 t) from by
        unfold Dat.leavesExact; rw [liveAt2 4 t (.inr hcL)]]
      exact owns_of_writes c fun f => ((sres1_C c _ _ _ _ _ hcF hcL).2 f).trans (by rw [after2_out V c t h3, acc2_next V c t h0] <;> rfl)
    · have hcL : ¬cond2_1 (grid2.coords t) := fun h => h3 ((hcond2 t).2.mp h)
      exact frame2 V c t hΦ (owns_of_writes c fun f => (sacc1_B c _ _ _ _ _ hcF hcL f).trans (acc2_next V c t h0).symm) (hidle hcL)
        fun K => (kernelRun1_B c _ _ _ _ (acc2 V c (t.val - 1) _) hcF hcL).2 _ K

end Cert.KernelIdeal.Hand

end
-- ==== Proof.KI.R3Runs.lean ====
import proofs.«427802_j60163901882525_3_alg».proof.Proof.KI.Owns
import proofs.«427802_j60163901882525_3_alg».proof.Proof.Gen.KernelIdeal.Launch
import proofs.«427802_j60163901882525_3_alg».proof.Proof.Gen.KernelIdeal.Skeleton
import proofs.«427802_j60163901882525_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two tests in closed form: the contraction coordinate is 0; it is the last one. -/
abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

/-- The contraction step of point t is t mod 4: the first test holds at step 0, the second at step 3. -/
theorem hcond3 : ∀ t : Fin cfg3.N, (cond3_0 (grid3.coords t) ↔ t.val % 4 = 0) ∧ (cond3_1 (grid3.coords t) ↔ t.val % 4 = 3) := by decide +kernel

theorem liveAt3 : ∀ (w : Fin cfg3.W) (t : Fin cfg3.N), w ≠ 4 ∨ cond3_1 (grid3.coords t) → cfg3.idle w (grid3.coords t) = false := by decide +kernel
theorem idleAt3_4 : ∀ t : Fin cfg3.N, ¬cond3_1 (grid3.coords t) → cfg3.idle 4 (grid3.coords t) = true ∧ (cfg3.win 4).flush t = false := by decide +kernel

abbrev ms3_0 (t : Fin cfg3.N) : Memref sig .tc .vmem S1280x2560 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10240x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x256 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1280x256 .bf16 := win3_4.stage (cfg3.slots t 4)
abbrev hs3_4 (t : Fin cfg3.N) : (ms3_4 t).IsWhole := hstage3_4 ((cfg3.slots t 4).cast nbuf3_4)

abbrev scM3_0 : Memref sig .tc .vmem S1280x256 .f32 := Memref.whole cc3_scratch0

/-- The region's invariant with the accumulator's assertion singled out. -/
abbrev Inv3 (c : Dev nD) (S : sProp 𝕄) : sProp 𝕄 :=
  iprop(iprop(S ∗ Pipeline.scopedRestBut (Ix := Unit) (Name := ℕ) (U := UR sig nD τ) (Lvl := ℕ) (Val := Elt F) spec3 c [cc3_scratch0]) ∗ (∃ r, prngReg c r))

theorem PhiA3_eq (c : Dev nD) :
    (Pipeline.ΦA spec3 c : sProp 𝕄)
      = Inv3 c iprop((∃ d, owns (c : Thread nD τ) scM3_0 fullShare d)) := by
  unfold Pipeline.ΦA; rw [scopedRest3_split]; simp only [scM3_0, owns_whole]; try rfl

variable (V : (c : Dev nD) → (b : Ref sig .tc) → Buf (Elt F) ((c : Thread nD τ).loc b))

/-- Window w's block at point t, read off its array's contents at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Cert.KernelIdeal.Hand

end
-- ==== Proof.KI.R3.lean ====
import proofs.«427802_j60163901882525_3_alg».proof.Proof.KI.R3Runs
import proofs.«427802_j60163901882525_3_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ablk3 (c : Dev nD) (t : Fin cfg3.N) : Vec F S1280x2560 .bf16 := iblk3 V c 0 t
abbrev bblk3 (c : Dev nD) (t : Fin cfg3.N) : Vec F S1x256 .f32 := iblk3 V c 2 t
abbrev wblk3 (c : Dev nD) (t : Fin cfg3.N) : Vec F S256x256 .bf16 := iblk3 V c 3 t

/-- The rows of the resident operand that point t's contraction step multiplies. -/
abbrev xwblk3 (c : Dev nD) (t : Fin cfg3.N) : Vec F S10240x256 .bf16 := iblk3 V c 1 t

def xwSlice3 (c : Dev nD) (t : Fin cfg3.N) : Vec F S2560x256 .bf16 := View.ld (xwblk3 V c t) (slice1 (grid3.coords t))

/-- The accumulator after point n: reset to the point's block product at a first contraction step, otherwise that product added to what the point before left. -/
def acc3 (c : Dev nD) : (n : ℕ) → n < cfg3.N → Vec F S1280x256 .f32
  | 0, hn => k1_pay2 (xwSlice3 V c ⟨0, hn⟩) (k1_pay1 (F := F)) (ablk3 V c ⟨0, hn⟩)
  | n + 1, hn =>
    if (n + 1) % 4 = 0 then k1_pay2 (xwSlice3 V c ⟨n + 1, hn⟩) (k1_pay1 (F := F)) (ablk3 V c ⟨n + 1, hn⟩)
    else k1_pay2 (xwSlice3 V c ⟨n + 1, hn⟩) (acc3 c n (Nat.lt_of_succ_lt hn)) (ablk3 V c ⟨n + 1, hn⟩)

theorem acc3_first (c : Dev nD) (t : Fin cfg3.N) (h : t.val % 4 = 0) :
    acc3 V c t.val t.isLt = k1_pay2 (xwSlice3 V c t) (k1_pay1 (F := F)) (iblk3 V c 0 t) := by
  obtain ⟨n, hn⟩ := t
  cases n with
  | zero => rfl
  | succ n => exact if_pos h

theorem acc3_next (c : Dev nD) (t : Fin cfg3.N) (h : ¬ t.val % 4 = 0) :
    acc3 V c t.val t.isLt = k1_pay2 (xwSlice3 V c t) (acc3 V c (t.val - 1) (Nat.lt_of_le_of_lt (Nat.sub_le _ _) t.isLt)) (iblk3 V c 0 t) := by
  obtain ⟨n, hn⟩ := t
  cases n with
  | zero => exact absurd (Nat.zero_mod 4) h
  | succ n => exact if_neg h

/-- Between points the accumulator is held at what the last point left; before the first point, at arbitrary contents. -/
def PhiS3 (c : Dev nD) : (n : ℕ) → n ≤ cfg3.N → sProp 𝕄
  | 0, _ => Pipeline.ΦA spec3 c
  | n + 1, hn => Inv3 c (owns (c : Thread nD τ) scM3_0 fullShare (acc3 V c n hn))

/-- The proof data: every input buffer is handed back at its block, the output buffer at the epilogue of the accumulator. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k1_pay3 (grid3.coords t) (acc3 V c t.val t.isLt) (bblk3 V c t) (wblk3 V c t)
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_out (c : Dev nD) (t : Fin cfg3.N) (h : t.val % 4 = 3) :
    (dat3 V c).after 4 t = k1_pay3 (grid3.coords t) (acc3 V c t.val t.isLt) (iblk3 V c 2 t) (iblk3 V c 3 t) := rfl

/-- Every input buffer holds its window's block, before the body and after it. -/
theorem in3 (c : Dev nD) (t : Fin cfg3.N) : ∀ w : Fin cfg3.W, w ≠ 4 →
    (∀ d, (dat3 V c).before w t d = (dat3 V c).after w t)
      ∧ (dat3 V c).leavesExact w t = owns (c : Thread nD τ) ((cfg3.win w).stage (cfg3.slots t w)) fullShare ((dat3 V c).after w t)
  | ⟨0, _⟩, hw | ⟨1, _⟩, hw | ⟨2, _⟩, hw | ⟨3, _⟩, hw =>
    ⟨fun d => ((dat3 V c).before_in_eq_fetched _ rfl (fun _ => rfl) (fun _ _ _ => rfl) (fun _ => rfl) t d).trans rfl,
      by unfold Dat.leavesExact; rw [liveAt3 _ t (.inl hw)] <;> rfl⟩
  | ⟨4, _⟩, h => absurd rfl h

/-- Before a point other than the first the accumulator is owned at what the point before left. -/
theorem Phi3_pos (c : Dev nD) : ∀ (t : Fin (cfg3.N + 1)) (hz : t.val ≠ 0),
    (dat3 V c).Φ t = Inv3 c (owns (c : Thread nD τ) scM3_0 fullShare (acc3 V c (t.val - 1) (by have := t.isLt; omega)))
  | ⟨0, _⟩, hz => absurd rfl hz
  | ⟨n + 1, _⟩, _ => rfl

/-- Every invariant entails the entry invariant: forget what the accumulator holds. -/
theorem Phi_out3 (c : Dev nD) : ∀ t : Fin (cfg3.N + 1), (dat3 V c).Φ t ⊢ Inv3 c iprop((∃ d, owns (c : Thread nD τ) scM3_0 fullShare d))
  | ⟨0, _⟩ => Entails.of_eq (PhiA3_eq c)
  | ⟨n + 1, h⟩ => by
    rw [Phi3_pos V c ⟨n + 1, h⟩ (Nat.succ_ne_zero n)]
    unfold Inv3
    iintro ⟨⟨HS0, Hr⟩, Hg⟩
    iframe Hr Hg
    iexists _; iexact HS0

theorem hin3 (c : Dev nD) : Pipeline.ΦA spec3 c ⊢ (dat3 V c).Φ 0 := Entails.of_eq rfl

theorem hout3 (c : Dev nD) : (dat3 V c).Φ (Fin.last cfg3.N) ⊢ Pipeline.ΦA spec3 c := by
  rw [PhiA3_eq]; exact Phi_out3 V c _

/-- The body at a point is the first layer's aggregation kernel on this region's buffers. -/
theorem bodyAt3_eq (t : Fin cfg3.N) : bodyAt3 (F := F) t = cc1__agg_fused_kernel (grid3.coords t) (ms3_0 t) (hs3_0 t) (ms3_1 t) (hs3_1 t) (ms3_2 t) (hs3_2 t) (ms3_3 t) (hs3_3 t) (ms3_4 t) (hs3_4 t) scM3_0 (Memref.isWhole_whole _) := rfl

/-- A body run on the five buffers and the accumulator yields the obligation at t: the rest of the invariant is framed. -/
theorem frame3 (c : Dev nD) (t : Fin cfg3.N) {S Q4 SQ : sProp 𝕄}
    (hΦ : (dat3 V c).Φ t.castSucc ⊢ Inv3 c S)
    (hS : SQ ⊢ owns (c : Thread nD τ) scM3_0 fullShare (acc3 V c t.val t.isLt))
    (h4 : Q4 ⊢ (dat3 V c).leavesExact 4 t)
    (run : ∀ K : PUnit → sProp 𝕄,
      iprop(owns (c : Thread nD τ) (ms3_0 t) fullShare ((dat3 V c).after 0 t) ∗ owns (c : Thread nD τ) (ms3_1 t) fullShare ((dat3 V c).after 1 t) ∗ owns (c : Thread nD τ) (ms3_2 t) fullShare ((dat3 V c).after 2 t) ∗ owns (c : Thread nD τ) (ms3_3 t) fullShare ((dat3 V c).after 3 t)
          ∗ (∃ d, owns (c : Thread nD τ) (ms3_4 t) fullShare ((dat3 V c).before 4 t d)) ∗ S
          ∗ (iprop(owns (c : Thread nD τ) (ms3_0 t) fullShare ((dat3 V c).after 0 t) ∗ owns (c : Thread nD τ) (ms3_1 t) fullShare ((dat3 V c).after 1 t) ∗ owns (c : Thread nD τ) (ms3_2 t) fullShare ((dat3 V c).after 2 t) ∗ owns (c : Thread nD τ) (ms3_3 t) fullShare ((dat3 V c).after 3 t) ∗ Q4 ∗ SQ) -∗ K ⟨⟩))
        ⊢ wp frame (wpE (defs₀ (F := F)) Variants.none c none) Set.univ (cc1__agg_fused_kernel (grid3.coords t) (ms3_0 t) (hs3_0 t) (ms3_1 t) (hs3_1 t) (ms3_2 t) (hs3_2 t) (ms3_3 t) (hs3_3 t) (ms3_4 t) (hs3_4 t) scM3_0 (Memref.isWhole_whole _)) K) :
    iprop((dat3 V c).Φ t.castSucc ∗ (dat3 V c).owesAt () t.castSucc
        ∗ (∃ d, owns (c : Thread nD τ) (ms3_0 t) fullShare ((dat3 V c).before 0 t d)) ∗ (∃ d, owns (c : Thread nD τ) (ms3_1 t) fullShare ((dat3 V c).before 1 t d))
        ∗ (∃ d, owns (c : Thread nD τ) (ms3_2 t) fullShare ((dat3 V c).before 2 t d)) ∗ (∃ d, owns (c : Thread nD τ) (ms3_3 t) fullShare ((dat3 V c).before 3 t d))
        ∗ (∃ d, owns (c : Thread nD τ) (ms3_4 t) fullShare ((dat3 V c).before 4 t d)))
      ⊢ wp frame (wpE (defs₀ (F := F)) Variants.none c none) Set.univ (bodyAt3 t) fun _ => iprop((dat3 V c).Φ t.succ ∗ (dat3 V c).owesAt () t.succ
        ∗ (dat3 V c).leavesExact 0 t ∗ (dat3 V c).leavesExact 1 t ∗ (dat3 V c).leavesExact 2 t ∗ (dat3 V c).leavesExact 3 t ∗ (dat3 V c).leavesExact 4 t) := by
  simp only [(in3 V c t 0 (by decide)).1, (in3 V c t 1 (by decide)).1, (in3 V c t 2 (by decide)).1, (in3 V c t 3 (by decide)).1]
  rw [bodyAt3_eq, (in3 V c t 0 (by decide)).2, (in3 V c t 1 (by decide)).2, (in3 V c t 2 (by decide)).2, (in3 V c t 3 (by decide)).2,
    show (dat3 V c).owesAt () t.succ = (dat3 V c).owesAt () t.castSucc from rfl,
    show (dat3 V c).Φ t.succ = Inv3 c (owns (c : Thread nD τ) scM3_0 fullShare (acc3 V c t.val t.isLt)) from rfl]
  unfold Inv3
  iintro ⟨HΦ, Ho, ⟨%d0, H0⟩, ⟨%d1, H1⟩, ⟨%d2, H2⟩, ⟨%d3, H3⟩, H4⟩
  ihave HΦ' := hΦ $$ HΦ
  icases HΦ' with ⟨⟨HS, Hr⟩, Hg⟩
  iapply (run _)
  iframe H0 H1 H2 H3 H4 HS
  iintro ⟨H0, H1, H2, H3, H4, HS⟩
  ihave HS := hS $$ HS
  ihave H4 := h4 $$ H4
  iframe

set_option maxHeartbeats 1000000 in
/-- The body obligation: the point's contraction step says which of the three runs the body is. -/
theorem body_obligation3 (c : Dev nD) : BodyObligation (dat3 (F := F) V c) (defs₀ (F := F)) Variants.none () Set.univ := fun t => by
  rw [bigSep_W3, bigSep_W3]
  have hidle : ∀ hcL : ¬cond3_1 (grid3.coords t), (iprop(∃ d, owns (c : Thread nD τ) (ms3_4 t) fullShare ((dat3 V c).before 4 t d)) : sProp 𝕄) ⊢ (dat3 V c).leavesExact 4 t :=
    fun hcL => Entails.of_eq (Dat.leavesExact_idle (dat3 V c) 4 t (idleAt3_4 t hcL).1 (idleAt3_4 t hcL).2).symm
  by_cases h0 : t.val % 4 = 0
  · have hcF := (hcond3 t).1.mpr h0
    have hcL : ¬cond3_1 (grid3.coords t) := fun h => by have := (hcond3 t).2.mp h; omega
    exact frame3 V c t (Phi_out3 V c _) (owns_of_writes c fun f => (sacc1_A c _ _ _ _ hcF hcL f).trans (acc3_first V c t h0).symm) (hidle hcL)
      fun K => (kernelRun1_A c _ _ _ _ hcF hcL).2 _ K
  · have hcF : ¬cond3_0 (grid3.coords t) := fun h => h0 ((hcond3 t).1.mp h)
    have hΦ := Entails.of_eq (Phi3_pos V c t.castSucc fun e => h0 (by rw [show t.val = 0 from e]))
    by_cases h3 : t.val % 4 = 3
    · have hcL := (hcond3 t).2.mpr h3
      refine frame3 V c t hΦ (owns_of_writes c fun f => ((sres1_C c _ _ _ _ _ hcF hcL).1 f).trans (acc3_next V c t h0).symm) ?_
        fun K => (kernelRun1_C c _ _ _ _ _ hcF hcL).2.2 _ K
      rw [show (dat3 V c).leavesExact 4 t = owns (c : Thread nD τ) (ms3_4 t) fullShare ((dat3 V c).after 4 t) from by
        unfold Dat.leavesExact; rw [liveAt3 4 t (.inr hcL)]]
      exact owns_of_writes c fun f => ((sres1_C c _ _ _ _ _ hcF hcL).2 f).trans (by rw [after3_out V c t h3, acc3_next V c t h0] <;> rfl)
    · have hcL : ¬cond3_1 (grid3.coords t) := fun h => h3 ((hcond3 t).2.mp h)
      exact frame3 V c t hΦ (owns_of_writes c fun f => (sacc1_B c _ _ _ _ _ hcF hcL f).trans (acc3_next V c t h0).symm) (hidle hcL)
        fun K => (kernelRun1_B c _ _ _ _ (acc3 V c (t.val - 1) _) hcF hcL).2 _ K

end Cert.KernelIdeal.Hand

end
-- ==== Proof.KI.R4Runs.lean ====
import proofs.«427802_j60163901882525_3_alg».proof.Proof.KI.Owns
import proofs.«427802_j60163901882525_3_alg».proof.Proof.Gen.KernelIdeal.Launch
import proofs.«427802_j60163901882525_3_alg».proof.Proof.Gen.KernelIdeal.Skeleton
import proofs.«427802_j60163901882525_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two tests in closed form: the contraction coordinate is 0; it is the last one. -/
abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1

/-- The contraction step of point t is t mod 4: the first test holds at step 0, the second at step 3. -/
theorem hcond4 : ∀ t : Fin cfg4.N, (cond4_0 (grid4.coords t) ↔ t.val % 4 = 0) ∧ (cond4_1 (grid4.coords t) ↔ t.val % 4 = 3) := by decide +kernel

theorem liveAt4 : ∀ (w : Fin cfg4.W) (t : Fin cfg4.N), w ≠ 4 ∨ cond4_1 (grid4.coords t) → cfg4.idle w (grid4.coords t) = false := by decide +kernel
theorem idleAt4_4 : ∀ t : Fin cfg4.N, ¬cond4_1 (grid4.coords t) → cfg4.idle 4 (grid4.coords t) = true ∧ (cfg4.win 4).flush t = false := by decide +kernel

abbrev ms4_0 (t : Fin cfg4.N) : Memref sig .tc .vmem S1280x2560 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10240x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x128 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1280x128 .bf16 := win4_4.stage (cfg4.slots t 4)
abbrev hs4_4 (t : Fin cfg4.N) : (ms4_4 t).IsWhole := hstage4_4 ((cfg4.slots t 4).cast nbuf4_4)

abbrev scM4_0 : Memref sig .tc .vmem S1280x256 .f32 := Memref.whole cc4_scratch0

/-- The region's invariant with the accumulator's assertion singled out. -/
abbrev Inv4 (c : Dev nD) (S : sProp 𝕄) : sProp 𝕄 :=
  iprop(iprop(S ∗ Pipeline.scopedRestBut (Ix := Unit) (Name := ℕ) (U := UR sig nD τ) (Lvl := ℕ) (Val := Elt F) spec4 c [cc4_scratch0]) ∗ (∃ r, prngReg c r))

theorem PhiA4_eq (c : Dev nD) :
    (Pipeline.ΦA spec4 c : sProp 𝕄)
      = Inv4 c iprop((∃ d, owns (c : Thread nD τ) scM4_0 fullShare d)) := by
  unfold Pipeline.ΦA; rw [scopedRest4_split]; simp only [scM4_0, owns_whole]; try rfl

variable (V : (c : Dev nD) → (b : Ref sig .tc) → Buf (Elt F) ((c : Thread nD τ).loc b))

/-- Window w's block at point t, read off its array's contents at the region's entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

end Cert.KernelIdeal.Hand

end
-- ==== Proof.KI.R4Body.lean ====
/- S1280x256
=
  S1280x128
 -/
import proofs.«427802_j60163901882525_3_alg».proof.Proof.KI.R4Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

/-- The rows of the resident operand that a point's contraction step reads. -/
abbrev slice4 (i : grid4.Coords) : Rect S10240x256 := Rect.unit (s := S10240x256) (k4_off1 i) S2560x256.size (k4_off1_inb i)

/-- The output block's shape. -/
abbrev SO4 : Shape :=
  S1280x128

variable (c : Dev nD) {i : grid4.Coords} {arg2 : Memref sig .tc .vmem S1280x2560 .bf16} {harg2 : arg2.IsWhole}
  {arg3 : Memref sig .tc .vmem S10240x256 .bf16} {harg3 : arg3.IsWhole} {arg4 : Memref sig .tc .vmem S1x256 .f32} {harg4 : arg4.IsWhole}
  {arg5 : Memref sig .tc .vmem S256x128 .bf16} {harg5 : arg5.IsWhole} {arg6 : Memref sig .tc .vmem S1280x128 .bf16} {harg6 : arg6.IsWhole}
  {arg7 : Memref sig .tc .vmem S1280x256 .f32} {harg7 : arg7.IsWhole}
  (xa : Vec F S1280x2560 .bf16) (xb : Vec F S10240x256 .bf16) (xc : Vec F S1x256 .f32) (xd : Vec F S256x128 .bf16) (xs0 : Vec F S1280x256 .f32)

set_option maxHeartbeats 4000000 in
/-- The body at a first contraction step, framed by `R` (the output buffer is not touched); the witness is the pieces it writes to the
    accumulator, which enters at anything. -/
noncomputable def kernelRun4_A (hcF : cond4_0 i) (hcL : ¬cond4_1 i) :
    { LS0 : List (View.Piece (Elt F) S1280x256 .f32) // ∀ (R : sProp 𝕄) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ R ∗ (∃ d, owns (c : Thread nD τ) arg7 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ R ∗ (∃ f, arg7.view.loc (c : Thread nD τ) ↦[arg7.view.set]{fullShare} arg7.view.writes (Elt F) f LS0)) -∗ K ⟨⟩))
          ⊢ wp frame (wpE (defs₀ (F := F)) Variants.none c none) Set.univ (cc4__agg_fused_kernel i arg2 harg2 arg3 harg3 arg4 harg4 arg5 harg5 arg6 harg6 arg7 harg7) K } := by
  refine ⟨?_, fun R K => ?run⟩
  case run =>
    rw [owns_eq_unread c harg2, owns_eq_unread c harg3, owns_eq_unread c harg4, owns_eq_unread c harg5]
    simp only [cc4__agg_fused_kernel_eq_skeleton]; unfold cc4__agg_fused_kernel_skel; unfold owns
    iintro ⟨Ha, Hb, Hc, Hd, HR, ⟨%ds0, %fs0, -, HS0⟩, Hk⟩
    sl_exec (disch := first | exact hcF | exact hcL)
    sl_step
    iapply Hk
    iframe Ha Hb Hc Hd HR
    iexists _; iexact HS0

/-- Its stores tile the accumulator, which is left at the block product added to zero. -/
theorem sacc4_A (hcF : cond4_0 i) (hcL : ¬cond4_1 i) (f : arg7.view.ty.Contents (Elt F)) :
    arg7.view.read (Elt F) (arg7.view.writes (Elt F) f (kernelRun4_A c (harg2 := harg2) (harg3 := harg3) (harg4 := harg4) (harg5 := harg5) (harg6 := harg6) (harg7 := harg7) xa xb xc xd hcF hcL).1)
      = k4_pay2 (View.ld xb (slice4 i)) (k4_pay1 (F := F)) xa := by
  refine (View.read_writes_eq_canon _ _ _ (View.cover_of_tiledL _ S1280x256.size ?_)).trans ?_
  · sl_kernel_rfl
  unfold kernelRun4_A
  dsimp only
  sl_unfold_words
  rw [View.canon_cons_unit_zero (S := S1280x256) hz4, View.readCov_unit_zero (S := S1280x256) _ hz4]
  (simp only [View.readAt_eq_ld, harg2.read_unread, harg3.read_unread, View.ld_unit_zero (S := S1280x2560) hz4]) <;> rfl

set_option maxHeartbeats 4000000 in
/-- The body at a middle contraction step: the accumulator enters at `xs0`. -/
noncomputable def kernelRun4_B (hcF : ¬cond4_0 i) (hcL : ¬cond4_1 i) :
    { LS0 : List (View.Piece (Elt F) S1280x256 .f32) // ∀ (R : sProp 𝕄) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ R ∗ owns (c : Thread nD τ) arg7 fullShare xs0
            ∗ (iprop(owns (c : Thread nD τ) arg2 fullShare xa ∗ owns (c : Thread nD τ) arg3 fullShare xb ∗ owns (c : Thread nD τ) arg4 fullShare xc ∗ owns (c : Thread nD τ) arg5 fullShare xd ∗ R ∗ (∃ f, arg7.view.loc (c : Thread nD τ) ↦[arg7.view.set]{fullShare} arg7.view.writes (Elt F) f LS0)) -∗ K ⟨⟩))
          ⊢ wp frame (wpE (defs₀ (F := F)) Variants.none c none) Set.univ (cc4__agg_fused_kernel i arg2 harg2 arg3 harg3 arg4 harg4 arg5 harg5 arg6 harg6 arg7 harg7) K } := by
  refine ⟨?_, fun R K => ?run⟩
  case run =>
    rw [owns_eq_unread c harg2, owns_eq_unread c harg3, owns_eq_unread c harg4, owns_eq_unread c harg5, owns_eq_unread c harg7]
    simp only [cc4__agg_fused_kernel_eq_skeleton]; unfold cc4__agg_fused_kernel_skel
    iintro ⟨Ha, Hb, Hc, Hd, HR, HS0, Hk⟩
    sl_exec (disch := first | exact hcF | exact hcL)
    sl_step
    iapply Hk
    iframe Ha Hb Hc Hd HR
    iexists _; iexact HS0

/-- Its store covers the accumulator, left at the block product added to what it held. -/
theorem sacc4_B (hcF : ¬cond4_0 i) (hcL : ¬cond4_1 i) (f : arg7.view.ty.Contents (Elt F)) :
    arg7.view.read (Elt F) (arg7.view.writes (Elt F) f (kernelRun4_B c (harg2 := harg2) (harg3 := harg3) (harg4 := harg4) (harg5 := harg5) (harg6 := harg6) (harg7 := harg7) xa xb xc xd xs0 hcF hcL).1)
      = k4_pay2 (View.ld xb (slice4 i)) xs0 xa := by
  refine (View.read_writes_eq_canon _ _ _ (View.cover_of_tiledL _ S1280x256.size ?_)).trans ?_
  · sl_kernel_rfl
  unfold kernelRun4_B
  dsimp only
  sl_unfold_words
  rw [View.canon_unit_zero (S := S1280x256) hz4]
  (simp only [View.readAt_eq_ld, harg2.read_unread, harg3.read_unread, harg7.read_unread, View.ld_unit_zero (S := S1280x2560) hz4, View.ld_unit_zero (S := S1280x256) hz4]) <;> rfl

set_option maxHeartbeats 4000000 in
/-- The body at a last contraction step; the output buffer enters at any member of a family `g`, and the witnesses are the pieces
    written to it and to the accumulator. -/
noncomputable def kernelRun4_C (hcF : ¬cond4_0 i) (hcL : cond4_1 i) :
    Σ' (L4 : List (View.Piece (Elt F) S1280x128 .bf16)), { LS0 : List (View.Piece (Elt F) S1280x256 .f32) //
      ∀ {D : Type} (g : D → Vec F S1280x128 .bf16) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ (∃ d, owns (c : Thread nD τ) arg6 fullShare (g d)) ∗ owns (c : Thread nD τ) arg7 fullShare xs0
            ∗ (iprop(owns (c : Thread nD τ) arg2 fullShare xa ∗ owns (c : Thread nD τ) arg3 fullShare xb ∗ owns (c : Thread nD τ) arg4 fullShare xc ∗ owns (c : Thread nD τ) arg5 fullShare xd ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) Set.univ (cc4__agg_fused_kernel i arg2 harg2 arg3 harg3 arg4 harg4 arg5 harg5 arg6 harg6 arg7 harg7) K } := by
  refine ⟨?_, ?_, fun g K => ?run⟩
  case run =>
    rw [owns_eq_unread c harg2, owns_eq_unread c harg3, owns_eq_unread c harg4, owns_eq_unread c harg5, owns_eq_unread c harg7]
    simp only [cc4__agg_fused_kernel_eq_skeleton]; unfold cc4__agg_fused_kernel_skel; unfold owns
    iintro ⟨Ha, Hb, Hc, Hd, ⟨%de, %fe, -, He⟩, HS0, Hk⟩
    sl_exec (disch := first | exact hcF | exact hcL)
    sl_step
    iapply Hk
    iframe Ha Hb Hc Hd
    isplitl [He]; · iexists _; iexact He
    iexists _; iexact HS0

/-- Each of its two stores covers its buffer: the accumulator as at a middle step, the output block the epilogue of the finished
    accumulator, the bias and the next weights. -/
theorem sres4_C (hcF : ¬cond4_0 i) (hcL : cond4_1 i) :
    (∀ f, arg7.view.read (Elt F) (arg7.view.writes (Elt F) f (kernelRun4_C c (harg2 := harg2) (harg3 := harg3) (harg4 := harg4) (harg5 := harg5) (harg6 := harg6) (harg7 := harg7) xa xb xc xd xs0 hcF hcL).2.1) = k4_pay2 (View.ld xb (slice4 i)) xs0 xa)
      ∧ ∀ f, arg6.view.read (Elt F) (arg6.view.writes (Elt F) f (kernelRun4_C c (harg2 := harg2) (harg3 := harg3) (harg4 := harg4) (harg5 := harg5) (harg6 := harg6) (harg7 := harg7) xa xb xc xd xs0 hcF hcL).1)
          = k4_pay3 i (k4_pay2 (View.ld xb (slice4 i)) xs0 xa) xc xd := by
  constructor <;> intro f
  · refine (View.read_writes_eq_canon _ _ _ (View.cover_of_tiledL _ S1280x256.size (by sl_kernel_rfl))).trans ?_
    unfold kernelRun4_C
    dsimp only
    sl_unfold_words
    rw [View.canon_unit_zero (S := S1280x256) hz4]
    (simp only [View.readCov_unit_zero (S := S1280x256) _ hz4, View.readAt_eq_ld, harg2.read_unread, harg3.read_unread, harg4.read_unread, harg5.read_unread, harg7.read_unread,
      View.ld_unit_zero (S := S1280x2560) hz4, View.ld_unit_zero (S := S1280x256) hz4, View.ld_unit_zero (S := S1x256) hz4, View.ld_unit_zero (S := S256x128) hz4]) <;> rfl
  · refine (View.read_writes_eq_canon _ _ _ (View.cover_of_tiledL _ SO4.size (by sl_kernel_rfl))).trans ?_
    unfold kernelRun4_C
    dsimp only
    sl_unfold_words
    rw [View.canon_unit_zero (S := SO4) hz4]
    (simp only [View.readCov_unit_zero (S := S1280x256) _ hz4, View.readAt_eq_ld, harg2.read_unread, harg3.read_unread, harg4.read_unread, harg5.read_unread, harg7.read_unread,
      View.ld_unit_zero (S := S1280x2560) hz4, View.ld_unit_zero (S := S1280x256) hz4, View.ld_unit_zero (S := S1x256) hz4, View.ld_unit_zero (S := S256x128) hz4]) <;> rfl

end Cert.KernelIdeal.Hand

end
-- ==== Proof.KI.R4.lean ====
/- S1280x256
=
  S1280x128
 -/
import proofs.«427802_j60163901882525_3_alg».proof.Proof.KI.R4Runs
import proofs.«427802_j60163901882525_3_alg».proof.Proof.KI.R4Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ablk4 (c : Dev nD) (t : Fin cfg4.N) : Vec F S1280x2560 .bf16 := iblk4 V c 0 t
abbrev bblk4 (c : Dev nD) (t : Fin cfg4.N) : Vec F S1x256 .f32 := iblk4 V c 2 t
abbrev wblk4 (c : Dev nD) (t : Fin cfg4.N) : Vec F S256x128 .bf16 := iblk4 V c 3 t

/-- The rows of the resident operand that point t's contraction step multiplies. -/
abbrev xwblk4 (c : Dev nD) (t : Fin cfg4.N) : Vec F S10240x256 .bf16 := iblk4 V c 1 t

def xwSlice4 (c : Dev nD) (t : Fin cfg4.N) : Vec F S2560x256 .bf16 := View.ld (xwblk4 V c t) (slice4 (grid4.coords t))

/-- The accumulator after point n: reset to the point's block product at a first contraction step, otherwise that product added to what the point before left. -/
def acc4 (c : Dev nD) : (n : ℕ) → n < cfg4.N → Vec F S1280x256 .f32
  | 0, hn => k4_pay2 (xwSlice4 V c ⟨0, hn⟩) (k4_pay1 (F := F)) (ablk4 V c ⟨0, hn⟩)
  | n + 1, hn =>
    if (n + 1) % 4 = 0 then k4_pay2 (xwSlice4 V c ⟨n + 1, hn⟩) (k4_pay1 (F := F)) (ablk4 V c ⟨n + 1, hn⟩)
    else k4_pay2 (xwSlice4 V c ⟨n + 1, hn⟩) (acc4 c n (Nat.lt_of_succ_lt hn)) (ablk4 V c ⟨n + 1, hn⟩)

theorem acc4_first (c : Dev nD) (t : Fin cfg4.N) (h : t.val % 4 = 0) :
    acc4 V c t.val t.isLt = k4_pay2 (xwSlice4 V c t) (k4_pay1 (F := F)) (iblk4 V c 0 t) := by
  obtain ⟨n, hn⟩ := t
  cases n with
  | zero => rfl
  | succ n => exact if_pos h

theorem acc4_next (c : Dev nD) (t : Fin cfg4.N) (h : ¬ t.val % 4 = 0) :
    acc4 V c t.val t.isLt = k4_pay2 (xwSlice4 V c t) (acc4 V c (t.val - 1) (Nat.lt_of_le_of_lt (Nat.sub_le _ _) t.isLt)) (iblk4 V c 0 t) := by
  obtain ⟨n, hn⟩ := t
  cases n with
  | zero => exact absurd (Nat.zero_mod 4) h
  | succ n => exact if_neg h

/-- Between points the accumulator is held at what the last point left; before the first point, at arbitrary contents. -/
def PhiS4 (c : Dev nD) : (n : ℕ) → n ≤ cfg4.N → sProp 𝕄
  | 0, _ => Pipeline.ΦA spec4 c
  | n + 1, hn => Inv4 c (owns (c : Thread nD τ) scM4_0 fullShare (acc4 V c n hn))

/-- The proof data: every input buffer is handed back at its block, the output buffer at the epilogue of the accumulator. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (grid4.coords t) (acc4 V c t.val t.isLt) (bblk4 V c t) (wblk4 V c t)
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_out (c : Dev nD) (t : Fin cfg4.N) (h : t.val % 4 = 3) :
    (dat4 V c).after 4 t = k4_pay3 (grid4.coords t) (acc4 V c t.val t.isLt) (iblk4 V c 2 t) (iblk4 V c 3 t) := rfl

/-- Every input buffer holds its window's block, before the body and after it. -/
theorem in4 (c : Dev nD) (t : Fin cfg4.N) : ∀ w : Fin cfg4.W, w ≠ 4 →
    (∀ d, (dat4 V c).before w t d = (dat4 V c).after w t)
      ∧ (dat4 V c).leavesExact w t = owns (c : Thread nD τ) ((cfg4.win w).stage (cfg4.slots t w)) fullShare ((dat4 V c).after w t)
  | ⟨0, _⟩, hw | ⟨1, _⟩, hw | ⟨2, _⟩, hw | ⟨3, _⟩, hw =>
    ⟨fun d => ((dat4 V c).before_in_eq_fetched _ rfl (fun _ => rfl) (fun _ _ _ => rfl) (fun _ => rfl) t d).trans rfl,
      by unfold Dat.leavesExact; rw [liveAt4 _ t (.inl hw)] <;> rfl⟩
  | ⟨4, _⟩, h => absurd rfl h

/-- Before a point other than the first the accumulator is owned at what the point before left. -/
theorem Phi4_pos (c : Dev nD) : ∀ (t : Fin (cfg4.N + 1)) (hz : t.val ≠ 0),
    (dat4 V c).Φ t = Inv4 c (owns (c : Thread nD τ) scM4_0 fullShare (acc4 V c (t.val - 1) (by have := t.isLt; omega)))
  | ⟨0, _⟩, hz => absurd rfl hz
  | ⟨n + 1, _⟩, _ => rfl

/-- Every invariant entails the entry invariant: forget what the accumulator holds. -/
theorem Phi_out4 (c : Dev nD) : ∀ t : Fin (cfg4.N + 1), (dat4 V c).Φ t ⊢ Inv4 c iprop((∃ d, owns (c : Thread nD τ) scM4_0 fullShare d))
  | ⟨0, _⟩ => Entails.of_eq (PhiA4_eq c)
  | ⟨n + 1, h⟩ => by
    rw [Phi4_pos V c ⟨n + 1, h⟩ (Nat.succ_ne_zero n)]
    unfold Inv4
    iintro ⟨⟨HS0, Hr⟩, Hg⟩
    iframe Hr Hg
    iexists _; iexact HS0

theorem hin4 (c : Dev nD) : Pipeline.ΦA spec4 c ⊢ (dat4 V c).Φ 0 := Entails.of_eq rfl

theorem hout4 (c : Dev nD) : (dat4 V c).Φ (Fin.last cfg4.N) ⊢ Pipeline.ΦA spec4 c := by
  rw [PhiA4_eq]; exact Phi_out4 V c _

/-- The body at a point is the first layer's aggregation kernel on this region's buffers. -/
theorem bodyAt4_eq (t : Fin cfg4.N) : bodyAt4 (F := F) t = cc4__agg_fused_kernel (grid4.coords t) (ms4_0 t) (hs4_0 t) (ms4_1 t) (hs4_1 t) (ms4_2 t) (hs4_2 t) (ms4_3 t) (hs4_3 t) (ms4_4 t) (hs4_4 t) scM4_0 (Memref.isWhole_whole _) := rfl

/-- A body run on the five buffers and the accumulator yields the obligation at t: the rest of the invariant is framed. -/
theorem frame4 (c : Dev nD) (t : Fin cfg4.N) {S Q4 SQ : sProp 𝕄}
    (hΦ : (dat4 V c).Φ t.castSucc ⊢ Inv4 c S)
    (hS : SQ ⊢ owns (c : Thread nD τ) scM4_0 fullShare (acc4 V c t.val t.isLt))
    (h4 : Q4 ⊢ (dat4 V c).leavesExact 4 t)
    (run : ∀ K : PUnit → sProp 𝕄,
      iprop(owns (c : Thread nD τ) (ms4_0 t) fullShare ((dat4 V c).after 0 t) ∗ owns (c : Thread nD τ) (ms4_1 t) fullShare ((dat4 V c).after 1 t) ∗ owns (c : Thread nD τ) (ms4_2 t) fullShare ((dat4 V c).after 2 t) ∗ owns (c : Thread nD τ) (ms4_3 t) fullShare ((dat4 V c).after 3 t)
          ∗ (∃ d, owns (c : Thread nD τ) (ms4_4 t) fullShare ((dat4 V c).before 4 t d)) ∗ S
          ∗ (iprop(owns (c : Thread nD τ) (ms4_0 t) fullShare ((dat4 V c).after 0 t) ∗ owns (c : Thread nD τ) (ms4_1 t) fullShare ((dat4 V c).after 1 t) ∗ owns (c : Thread nD τ) (ms4_2 t) fullShare ((dat4 V c).after 2 t) ∗ owns (c : Thread nD τ) (ms4_3 t) fullShare ((dat4 V c).after 3 t) ∗ Q4 ∗ SQ) -∗ K ⟨⟩))
        ⊢ wp frame (wpE (defs₀ (F := F)) Variants.none c none) Set.univ (cc4__agg_fused_kernel (grid4.coords t) (ms4_0 t) (hs4_0 t) (ms4_1 t) (hs4_1 t) (ms4_2 t) (hs4_2 t) (ms4_3 t) (hs4_3 t) (ms4_4 t) (hs4_4 t) scM4_0 (Memref.isWhole_whole _)) K) :
    iprop((dat4 V c).Φ t.castSucc ∗ (dat4 V c).owesAt () t.castSucc
        ∗ (∃ d, owns (c : Thread nD τ) (ms4_0 t) fullShare ((dat4 V c).before 0 t d)) ∗ (∃ d, owns (c : Thread nD τ) (ms4_1 t) fullShare ((dat4 V c).before 1 t d))
        ∗ (∃ d, owns (c : Thread nD τ) (ms4_2 t) fullShare ((dat4 V c).before 2 t d)) ∗ (∃ d, owns (c : Thread nD τ) (ms4_3 t) fullShare ((dat4 V c).before 3 t d))
        ∗ (∃ d, owns (c : Thread nD τ) (ms4_4 t) fullShare ((dat4 V c).before 4 t d)))
      ⊢ wp frame (wpE (defs₀ (F := F)) Variants.none c none) Set.univ (bodyAt4 t) fun _ => iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t ∗ (dat4 V c).leavesExact 4 t) := by
  simp only [(in4 V c t 0 (by decide)).1, (in4 V c t 1 (by decide)).1, (in4 V c t 2 (by decide)).1, (in4 V c t 3 (by decide)).1]
  rw [bodyAt4_eq, (in4 V c t 0 (by decide)).2, (in4 V c t 1 (by decide)).2, (in4 V c t 2 (by decide)).2, (in4 V c t 3 (by decide)).2,
    show (dat4 V c).owesAt () t.succ = (dat4 V c).owesAt () t.castSucc from rfl,
    show (dat4 V c).Φ t.succ = Inv4 c (owns (c : Thread nD τ) scM4_0 fullShare (acc4 V c t.val t.isLt)) from rfl]
  unfold Inv4
  iintro ⟨HΦ, Ho, ⟨%d0, H0⟩, ⟨%d1, H1⟩, ⟨%d2, H2⟩, ⟨%d3, H3⟩, H4⟩
  ihave HΦ' := hΦ $$ HΦ
  icases HΦ' with ⟨⟨HS, Hr⟩, Hg⟩
  iapply (run _)
  iframe H0 H1 H2 H3 H4 HS
  iintro ⟨H0, H1, H2, H3, H4, HS⟩
  ihave HS := hS $$ HS
  ihave H4 := h4 $$ H4
  iframe

set_option maxHeartbeats 1000000 in
/-- The body obligation: the point's contraction step says which of the three runs the body is. -/
theorem body_obligation4 (c : Dev nD) : BodyObligation (dat4 (F := F) V c) (defs₀ (F := F)) Variants.none () Set.univ := fun t => by
  rw [bigSep_W4, bigSep_W4]
  have hidle : ∀ hcL : ¬cond4_1 (grid4.coords t), (iprop(∃ d, owns (c : Thread nD τ) (ms4_4 t) fullShare ((dat4 V c).before 4 t d)) : sProp 𝕄) ⊢ (dat4 V c).leavesExact 4 t :=
    fun hcL => Entails.of_eq (Dat.leavesExact_idle (dat4 V c) 4 t (idleAt4_4 t hcL).1 (idleAt4_4 t hcL).2).symm
  by_cases h0 : t.val % 4 = 0
  · have hcF := (hcond4 t).1.mpr h0
    have hcL : ¬cond4_1 (grid4.coords t) := fun h => by have := (hcond4 t).2.mp h; omega
    exact frame4 V c t (Phi_out4 V c _) (owns_of_writes c fun f => (sacc4_A c _ _ _ _ hcF hcL f).trans (acc4_first V c t h0).symm) (hidle hcL)
      fun K => (kernelRun4_A c _ _ _ _ hcF hcL).2 _ K
  · have hcF : ¬cond4_0 (grid4.coords t) := fun h => h0 ((hcond4 t).1.mp h)
    have hΦ := Entails.of_eq (Phi4_pos V c t.castSucc fun e => h0 (by rw [show t.val = 0 from e]))
    by_cases h3 : t.val % 4 = 3
    · have hcL := (hcond4 t).2.mpr h3
      refine frame4 V c t hΦ (owns_of_writes c fun f => ((sres4_C c _ _ _ _ _ hcF hcL).1 f).trans (acc4_next V c t h0).symm) ?_
        fun K => (kernelRun4_C c _ _ _ _ _ hcF hcL).2.2 _ K
      rw [show (dat4 V c).leavesExact 4 t = owns (c : Thread nD τ) (ms4_4 t) fullShare ((dat4 V c).after 4 t) from by
        unfold Dat.leavesExact; rw [liveAt4 4 t (.inr hcL)]]
      exact owns_of_writes c fun f => ((sres4_C c _ _ _ _ _ hcF hcL).2 f).trans (by rw [after4_out V c t h3, acc4_next V c t h0] <;> rfl)
    · have hcL : ¬cond4_1 (grid4.coords t) := fun h => h3 ((hcond4 t).2.mp h)
      exact frame4 V c t hΦ (owns_of_writes c fun f => (sacc4_B c _ _ _ _ _ hcF hcL f).trans (acc4_next V c t h0).symm) (hidle hcL)
        fun K => (kernelRun4_B c _ _ _ _ (acc4 V c (t.val - 1) _) hcF hcL).2 _ K

end Cert.KernelIdeal.Hand

end
-- ==== Proof.KI.R5Runs.lean ====
import proofs.«427802_j60163901882525_3_alg».proof.Proof.KI.Owns
import proofs.«427802_j60163901882525_3_alg».proof.Proof.Gen.KernelIdeal.Launch
import proofs.«427802_j60163901882525_3_alg».proof.Proof.Gen.KernelIdeal.Skeleton
import proofs.«427802_j60163901882525_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What window `w`'s array holds on entry, read at the block point `t` selects. -/
def iblk5 (V : (c : Dev nD) → (b : Ref sig .tc) → Buf (Elt F) ((c : Thread nD τ).loc b)) (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
abbrev cond5_1 (i : grid5.Coords) : Prop := k5_cond2 i = 1#1

/-- The contraction step of point `t` is `t mod 4`: the first branch is taken at step 0, the second at step 3. -/
theorem hcond5 : ∀ t : Fin cfg5.N, (cond5_0 (grid5.coords t) ↔ t.val % 4 = 0) ∧ (cond5_1 (grid5.coords t) ↔ t.val % 4 = 3) := by decide +kernel

theorem liveAt5 : ∀ (w : Fin cfg5.W) (t : Fin cfg5.N), w ≠ 3 ∨ cond5_1 (grid5.coords t) → cfg5.idle w (grid5.coords t) = false := by decide +kernel
theorem idleAt5_3 : ∀ t : Fin cfg5.N, ¬cond5_1 (grid5.coords t) → cfg5.idle 3 (grid5.coords t) = true ∧ (cfg5.win 3).flush t = false := by decide +kernel

abbrev ms5_0 (t : Fin cfg5.N) : Memref sig .tc .vmem S1280x2560 .bf16 := win5_0.stage (cfg5.slots t 0)
abbrev ms5_1 (t : Fin cfg5.N) : Memref sig .tc .vmem S10240x128 .bf16 := win5_1.stage (cfg5.slots t 1)
abbrev ms5_2 (t : Fin cfg5.N) : Memref sig .tc .vmem S1x128 .f32 := win5_2.stage (cfg5.slots t 2)
abbrev ms5_3 (t : Fin cfg5.N) : Memref sig .tc .vmem S1280x128 .f32 := win5_3.stage (cfg5.slots t 3)
abbrev scM5_0 : Memref sig .tc .vmem S1280x128 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

/-- The entry invariant splits off the accumulator, owned at some contents. -/
theorem PhiA5_eq (c : Dev nD) :
    (Pipeline.ΦA spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

end Cert.KernelIdeal.Hand

end
-- ==== Proof.KI.R5RunA.lean ====
import proofs.«427802_j60163901882525_3_alg».proof.Proof.KI.R5Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

/-- Rows `2560 k` to `2560 k + 2559` of the feature matrix, `k` the contraction step of `i`. -/
abbrev slice5 (i : grid5.Coords) : Rect S10240x128 := Rect.unit (s := S10240x128) (k5_off1 i) S2560x128.size (k5_off1_inb i)

variable (c : Dev nD) {i : grid5.Coords} {arg2 : Memref sig .tc .vmem S1280x2560 .bf16} {harg2 : arg2.IsWhole} {arg3 : Memref sig .tc .vmem S10240x128 .bf16} {harg3 : arg3.IsWhole}
  {arg4 : Memref sig .tc .vmem S1x128 .f32} {harg4 : arg4.IsWhole} {arg5 : Memref sig .tc .vmem S1280x128 .f32} {harg5 : arg5.IsWhole} {arg6 : Memref sig .tc .vmem S1280x128 .f32} {harg6 : arg6.IsWhole}
  (x0 : Vec F S1280x2560 .bf16) (x1 : Vec F S10240x128 .bf16) (x2 : Vec F S1x128 .f32)

/-- The body at a first contraction step, framed by `R`; the witness is the pieces it writes to the accumulator, which enters at anything. -/
noncomputable def kernelRun5_A (hc0 : cond5_0 i) (hc1 : ¬cond5_1 i) :
    { LS0 : List (View.Piece (Elt F) S1280x128 .f32) // ∀ (R : sProp 𝕄) (K : PUnit → sProp 𝕄),
        iprop(owns (c : Thread nD τ) arg2 fullShare x0 ∗ owns (c : Thread nD τ) arg3 fullShare x1 ∗ owns (c : Thread nD τ) arg4 fullShare x2 ∗ R ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ R ∗ (∃ f, arg6.view.loc (c : Thread nD τ) ↦[arg6.view.set]{fullShare} arg6.view.writes (Elt F) f LS0)) -∗ K ⟨⟩))
          ⊢ wp frame (wpE (defs₀ (F := F)) Variants.none c none) Set.univ (cc5__agg_final_kernel i arg2 harg2 arg3 harg3 arg4 harg4 arg5 harg5 arg6 harg6) K } := by
  refine ⟨?_, fun R K => ?run⟩
  case run =>
    rw [owns_eq_unread c harg2, owns_eq_unread c harg3, owns_eq_unread c harg4]
    simp only [cc5__agg_final_kernel_eq_skeleton]; unfold cc5__agg_final_kernel_skel; unfold owns
    iintro ⟨H0, H1, H2, HR, ⟨%ds0, %fs0, -, HS0⟩, Hk⟩
    sl_exec (disch := first | exact hc0 | exact hc1)
    sl_step
    iapply Hk
    iframe H0 H1 H2 HR
    iexists _; iexact HS0

/-- Its two stores tile the accumulator, which is left at the product added to the zero block. -/
theorem sacc5_A (hc0 : cond5_0 i) (hc1 : ¬cond5_1 i) (f : arg6.view.ty.Contents (Elt F)) :
    arg6.view.read (Elt F) (arg6.view.writes (Elt F) f (kernelRun5_A c (harg2 := harg2) (harg3 := harg3) (harg4 := harg4) (harg5 := harg5) (harg6 := harg6) x0 x1 x2 hc0 hc1).1)
      = k5_pay2 (View.ld x1 (slice5 i)) (k5_pay1 (F := F)) x0 := by
  refine (View.read_writes_eq_canon _ _ _ (View.cover_of_tiledL _ S1280x128.size ?_)).trans ?_
  · sl_kernel_rfl
  unfold kernelRun5_A
  dsimp only
  sl_unfold_words
  rw [View.canon_cons_unit_zero (S := S1280x128) hz5, View.readCov_unit_zero (S := S1280x128) _ hz5]
  simp only [View.readAt_eq_ld, harg2.read_unread, harg3.read_unread, View.ld_unit_zero (S := S1280x2560) hz5]
  rfl

end Cert.KernelIdeal.Hand

end
-- ==== Proof.KI.R5RunB.lean ====
import proofs.«427802_j60163901882525_3_alg».proof.Proof.KI.R5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) {i : grid5.Coords} {arg2 : Memref sig .tc .vmem S1280x2560 .bf16} {harg2 : arg2.IsWhole} {arg3 : Memref sig .tc .vmem S10240x128 .bf16} {harg3 : arg3.IsWhole}
  {arg4 : Memref sig .tc .vmem S1x128 .f32} {harg4 : arg4.IsWhole} {arg5 : Memref sig .tc .vmem S1280x128 .f32} {harg5 : arg5.IsWhole} {arg6 : Memref sig .tc .vmem S1280x128 .f32} {harg6 : arg6.IsWhole}
  (x0 : Vec F S1280x2560 .bf16) (x1 : Vec F S10240x128 .bf16) (x2 : Vec F S1x128 .f32)
  (xs0 : Vec F S1280x128 .f32)

/-- The body at a middle contraction step, framed by `R`; the accumulator enters at `xs0`. -/
noncomputable def kernelRun5_B (hc0 : ¬cond5_0 i) (hc1 : ¬cond5_1 i) :
    { LS0 : List (View.Piece (Elt F) S1280x128 .f32) // ∀ (R : sProp 𝕄) (K : PUnit → sProp 𝕄),
        iprop(owns (c : Thread nD τ) arg2 fullShare x0 ∗ owns (c : Thread nD τ) arg3 fullShare x1 ∗ owns (c : Thread nD τ) arg4 fullShare x2 ∗ R ∗ owns (c : Thread nD τ) arg6 fullShare xs0
            ∗ (iprop(owns (c : Thread nD τ) arg2 fullShare x0 ∗ owns (c : Thread nD τ) arg3 fullShare x1 ∗ owns (c : Thread nD τ) arg4 fullShare x2 ∗ R ∗ (∃ f, arg6.view.loc (c : Thread nD τ) ↦[arg6.view.set]{fullShare} arg6.view.writes (Elt F) f LS0)) -∗ K ⟨⟩))
          ⊢ wp frame (wpE (defs₀ (F := F)) Variants.none c none) Set.univ (cc5__agg_final_kernel i arg2 harg2 arg3 harg3 arg4 harg4 arg5 harg5 arg6 harg6) K } := by
  refine ⟨?_, fun R K => ?run⟩
  case run =>
    rw [owns_eq_unread c harg2, owns_eq_unread c harg3, owns_eq_unread c harg4, owns_eq_unread c harg6]
    simp only [cc5__agg_final_kernel_eq_skeleton]; unfold cc5__agg_final_kernel_skel
    iintro ⟨H0, H1, H2, HR, HS0, Hk⟩
    sl_exec (disch := first | exact hc0 | exact hc1)
    sl_step
    iapply Hk
    iframe H0 H1 H2 HR
    iexists _; iexact HS0

/-- Its one store covers the accumulator, which is left at the product added to what it held. -/
theorem sacc5_B (hc0 : ¬cond5_0 i) (hc1 : ¬cond5_1 i) (f : arg6.view.ty.Contents (Elt F)) :
    arg6.view.read (Elt F) (arg6.view.writes (Elt F) f (kernelRun5_B c (harg2 := harg2) (harg3 := harg3) (harg4 := harg4) (harg5 := harg5) (harg6 := harg6) x0 x1 x2 xs0 hc0 hc1).1)
      = k5_pay2 (View.ld x1 (slice5 i)) xs0 x0 := by
  refine (View.read_writes_eq_canon _ _ _ (View.cover_of_tiledL _ S1280x128.size ?_)).trans ?_
  · sl_kernel_rfl
  unfold kernelRun5_B
  dsimp only
  sl_unfold_words
  rw [View.canon_unit_zero (S := S1280x128) hz5]
  simp only [View.readAt_eq_ld, harg2.read_unread, harg3.read_unread, harg6.read_unread, View.ld_unit_zero (S := S1280x2560) hz5, View.ld_unit_zero (S := S1280x128) hz5]
  rfl

end Cert.KernelIdeal.Hand

end
-- ==== Proof.KI.R5RunC.lean ====
import proofs.«427802_j60163901882525_3_alg».proof.Proof.KI.R5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) {i : grid5.Coords} {arg2 : Memref sig .tc .vmem S1280x2560 .bf16} {harg2 : arg2.IsWhole} {arg3 : Memref sig .tc .vmem S10240x128 .bf16} {harg3 : arg3.IsWhole}
  {arg4 : Memref sig .tc .vmem S1x128 .f32} {harg4 : arg4.IsWhole} {arg5 : Memref sig .tc .vmem S1280x128 .f32} {harg5 : arg5.IsWhole} {arg6 : Memref sig .tc .vmem S1280x128 .f32} {harg6 : arg6.IsWhole}
  (x0 : Vec F S1280x2560 .bf16) (x1 : Vec F S10240x128 .bf16) (x2 : Vec F S1x128 .f32)
  (xs0 : Vec F S1280x128 .f32)

/-- The body at a last contraction step; the output buffer enters at any member of a family `g`, and the witnesses are the pieces written to it and to the accumulator. -/
noncomputable def kernelRun5_C (hc0 : ¬cond5_0 i) (hc1 : cond5_1 i) :
    Σ' (L3 : List (View.Piece (Elt F) S1280x128 .f32)), { LS0 : List (View.Piece (Elt F) S1280x128 .f32) //
      ∀ {D : Type} (g : D → Vec F S1280x128 .f32) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare (g d)) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) Set.univ (cc5__agg_final_kernel i arg2 harg2 arg3 harg3 arg4 harg4 arg5 harg5 arg6 harg6) K } := by
  refine ⟨?_, ?_, fun g K => ?run⟩
  case run =>
    rw [owns_eq_unread c harg2, owns_eq_unread c harg3, owns_eq_unread c harg4, owns_eq_unread c harg6]
    simp only [cc5__agg_final_kernel_eq_skeleton]; unfold cc5__agg_final_kernel_skel; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

/-- Each of its two stores covers its buffer: the accumulator is left at the product added to what it held, the output buffer at that plus the bias row. -/
theorem sres5_C (hc0 : ¬cond5_0 i) (hc1 : cond5_1 i) :
    (∀ f, arg6.view.read (Elt F) (arg6.view.writes (Elt F) f (kernelRun5_C c (harg2 := harg2) (harg3 := harg3) (harg4 := harg4) (harg5 := harg5) (harg6 := harg6) x0 x1 x2 xs0 hc0 hc1).2.1) = k5_pay2 (View.ld x1 (slice5 i)) xs0 x0)
      ∧ ∀ f, arg5.view.read (Elt F) (arg5.view.writes (Elt F) f (kernelRun5_C c (harg2 := harg2) (harg3 := harg3) (harg4 := harg4) (harg5 := harg5) (harg6 := harg6) x0 x1 x2 xs0 hc0 hc1).1) = k5_pay3 (k5_pay2 (View.ld x1 (slice5 i)) xs0 x0) x2 := by
  constructor <;> intro f <;> refine (View.read_writes_eq_canon _ _ _ (View.cover_of_tiledL _ S1280x128.size ?_)).trans ?_
  case left.refine_1 | right.refine_1 => sl_kernel_rfl
  all_goals
    unfold kernelRun5_C
    dsimp only
    sl_unfold_words
    rw [View.canon_unit_zero (S := S1280x128) hz5]
    simp only [View.readAt_eq_ld, harg2.read_unread, harg3.read_unread, harg4.read_unread, harg6.read_unread, View.readCov_unit_zero (S := S1280x128) _ hz5, View.ld_unit_zero (S := S1280x2560) hz5, View.ld_unit_zero (S := S1280x128) hz5, View.ld_unit_zero (S := S1x128) hz5]
    rfl
end Cert.KernelIdeal.Hand

end
-- ==== Proof.KI.R5.lean ====
import proofs.«427802_j60163901882525_3_alg».proof.Proof.KI.R5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

abbrev ablk5 (c : Dev nD) (t : Fin cfg5.N) : Vec F S1280x2560 .bf16 := iblk5 V c 0 t
abbrev xwblk5 (c : Dev nD) (t : Fin cfg5.N) : Vec F S10240x128 .bf16 := iblk5 V c 1 t
abbrev bblk5 (c : Dev nD) (t : Fin cfg5.N) : Vec F S1x128 .f32 := iblk5 V c 2 t

/-- The feature rows that meet the adjacency block of point `t`. -/
def xwSlice5 (c : Dev nD) (t : Fin cfg5.N) : Vec F S2560x128 .bf16 := View.ld (xwblk5 V c t) (slice5 (grid5.coords t))

/-- The partial sum after point `n`: restarted at each step 0, otherwise the previous sum plus this point's product. -/
def acc5 (c : Dev nD) : (n : ℕ) → n < cfg5.N → Vec F S1280x128 .f32
  | 0, hn => k5_pay2 (xwSlice5 V c ⟨0, hn⟩) (k5_pay1 (F := F)) (ablk5 V c ⟨0, hn⟩)
  | n + 1, hn =>
    if (n + 1) % 4 = 0 then k5_pay2 (xwSlice5 V c ⟨n + 1, hn⟩) (k5_pay1 (F := F)) (ablk5 V c ⟨n + 1, hn⟩)
    else k5_pay2 (xwSlice5 V c ⟨n + 1, hn⟩) (acc5 c n (Nat.lt_of_succ_lt hn)) (ablk5 V c ⟨n + 1, hn⟩)

theorem acc5_first (c : Dev nD) (t : Fin cfg5.N) (h : t.val % 4 = 0) :
    acc5 V c t.val t.isLt = k5_pay2 (xwSlice5 V c t) (k5_pay1 (F := F)) (iblk5 V c 0 t) := by
  obtain ⟨n, hn⟩ := t
  cases n with
  | zero => rfl
  | succ n => exact if_pos h

theorem acc5_next (c : Dev nD) (t : Fin cfg5.N) (h : ¬ t.val % 4 = 0) :
    acc5 V c t.val t.isLt = k5_pay2 (xwSlice5 V c t) (acc5 V c (t.val - 1) (Nat.lt_of_le_of_lt (Nat.sub_le _ _) t.isLt)) (iblk5 V c 0 t) := by
  obtain ⟨n, hn⟩ := t
  cases n with
  | zero => exact absurd (Nat.zero_mod _) h
  | succ n => exact if_neg h

/-- The invariant before point `n`: the entry invariant at 0, otherwise the accumulator at `acc5 (n - 1)` beside the rest. -/
def PhiS5 (c : Dev nD) : (n : ℕ) → n ≤ cfg5.N → sProp 𝕄
  | 0, _ => Pipeline.ΦA spec5 c
  | n + 1, hn => iprop(iprop(owns (c : Thread nD τ) scM5_0 fullShare (acc5 V c n hn) ∗ rest5 (F := F) c) ∗ (∃ r, prngReg c r))

/-- Inputs are left as found; the output block is the partial sum plus the bias row. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (bblk5 V c t)
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_out (c : Dev nD) (t : Fin cfg5.N) (h : t.val % 4 = 3) :
    (dat5 V c).after 3 t = k5_pay3 (acc5 V c t.val t.isLt) (iblk5 V c 2 t) := rfl

/-- An input window's buffer holds, before the body and after it, what the proof data name after it. -/
theorem in5 (c : Dev nD) (t : Fin cfg5.N) : ∀ w : Fin cfg5.W, w ≠ 3 →
    (∀ d, (dat5 V c).before w t d = (dat5 V c).after w t)
      ∧ (dat5 V c).leavesExact w t = owns (c : Thread nD τ) ((cfg5.win w).stage (cfg5.slots t w)) fullShare ((dat5 V c).after w t)
  | ⟨0, _⟩, hw | ⟨1, _⟩, hw | ⟨2, _⟩, hw =>
    ⟨fun d => ((dat5 V c).before_in_eq_fetched _ rfl (fun _ => rfl) (fun _ _ _ => rfl) (fun _ => rfl) t d).trans rfl,
      by unfold Dat.leavesExact; rw [liveAt5 _ t (.inl hw)] <;> rfl⟩
  | ⟨3, _⟩, h => absurd rfl h

/-- Before a point other than the first the accumulator is owned at what the point before left. -/
theorem Phi5_pos (c : Dev nD) : ∀ (t : Fin (cfg5.N + 1)) (hz : t.val ≠ 0),
    (dat5 V c).Φ t = iprop(iprop(owns (c : Thread nD τ) scM5_0 fullShare (acc5 V c (t.val - 1) (by have := t.isLt; omega)) ∗ rest5 (F := F) c) ∗ (∃ r, prngReg c r))
  | ⟨0, _⟩, hz => absurd rfl hz
  | ⟨n + 1, _⟩, _ => rfl

/-- Every invariant entails the entry invariant: forget what the accumulator holds. -/
theorem Phi_out5 (c : Dev nD) : ∀ t : Fin (cfg5.N + 1), (dat5 V c).Φ t ⊢ iprop(iprop((∃ d, owns (c : Thread nD τ) scM5_0 fullShare d) ∗ rest5 (F := F) c) ∗ (∃ r, prngReg c r))
  | ⟨0, _⟩ => Entails.of_eq (PhiA5_eq c)
  | ⟨n + 1, h⟩ => by
    rw [Phi5_pos V c ⟨n + 1, h⟩ (Nat.succ_ne_zero n)]
    iintro ⟨⟨HS0, Hr⟩, Hg⟩
    iframe Hr Hg
    iexists _; iexact HS0

theorem hin5 (c : Dev nD) : Pipeline.ΦA spec5 c ⊢ (dat5 V c).Φ 0 := Entails.of_eq rfl

theorem hout5 (c : Dev nD) : (dat5 V c).Φ (Fin.last cfg5.N) ⊢ Pipeline.ΦA spec5 c := by
  rw [PhiA5_eq]; exact Phi_out5 V c _

/-- A body run on the four buffers and the accumulator yields the obligation at `t`: the rest of the invariant is framed. -/
theorem frame5 (c : Dev nD) (t : Fin cfg5.N) {S Q3 SQ : sProp 𝕄}
    (hΦ : (dat5 V c).Φ t.castSucc ⊢ iprop(iprop(S ∗ rest5 (F := F) c) ∗ (∃ r, prngReg c r)))
    (hS : SQ ⊢ owns (c : Thread nD τ) scM5_0 fullShare (acc5 V c t.val t.isLt))
    (h3 : Q3 ⊢ (dat5 V c).leavesExact 3 t)
    (run : ∀ K : PUnit → sProp 𝕄,
      iprop(owns (c : Thread nD τ) (ms5_0 t) fullShare ((dat5 V c).after 0 t) ∗ owns (c : Thread nD τ) (ms5_1 t) fullShare ((dat5 V c).after 1 t) ∗ owns (c : Thread nD τ) (ms5_2 t) fullShare ((dat5 V c).after 2 t)
          ∗ (∃ d, owns (c : Thread nD τ) (ms5_3 t) fullShare ((dat5 V c).before 3 t d)) ∗ S
          ∗ (iprop(owns (c : Thread nD τ) (ms5_0 t) fullShare ((dat5 V c).after 0 t) ∗ owns (c : Thread nD τ) (ms5_1 t) fullShare ((dat5 V c).after 1 t) ∗ owns (c : Thread nD τ) (ms5_2 t) fullShare ((dat5 V c).after 2 t) ∗ Q3 ∗ SQ) -∗ K ⟨⟩))
        ⊢ wp frame (wpE (defs₀ (F := F)) Variants.none c none) Set.univ (bodyAt5 t) K) :
    iprop((dat5 V c).Φ t.castSucc ∗ (dat5 V c).owesAt () t.castSucc
        ∗ (∃ d, owns (c : Thread nD τ) (ms5_0 t) fullShare ((dat5 V c).before 0 t d)) ∗ (∃ d, owns (c : Thread nD τ) (ms5_1 t) fullShare ((dat5 V c).before 1 t d))
        ∗ (∃ d, owns (c : Thread nD τ) (ms5_2 t) fullShare ((dat5 V c).before 2 t d)) ∗ (∃ d, owns (c : Thread nD τ) (ms5_3 t) fullShare ((dat5 V c).before 3 t d)))
      ⊢ wp frame (wpE (defs₀ (F := F)) Variants.none c none) Set.univ (bodyAt5 t) fun _ => iprop((dat5 V c).Φ t.succ ∗ (dat5 V c).owesAt () t.succ
        ∗ (dat5 V c).leavesExact 0 t ∗ (dat5 V c).leavesExact 1 t ∗ (dat5 V c).leavesExact 2 t ∗ (dat5 V c).leavesExact 3 t) := by
  simp only [(in5 V c t 0 (by decide)).1, (in5 V c t 1 (by decide)).1, (in5 V c t 2 (by decide)).1]
  rw [(in5 V c t 0 (by decide)).2, (in5 V c t 1 (by decide)).2, (in5 V c t 2 (by decide)).2, show (dat5 V c).owesAt () t.succ = (dat5 V c).owesAt () t.castSucc from rfl,
    show (dat5 V c).Φ t.succ = iprop(iprop(owns (c : Thread nD τ) scM5_0 fullShare (acc5 V c t.val t.isLt) ∗ rest5 (F := F) c) ∗ (∃ r, prngReg c r)) from rfl]
  iintro ⟨HΦ, Ho, ⟨%d0, H0⟩, ⟨%d1, H1⟩, ⟨%d2, H2⟩, H3⟩
  ihave HΦ' := hΦ $$ HΦ
  icases HΦ' with ⟨⟨HS, Hr⟩, Hg⟩
  iapply (run _)
  iframe H0 H1 H2 H3 HS
  iintro ⟨H0, H1, H2, H3, HS⟩
  ihave HS := hS $$ HS
  ihave H3 := h3 $$ H3
  iframe

/-- The body obligation: the point's number mod 4 says which of the three runs the body is. -/
theorem body_obligation5 (c : Dev nD) : BodyObligation (dat5 (F := F) V c) (defs₀ (F := F)) Variants.none () Set.univ := fun t => by
  rw [bigSep_W5, bigSep_W5]
  have hidle : ∀ hc1 : ¬cond5_1 (grid5.coords t), (iprop(∃ d, owns (c : Thread nD τ) (ms5_3 t) fullShare ((dat5 V c).before 3 t d)) : sProp 𝕄) ⊢ (dat5 V c).leavesExact 3 t :=
    fun hc1 => Entails.of_eq (Dat.leavesExact_idle (dat5 V c) 3 t (idleAt5_3 t hc1).1 (idleAt5_3 t hc1).2).symm
  by_cases h0 : t.val % 4 = 0
  · have hc0 := (hcond5 t).1.mpr h0
    have hc1 : ¬cond5_1 (grid5.coords t) := fun h => by have := (hcond5 t).2.mp h; omega
    exact frame5 V c t (Phi_out5 V c _) (owns_of_writes c fun f => (sacc5_A c _ _ _ hc0 hc1 f).trans (acc5_first V c t h0).symm) (hidle hc1)
      fun K => (kernelRun5_A c _ _ _ hc0 hc1).2 _ K
  · have hc0 : ¬cond5_0 (grid5.coords t) := fun h => h0 ((hcond5 t).1.mp h)
    have hΦ := Entails.of_eq (Phi5_pos V c t.castSucc fun e => h0 (by rw [show t.val = 0 from e]))
    by_cases h1 : t.val % 4 = 3
    · have hc1 := (hcond5 t).2.mpr h1
      refine frame5 V c t hΦ (owns_of_writes c fun f => ((sres5_C c _ _ _ _ hc0 hc1).1 f).trans (acc5_next V c t h0).symm) ?_
        fun K => (kernelRun5_C c _ _ _ _ hc0 hc1).2.2 _ K
      rw [show (dat5 V c).leavesExact 3 t = owns (c : Thread nD τ) (ms5_3 t) fullShare ((dat5 V c).after 3 t) from by
        unfold Dat.leavesExact; rw [liveAt5 3 t (.inr hc1)]]
      exact owns_of_writes c fun f => ((sres5_C c _ _ _ _ hc0 hc1).2 f).trans (by rw [after5_out V c t h1, acc5_next V c t h0] <;> rfl)
    · have hc1 : ¬cond5_1 (grid5.coords t) := fun h => h1 ((hcond5 t).2.mp h)
      exact frame5 V c t hΦ (owns_of_writes c fun f => (sacc5_B c _ _ _ _ hc0 hc1 f).trans (acc5_next V c t h0).symm) (hidle hc1)
        fun K => (kernelRun5_B c _ _ _ _ hc0 hc1).2 _ K

end Region5

end Cert.KernelIdeal.Hand

end
-- ==== Proof.KI.Frame.lean ====
import proofs.«427802_j60163901882525_3_alg».proof.Proof.KI.R0
import proofs.«427802_j60163901882525_3_alg».proof.Proof.KI.R1
import proofs.«427802_j60163901882525_3_alg».proof.Proof.KI.R2
import proofs.«427802_j60163901882525_3_alg».proof.Proof.KI.R3
import proofs.«427802_j60163901882525_3_alg».proof.Proof.KI.R4
import proofs.«427802_j60163901882525_3_alg».proof.Proof.KI.R5
import proofs.«427802_j60163901882525_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Ent : Type := (c : Dev nD) → (b : Ref sig .tc) → Buf (Elt F) ((c : Thread nD τ).loc b)

/-- Stage by stage: a region is entered from the stage before it and leaves that stage updated at its one output array. -/
def E0 : Ent (F := F) := fun c b => Gen.V5 m c b
def U6 (c : Dev nD) : Valuation τ sig (Elt F) :=
  Function.update (Gen.V5 m c) main_v65 ((dat0 (E0 m) c).arrAt 2 cfg0.N)
def E1 : Ent (F := F) := fun c b => U6 m c b
def U7 (c : Dev nD) : Valuation τ sig (Elt F) :=
  Function.update (U6 m c) main_v66 ((dat1 (E1 m) c).arrAt 4 cfg1.N)
def E2 : Ent (F := F) := fun c b => U7 m c b
def U8 (c : Dev nD) : Valuation τ sig (Elt F) :=
  Function.update (U7 m c) main_v67 ((dat2 (E2 m) c).arrAt 4 cfg2.N)
def E3 : Ent (F := F) := fun c b => U8 m c b
def U9 (c : Dev nD) : Valuation τ sig (Elt F) :=
  Function.update (U8 m c) main_v68 ((dat3 (E3 m) c).arrAt 4 cfg3.N)
def E4 : Ent (F := F) := fun c b => U9 m c b
def U10 (c : Dev nD) : Valuation τ sig (Elt F) :=
  Function.update (U9 m c) main_v69 ((dat4 (E4 m) c).arrAt 4 cfg4.N)
def E5 : Ent (F := F) := fun c b => U10 m c b
def U11 (c : Dev nD) : Valuation τ sig (Elt F) :=
  Function.update (U10 m c) main_v70 ((dat5 (E5 m) c).arrAt 3 cfg5.N)

def outs : Gen.Outs (F := F) := fun j r c => match j with
  | 6 => U6 m c r | 7 => U7 m c r | 8 => U8 m c r | 9 => U9 m c r | 10 => U10 m c r | 11 => U11 m c r
  | _ => Gen.V5 m c r

/-- A valuation updated at one buffer: the new contents there, the old everywhere else, and equal data give equal updates. -/
theorem upd_self (V : Valuation τ sig (Elt F)) (o : DevRef τ sig) (x : o.ty.Contents (Elt F)) : Function.update V o x o = x :=
  Function.update_self ..
theorem upd_ne (V : Valuation τ sig (Elt F)) {o b : Ref sig .tc} (x : (o : DevRef τ sig).ty.Contents (Elt F)) (h : b ≠ o) :
    Function.update V o x b = V b := by
  apply Function.update_of_ne; exact StableHlo.devRef_ne_of_ne h
theorem upd_congr {V U : Valuation τ sig (Elt F)} (h : V = U) (o : DevRef τ sig) {x y : o.ty.Contents (Elt F)} (hx : x = y) :
    Function.update V o x = Function.update U o y := h ▸ hx ▸ rfl

theorem E0_eq (c : Dev nD) (b : Ref sig .tc) : E0 m c b = Gen.V5 m c (Proc.devRef .tc b) := rfl
theorem outs_6 (c : Dev nD) : outs m 6 main_v65 c = (dat0 (E0 m) c).arrAt 2 cfg0.N := by
  show U6 m c main_v65 = _; exact upd_self ..
theorem V6_eq (c : Dev nD) : Gen.V6 m (outs m) c = U6 m c := upd_congr rfl _ (outs_6 m c)
theorem E1_eq (c : Dev nD) (b : Ref sig .tc) : E1 m c b = Gen.V6 m (outs m) c (Proc.devRef .tc b) := (congrFun (V6_eq m c) _).symm
theorem outs_7 (c : Dev nD) : outs m 7 main_v66 c = (dat1 (E1 m) c).arrAt 4 cfg1.N := by
  show U7 m c main_v66 = _; exact upd_self ..
theorem V7_eq (c : Dev nD) : Gen.V7 m (outs m) c = U7 m c := upd_congr (V6_eq m c) _ (outs_7 m c)
theorem E2_eq (c : Dev nD) (b : Ref sig .tc) : E2 m c b = Gen.V7 m (outs m) c (Proc.devRef .tc b) := (congrFun (V7_eq m c) _).symm
theorem outs_8 (c : Dev nD) : outs m 8 main_v67 c = (dat2 (E2 m) c).arrAt 4 cfg2.N := by
  show U8 m c main_v67 = _; exact upd_self ..
theorem V8_eq (c : Dev nD) : Gen.V8 m (outs m) c = U8 m c := upd_congr (V7_eq m c) _ (outs_8 m c)
theorem E3_eq (c : Dev nD) (b : Ref sig .tc) : E3 m c b = Gen.V8 m (outs m) c (Proc.devRef .tc b) := (congrFun (V8_eq m c) _).symm
theorem outs_9 (c : Dev nD) : outs m 9 main_v68 c = (dat3 (E3 m) c).arrAt 4 cfg3.N := by
  show U9 m c main_v68 = _; exact upd_self ..
theorem V9_eq (c : Dev nD) : Gen.V9 m (outs m) c = U9 m c := upd_congr (V8_eq m c) _ (outs_9 m c)
theorem E4_eq (c : Dev nD) (b : Ref sig .tc) : E4 m c b = Gen.V9 m (outs m) c (Proc.devRef .tc b) := (congrFun (V9_eq m c) _).symm
theorem outs_10 (c : Dev nD) : outs m 10 main_v69 c = (dat4 (E4 m) c).arrAt 4 cfg4.N := by
  show U10 m c main_v69 = _; exact upd_self ..
theorem V10_eq (c : Dev nD) : Gen.V10 m (outs m) c = U10 m c := upd_congr (V9_eq m c) _ (outs_10 m c)
theorem E5_eq (c : Dev nD) (b : Ref sig .tc) : E5 m c b = Gen.V10 m (outs m) c (Proc.devRef .tc b) := (congrFun (V10_eq m c) _).symm
theorem outs_11 (c : Dev nD) : outs m 11 main_v70 c = (dat5 (E5 m) c).arrAt 3 cfg5.N := by
  show U11 m c main_v70 = _; exact upd_self ..
theorem V11_eq (c : Dev nD) : Gen.V11 m (outs m) c = U11 m c := upd_congr (V10_eq m c) _ (outs_11 m c)

/-- Input arrays keep their entry contents, so the stage updated at the output array has every array's final contents and agrees with the entry stage elsewhere. -/
theorem step {cfg : Cfg sig Λ₀} {c : Dev nD} (dat : Dat τ (Elt F) Unit ℕ (UR sig nD τ) ℕ cfg c) {U U' : Valuation τ sig (Elt F)}
    (o : Fin cfg.W) (hU' : U' = Function.update U (Pipeline.arrRef cfg.spec o) (dat.arrAt o cfg.N))
    (hA : ∀ w, dat.A w = U (Pipeline.arrRef cfg.spec w))
    (hio : ∀ w, w ≠ o → (cfg.win w).isOut = false ∧ Pipeline.arrRef cfg.spec w ≠ Pipeline.arrRef cfg.spec o) :
    (∀ w, dat.arrAt w cfg.N = U' (Pipeline.arrRef cfg.spec w)) ∧
      ∀ b, b ∉ Finset.univ.image (Pipeline.arrRef cfg.spec) → U' b = U b := by
  subst hU'
  refine ⟨fun w => ?_, fun b hb => upd_ne _ _ fun e => hb (Finset.mem_image.mpr ⟨o, Finset.mem_univ _, e.symm⟩)⟩
  by_cases h : w = o
  · subst h; exact (upd_self ..).symm
  · exact ((dat.arrAt_in w (hio w h).1 _).trans (hA w)).trans (upd_ne _ _ (hio w h).2).symm

def pdats : (p : Fin 6) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
  | ⟨5, _⟩ => fun c => dat5 (E5 m) c
abbrev L : GSem nD τ sig → Finset Unit := fun _ => ∅
abbrev lv : GSem nD τ sig → Unit → ℕ := fun _ _ => 0
/-- The rest of a core's state, carried unchanged past every item. -/
abbrev R (c : Dev nD) : sProp 𝕄 := iprop((∃ r, prngReg c r) ∗ ∃ W, owes (c : Thread nD τ) (0 : CellTallies nD τ sig Unit) W)

set_option backward.isDefEq.respectTransparency.types false in
/-- The segment of region `p`, from the unscoped buffers at stage `V` to stage `V'`, given its body facts and that `V'` is `V` updated at the output array `o`. -/
def mkReg (p : Fin 6) (kit : Pipeline.LaunchFacts (nD := nD) (τ := τ) cfgs p) {V V' U U' : Dev nD → Valuation τ sig (Elt F)}
    (hV : ∀ c, V c = U c) (hV' : ∀ c, V' c = U' c)
    (hbody : ∀ c, BodyObligation (pdats m p c) (defs₀ (F := F)) Variants.none () Set.univ)
    (hA : ∀ c w, (pdats m p c).A w = U c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (o : Fin (cfgs p).W)
    (hU' : ∀ c, U' c = Function.update (U c) (Pipeline.arrRef (cfgs p).spec o) ((pdats m p c).arrAt o (cfgs p).N))
    (hio : ∀ w, w ≠ o → ((cfgs p).win w).isOut = false ∧ Pipeline.arrRef (cfgs p).spec w ≠ Pipeline.arrRef (cfgs p).spec o)
    (howed : ∀ c t, (pdats m p c).owed t = 0) (hq : ∀ c w, (pdats m p c).q w = fullShare)
    (hrec : ∀ c, (pdats m p c).recorded 0 = Set.univ) :
    Pipeline.RegionSeg (pcfgs (F := F)) Gen.adm (pdats m) () defs₀ Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    obtain rfl := funext hV
    rw [Pipeline.ownSems0_none]
    have hsplit := Pipeline.arrays_of_unscopedBufs (p := p) (pcfgs (F := F)) Gen.adm (pdats m) kit.win kit.arr_whole c
      ((pdats m p c).share_full (hq c)) (fun b => V c b) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec c]; trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro HΦ
    ihave H := h $$ HΦ
    icases H with ⟨Hr, Hp⟩
    isplitl [Hp]; · iexact Hp
    isplitr; · iempintro
    iexact Hr
  hexit c := by
    obtain rfl := funext hV
    obtain rfl := funext hV'
    obtain ⟨hF, hrest⟩ := step (pdats m p c) o (hU' c) (hA c) hio
    have hjoin := Pipeline.unscopedBufs_of_arrays (p := p) (pcfgs (F := F)) Gen.adm (Ix := Unit) (Name := ℕ) (U := UR sig nD τ) (Lvl := ℕ)
      kit.win kit.arr_whole c (pdats m) ((pdats m p c).share_full (hq c))
      (fun b => V c b) (fun b => V' c b) ((pdats m p c).arrAt · (cfgs p).N) hF hrest
    rw [Pipeline.unscopedBufs_held c (V' c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

def reg0 : Pipeline.RegionSeg (pcfgs (F := F)) Gen.adm (pdats m) () defs₀ Variants.none L lv 0 :=
  mkReg m 0 launch0 (fun _ => rfl) (V6_eq m) (body_obligation0 (E0 m)) (A_eq0 (E0 m)) (hin0 (E0 m)) (hout0 (E0 m))
    2 (fun _ => rfl) (by decide) (fun _ _ => rfl) (fun _ _ => rfl) fun _ => rfl
def reg1 : Pipeline.RegionSeg (pcfgs (F := F)) Gen.adm (pdats m) () defs₀ Variants.none L lv 1 :=
  mkReg m 1 launch1 (V6_eq m) (V7_eq m) (body_obligation1 (E1 m)) (A_eq1 (E1 m)) (hin1 (E1 m)) (hout1 (E1 m))
    4 (fun _ => rfl) (by decide) (fun _ _ => rfl) (fun _ _ => rfl) fun _ => rfl
def reg2 : Pipeline.RegionSeg (pcfgs (F := F)) Gen.adm (pdats m) () defs₀ Variants.none L lv 2 :=
  mkReg m 2 launch2 (V7_eq m) (V8_eq m) (body_obligation2 (E2 m)) (A_eq2 (E2 m)) (hin2 (E2 m)) (hout2 (E2 m))
    4 (fun _ => rfl) (by decide) (fun _ _ => rfl) (fun _ _ => rfl) fun _ => rfl
def reg3 : Pipeline.RegionSeg (pcfgs (F := F)) Gen.adm (pdats m) () defs₀ Variants.none L lv 3 :=
  mkReg m 3 launch3 (V8_eq m) (V9_eq m) (body_obligation3 (E3 m)) (A_eq3 (E3 m)) (hin3 (E3 m)) (hout3 (E3 m))
    4 (fun _ => rfl) (by decide) (fun _ _ => rfl) (fun _ _ => rfl) fun _ => rfl
def reg4 : Pipeline.RegionSeg (pcfgs (F := F)) Gen.adm (pdats m) () defs₀ Variants.none L lv 4 :=
  mkReg m 4 launch4 (V9_eq m) (V10_eq m) (body_obligation4 (E4 m)) (A_eq4 (E4 m)) (hin4 (E4 m)) (hout4 (E4 m))
    4 (fun _ => rfl) (by decide) (fun _ _ => rfl) (fun _ _ => rfl) fun _ => rfl
def reg5 : Pipeline.RegionSeg (pcfgs (F := F)) Gen.adm (pdats m) () defs₀ Variants.none L lv 5 :=
  mkReg m 5 launch5 (V10_eq m) (V11_eq m) (body_obligation5 (E5 m)) (A_eq5 (E5 m)) (hin5 (E5 m)) (hout5 (E5 m))
    3 (fun _ => rfl) (by decide) (fun _ _ => rfl) (fun _ _ => rfl) fun _ => rfl

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ u₀) ∗ bigSep Finset.univ fun _ : Dev nD => (BI.emp : sProp 𝕄)) := by
  iintro Hu; imodintro
  isplitl [Hu]
  · iapply (show (ownU u₀ : sProp 𝕄)
        ⊢ BI.own (emb₁ u₀) from .rfl)
    iexact Hu
  iapply (show (BI.emp : sProp 𝕄) ⊢ bigSep Finset.univ (fun _ : Dev nD => (BI.emp : sProp 𝕄)) from by rw [BI.bigSep_emp_const])
  iempintro
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO
theorem hE6 (c : Dev nD) : R (F := F) c ⊢ (iprop(∃ W, owes (c : Thread nD τ) (0 : CellTallies nD τ sig Unit) W) : sProp 𝕄) := by
  iintro ⟨-, HO⟩; iexact HO
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond (m := m) (EP := emb₁) (ι := ()) (𝒱₀ := Variants.none) (L := L) (lv := lv) (hL := fun _ _ => rfl) (ρ := ρ)
    (outs := outs m) (pdats := pdats m) (O₀ := 0) (G := fun _ => iprop(emp))
    (u₀ := u₀) (hu₀ := hu₀)
    (E := fun _ c => R c) (hE0 := hE0 ρ) (hE6 := hE6)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
abbrev segs (c : Dev nD) : List (Pipeline.Seg (pcfgs (F := F)) Gen.adm (pdats m) () defs₀ Variants.none L lv) :=
  Gen.segs m (outs m) Variants.none L lv (fun _ c => R c) () (pdats m) (reg0 m) (reg1 m) (reg2 m) (reg3 m) (reg4 m) (reg5 m) c
set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V13 m (outs m) c b) := by
  refine Pipeline.θ_run_regions_kit_dev (pcfgs (F := F)) Gen.adm (pdats m) () cellOf_inj emb₁ defs₀ Variants.none L lv m ρ main
    (segs m)
    (fun c Q => by
      rewrite [main_chain c, Pipeline.Seg.run_eq_chain,
        show (segs m c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          StableHlo.seq hostOps6,
          StableHlo.seq hostOps6_1 ] from rfl]
      exact .rfl)
    (fun c => by simp only [segs, Gen.segs, Pipeline.Seg.pipes_host, Pipeline.Seg.pipes_region, Pipeline.Seg.pipes_nil]; decide)
    (0 : Dev nD → CellTallies nD τ sig Unit) (fun _ _ => rfl) (fun _ => iprop(emp))
    u₀ hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, .rfl, .rfl, sep_mono .rfl (hE6 c)⟩)
    (hinit := ?_)
    (QY := fun c s => ∀ b ∈ Pipeline.ucRefs τ sig, s.mem ((c : Thread nD τ).1, b) = Gen.V13 m (outs m) c b)
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    imodintro
    iapply (pointsTo_read_all (Pipeline.ucRefs τ sig) (fun b => ((c : Thread nD τ).1, b)) (Gen.V13 m (outs m) c) s')
    isplitl [Hh] <;> iassumption
end Cert.KernelIdeal.Hand
end
-- ==== Proof.KI.HostVal.lean ====
import proofs.«427802_j60163901882525_3_alg».proof.Proof.Gen.KernelIdeal.Regions
import Idealize.ShloMosaic.Lib.ValueIdx
import Idealize.ShloMosaic.Lib.StableHlo.Run
import Idealize.ShloMosaic.PureOps.Ideal
import Idealize.ShloMosaic.PureOps.Ideal.Laws
import Idealize.ShloMosaic.Lib.ValueLayout
import Idealize.ShloMosaic.Lib.Pipeline.Value
import Idealize.ShloMosaic.Lib.KernelVsHost

set_option maxRecDepth 1172

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (c : Dev nD)

theorem V4_arg (r : Ref sig .tc) (h0 : r ∉ hostOps0_W) (h1 : r ∉ hostOps0_1_W) (h2 : r ∉ hostOps0_2_W)
    (h3 : r ∉ hostOps0_3_W) : Gen.V4 m c r = m ((c : Thread nD τ).loc r) :=
  (V4_of m c r h3).trans <| (V3_of m c r h2).trans <| (V2_of m c r h1).trans (V1_of m c r h0)

theorem V3_arg (r : Ref sig .tc) (h0 : r ∉ hostOps0_W) (h1 : r ∉ hostOps0_1_W) (h2 : r ∉ hostOps0_2_W) :
    Gen.V3 m c r = m ((c : Thread nD τ).loc r) :=
  (V3_of m c r h2).trans <| (V2_of m c r h1).trans (V1_of m c r h0)

theorem V5_W1 : (Gen.V5 m c main_v49 : S256x256.Idx → EReal) = m ((c : Thread nD τ).loc main_arg2) := by
  have e : (Gen.V5 m c main_v49 : S256x256.Idx → EReal)
      = (truncf .bf16 (Gen.V4 m c main_arg2 : FVec Ideal S256x256 .f32) bitsLt_bf16_f32 : FVec Ideal S256x256 .bf16) := by
    show StableHlo.after hostOps0_4 (Gen.V4 m c) (Proc.devRef .tc main_v49) = _
    generalize Gen.V4 m c = W
    dsimp only [Gen.hostOps0_4]; after_results_simp <;> rfl
  rw [e, V4_arg m c main_arg2 (by decide) (by decide) (by decide) (by decide)]; rfl

theorem V5_W2 : (Gen.V5 m c main_v50 : S256x256.Idx → EReal) = m ((c : Thread nD τ).loc main_arg4) := by
  have e : (Gen.V5 m c main_v50 : S256x256.Idx → EReal)
      = (truncf .bf16 (Gen.V4 m c main_arg4 : FVec Ideal S256x256 .f32) bitsLt_bf16_f32 : FVec Ideal S256x256 .bf16) := by
    show StableHlo.after hostOps0_4 (Gen.V4 m c) (Proc.devRef .tc main_v50) = _
    generalize Gen.V4 m c = W
    dsimp only [Gen.hostOps0_4]; after_results_simp <;> rfl
  rw [e, V4_arg m c main_arg4 (by decide) (by decide) (by decide) (by decide)]; rfl

theorem V5_W3 : (Gen.V5 m c main_v51 : S256x256.Idx → EReal) = m ((c : Thread nD τ).loc main_arg6) := by
  have e : (Gen.V5 m c main_v51 : S256x256.Idx → EReal)
      = (truncf .bf16 (Gen.V4 m c main_arg6 : FVec Ideal S256x256 .f32) bitsLt_bf16_f32 : FVec Ideal S256x256 .bf16) := by
    show StableHlo.after hostOps0_4 (Gen.V4 m c) (Proc.devRef .tc main_v51) = _
    generalize Gen.V4 m c = W
    dsimp only [Gen.hostOps0_4]; after_results_simp <;> rfl
  rw [e, V4_arg m c main_arg6 (by decide) (by decide) (by decide) (by decide)]; rfl

theorem V5_W4 : (Gen.V5 m c main_v52 : S256x256.Idx → EReal) = m ((c : Thread nD τ).loc main_arg8) := by
  have e : (Gen.V5 m c main_v52 : S256x256.Idx → EReal)
      = (truncf .bf16 (Gen.V4 m c main_arg8 : FVec Ideal S256x256 .f32) bitsLt_bf16_f32 : FVec Ideal S256x256 .bf16) := by
    show StableHlo.after hostOps0_4 (Gen.V4 m c) (Proc.devRef .tc main_v52) = _
    generalize Gen.V4 m c = W
    dsimp only [Gen.hostOps0_4]; after_results_simp <;> rfl
  rw [e, V4_arg m c main_arg8 (by decide) (by decide) (by decide) (by decide)]; rfl

theorem V5_b1 (q : Fin 256) :
    (Gen.V5 m c main_v60 : S1x256.Idx → EReal) (ix2 0 q) = (m ((c : Thread nD τ).loc main_arg3) : S256.Idx → EReal) (ix1 q) := by
  have e : (Gen.V5 m c main_v60 : S1x256.Idx → EReal)
      = shapeCast S1x256 (Gen.V4 m c main_arg3 : S256.Idx → EReal) shapeCasts_S256_S1x256 := by
    show StableHlo.after hostOps0_4 (Gen.V4 m c) (Proc.devRef .tc main_v60) = _
    generalize Gen.V4 m c = W
    dsimp only [Gen.hostOps0_4]; after_results_simp <;> rfl
  rw [e, V4_arg m c main_arg3 (by decide) (by decide) (by decide) (by decide)]
  exact shapeCast_a_1a_apply _ _ 0 q

theorem V5_b2 (q : Fin 256) :
    (Gen.V5 m c main_v61 : S1x256.Idx → EReal) (ix2 0 q) = (m ((c : Thread nD τ).loc main_arg5) : S256.Idx → EReal) (ix1 q) := by
  have e : (Gen.V5 m c main_v61 : S1x256.Idx → EReal)
      = shapeCast S1x256 (Gen.V4 m c main_arg5 : S256.Idx → EReal) shapeCasts_S256_S1x256 := by
    show StableHlo.after hostOps0_4 (Gen.V4 m c) (Proc.devRef .tc main_v61) = _
    generalize Gen.V4 m c = W
    dsimp only [Gen.hostOps0_4]; after_results_simp <;> rfl
  rw [e, V4_arg m c main_arg5 (by decide) (by decide) (by decide) (by decide)]
  exact shapeCast_a_1a_apply _ _ 0 q

theorem V5_b3 (q : Fin 256) :
    (Gen.V5 m c main_v62 : S1x256.Idx → EReal) (ix2 0 q) = (m ((c : Thread nD τ).loc main_arg7) : S256.Idx → EReal) (ix1 q) := by
  have e : (Gen.V5 m c main_v62 : S1x256.Idx → EReal)
      = shapeCast S1x256 (Gen.V4 m c main_arg7 : S256.Idx → EReal) shapeCasts_S256_S1x256 := by
    show StableHlo.after hostOps0_4 (Gen.V4 m c) (Proc.devRef .tc main_v62) = _
    generalize Gen.V4 m c = W
    dsimp only [Gen.hostOps0_4]; after_results_simp <;> rfl
  rw [e, V4_arg m c main_arg7 (by decide) (by decide) (by decide) (by decide)]
  exact shapeCast_a_1a_apply _ _ 0 q

theorem V5_b4 (q : Fin 256) :
    (Gen.V5 m c main_v63 : S1x256.Idx → EReal) (ix2 0 q) = (m ((c : Thread nD τ).loc main_arg9) : S256.Idx → EReal) (ix1 q) := by
  have e : (Gen.V5 m c main_v63 : S1x256.Idx → EReal)
      = shapeCast S1x256 (Gen.V4 m c main_arg9 : S256.Idx → EReal) shapeCasts_S256_S1x256 := by
    show StableHlo.after hostOps0_4 (Gen.V4 m c) (Proc.devRef .tc main_v63) = _
    generalize Gen.V4 m c = W
    dsimp only [Gen.hostOps0_4]; after_results_simp <;> rfl
  rw [e, V4_arg m c main_arg9 (by decide) (by decide) (by decide) (by decide)]
  exact shapeCast_a_1a_apply _ _ 0 q

theorem V5_xpad (d : Fin 10240) (q : Fin 256) :
    (Gen.V5 m c main_v48 : S10240x256.Idx → EReal) (ix2 d q)
      = (if h : d.val < 10000 then (m ((c : Thread nD τ).loc main_arg0) : S10000x256.Idx → EReal) (ix2 ⟨d.val, h⟩ q) else 0 : EReal) := by
  have e5 : (Gen.V5 m c main_v48 : S10240x256.Idx → EReal)
      = (truncf .bf16 (Gen.V4 m c main_v47 : FVec Ideal S10240x256 .f32) bitsLt_bf16_f32 : FVec Ideal S10240x256 .bf16) := by
    show StableHlo.after hostOps0_4 (Gen.V4 m c) (Proc.devRef .tc main_v48) = _
    generalize Gen.V4 m c = W
    dsimp only [Gen.hostOps0_4]; after_results_simp <;> rfl
  have e4 : (Gen.V4 m c main_v47 : S10240x256.Idx → EReal)
      = pad S10240x256 ![0, 0] ![240, 0] ![0, 0] (Gen.V3 m c main_arg0 : S10000x256.Idx → EReal)
          (sitofp (F := Ideal) .f32 (Gen.V3 m c main_c_12 : IVec S_ 32) : FVec Ideal S_ .f32)
          pads_S10000x256_S10240x256_02400_000 h_S_ := by
    show StableHlo.after hostOps0_3 (Gen.V3 m c) (Proc.devRef .tc main_v47) = _
    generalize Gen.V3 m c = W
    dsimp only [Gen.hostOps0_3]; after_results_simp <;> (try simp only [TRef.ofBuf, TRef.toBuf, cast_eq]) <;> rfl
  have e3 : (Gen.V3 m c main_c_12 : IVec S_ 32) = constantI S_ 32 0#32 := by
    show StableHlo.after hostOps0_2 (Gen.V2 m c) (Proc.devRef .tc main_c_12) = _
    generalize Gen.V2 m c = W
    dsimp only [Gen.hostOps0_2]; after_results_simp <;> rfl
  rw [e5]
  show (Gen.V4 m c main_v47 : S10240x256.Idx → EReal) (ix2 d q) = _
  rw [e4, e3, V3_arg m c main_arg0 (by decide) (by decide) (by decide)]
  by_cases h : d.val < 10000
  · rw [dif_pos h]
    refine pad_apply_of_inside _ _ _ _ _ _ _ (ix2 d q) (ix2 ⟨d.val, h⟩ q) (fun a => ?_)
    match a with
    | ⟨0, _⟩ => show d.val = 0 + d.val * (0 + 1); omega
    | ⟨1, _⟩ => show q.val = 0 + q.val * (0 + 1); omega
  · rw [dif_neg h, pad_apply_of_not_inside _ _ _ _ _ _ _ (ix2 d q) (0 : Fin 2) (by
      show ¬(0 ≤ d.val ∧ (d.val - 0) % (0 + 1) = 0 ∧ (d.val - 0) / (0 + 1) < 10000)
      omega)]
    show (((0#32 : BitVec 32).toInt : ℝ) : EReal) = 0
    simp

end Cert.KernelIdeal.Hand
-- ==== Proof.KI.HostPad.lean ====
import proofs.«427802_j60163901882525_3_alg».proof.Proof.Gen.KernelIdeal.Regions
import proofs.«427802_j60163901882525_3_alg».proof.Proof.KI.HostVal
import Idealize.ShloMosaic.Lib.ValueIdx
import Idealize.ShloMosaic.Lib.StableHlo.Run
import Idealize.ShloMosaic.PureOps.Ideal
import Idealize.ShloMosaic.PureOps.Ideal.Laws
import Idealize.ShloMosaic.Lib.ValueLayout
import Idealize.ShloMosaic.Lib.Pipeline.Value
import Idealize.ShloMosaic.Lib.KernelVsHost

set_option maxRecDepth 1172

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (c : Dev nD)

section Overwrite
variable {ι κ α : Type}

theorem foldl_miss (step : (κ → α) → ι → (κ → α)) (i : κ) :
    ∀ (l : List ι), (∀ n ∈ l, ∀ r, step r n i = r i) → ∀ r, (l.foldl step r) i = r i
  | [], _, _ => rfl
  | n :: l, h, r => by
    rw [List.foldl_cons, foldl_miss step i l (fun n' hn' => h n' (List.mem_cons_of_mem _ hn')), h n List.mem_cons_self]

theorem foldl_hit (step : (κ → α) → ι → (κ → α)) (i : κ) (v : α) (n0 : ι) (hhit : ∀ r, step r n0 i = v) :
    ∀ (l : List ι), l.Nodup → n0 ∈ l → (∀ n ∈ l, n ≠ n0 → ∀ r, step r n i = r i) → ∀ r, (l.foldl step r) i = v
  | [], _, h0, _, _ => absurd h0 List.not_mem_nil
  | n :: l, hnd, h0, hm, r => by
    rw [List.foldl_cons]
    by_cases hn : n = n0
    · subst hn
      have hnot : n ∉ l := (List.nodup_cons.mp hnd).1
      rw [foldl_miss step i l (fun n' hn' => hm n' (List.mem_cons_of_mem _ hn') (fun e => hnot (e ▸ hn'))), hhit]
    · have h0' : n0 ∈ l := by
        rcases List.mem_cons.mp h0 with e | e
        · exact absurd e.symm hn
        · exact e
      exact foldl_hit step i v n0 hhit l (List.nodup_cons.mp hnd).2 h0'
        (fun n' hn' => hm n' (List.mem_cons_of_mem _ hn')) _

end Overwrite

section ScatterSet
variable {s si u : Shape} {α : Type} {w : Nat}

theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  unfold Host.scatter
  refine foldl_hit _ (g j) (upd j) (u.rowMajor j) ?_ _ (List.nodup_finRange _) (List.mem_finRange _) ?_ x
  · intro r
    simp only [Equiv.symm_apply_apply, hg, if_pos]
  · intro n _ hn r
    simp only [hg]
    rw [if_neg]
    intro e
    exact hn (by rw [hinj e, Equiv.apply_symm_apply])

theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i := by
  unfold Host.scatter
  refine foldl_miss _ i _ (fun n _ r => ?_) x
  simp only [hg]
  rw [if_neg (fun e => hi _ e.symm)]

end ScatterSet

theorem W5_resultIdx (idx : IVec S1 32) (hidx : ∀ k, idx k = 0#32) (j : S256x40.Idx) :
    scatter_S256x128_S1_S256x40_01_n_1_0.resultIdx? j idx = some (ix2 (j 0) (Fin.castLE (by decide) (j 1))) := by
  have hs : ∀ a, scatter_S256x128_S1_S256x40_01_n_1_0.start j idx a = 0 := by
    intro a; unfold ScatterDims.start; split
    · rw [hidx]; rfl
    · rfl
  have hw0 : scatter_S256x128_S1_S256x40_01_n_1_0.window j 0 = (j 0).val := rfl
  have hw1 : scatter_S256x128_S1_S256x40_01_n_1_0.window j 1 = (j 1).val := rfl
  unfold ScatterDims.resultIdx?
  have hj0 : (j 0).val < 256 := (j 0).isLt
  have hj1 : (j 1).val < 40 := (j 1).isLt
  rw [dif_pos (by
    intro a
    match a with
    | ⟨0, _⟩ => rw [hs]; show (0:Int) ≤ 0 + ((scatter_S256x128_S1_S256x40_01_n_1_0.window j 0 : ℕ) : Int) ∧ 0 + ((scatter_S256x128_S1_S256x40_01_n_1_0.window j 0 : ℕ) : Int) < ((256 : ℕ) : Int); rw [hw0]; omega
    | ⟨1, _⟩ => rw [hs]; show (0:Int) ≤ 0 + ((scatter_S256x128_S1_S256x40_01_n_1_0.window j 1 : ℕ) : Int) ∧ 0 + ((scatter_S256x128_S1_S256x40_01_n_1_0.window j 1 : ℕ) : Int) < ((128 : ℕ) : Int); rw [hw1]; omega)]
  congr 1
  funext a
  match a with
  | ⟨0, _⟩ => exact Fin.ext (by show (scatter_S256x128_S1_S256x40_01_n_1_0.start j idx 0 + (scatter_S256x128_S1_S256x40_01_n_1_0.window j 0 : ℕ)).toNat = (j 0).val; rw [hs, hw0]; omega)
  | ⟨1, _⟩ => exact Fin.ext (by show (scatter_S256x128_S1_S256x40_01_n_1_0.start j idx 1 + (scatter_S256x128_S1_S256x40_01_n_1_0.window j 1 : ℕ)).toNat = (j 1).val; rw [hs, hw1]; omega)

theorem b5_resultIdx (idx : IVec S1 32) (hidx : ∀ k, idx k = 0#32) (j : S40.Idx) :
    scatter_S128_S1_S40_0_n_0_0.resultIdx? j idx = some (ix1 (Fin.castLE (by decide) (j 0))) := by
  have hs : ∀ a, scatter_S128_S1_S40_0_n_0_0.start j idx a = 0 := by
    intro a; unfold ScatterDims.start; split
    · rw [hidx]; rfl
    · rfl
  have hw0 : scatter_S128_S1_S40_0_n_0_0.window j 0 = (j 0).val := rfl
  unfold ScatterDims.resultIdx?
  have hj0 : (j 0).val < 40 := (j 0).isLt
  rw [dif_pos (by
    intro a
    match a with
    | ⟨0, _⟩ => rw [hs]; show (0:Int) ≤ 0 + ((scatter_S128_S1_S40_0_n_0_0.window j 0 : ℕ) : Int) ∧ 0 + ((scatter_S128_S1_S40_0_n_0_0.window j 0 : ℕ) : Int) < ((128 : ℕ) : Int); rw [hw0]; omega)]
  congr 1
  funext a
  match a with
  | ⟨0, _⟩ => exact Fin.ext (by show (scatter_S128_S1_S40_0_n_0_0.start j idx 0 + (scatter_S128_S1_S40_0_n_0_0.window j 0 : ℕ)).toNat = (j 0).val; rw [hs, hw0]; omega)

attribute [local irreducible] Host.scatter

theorem W5_scatter_apply (x : S256x128.Idx → EReal) (idx : IVec S1 32) (hidx : ∀ k, idx k = 0#32) (upd : S256x40.Idx → EReal)
    (q : Fin 256) (j : Fin 128) :
    Host.scatter scatter_S256x128_S1_S256x40_01_n_1_0 (fun _ b => b) x idx upd (ix2 q j)
      = if h : j.val < 40 then upd (ix2 q ⟨j.val, h⟩) else x (ix2 q j) := by
  have hg := W5_resultIdx idx hidx
  by_cases h : j.val < 40
  · rw [dif_pos h]
    have hgj : ix2 (((ix2 q (⟨j.val, h⟩ : Fin 40)) : S256x40.Idx) 0) (Fin.castLE (by decide) (((ix2 q (⟨j.val, h⟩ : Fin 40)) : S256x40.Idx) 1))
        = (ix2 q j : S256x128.Idx) := rfl
    rw [← hgj]
    exact scatter_set_hit scatter_S256x128_S1_S256x40_01_n_1_0 x idx upd _ hg (fun j₁ j₂ e => by
      have e0 : (j₁ 0).val = (j₂ 0).val := congrArg (fun i : S256x128.Idx => (i 0).val) e
      have e1 : (j₁ 1).val = (j₂ 1).val := congrArg (fun i : S256x128.Idx => (i 1).val) e
      funext a
      match a with
      | ⟨0, _⟩ => exact Fin.ext e0
      | ⟨1, _⟩ => exact Fin.ext e1) (ix2 q ⟨j.val, h⟩)
  · rw [dif_neg h]
    refine scatter_set_miss scatter_S256x128_S1_S256x40_01_n_1_0 x idx upd _ hg (ix2 q j) (fun jj e => ?_)
    have e1 : (jj 1).val = j.val := congrArg (fun i : S256x128.Idx => (i 1).val) e
    have : (jj 1).val < 40 := (jj 1).isLt
    omega

theorem b5_scatter_apply (x : S128.Idx → EReal) (idx : IVec S1 32) (hidx : ∀ k, idx k = 0#32) (upd : S40.Idx → EReal)
    (j : Fin 128) :
    Host.scatter scatter_S128_S1_S40_0_n_0_0 (fun _ b => b) x idx upd (ix1 j)
      = if h : j.val < 40 then upd (ix1 ⟨j.val, h⟩) else x (ix1 j) := by
  have hg := b5_resultIdx idx hidx
  by_cases h : j.val < 40
  · rw [dif_pos h]
    have hgj : ix1 (Fin.castLE (by decide) (((ix1 (⟨j.val, h⟩ : Fin 40)) : S40.Idx) 0)) = (ix1 j : S128.Idx) := rfl
    rw [← hgj]
    exact scatter_set_hit scatter_S128_S1_S40_0_n_0_0 x idx upd _ hg (fun j₁ j₂ e => by
      have e0 : (j₁ 0).val = (j₂ 0).val := congrArg (fun i : S128.Idx => (i 0).val) e
      funext a
      match a with
      | ⟨0, _⟩ => exact Fin.ext e0) (ix1 ⟨j.val, h⟩)
  · rw [dif_neg h]
    refine scatter_set_miss scatter_S128_S1_S40_0_n_0_0 x idx upd _ hg (ix1 j) (fun jj e => ?_)
    have e1 : (jj 0).val = j.val := congrArg (fun i : S128.Idx => (i 0).val) e
    have : (jj 0).val < 40 := (jj 0).isLt
    omega

theorem V5_W5p (q : Fin 256) (j : Fin 128) :
    (Gen.V5 m c main_v56 : S256x128.Idx → EReal) (ix2 q j)
      = (if h : j.val < 40 then (m ((c : Thread nD τ).loc main_arg10) : S256x40.Idx → EReal) (ix2 q ⟨j.val, h⟩) else 0 : EReal) := by
  have e : (Gen.V5 m c main_v56 : S256x128.Idx → EReal)
      = (truncf .bf16 (Host.scatter scatter_S256x128_S1_S256x40_01_n_1_0 (fun _ b => b)
          (broadcastInDim S256x128 ![] bcast_S_S256x128 (constant (F := Ideal) S_ .f32 0x00000000#32) : FVec Ideal S256x128 .f32)
          (broadcastInDim S1 ![] bcast_S_S1 (constantI S_ 32 0#32) : IVec S1 32)
          (Gen.V4 m c main_arg10 : FVec Ideal S256x40 .f32) : FVec Ideal S256x128 .f32) bitsLt_bf16_f32 : FVec Ideal S256x128 .bf16) := by
    show StableHlo.after hostOps0_4 (Gen.V4 m c) (Proc.devRef .tc main_v56) = _
    generalize Gen.V4 m c = W
    dsimp only [Gen.hostOps0_4]; after_results_simp <;> rfl
  rw [e, V4_arg m c main_arg10 (by decide) (by decide) (by decide) (by decide), truncf_apply,
    W5_scatter_apply _ (broadcastInDim S1 ![] bcast_S_S1 (constantI S_ 32 0#32)) (fun _ => rfl)]
  by_cases h : j.val < 40
  · rw [dif_pos h, dif_pos h]
  · rw [dif_neg h, dif_neg h]
    show Ideal.ofBits .f32 0x00000000#32 = 0
    exact Ideal.ofBits_zero_f32

theorem V5_b5p (j : Fin 128) :
    (Gen.V5 m c main_v64 : S1x128.Idx → EReal) (ix2 0 j)
      = (if h : j.val < 40 then (m ((c : Thread nD τ).loc main_arg11) : S40.Idx → EReal) (ix1 ⟨j.val, h⟩) else 0 : EReal) := by
  have e : (Gen.V5 m c main_v64 : S1x128.Idx → EReal)
      = shapeCast S1x128 (Host.scatter scatter_S128_S1_S40_0_n_0_0 (fun _ b => b)
          (broadcastInDim S128 ![] bcast_S_S128 (constant (F := Ideal) S_ .f32 0x00000000#32) : FVec Ideal S128 .f32)
          (broadcastInDim S1 ![] bcast_S_S1 (constantI S_ 32 0#32) : IVec S1 32)
          (Gen.V4 m c main_arg11 : FVec Ideal S40 .f32) : FVec Ideal S128 .f32) shapeCasts_S128_S1x128 := by
    show StableHlo.after hostOps0_4 (Gen.V4 m c) (Proc.devRef .tc main_v64) = _
    generalize Gen.V4 m c = W
    dsimp only [Gen.hostOps0_4]; after_results_simp <;> rfl
  rw [e, V4_arg m c main_arg11 (by decide) (by decide) (by decide) (by decide), shapeCast_a_1a_apply _ _ 0 j,
    b5_scatter_apply _ (broadcastInDim S1 ![] bcast_S_S1 (constantI S_ 32 0#32)) (fun _ => rfl)]
  by_cases h : j.val < 40
  · rw [dif_pos h, dif_pos h]
  · rw [dif_neg h, dif_neg h]
    show Ideal.ofBits .f32 0x00000000#32 = 0
    exact Ideal.ofBits_zero_f32

end Cert.KernelIdeal.Hand
-- ==== Proof.KI.HostTail.lean ====
import proofs.«427802_j60163901882525_3_alg».proof.Proof.Gen.KernelIdeal.Regions
import Idealize.ShloMosaic.Lib.ValueIdx
import Idealize.ShloMosaic.Lib.StableHlo.Run
import Idealize.ShloMosaic.PureOps.Ideal
import Idealize.ShloMosaic.PureOps.Ideal.Laws
import Idealize.ShloMosaic.Lib.ValueLayout
import Idealize.ShloMosaic.Lib.Pipeline.Value
import Idealize.ShloMosaic.Lib.KernelVsHost

set_option maxRecDepth 1172

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (c : Dev nD)

def lsm (z : S10000x40.Idx → EReal) : S10000x40.Idx → EReal :=
  let zc : FVec Ideal S10000x40 .f32 :=
    subf (z : FVec Ideal S10000x40 .f32)
      (broadcastInDim S10000x40 ![0, 1] bcast_S10000x1_S10000x40_0_1
        (broadcastInDim S10000x1 ![0] bcast_S10000_S10000x1_0
          (maximumf (broadcastInDim S10000 ![] bcast_S_S10000 (constant (F := Ideal) S_ .f32 0xFF800000#32) : FVec Ideal S10000 .f32)
            (Host.reduce FloatOps.maximumf (z : FVec Ideal S10000x40 .f32) (constant (F := Ideal) S_ .f32 0xFF800000#32)
              reducesTo_S10000x40_S10000_d1 h_S_))))
  subf zc
    (broadcastInDim S10000x40 ![0, 1] bcast_S10000x1_S10000x40_0_1
      (Host.log (F := Ideal)
        (broadcastInDim S10000x1 ![0] bcast_S10000_S10000x1_0
          (Host.reduceAdd (F := Ideal) (Host.exp (F := Ideal) zc) (constant (F := Ideal) S_ .f32 0x00000000#32)
            reducesTo_S10000x40_S10000_d1 h_S_))))

variable (outs : Gen.Outs (F := Ideal))

theorem V13_logits (d : Fin 10000) (j : Fin 40) :
    (Gen.V13 m outs c main_v71 : S10000x40.Idx → EReal) (ix2 d j)
      = (outs 11 main_v70 c : S10240x128.Idx → EReal) (ix2 (Fin.castLE (by decide) d) (Fin.castLE (by decide) j)) := by
  have e12 : (Gen.V12 m outs c main_v71 : S10000x40.Idx → EReal)
      = extractStridedSlice S10000x40 ![0, 0] (Gen.V11 m outs c main_v70 : S10240x128.Idx → EReal) slices_S10240x128_S10000x40_0_0 := by
    show StableHlo.after hostOps6 (Gen.V11 m outs c) (Proc.devRef .tc main_v71) = _
    generalize Gen.V11 m outs c = W
    dsimp only [Gen.hostOps6]; after_results_simp <;> rfl
  have e11 : (Gen.V11 m outs c main_v70 : S10240x128.Idx → EReal) = outs 11 main_v70 c := by
    show Function.update (Gen.V10 m outs c) (Proc.devRef .tc main_v70) (outs 11 main_v70 c) (Proc.devRef .tc main_v70) = _
    exact Function.update_self ..
  rw [V13_of m outs c main_v71 (by decide), e12, e11]
  exact extractStridedSlice_apply _ _ _ _ _ (fun a => by
    match a with
    | ⟨0, _⟩ => exact (Nat.zero_add _).symm
    | ⟨1, _⟩ => exact (Nat.zero_add _).symm)

theorem V13_logp :
    (Gen.V13 m outs c main_v72 : S10000x40.Idx → EReal) = lsm (Gen.V13 m outs c main_v71 : S10000x40.Idx → EReal) := by
  rw [V13_of m outs c main_v71 (by decide)]
  show StableHlo.after hostOps6_1 (Gen.V12 m outs c) (Proc.devRef .tc main_v72) = lsm (Gen.V12 m outs c (Proc.devRef .tc main_v71))
  generalize Gen.V12 m outs c = W
  dsimp only [Gen.hostOps6_1]; after_results_simp <;> (try simp only [TRef.ofBuf, TRef.toBuf, cast_eq]) <;> rfl

end Cert.KernelIdeal.Hand
-- ==== Proof.GcnSpec.lean ====
import Mathlib.Data.EReal.Basic
import Mathlib.Data.EReal.Operations
import Mathlib.Algebra.BigOperators.Fin
import Mathlib.Algebra.BigOperators.Group.Finset.Basic
import Mathlib.Algebra.Order.BigOperators.Group.Finset

noncomputable section

open scoped BigOperators

namespace Cert.Gcn

def mm {n : ℕ} (A : Fin 10240 → Fin 10240 → EReal) (xw : Fin 10240 → Fin n → EReal) (d : Fin 10240) (q : Fin n) : EReal :=
  ∑ s : Fin 10240, A d s * xw s q

def linK {n : ℕ} (xp : Fin 10240 → Fin 256 → EReal) (W : Fin 256 → Fin n → EReal) (d : Fin 10240) (j : Fin n) : EReal :=
  ∑ q : Fin 256, xp d q * W q j

def fusedK {n : ℕ} (A : Fin 10240 → Fin 10240 → EReal) (xw : Fin 10240 → Fin 256 → EReal) (b : Fin 256 → EReal)
    (Wn : Fin 256 → Fin n → EReal) (d : Fin 10240) (j : Fin n) : EReal :=
  ∑ q : Fin 256, max (if d.val < 10000 then mm A xw d q + b q else 0) 0 * Wn q j

def finalK {n : ℕ} (A : Fin 10240 → Fin 10240 → EReal) (xw : Fin 10240 → Fin n → EReal) (b : Fin n → EReal)
    (d : Fin 10240) (j : Fin n) : EReal :=
  mm A xw d j + b j

section Edges

variable (src dst : Fin 330000 → Fin 10000) (nrm : Fin 330000 → EReal)

def adj (d s : Fin 10240) : EReal :=
  ∑ e ∈ Finset.univ.filter (fun e : Fin 330000 => (dst e).val = d.val ∧ (src e).val = s.val), nrm e

def aggR {n : ℕ} (h : Fin 10000 → Fin n → EReal) (d : Fin 10000) (q : Fin n) : EReal :=
  ∑ e ∈ Finset.univ.filter (fun e : Fin 330000 => dst e = d), h (src e) q * nrm e

def linR {n : ℕ} (x : Fin 10000 → Fin 256 → EReal) (W : Fin 256 → Fin n → EReal) (d : Fin 10000) (j : Fin n) : EReal :=
  ∑ q : Fin 256, x d q * W q j

def layerR {n : ℕ} (h : Fin 10000 → Fin 256 → EReal) (b : Fin 256 → EReal) (Wn : Fin 256 → Fin n → EReal)
    (d : Fin 10000) (j : Fin n) : EReal :=
  ∑ q : Fin 256, max (aggR src dst nrm h d q + b q) 0 * Wn q j

def logitsR {n : ℕ} (h : Fin 10000 → Fin n → EReal) (b : Fin n → EReal) (d : Fin 10000) (j : Fin n) : EReal :=
  aggR src dst nrm h d j + b j

theorem sum_mul_of_nonneg {ι : Type*} (s : Finset ι) (f : ι → EReal) (hf : ∀ i ∈ s, 0 ≤ f i) (x : EReal) :
    (∑ i ∈ s, f i) * x = ∑ i ∈ s, f i * x := by
  induction s using Finset.cons_induction with
  | empty => simp
  | cons a s ha ih =>
    have hs : ∀ i ∈ s, 0 ≤ f i := fun i hi => hf i (Finset.mem_cons.mpr (Or.inr hi))
    rw [Finset.sum_cons, Finset.sum_cons,
      EReal.right_distrib_of_nonneg (hf a (Finset.mem_cons_self a s)) (Finset.sum_nonneg hs), ih hs]

theorem mm_adj_eq {n : ℕ} (hn : ∀ e, 0 ≤ nrm e) (xw : Fin 10240 → Fin n → EReal) (h : Fin 10000 → Fin n → EReal)
    (hx : ∀ (s : Fin 10000) q, xw (Fin.castLE (by decide) s) q = h s q) (d : Fin 10000) (q : Fin n) :
    mm (adj src dst nrm) xw (Fin.castLE (by decide) d) q = aggR src dst nrm h d q := by
  unfold mm adj aggR

  have h1 : ∀ s : Fin 10240,
      (∑ e ∈ Finset.univ.filter (fun e : Fin 330000 =>
          (dst e).val = (Fin.castLE (by decide) d : Fin 10240).val ∧ (src e).val = s.val), nrm e) * xw s q
        = ∑ e : Fin 330000, if ((dst e).val = d.val ∧ (src e).val = s.val) then nrm e * xw s q else 0 := by
    intro s
    rw [sum_mul_of_nonneg _ _ (fun e _ => hn e), Finset.sum_filter]
    rfl
  rw [Finset.sum_congr rfl (fun s _ => h1 s), Finset.sum_comm, Finset.sum_filter]
  refine Finset.sum_congr rfl (fun e _ => ?_)

  rw [Finset.sum_eq_single (Fin.castLE (by decide) (src e) : Fin 10240)]
  · by_cases hd : dst e = d
    · simp only [hd, Fin.val_castLE, and_self, if_true, hx]
      exact EReal.mul_comm _ _
    · have : ¬ (dst e).val = d.val := fun hv => hd (Fin.ext hv)
      simp [hd, this]
  · intro s _ hs
    have : ¬ (src e).val = s.val := fun hv => hs (Fin.ext (by simpa using hv.symm))
    simp [this]
  · intro hne
    exact absurd (Finset.mem_univ _) hne

theorem mm_adj_eq_col {n m : ℕ} (hn : ∀ e, 0 ≤ nrm e) (c : Fin m → Fin n) (xw : Fin 10240 → Fin n → EReal)
    (h : Fin 10000 → Fin m → EReal)
    (hx : ∀ (s : Fin 10000) q, xw (Fin.castLE (by decide) s) (c q) = h s q) (d : Fin 10000) (q : Fin m) :
    mm (adj src dst nrm) xw (Fin.castLE (by decide) d) (c q) = aggR src dst nrm h d q :=
  mm_adj_eq src dst nrm hn (fun s q => xw s (c q)) h hx d q

theorem linK_eq {n : ℕ} (x : Fin 10000 → Fin 256 → EReal) (xp : Fin 10240 → Fin 256 → EReal)
    (hxp : ∀ (d : Fin 10000) q, xp (Fin.castLE (by decide) d) q = x d q) (W : Fin 256 → Fin n → EReal)
    (d : Fin 10000) (j : Fin n) : linK xp W (Fin.castLE (by decide) d) j = linR x W d j := by
  unfold linK linR
  exact Finset.sum_congr rfl (fun q _ => by rw [hxp])

theorem fusedK_eq {n m : ℕ} (hn : ∀ e, 0 ≤ nrm e) (c : Fin m → Fin n) (xw : Fin 10240 → Fin 256 → EReal)
    (h : Fin 10000 → Fin 256 → EReal)
    (hx : ∀ (s : Fin 10000) q, xw (Fin.castLE (by decide) s) q = h s q) (b : Fin 256 → EReal)
    (Wn : Fin 256 → Fin n → EReal) (Wm : Fin 256 → Fin m → EReal) (hW : ∀ q j, Wn q (c j) = Wm q j)
    (d : Fin 10000) (j : Fin m) :
    fusedK (adj src dst nrm) xw b Wn (Fin.castLE (by decide) d) (c j) = layerR src dst nrm h b Wm d j := by
  unfold fusedK layerR
  refine Finset.sum_congr rfl (fun q _ => ?_)
  have hd : (Fin.castLE (by decide) d : Fin 10240).val < 10000 := d.isLt
  rw [if_pos hd, mm_adj_eq src dst nrm hn xw h hx d q, hW]

theorem network_eq (hn : ∀ e, 0 ≤ nrm e)
    (x : Fin 10000 → Fin 256 → EReal) (xp : Fin 10240 → Fin 256 → EReal)
    (hxp : ∀ (d : Fin 10000) q, xp (Fin.castLE (by decide) d) q = x d q)
    (W1 W2 W3 W4 : Fin 256 → Fin 256 → EReal) (b1 b2 b3 b4 : Fin 256 → EReal)
    (W5 : Fin 256 → Fin 40 → EReal) (W5p : Fin 256 → Fin 128 → EReal)
    (hW5 : ∀ q (j : Fin 40), W5p q (Fin.castLE (by decide) j) = W5 q j)
    (b5 : Fin 40 → EReal) (b5p : Fin 128 → EReal) (hb5 : ∀ j : Fin 40, b5p (Fin.castLE (by decide) j) = b5 j)
    (d : Fin 10000) (j : Fin 40) :
    finalK (adj src dst nrm)
        (fusedK (adj src dst nrm) (fusedK (adj src dst nrm) (fusedK (adj src dst nrm) (fusedK (adj src dst nrm)
          (linK xp W1) b1 W2) b2 W3) b3 W4) b4 W5p) b5p (Fin.castLE (by decide) d) (Fin.castLE (by decide) j)
      = logitsR src dst nrm
          (layerR src dst nrm (layerR src dst nrm (layerR src dst nrm (layerR src dst nrm (linR x W1) b1 W2) b2 W3) b3 W4) b4 W5)
          b5 d j := by
  unfold finalK logitsR
  have hid : ∀ (W : Fin 256 → Fin 256 → EReal) q (j : Fin 256), W q (id j) = W q j := fun _ _ _ => rfl
  have e1 := linK_eq (n := 256) x xp hxp W1
  have e2 := fun s q => fusedK_eq src dst nrm hn id _ _ e1 b1 W2 W2 (hid W2) s q
  have e3 := fun s q => fusedK_eq src dst nrm hn id _ _ e2 b2 W3 W3 (hid W3) s q
  have e4 := fun s q => fusedK_eq src dst nrm hn id _ _ e3 b3 W4 W4 (hid W4) s q
  have e5 := fun s q => fusedK_eq src dst nrm hn (Fin.castLE (by decide)) _ _ e4 b4 W5p W5 hW5 s q
  rw [mm_adj_eq_col src dst nrm hn (Fin.castLE (by decide)) _ _ e5 d j, hb5]

end Edges

end Cert.Gcn

end
-- ==== Proof.GcnIdx.lean ====
import Idealize.ShloMosaic.Lib.ValueIdx

noncomputable section

namespace Cert.Gcn

open Idealize.ShloMosaic Idealize.ShloMosaic.ValueIdx

def InRange (ei : IVec (⟨2, ![2, 320000]⟩ : Shape) 32) : Prop :=
  ∀ i, 0 ≤ (ei i).toInt ∧ (ei i).toInt < 10000

def endpoint (ei : IVec (⟨2, ![2, 320000]⟩ : Shape) 32) (r : Fin 2) (e : Fin 330000) : Fin 10000 :=
  if h : e.val < 320000 then ⟨min (ei (ix2 r ⟨e.val, h⟩)).toInt.toNat 9999, by omega⟩
  else ⟨e.val - 320000, by have := e.isLt; omega⟩

def srcOf (ei : IVec (⟨2, ![2, 320000]⟩ : Shape) 32) : Fin 330000 → Fin 10000 := endpoint ei 0
def dstOf (ei : IVec (⟨2, ![2, 320000]⟩ : Shape) 32) : Fin 330000 → Fin 10000 := endpoint ei 1

end Cert.Gcn

end
-- ==== Proof.KI.HostAdj1.lean ====
import proofs.«427802_j60163901882525_3_alg».proof.Proof.Gen.KernelIdeal.Regions
import Idealize.ShloMosaic.Lib.ValueIdx
import Mathlib.Analysis.SpecialFunctions.Pow.Real
import Idealize.ShloMosaic.Lib.StableHlo.Run
import Idealize.ShloMosaic.PureOps.Ideal
import Idealize.ShloMosaic.PureOps.Ideal.Laws
import Idealize.ShloMosaic.Lib.ValueLayout
import Idealize.ShloMosaic.Lib.Pipeline.Value
import Idealize.ShloMosaic.Lib.KernelVsHost
import Idealize.ShloMosaic.Lib.Affine

set_option maxRecDepth 1172

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (c : Dev nD)

def endsV (r : Nat) (hs : S2x320000.Slices ![r, 0] S1x320000) (ei : IVec S2x320000 32) : IVec S330000 32 :=
  concatenate S330000 0
    [⟨S320000, shapeCast S320000 (extractStridedSlice S1x320000 ![r, 0] ei hs) shapeCasts_S1x320000_S320000⟩,
     ⟨S10000, iotaInDim S10000 32 0⟩] concatenates_S320000_S10000_S330000_d0

def srcV (ei : IVec S2x320000 32) : IVec S330000 32 := endsV 0 slices_S2x320000_S1x320000_0_0 ei

def dstV (ei : IVec S2x320000 32) : IVec S330000 32 := endsV 1 slices_S2x320000_S1x320000_1_0 ei

def wrapV (v : IVec S330000 32) (n : BitVec 32) : IVec S330000 32 :=
  select (cmpi .slt v (broadcastInDim S330000 ![] bcast_S_S330000 (constantI S_ 32 0#32)))
    (addi v (broadcastInDim S330000 ![] bcast_S_S330000 (constantI S_ 32 n))) v

def degOf (dv : IVec S330000 32) : FVec Ideal S10000 .f32 :=
  Host.scatterAdd (F := Ideal) scatter_S10000_S330000x1_S330000_n_0_0_1
    (broadcastInDim S10000 ![] bcast_S_S10000 (constant (F := Ideal) S_ .f32 0x00000000#32))
    (broadcastInDim S330000x1 ![0] bcast_S330000_S330000x1_0 dv)
    (broadcastInDim S330000 ![] bcast_S_S330000 (constant (F := Ideal) S_ .f32 0x3F800000#32))

def dinvOf (deg : FVec Ideal S10000 .f32) : FVec Ideal S10000 .f32 :=
  select (cmpf .ogt deg (broadcastInDim S10000 ![] bcast_S_S10000 (constant (F := Ideal) S_ .f32 0x00000000#32)))
    (Host.powf deg (broadcastInDim S10000 ![] bcast_S_S10000 (constant (F := Ideal) S_ .f32 0xBF000000#32)))
    (broadcastInDim S10000 ![] bcast_S_S10000 (id (constant (F := Ideal) S_ .f32 0x00000000#32)))

def nrmOf (sv dv : IVec S330000 32) (dinv : FVec Ideal S10000 .f32) : FVec Ideal S330000 .f32 :=
  mulf
    (Host.gather gather_S10000_S330000x1_S330000_n_0_n_n_0_1_1 dinv
      (broadcastInDim S330000x1 ![0] bcast_S330000_S330000x1_0 (wrapV sv 10000#32)))
    (Host.gather gather_S10000_S330000x1_S330000_n_0_n_n_0_1_1 dinv
      (broadcastInDim S330000x1 ![0] bcast_S330000_S330000x1_0 (wrapV dv 10000#32)))

def pairsOf (sv dv : IVec S330000 32) : IVec S330000x2 32 :=
  concatenate S330000x2 1
    [⟨S330000x1, broadcastInDim S330000x1 ![0] bcast_S330000_S330000x1_0 (wrapV dv 10240#32)⟩,
     ⟨S330000x1, broadcastInDim S330000x1 ![0] bcast_S330000_S330000x1_0 (wrapV sv 10240#32)⟩]
    concatenates_S330000x1_S330000x1_S330000x2_d1

def adjOf (sv dv : IVec S330000 32) (nrm : FVec Ideal S330000 .f32) : FVec Ideal S10240x10240 .f32 :=
  Host.scatterAdd (F := Ideal) scatter_S10240x10240_S330000x2_S330000_n_01_01_1
    (broadcastInDim S10240x10240 ![] bcast_S_S10240x10240 (constant (F := Ideal) S_ .f32 0x00000000#32))
    (pairsOf sv dv) nrm

def dinvV (ei : IVec S2x320000 32) : FVec Ideal S10000 .f32 := dinvOf (degOf (dstV ei))

def nrmV (ei : IVec S2x320000 32) : FVec Ideal S330000 .f32 := nrmOf (srcV ei) (dstV ei) (dinvV ei)

def nrmK (ei : IVec S2x320000 32) (e : Fin 330000) : EReal := nrmV ei (ix1 e)

theorem pow_nonneg_of_pos (x y : EReal) (hx : 0 < x) : 0 ≤ Ideal.pow x y := by
  induction x using EReal.rec with
  | bot => exact absurd hx (by simp)
  | top =>
    show (0 : EReal) ≤ if 0 < y then ⊤ else if y = 0 then 1 else 0
    split_ifs <;> simp
  | coe x =>
    have hx' : 0 < x := by exact_mod_cast hx
    induction y using EReal.rec with
    | bot =>
      show (0 : EReal) ≤ if x < 0 then ⊥ else if 1 < x then 0 else if x = 1 then 1 else ⊤
      rw [if_neg (not_lt.2 hx'.le)]
      split_ifs <;> simp
    | top =>
      show (0 : EReal) ≤ if x < 0 then ⊥ else if 1 < x then ⊤ else if x = 1 then 1 else 0
      rw [if_neg (not_lt.2 hx'.le)]
      split_ifs <;> simp
    | coe y =>
      show (0 : EReal) ≤ ((Real.rpow x y : ℝ) : EReal)
      exact_mod_cast Real.rpow_nonneg hx'.le y

theorem dinvOf_nonneg (deg : FVec Ideal S10000 .f32) (i : S10000.Idx) : 0 ≤ dinvOf deg i := by
  show (0 : EReal) ≤ Scalar.select (Ideal.cmp .ogt (deg i) (Ideal.ofBits .f32 0x00000000#32))
    (Ideal.pow (deg i) (Ideal.ofBits .f32 0xBF000000#32)) (Ideal.ofBits .f32 0x00000000#32)
  rw [Ideal.ofBits_zero_f32]
  by_cases hc : Ideal.cmp .ogt (deg i) 0 = 1#1
  · rw [hc, select_one]
    refine pow_nonneg_of_pos _ _ ?_
    have : BitVec.ofBool (decide ((0 : EReal) < deg i)) = 1#1 := hc
    cases hd : decide ((0 : EReal) < deg i) with
    | true => exact of_decide_eq_true hd
    | false => rw [hd] at this; exact absurd this (by decide)
  · rw [eq_zero_of_ne_one hc, select_zero]

theorem nrmOf_nonneg (sv dv : IVec S330000 32) (deg : FVec Ideal S10000 .f32) (j : S330000.Idx) :
    0 ≤ nrmOf sv dv (dinvOf deg) j := by
  show (0 : EReal) ≤ dinvOf deg _ * dinvOf deg _
  exact mul_nonneg (dinvOf_nonneg deg _) (dinvOf_nonneg deg _)

theorem nrmK_nonneg (ei : IVec S2x320000 32) : ∀ e, 0 ≤ nrmK ei e :=
  fun e => nrmOf_nonneg _ _ _ _

end Cert.KernelIdeal.Hand
-- ==== Proof.KI.HostAdj2.lean ====
import proofs.«427802_j60163901882525_3_alg».proof.Proof.Gen.KernelIdeal.Regions
import proofs.«427802_j60163901882525_3_alg».proof.Proof.KI.HostAdj1
import Idealize.ShloMosaic.Lib.ValueIdx
import Idealize.ShloMosaic.Lib.StableHlo.Run
import Idealize.ShloMosaic.PureOps.Ideal
import Idealize.ShloMosaic.PureOps.Ideal.Laws
import Idealize.ShloMosaic.Lib.ValueLayout
import Idealize.ShloMosaic.Lib.Pipeline.Value
import Idealize.ShloMosaic.Lib.KernelVsHost
import Idealize.ShloMosaic.Lib.Affine

set_option maxRecDepth 1172

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (c : Dev nD)

macro "results_rw" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

attribute [local irreducible] Host.scatterAdd Host.gather concatenate

set_option maxHeartbeats 4000000 in
theorem V1_src : (Gen.V1 m c main_v5 : IVec S330000 32) = srcV (Gen.V0 m c main_arg1 : IVec S2x320000 32) := by
  show StableHlo.after hostOps0 (Gen.V0 m c) (Proc.devRef .tc main_v5) = srcV (Gen.V0 m c (Proc.devRef .tc main_arg1))
  generalize Gen.V0 m c = W
  dsimp only [Gen.hostOps0]; after_results_simp; results_rw; rfl

set_option maxHeartbeats 4000000 in
theorem V1_dst : (Gen.V1 m c main_v6 : IVec S330000 32) = dstV (Gen.V0 m c main_arg1 : IVec S2x320000 32) := by
  show StableHlo.after hostOps0 (Gen.V0 m c) (Proc.devRef .tc main_v6) = dstV (Gen.V0 m c (Proc.devRef .tc main_arg1))
  generalize Gen.V0 m c = W
  dsimp only [Gen.hostOps0]; after_results_simp; results_rw; rfl

set_option maxHeartbeats 4000000 in
theorem V1_pos : (Gen.V1 m c main_v12 : IVec S10000 1)
    = cmpf .ogt (degOf (dstV (Gen.V0 m c main_arg1 : IVec S2x320000 32)))
        (broadcastInDim S10000 ![] bcast_S_S10000 (constant (F := Ideal) S_ .f32 0x00000000#32)) := by
  show StableHlo.after hostOps0 (Gen.V0 m c) (Proc.devRef .tc main_v12) = cmpf .ogt (degOf (dstV (Gen.V0 m c (Proc.devRef .tc main_arg1)))) _
  generalize Gen.V0 m c = W
  dsimp only [Gen.hostOps0]; after_results_simp; results_rw; rfl

set_option maxHeartbeats 4000000 in
theorem V1_pow : (Gen.V1 m c main_v14 : FVec Ideal S10000 .f32)
    = Host.powf (degOf (dstV (Gen.V0 m c main_arg1 : IVec S2x320000 32)))
        (broadcastInDim S10000 ![] bcast_S_S10000 (constant (F := Ideal) S_ .f32 0xBF000000#32)) := by
  show StableHlo.after hostOps0 (Gen.V0 m c) (Proc.devRef .tc main_v14) = Host.powf (degOf (dstV (Gen.V0 m c (Proc.devRef .tc main_arg1)))) _
  generalize Gen.V0 m c = W
  dsimp only [Gen.hostOps0]; after_results_simp; results_rw; rfl

theorem V1_zero : (Gen.V1 m c main_cst_3 : FVec Ideal S_ .f32) = constant (F := Ideal) S_ .f32 0x00000000#32 := by
  show StableHlo.after hostOps0 (Gen.V0 m c) (Proc.devRef .tc main_cst_3) = _
  generalize Gen.V0 m c = W
  dsimp only [Gen.hostOps0]; after_results_simp <;> rfl

theorem V2_dinv : (Gen.V2 m c main_v15 : FVec Ideal S10000 .f32) = dinvV (Gen.V0 m c main_arg1 : IVec S2x320000 32) := by
  have e : (Gen.V2 m c main_v15 : FVec Ideal S10000 .f32)
      = select (Gen.V1 m c main_v12 : IVec S10000 1) (Gen.V1 m c main_v14 : FVec Ideal S10000 .f32)
          (broadcastInDim S10000 ![] bcast_S_S10000 (id (Gen.V1 m c main_cst_3 : FVec Ideal S_ .f32))) := by
    show StableHlo.after hostOps0_1 (Gen.V1 m c) (Proc.devRef .tc main_v15) = _
    generalize Gen.V1 m c = W
    dsimp only [Gen.hostOps0_1]; after_results_simp
    try dsimp only [TRef.ofBuf, TRef.toBuf, cast_eq]
  rw [e, V1_pos, V1_pow, V1_zero]; rfl

set_option maxHeartbeats 4000000 in
theorem V3_adj : (Gen.V3 m c main_v46 : FVec Ideal S10240x10240 .bf16)
    = (truncf .bf16 (adjOf (Gen.V2 m c main_v5 : IVec S330000 32) (Gen.V2 m c main_v6 : IVec S330000 32)
        (nrmOf (Gen.V2 m c main_v5 : IVec S330000 32) (Gen.V2 m c main_v6 : IVec S330000 32)
          (Gen.V2 m c main_v15 : FVec Ideal S10000 .f32))) bitsLt_bf16_f32 : FVec Ideal S10240x10240 .bf16) := by
  show StableHlo.after hostOps0_2 (Gen.V2 m c) (Proc.devRef .tc main_v46) = _
  generalize Gen.V2 m c = W
  dsimp only [Gen.hostOps0_2]; after_results_simp; results_rw; rfl

theorem V5_adjV : (Gen.V5 m c main_v46 : S10240x10240.Idx → EReal)
    = adjOf (srcV (m ((c : Thread nD τ).loc main_arg1))) (dstV (m ((c : Thread nD τ).loc main_arg1)))
        (nrmV (m ((c : Thread nD τ).loc main_arg1))) := by
  rw [V5_of m c main_v46 (by decide), V4_of m c main_v46 (by decide), V3_adj,
    V2_of m c main_v5 (by decide), V2_of m c main_v6 (by decide), V1_src, V1_dst, V2_dinv]
  rfl

end Cert.KernelIdeal.Hand
-- ==== Proof.KI.HostAdj.lean ====
import proofs.«427802_j60163901882525_3_alg».proof.Proof.Gen.KernelIdeal.Regions
import proofs.«427802_j60163901882525_3_alg».proof.Proof.GcnSpec
import proofs.«427802_j60163901882525_3_alg».proof.Proof.GcnIdx
import proofs.«427802_j60163901882525_3_alg».proof.Proof.KI.HostAdj1
import proofs.«427802_j60163901882525_3_alg».proof.Proof.KI.HostAdj2
import Idealize.ShloMosaic.Lib.ValueIdx
import Idealize.ShloMosaic.Lib.StableHlo.Run
import Idealize.ShloMosaic.PureOps.Ideal
import Idealize.ShloMosaic.PureOps.Ideal.Laws
import Idealize.ShloMosaic.Lib.ValueLayout
import Idealize.ShloMosaic.Lib.Pipeline.Value
import Idealize.ShloMosaic.Lib.KernelVsHost
import Idealize.ShloMosaic.Lib.Affine
import Idealize.ShloMosaic.Lib.StableHlo.Predicate

set_option maxRecDepth 1172

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (c : Dev nD)

def idxEquiv1 (n : Nat) : Fin n ≃ (⟨1, ![n]⟩ : Shape).Idx where
  toFun := ix1
  invFun j := j 0
  left_inv _ := rfl
  right_inv j := (eq_ix1 j).symm

theorem endsV_apply_lt (r : Nat) (hs : S2x320000.Slices ![r, 0] S1x320000) (ei : IVec S2x320000 32) (e : Fin 330000)
    (h : e.val < 320000) (k : S2x320000.Idx) (hk0 : (k 0).val = r) (hk1 : (k 1).val = e.val) :
    endsV r hs ei (ix1 e) = ei k := by
  unfold endsV
  rw [concatenate_pair_apply_left (t := S330000) (s₁ := S320000) (s₂ := S10000) 0 _ _
    concatenates_S320000_S10000_S330000_d0 (ix1 e) rfl (ix1 ⟨e.val, h⟩) (fun b => by
      match b with
      | ⟨0, _⟩ => rfl)]
  rw [shapeCast_1a_a_apply _ _ ⟨e.val, h⟩]
  exact extractStridedSlice_apply _ _ _ _ k (fun a => by
    match a with
    | ⟨0, _⟩ => show (k 0).val = r + 0; omega
    | ⟨1, _⟩ => show (k 1).val = 0 + e.val; omega)

theorem endsV_apply_ge (r : Nat) (hs : S2x320000.Slices ![r, 0] S1x320000) (ei : IVec S2x320000 32) (e : Fin 330000)
    (h : ¬ e.val < 320000) : endsV r hs ei (ix1 e) = BitVec.ofNat 32 (e.val - 320000) := by
  unfold endsV
  have he := e.isLt
  rw [concatenate_pair_apply_right (t := S330000) (s₁ := S320000) (s₂ := S10000) 0 _ _
    concatenates_S320000_S10000_S330000_d0 (ix1 e) rfl rfl (ix1 ⟨e.val - 320000, by omega⟩) (fun b hb => by
      match b with
      | ⟨0, _⟩ => exact absurd rfl hb) (by show (e.val - 320000) + 320000 = e.val; omega)]
  rfl

theorem toInt_ofNat_small (a : ℕ) (ha : a < 2 ^ 31) : (BitVec.ofNat 32 a).toInt = a := by
  rw [BitVec.toInt_eq_msb_cond, BitVec.msb_eq_false_iff_two_mul_lt.mpr (by simp [BitVec.toNat_ofNat]; omega)]
  simp [BitVec.toNat_ofNat]; omega

theorem endsV_toInt (r : Fin 2) (hs : S2x320000.Slices ![r.val, 0] S1x320000) (ei : IVec S2x320000 32)
    (hr : Cert.Gcn.InRange ei) (e : Fin 330000) :
    (endsV r.val hs ei (ix1 e)).toInt = ((Cert.Gcn.endpoint ei r e).val : Int) := by
  unfold Cert.Gcn.endpoint
  by_cases h : e.val < 320000
  · rw [dif_pos h, endsV_apply_lt r.val hs ei e h (ix2 r ⟨e.val, h⟩) rfl rfl]
    have := hr (ix2 r ⟨e.val, h⟩)
    show _ = ((min (ei (ix2 r ⟨e.val, h⟩)).toInt.toNat 9999 : ℕ) : Int)
    omega
  · rw [dif_neg h, endsV_apply_ge r.val hs ei e h]
    have := e.isLt
    exact toInt_ofNat_small _ (by omega)

theorem srcV_toInt (ei : IVec S2x320000 32) (hr : Cert.Gcn.InRange ei) (e : Fin 330000) :
    (srcV ei (ix1 e)).toInt = ((Cert.Gcn.srcOf ei e).val : Int) :=
  endsV_toInt 0 slices_S2x320000_S1x320000_0_0 ei hr e

theorem dstV_toInt (ei : IVec S2x320000 32) (hr : Cert.Gcn.InRange ei) (e : Fin 330000) :
    (dstV ei (ix1 e)).toInt = ((Cert.Gcn.dstOf ei e).val : Int) :=
  endsV_toInt 1 slices_S2x320000_S1x320000_1_0 ei hr e

theorem wrapV_apply_of_nonneg (v : IVec S330000 32) (n : BitVec 32) (e : Fin 330000) (h : 0 ≤ (v (ix1 e)).toInt) :
    wrapV v n (ix1 e) = v (ix1 e) := by
  show Scalar.select (IntOp.cmpi .slt (v (ix1 e)) 0#32) (v (ix1 e) + n) (v (ix1 e)) = _
  have hc : IntOp.cmpi .slt (v (ix1 e)) 0#32 = 0#1 := eq_zero_of_ne_one (fun h1 => by
    have := IntOp.cmpi_slt.1 h1
    rw [show (0#32 : BitVec 32).toInt = 0 from by decide] at this
    omega)
  rw [hc, select_zero]

theorem adj_start0 (idx : IVec S330000x2 32) (e : Fin 330000) :
    scatter_S10240x10240_S330000x2_S330000_n_01_01_1.start (ix1 e) idx 0 = (idx (ix2 e 0)).toInt := by
  unfold ScatterDims.start
  rw [dif_pos (by show (0 : Fin 2) ∈ ([0, 1] : List (Fin 2)); exact List.mem_cons_self)]
  congr 2
  funext b; refine Fin.ext ?_
  match b with
  | ⟨0, _⟩ => rfl
  | ⟨1, _⟩ => rfl

theorem adj_start1 (idx : IVec S330000x2 32) (e : Fin 330000) :
    scatter_S10240x10240_S330000x2_S330000_n_01_01_1.start (ix1 e) idx 1 = (idx (ix2 e 1)).toInt := by
  unfold ScatterDims.start
  rw [dif_pos (by show (1 : Fin 2) ∈ ([0, 1] : List (Fin 2)); exact List.mem_cons_of_mem _ List.mem_cons_self)]
  congr 2
  funext b; refine Fin.ext ?_
  match b with
  | ⟨0, _⟩ => rfl
  | ⟨1, _⟩ => rfl

theorem adj_resultIdx (idx : IVec S330000x2 32) (e : Fin 330000) (a b : Fin 10240)
    (h0 : (idx (ix2 e 0)).toInt = (a.val : Int)) (h1 : (idx (ix2 e 1)).toInt = (b.val : Int)) :
    scatter_S10240x10240_S330000x2_S330000_n_01_01_1.resultIdx? (ix1 e) idx = some (ix2 a b) := by
  have hs0 := adj_start0 idx e
  have hs1 := adj_start1 idx e
  have hw0 : scatter_S10240x10240_S330000x2_S330000_n_01_01_1.window (ix1 e) 0 = 0 := rfl
  have hw1 : scatter_S10240x10240_S330000x2_S330000_n_01_01_1.window (ix1 e) 1 = 0 := rfl
  have ha : a.val < 10240 := a.isLt
  have hb : b.val < 10240 := b.isLt
  unfold ScatterDims.resultIdx?
  rw [dif_pos (by
    intro x
    match x with
    | ⟨0, _⟩ =>
      show (0:Int) ≤ scatter_S10240x10240_S330000x2_S330000_n_01_01_1.start (ix1 e) idx 0 + ((scatter_S10240x10240_S330000x2_S330000_n_01_01_1.window (ix1 e) 0 : ℕ) : Int) ∧ scatter_S10240x10240_S330000x2_S330000_n_01_01_1.start (ix1 e) idx 0 + ((scatter_S10240x10240_S330000x2_S330000_n_01_01_1.window (ix1 e) 0 : ℕ) : Int) < ((10240 : ℕ) : Int)
      rw [hs0, hw0, h0]; omega
    | ⟨1, _⟩ =>
      show (0:Int) ≤ scatter_S10240x10240_S330000x2_S330000_n_01_01_1.start (ix1 e) idx 1 + ((scatter_S10240x10240_S330000x2_S330000_n_01_01_1.window (ix1 e) 1 : ℕ) : Int) ∧ scatter_S10240x10240_S330000x2_S330000_n_01_01_1.start (ix1 e) idx 1 + ((scatter_S10240x10240_S330000x2_S330000_n_01_01_1.window (ix1 e) 1 : ℕ) : Int) < ((10240 : ℕ) : Int)
      rw [hs1, hw1, h1]; omega)]
  congr 1
  funext x
  match x with
  | ⟨0, _⟩ => exact Fin.ext (by
      show (scatter_S10240x10240_S330000x2_S330000_n_01_01_1.start (ix1 e) idx 0 + ((scatter_S10240x10240_S330000x2_S330000_n_01_01_1.window (ix1 e) 0 : ℕ) : Int)).toNat = a.val
      rw [hs0, hw0, h0]; omega)
  | ⟨1, _⟩ => exact Fin.ext (by
      show (scatter_S10240x10240_S330000x2_S330000_n_01_01_1.start (ix1 e) idx 1 + ((scatter_S10240x10240_S330000x2_S330000_n_01_01_1.window (ix1 e) 1 : ℕ) : Int)).toNat = b.val
      rw [hs1, hw1, h1]; omega)

theorem pairsOf_apply0 (sv dv : IVec S330000 32) (e : Fin 330000) :
    pairsOf sv dv (ix2 e 0) = wrapV dv 10240#32 (ix1 e) := by
  unfold pairsOf
  rw [concatenate_pair_apply_left (t := S330000x2) (s₁ := S330000x1) (s₂ := S330000x1) 1 _ _
    concatenates_S330000x1_S330000x1_S330000x2_d1 (ix2 e 0) rfl (ix2 e 0) (fun b => by
      match b with
      | ⟨0, _⟩ => rfl
      | ⟨1, _⟩ => rfl)]
  exact broadcastInDim_apply _ _ _ _ (ix1 e) (fun a => by
    match a with
    | ⟨0, _⟩ => rfl)

theorem pairsOf_apply1 (sv dv : IVec S330000 32) (e : Fin 330000) :
    pairsOf sv dv (ix2 e 1) = wrapV sv 10240#32 (ix1 e) := by
  unfold pairsOf
  rw [concatenate_pair_apply_right (t := S330000x2) (s₁ := S330000x1) (s₂ := S330000x1) 1 _ _
    concatenates_S330000x1_S330000x1_S330000x2_d1 (ix2 e 1) rfl rfl (ix2 e 0) (fun b hb => by
      match b with
      | ⟨0, _⟩ => rfl
      | ⟨1, _⟩ => exact absurd rfl hb) (by show 0 + 1 = 1; rfl)]
  exact broadcastInDim_apply _ _ _ _ (ix1 e) (fun a => by
    match a with
    | ⟨0, _⟩ => rfl)

theorem adjOf_apply (ei : IVec S2x320000 32) (hr : Cert.Gcn.InRange ei) (nrm : FVec Ideal S330000 .f32) (d s : Fin 10240) :
    adjOf (srcV ei) (dstV ei) nrm (ix2 d s)
      = Cert.Gcn.adj (Cert.Gcn.srcOf ei) (Cert.Gcn.dstOf ei) (fun e => nrm (ix1 e)) d s := by

  unfold adjOf Host.scatterAdd
  rw [Ideal.hostScatterAdd_def]
  unfold Ideal.hostScatterAdd
  show (Ideal.ofBits .f32 0x00000000#32 : EReal) + _ = _
  rw [Ideal.ofBits_zero_f32, zero_add]
  unfold Cert.Gcn.adj
  rw [Finset.sum_filter, Finset.sum_filter]

  refine (Equiv.sum_comp (idxEquiv1 330000) _).symm.trans ?_
  refine Finset.sum_congr rfl (fun e _ => ?_)
  show (if scatter_S10240x10240_S330000x2_S330000_n_01_01_1.resultIdx? (ix1 e) (pairsOf (srcV ei) (dstV ei)) = some (ix2 d s)
      then nrm (ix1 e) else 0) = _
  have hd := dstV_toInt ei hr e
  have hs := srcV_toInt ei hr e
  have hres := adj_resultIdx (pairsOf (srcV ei) (dstV ei)) e
    (Fin.castLE (by decide) (Cert.Gcn.dstOf ei e)) (Fin.castLE (by decide) (Cert.Gcn.srcOf ei e))
    (by rw [pairsOf_apply0, wrapV_apply_of_nonneg _ _ _ (by rw [hd]; omega), hd]; rfl)
    (by rw [pairsOf_apply1, wrapV_apply_of_nonneg _ _ _ (by rw [hs]; omega), hs]; rfl)
  rw [hres]
  refine if_congr ⟨fun h => ?_, fun h => ?_⟩ rfl rfl
  · have h' := Option.some.inj h
    exact ⟨congrArg (fun i : S10240x10240.Idx => (i 0).val) h', congrArg (fun i : S10240x10240.Idx => (i 1).val) h'⟩
  · refine congrArg some (funext fun a => ?_)
    match a with
    | ⟨0, _⟩ => exact Fin.ext h.1
    | ⟨1, _⟩ => exact Fin.ext h.2

theorem V5_adj (hr : Cert.Gcn.InRange (m ((c : Thread nD τ).loc main_arg1))) (d s : Fin 10240) :
    (Gen.V5 m c main_v46 : S10240x10240.Idx → EReal) (ix2 d s)
      = Cert.Gcn.adj (Cert.Gcn.srcOf (m ((c : Thread nD τ).loc main_arg1))) (Cert.Gcn.dstOf (m ((c : Thread nD τ).loc main_arg1)))
          (nrmK (m ((c : Thread nD τ).loc main_arg1))) d s := by
  rw [V5_adjV]
  exact adjOf_apply _ hr _ d s

theorem ofFin_eq_ix1 {n : Nat} (k : Fin n) : Shape.Idx.ofFin k = ix1 k := by
  funext a
  match a with
  | ⟨0, _⟩ => exact Fin.ext rfl

theorem gather_apply (x : S10000.Idx → EReal) (idx : IVec S330000x1 32) (e : Fin 330000) :
    Host.gather gather_S10000_S330000x1_S330000_n_0_n_n_0_1_1 x idx (ix1 e)
      = x (ix1 ⟨min (idx (ix2 e 0)).toInt.toNat 9999, by omega⟩) := by
  have h := StableHlo.Predicate.gather_take gather_S10000_S330000x1_S330000_n_0_n_n_0_1_1 rfl rfl rfl rfl x idx e
    (by decide)
  rw [ofFin_eq_ix1, ofFin_eq_ix1] at h
  have hp : (StableHlo.Predicate.ixP e : S330000x1.Idx) = ix2 e 0 := by
    funext b
    match b with
    | ⟨0, _⟩ => rfl
    | ⟨1, _⟩ => rfl
  refine h.trans (congrArg x (congrArg ix1 (Fin.ext ?_)))
  show min (idx (StableHlo.Predicate.ixP e)).toInt.toNat (10000 - 1) = min (idx (ix2 e 0)).toInt.toNat 9999
  rw [hp]

theorem gather_wrap_apply (x : S10000.Idx → EReal) (v : IVec S330000 32) (e : Fin 330000) (k : Fin 10000)
    (hk : (v (ix1 e)).toInt = (k.val : Int)) :
    Host.gather gather_S10000_S330000x1_S330000_n_0_n_n_0_1_1 x
        (broadcastInDim S330000x1 ![0] bcast_S330000_S330000x1_0 (wrapV v 10000#32)) (ix1 e) = x (ix1 k) := by
  rw [gather_apply]
  have hb : (broadcastInDim S330000x1 ![0] bcast_S330000_S330000x1_0 (wrapV v 10000#32) : IVec S330000x1 32) (ix2 e 0)
      = v (ix1 e) := by
    rw [broadcastInDim_apply _ _ _ _ (ix1 e) (fun a => by
      match a with
      | ⟨0, _⟩ => rfl), wrapV_apply_of_nonneg _ _ _ (by rw [hk]; omega)]
  refine congrArg x (congrArg ix1 (Fin.ext ?_))
  show min (BitVec.toInt _).toNat 9999 = k.val
  rw [hb, hk]
  have := k.isLt
  omega

theorem nrmK_eq (ei : IVec S2x320000 32) (hr : Cert.Gcn.InRange ei) (e : Fin 330000) :
    nrmK ei e = dinvV ei (ix1 (Cert.Gcn.srcOf ei e)) * dinvV ei (ix1 (Cert.Gcn.dstOf ei e)) := by
  show nrmOf (srcV ei) (dstV ei) (dinvV ei) (ix1 e) = _
  unfold nrmOf
  rw [mulf_apply, gather_wrap_apply _ _ e _ (srcV_toInt ei hr e), gather_wrap_apply _ _ e _ (dstV_toInt ei hr e)]

end Cert.KernelIdeal.Hand
-- ==== Proof.KI.Pay05.lean ====
import proofs.«427802_j60163901882525_3_alg».proof.Proof.Gen.KernelIdeal.Skeleton
import Idealize.ShloMosaic.Lib.ValueIdx
import Idealize.ShloMosaic.Lib.StackMember
import Idealize.ShloMosaic.Lib.KernelVsHost
import Idealize.ShloMosaic.Lib.ValueLayout
import Idealize.ShloMosaic.Lib.Pipeline.Value
import Idealize.ShloMosaic.PureOps.Ideal.Laws

noncomputable section

namespace Cert.KernelIdeal.Hand.V05

open Cert.KernelIdeal Cert.KernelIdeal.Gen
open Idealize.ShloMosaic Idealize.ShloMosaic.ValueIdx
open scoped BigOperators

theorem matmul0_apply (a : FVec Ideal S1280x256 .bf16) (b : FVec Ideal S256x256 .bf16) (p : Fin 1280) (j : Fin 256) :
    matmul dot_S1280x256_S256x256_S1280x256_1_0_0_1_n_n none a b (constant (F := Ideal) S1280x256 .f32 0x00000000#32) (ix2 p j)
      = ∑ q : Fin 256, a (ix2 p q) * b (ix2 q j) :=
  (congrFun (matmul_zero_eq_dotGeneral _ none a b) _).trans (StackMember.dotGeneral_plain_apply (m := 1280) (k := 256) (n := 256) none a b p j)

theorem k0_pay1_apply (v0 : Vec Ideal S1280x256 .bf16) (v2 : Vec Ideal S256x256 .bf16) (p : Fin 1280) (j : Fin 256) :
    k0_pay1 v0 v2 (ix2 p j) = ∑ q : Fin 256, v0 (ix2 p q) * v2 (ix2 q j) := by
  unfold k0_pay1
  rw [shapeCast_self, shapeCast_self]
  exact matmul0_apply v0 v2 p j

theorem k5_pay1_apply (i : S1280x128.Idx) : k5_pay1 (F := Ideal) i = 0 := by
  unfold k5_pay1
  rw [shapeCast_self]
  exact Ideal.ofBits_zero_f32

theorem matmul5_apply (a : FVec Ideal S1280x2560 .bf16) (b : FVec Ideal S2560x128 .bf16) (p : Fin 1280) (q : Fin 128) :
    matmul dot_S1280x2560_S2560x128_S1280x128_1_0_0_1_n_n none a b (constant (F := Ideal) S1280x128 .f32 0x00000000#32) (ix2 p q)
      = ∑ s : Fin 2560, a (ix2 p s) * b (ix2 s q) :=
  (congrFun (matmul_zero_eq_dotGeneral _ none a b) _).trans (StackMember.dotGeneral_plain_apply (m := 1280) (k := 2560) (n := 128) none a b p q)

theorem k5_pay2_apply (v6 : Vec Ideal S2560x128 .bf16) (v8 : Vec Ideal S1280x128 .f32) (v9 : Vec Ideal S1280x2560 .bf16)
    (p : Fin 1280) (q : Fin 128) :
    k5_pay2 v6 v8 v9 (ix2 p q) = v8 (ix2 p q) + ∑ s : Fin 2560, v9 (ix2 p s) * v6 (ix2 s q) := by
  unfold k5_pay2
  rw [shapeCast_self, shapeCast_self, shapeCast_self]
  show v8 (ix2 p q) + _ = _
  exact congrArg (v8 (ix2 p q) + ·) (matmul5_apply v9 v6 p q)

theorem k5_pay3_apply (v19 : Vec Ideal S1280x128 .f32) (v20 : Vec Ideal S1x128 .f32) (p : Fin 1280) (q : Fin 128) :
    k5_pay3 v19 v20 (ix2 p q) = v19 (ix2 p q) + v20 (ix2 (0 : Fin 1) q) := by
  unfold k5_pay3
  rw [shapeCast_self]
  show v19 (ix2 p q) + _ = _
  exact congrArg (v19 (ix2 p q) + ·) (broadcastTo_1b_ab_apply v20 _ p q)

end Cert.KernelIdeal.Hand.V05

end
-- ==== Proof.KI.R0Val.lean ====
import proofs.«427802_j60163901882525_3_alg».proof.Proof.KI.R0
import proofs.«427802_j60163901882525_3_alg».proof.Proof.KI.Pay05
import proofs.«427802_j60163901882525_3_alg».proof.Proof.GcnSpec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

namespace V05

theorem hz2 : (![0, 0] : Fin 2 → Nat) = fun _ => 0 := funext fun a => by fin_cases a <;> rfl

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section AnyValues

variable {F : FTy → Type} [FloatOps F]
variable (V : (c : Dev nD) → (b : Ref sig .tc) → Buf (Elt F) ((c : Thread nD τ).loc b))

theorem iblk0_0_apply (c : Dev nD) (t : Fin cfg0.N) (p : Fin 1280) (q : Fin 256) :
    (iblk0 V c 0 t : Vec F S1280x256 .bf16) (ix2 p q)
      = (V c main_v48 : Vec F S10240x256 .bf16)
          (ix2 (⟨1280 * t.val + p.val, by have := t.isLt; have h : cfg0.N = 8 := N_0; have := p.isLt; omega⟩ : Fin 10240) q) := by
  obtain ⟨e0, e1, -⟩ := idx0 t
  unfold iblk0
  rw [View.read_apply]
  show V c main_v48 (((cfg0.win 0).blk t).view.emb (ix2 p q)) = V c main_v48 _
  refine congrArg (V c main_v48) (funext fun a => Fin.ext ?_)
  match a with
  | ⟨0, _⟩ => show win0_0.index t (0 : Fin 2) * 1280 + 1 * p.val = 1280 * t.val + p.val; rw [e0]; omega
  | ⟨1, _⟩ => show win0_0.index t (1 : Fin 2) * 256 + 1 * q.val = q.val; rw [e1]; omega

theorem iblk0_1_apply (c : Dev nD) (t : Fin cfg0.N) (q : Fin 256) (j : Fin 256) :
    (iblk0 V c 1 t : Vec F S256x256 .bf16) (ix2 q j) = (V c main_v49 : Vec F S256x256 .bf16) (ix2 q j) := by
  obtain ⟨-, -, e0, e1, -⟩ := idx0 t
  unfold iblk0
  rw [View.read_apply]
  show V c main_v49 (((cfg0.win 1).blk t).view.emb (ix2 q j)) = V c main_v49 _
  refine congrArg (V c main_v49) (funext fun a => Fin.ext ?_)
  match a with
  | ⟨0, _⟩ => show win0_1.index t (0 : Fin 2) * 256 + 1 * q.val = q.val; rw [e0]; omega
  | ⟨1, _⟩ => show win0_1.index t (1 : Fin 2) * 256 + 1 * j.val = j.val; rw [e1]; omega

theorem mem_blk0 (t : Fin cfg0.N) (i : S10240x256.Idx) :
    i ∈ ((cfg0.win 2).blk t).view.set ↔ ∀ a : Fin 2, win0_2.index t a * S1280x256.size a ≤ (i a).val ∧ (i a).val < win0_2.index t a * S1280x256.size a + S1280x256.size a := by
  show i ∈ ((View.whole main_v65).slice (win0_2.rect t)).set ↔ _
  rw [View.set_slice_whole, Rect.mem_set_unit]
  exact Iff.rfl

theorem cover0 (i : S10240x256.Idx) : ∃ t : Fin cfg0.N, (cfg0.win 2).flush t = true ∧ i ∈ ((cfg0.win 2).blk t).view.set := by
  have hN : cfg0.N = 8 := N_0
  have hi0 : (i 0).val < 10240 := (i 0).isLt
  have hi1 : (i 1).val < 256 := (i 1).isLt
  let t : Fin cfg0.N := ⟨(i 0).val / 1280, by omega⟩
  have ht : t.val = (i 0).val / 1280 := rfl
  obtain ⟨-, -, -, -, e0, e1⟩ := idx0 t
  refine ⟨t, flush0_2 t, ?_⟩
  rw [mem_blk0]
  intro a
  match a with
  | ⟨0, _⟩ => show win0_2.index t (0 : Fin 2) * 1280 ≤ (i 0).val ∧ (i 0).val < win0_2.index t (0 : Fin 2) * 1280 + 1280; rw [e0, ht]; omega
  | ⟨1, _⟩ => show win0_2.index t (1 : Fin 2) * 256 ≤ (i 1).val ∧ (i 1).val < win0_2.index t (1 : Fin 2) * 256 + 256; rw [e1]; omega

end AnyValues

section AtIdeal

variable (V : (c : Dev nD) → (b : Ref sig .tc) → Buf (Elt Ideal) ((c : Thread nD τ).loc b))

def lin0 (c : Dev nD) : Vec Ideal S10240x256 .bf16 := fun i =>
  Cert.Gcn.linK (fun d q => (V c main_v48 : Vec Ideal S10240x256 .bf16) (ix2 d q))
    (fun q j => (V c main_v49 : Vec Ideal S256x256 .bf16) (ix2 q j)) (i 0) (i 1)

theorem flushed0_eq (c : Dev nD) (t : Fin cfg0.N) :
    (dat0 V c).flushed 2 t = ((cfg0.win 2).blk t).view.read (Elt Ideal) (lin0 V c) := by
  show (cfg0.win 2).cut (grid0.coords t) ((dat0 V c).after 2 t) = _
  rw [after0_out]
  unfold out0_2
  rw [View.canon_unit_zero hz2]
  simp only [View.ld_unit_zero (S := S1280x256) hz2, View.ld_unit_zero (S := S256x256) hz2]
  obtain ⟨-, -, -, -, e0, e1⟩ := idx0 t
  funext y
  obtain ⟨p, j, rfl⟩ : ∃ (p : Fin 1280) (j : Fin 256), y = ix2 p j := ⟨y 0, y 1, eq_ix2 y⟩
  refine (k0_pay1_apply (iblk0 V c 0 t) (iblk0 V c 1 t) p j).trans ?_
  rw [View.read_apply]
  have hemb : ((cfg0.win 2).blk t).view.emb (ix2 p j)
      = (ix2 (⟨1280 * t.val + p.val, by have := t.isLt; have h : cfg0.N = 8 := N_0; have := p.isLt; omega⟩ : Fin 10240) j : S10240x256.Idx) := by
    funext a; apply Fin.ext
    match a with
    | ⟨0, _⟩ => show win0_2.index t (0 : Fin 2) * 1280 + 1 * p.val = 1280 * t.val + p.val; rw [e0]; omega
    | ⟨1, _⟩ => show win0_2.index t (1 : Fin 2) * 256 + 1 * j.val = j.val; rw [e1]; omega
  show _ = lin0 V c (((cfg0.win 2).blk t).view.emb (ix2 p j))
  rw [hemb]
  show _ = Cert.Gcn.linK _ _ _ _
  unfold Cert.Gcn.linK
  refine Finset.sum_congr rfl fun q _ => ?_
  rw [iblk0_0_apply, iblk0_1_apply]

theorem arr0_eq (c : Dev nD) : (dat0 V c).arrAt 2 cfg0.N = lin0 V c :=
  (dat0 V c).arrAt_eq_of_cover 2 (lin0 V c) (fun t _ => flushed0_eq V c t) cover0

end AtIdeal

end V05

theorem final0 (V : (c : Dev nD) → (b : Ref sig .tc) → Buf (Elt Ideal) ((c : Thread nD τ).loc b)) (c : Dev nD)
    (d : Fin 10240) (j : Fin 256) :
    (dat0 V c).arrAt 2 cfg0.N (ix2 d j)
      = Cert.Gcn.linK (fun d q => V c main_v48 (ix2 d q)) (fun q j => V c main_v49 (ix2 q j)) d j :=
  congrFun (V05.arr0_eq V c) (ix2 d j)

end Cert.KernelIdeal.Hand

end
-- ==== Proof.KI.R1ValA.lean ====
import proofs.«427802_j60163901882525_3_alg».proof.Proof.Gen.KernelIdeal.Skeleton
import Idealize.ShloMosaic.Lib.ValueIdx
import Idealize.ShloMosaic.Lib.StackMember
import Idealize.ShloMosaic.Lib.KernelVsHost
import Idealize.ShloMosaic.Lib.Pipeline.Value
import Idealize.ShloMosaic.Lib.ValueLayout
import Idealize.ShloMosaic.PureOps.Ideal.Laws
import Idealize.ShloMosaic.Lib.Affine

set_option maxRecDepth 16384

noncomputable section

open scoped BigOperators

namespace Cert.KernelIdeal.Hand

open Cert.KernelIdeal Cert.KernelIdeal.Gen
open Idealize.ShloMosaic Idealize.ShloMosaic.ValueIdx

theorem k1_pay1_apply (p : Fin 1280) (q : Fin 256) : k1_pay1 (F := Ideal) (ix2 p q) = 0 := by
  unfold k1_pay1
  simp only [shapeCast_self]
  exact Ideal.ofBits_zero_f32

/-- A block product into a zero accumulator, entry by entry: the library's plain matrix product. -/
theorem k1_matmulA_apply (l : FVec Ideal S1280x2560 .bf16) (r : FVec Ideal S2560x256 .bf16) (p : Fin 1280) (q : Fin 256) :
    matmul dot_S1280x2560_S2560x256_S1280x256_1_0_0_1_n_n none l r (constant S1280x256 .f32 0x00000000#32) (ix2 p q)
      = ∑ s : Fin 2560, l (ix2 p s) * r (ix2 s q) :=
  (congrFun (matmul_zero_eq_dotGeneral _ none l r) _).trans (StackMember.dotGeneral_plain_apply (m := 1280) (k := 2560) (n := 256) none l r p q)

theorem k1_pay2_apply (v6 : Vec Ideal S2560x256 .bf16) (v8 : Vec Ideal S1280x256 .f32) (v9 : Vec Ideal S1280x2560 .bf16)
    (p : Fin 1280) (q : Fin 256) :
    k1_pay2 v6 v8 v9 (ix2 p q) = v8 (ix2 p q) + ∑ s : Fin 2560, v9 (ix2 p s) * v6 (ix2 s q) := by
  unfold k1_pay2
  simp only [shapeCast_self]
  rw [addf_apply, k1_matmulA_apply]

theorem k1_matmulB_apply (l : FVec Ideal S1280x256 .bf16) (r : FVec Ideal S256x256 .bf16) (p : Fin 1280) (q : Fin 256) :
    matmul dot_S1280x256_S256x256_S1280x256_1_0_0_1_n_n none l r (constant S1280x256 .f32 0x00000000#32) (ix2 p q)
      = ∑ j : Fin 256, l (ix2 p j) * r (ix2 j q) :=
  (congrFun (matmul_zero_eq_dotGeneral _ none l r) _).trans (StackMember.dotGeneral_plain_apply (m := 1280) (k := 256) (n := 256) none l r p q)

/-- The row mask: on 32-bit words the signed compare of 1280 a + p with 10000 is the compare of the numbers (a < 8, p < 1280). -/
theorem k1_mask_iff (a p : ℕ) (ha : a < 8) (hp : p < 1280) :
    IntOp.cmpi .slt (IntOp.addi (Scalar.muli (BitVec.ofNat 32 a) 1280#32) (BitVec.ofNat 32 p)) 10000#32 = 1#1
      ↔ a * 1280 + p < 10000 := by
  have hx : (IntOp.addi (Scalar.muli (BitVec.ofNat 32 a) 1280#32) (BitVec.ofNat 32 p)).toNat = a * 1280 + p := by
    simp only [IntOp.addi, Scalar.muli, IntOp.muli, BitVec.toNat_add, BitVec.toNat_mul, BitVec.toNat_ofNat]
    omega
  have h10 : (10000#32 : BitVec 32).toInt = 10000 := by decide
  rw [IntOp.cmpi_slt, BitVec.toInt_eq_toNat_cond, hx, h10]
  split <;> omega

/-- The epilogue at (p, q): bias added, rows numbered 10000 or more zeroed, rectified, times the next weights. -/
theorem k1_pay3_apply (i : grid1.Coords) (v25 : Vec Ideal S1280x256 .f32) (v26 : Vec Ideal S1x256 .f32)
    (v35 : Vec Ideal S256x256 .bf16) (p : Fin 1280) (q : Fin 256) :
    k1_pay3 i v25 v26 v35 (ix2 p q)
      = ∑ j : Fin 256, max (if (i 0).val * 1280 + p.val < 10000 then v25 (ix2 p j) + v26 (ix2 0 j) else 0) 0 * v35 (ix2 j q) := by
  unfold k1_pay3
  simp only [shapeCast_self]
  rw [truncf_apply, k1_matmulB_apply]
  refine Finset.sum_congr rfl fun j _ => ?_
  rw [truncf_apply, maximumf_apply, select_apply, broadcast_apply, addf_apply, broadcastTo_1b_ab_apply]
  have hc : cmpi .slt (addi (broadcast S1280x256 (Scalar.muli (BitVec.ofNat 32 (i 0).val) 1280#32))
        (iota .tc S1280x256 32 [0] iota_S1280x256_d0_w32)) (broadcast S1280x256 10000#32) (ix2 p j)
      = IntOp.cmpi .slt (IntOp.addi (Scalar.muli (BitVec.ofNat 32 (i 0).val) 1280#32) (BitVec.ofNat 32 p.val)) 10000#32 := by
    show IntOp.cmpi .slt (IntOp.addi _ (iota .tc S1280x256 32 [0] iota_S1280x256_d0_w32 (ix2 p j))) _ = _
    rw [iota_single_apply]
    rfl
  have h0 : FloatOps.ofBits (F := Ideal) .f32 0#32 = 0 := Ideal.ofBits_zero_f32
  have hsel : ∀ (b : BitVec 1) (x y : EReal), Scalar.select b x y = if b = 1#1 then x else y := fun _ _ _ => rfl
  rw [hc, h0, hsel]
  by_cases hm : (i 0).val * 1280 + p.val < 10000
  · rw [if_pos ((k1_mask_iff (i 0).val p.val (i 0).isLt p.isLt).mpr hm), if_pos hm]
  · rw [if_neg (mt (k1_mask_iff (i 0).val p.val (i 0).isLt p.isLt).mp hm), if_neg hm]

end Cert.KernelIdeal.Hand

end
-- ==== Proof.GcnTile.lean ====
import proofs.«427802_j60163901882525_3_alg».proof.Proof.GcnSpec
import Mathlib.Algebra.BigOperators.Fin
import Mathlib.Logic.Equiv.Fin.Basic

noncomputable section

open scoped BigOperators

namespace Cert.Gcn

def tileRow (i : ℕ) (p : Fin 1280) : Fin 10240 := ⟨(1280 * i + p.val) % 10240, Nat.mod_lt _ (by decide)⟩

def tileCol (k : ℕ) (s : Fin 2560) : Fin 10240 := ⟨(2560 * k + s.val) % 10240, Nat.mod_lt _ (by decide)⟩

theorem tileRow_val (i : ℕ) (hi : i < 8) (p : Fin 1280) : (tileRow i p).val = 1280 * i + p.val := by
  have := p.isLt
  show (1280 * i + p.val) % 10240 = _
  omega
theorem tileCol_val (k : ℕ) (hk : k < 4) (s : Fin 2560) : (tileCol k s).val = 2560 * k + s.val := by
  have := s.isLt
  show (2560 * k + s.val) % 10240 = _
  omega

theorem eq_tileRow (d : Fin 10240) : d = tileRow (d.val / 1280) ⟨d.val % 1280, Nat.mod_lt _ (by decide)⟩ := by
  have := d.isLt
  refine Fin.ext ?_
  show d.val = (1280 * (d.val / 1280) + d.val % 1280) % 10240
  omega

theorem sum_tiles (G : Fin 10240 → EReal) :
    ∑ s' : Fin 10240, G s' = ∑ k : Fin 4, ∑ s : Fin 2560, G (tileCol k.val s) := by
  refine ((finProdFinEquiv : Fin 4 × Fin 2560 ≃ Fin 10240).sum_comp G).symm.trans ?_
  rw [Fintype.sum_prod_type]
  refine Finset.sum_congr rfl fun k _ => Finset.sum_congr rfl fun s _ => congrArg G (Fin.ext ?_)
  have := k.isLt
  have := s.isLt
  show s.val + 2560 * k.val = (2560 * k.val + s.val) % 10240
  omega

def tileTerm {n : ℕ} (A : Fin 10240 → Fin 10240 → EReal) (X : Fin 10240 → Fin n → EReal) (d : Fin 10240) (q : Fin n)
    (k : ℕ) : EReal :=
  ∑ s : Fin 2560, A d (tileCol k s) * X (tileCol k s) q

theorem mm_eq_tiles {n : ℕ} (A : Fin 10240 → Fin 10240 → EReal) (X : Fin 10240 → Fin n → EReal) (d : Fin 10240) (q : Fin n) :
    mm A X d q = 0 + tileTerm A X d q 0 + tileTerm A X d q 1 + tileTerm A X d q 2 + tileTerm A X d q 3 := by
  unfold mm tileTerm
  rw [sum_tiles, Fin.sum_univ_four, zero_add]
  rfl

theorem acc_closed {n : ℕ} (A : Fin 10240 → Fin 10240 → EReal) (X : Fin 10240 → Fin n → EReal)
    (f : (t : ℕ) → t < 32 → Fin 1280 → Fin n → EReal)
    (h0 : ∀ (t : ℕ) (h : t < 32), t % 4 = 0 → ∀ p q, f t h p q = 0 + tileTerm A X (tileRow (t / 4) p) q (t % 4))
    (hs : ∀ (t : ℕ) (h : t < 32), ¬ t % 4 = 0 → ∀ p q,
      f t h p q = f (t - 1) (by omega) p q + tileTerm A X (tileRow (t / 4) p) q (t % 4))
    (t : ℕ) (h : t < 32) (ht : t % 4 = 3) (p : Fin 1280) (q : Fin n) :
    f t h p q = mm A X (tileRow (t / 4) p) q := by
  have e1 : (t - 1) / 4 = t / 4 := by omega
  have e2 : (t - 1 - 1) / 4 = t / 4 := by omega
  have e3 : (t - 1 - 1 - 1) / 4 = t / 4 := by omega
  have m1 : (t - 1) % 4 = 2 := by omega
  have m2 : (t - 1 - 1) % 4 = 1 := by omega
  have m3 : (t - 1 - 1 - 1) % 4 = 0 := by omega
  rw [hs t h (by omega), hs (t - 1) (by omega) (by omega), hs (t - 1 - 1) (by omega) (by omega),
    h0 (t - 1 - 1 - 1) (by omega) m3, e1, e2, e3, m1, m2, m3, ht, mm_eq_tiles]

theorem fusedK_of_acc {n : ℕ} (A : Fin 10240 → Fin 10240 → EReal) (X : Fin 10240 → Fin 256 → EReal) (b : Fin 256 → EReal)
    (Wn : Fin 256 → Fin n → EReal) (i : ℕ) (hi : i < 8) (p : Fin 1280) (q : Fin n) (acc : Fin 256 → EReal)
    (hacc : ∀ j, acc j = mm A X (tileRow i p) j) :
    ∑ j : Fin 256, max (if i * 1280 + p.val < 10000 then acc j + b j else 0) 0 * Wn j q
      = fusedK A X b Wn (tileRow i p) q := by
  unfold fusedK
  refine Finset.sum_congr rfl fun j _ => ?_
  rw [hacc j, tileRow_val i hi p, Nat.mul_comm i 1280]

end Cert.Gcn

end
-- ==== Proof.KI.R1Val.lean ====
import proofs.«427802_j60163901882525_3_alg».proof.Proof.KI.R1
import proofs.«427802_j60163901882525_3_alg».proof.Proof.KI.R1ValA
import proofs.«427802_j60163901882525_3_alg».proof.Proof.GcnTile
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Where each window's block sits, decided over the 32 grid points: point t works on row tile t / 4 at contraction step t % 4. -/
theorem idx1_facts : ∀ t : Fin cfg1.N,
    (win1_0.index t 0 = t.val / 4 ∧ win1_0.index t 1 = t.val % 4)
    ∧ (win1_1.index t 0 = 0 ∧ win1_1.index t 1 = 0)
    ∧ (win1_2.index t 0 = 0 ∧ win1_2.index t 1 = 0)
    ∧ (win1_3.index t 0 = 0 ∧ win1_3.index t 1 = 0)
    ∧ (win1_4.index t 0 = t.val / 4 ∧ win1_4.index t 1 = 0)
    ∧ ((grid1.coords t 0).val = t.val / 4)
    ∧ (k1_off1 (grid1.coords t) 0 = 2560 * (t.val % 4) ∧ k1_off1 (grid1.coords t) 1 = 0)
    ∧ (win1_4.xsize (grid1.coords t) 0 = 1280 ∧ win1_4.xsize (grid1.coords t) 1 = 256) :=
  (by decide +kernel : ∀ t : Fin grid1.N, _)

section Reads
variable {F : FTy → Type} [FloatOps F]
variable (V : (c : Dev nD) → (b : Ref sig .tc) → Buf (Elt F) ((c : Thread nD τ).loc b))

theorem iblk1_0_apply (c : Dev nD) (t : Fin cfg1.N) (p : Fin 1280) (s : Fin 2560) :
    (iblk1 V c 0 t : Vec F S1280x2560 .bf16) (ix2 p s)
      = (V c main_v46 : Vec F S10240x10240 .bf16) (ix2 (Cert.Gcn.tileRow (t.val / 4) p) (Cert.Gcn.tileCol (t.val % 4) s)) := by
  obtain ⟨⟨h0, h1⟩, -⟩ := idx1_facts t
  have := t.isLt; have hN : cfg1.N = 32 := N_1
  have := p.isLt; have := s.isLt
  show V c main_v46 (((cfg1.win 0).blk t).view.emb (ix2 p s)) = _
  congr 1
  funext a
  apply Fin.ext
  match a with
  | ⟨0, _⟩ =>
    show win1_0.index t 0 * 1280 + 1 * p.val = (1280 * (t.val / 4) + p.val) % 10240
    rw [h0]; omega
  | ⟨1, _⟩ =>
    show win1_0.index t 1 * 2560 + 1 * s.val = (2560 * (t.val % 4) + s.val) % 10240
    rw [h1]; omega

theorem xwSlice1_apply (c : Dev nD) (t : Fin cfg1.N) (s : Fin 2560) (q : Fin 256) :
    (xwSlice1 V c t) (ix2 s q)
      = (V c main_v65 : Vec F S10240x256 .bf16) (ix2 (Cert.Gcn.tileCol (t.val % 4) s) q) := by
  obtain ⟨-, ⟨h0, h1⟩, -, -, -, -, ⟨o0, o1⟩, -⟩ := idx1_facts t
  have := t.isLt; have hN : cfg1.N = 32 := N_1
  have := s.isLt; have := q.isLt
  unfold xwSlice1
  show V c main_v65 (((cfg1.win 1).blk t).view.emb ((slice1 (grid1.coords t)).idx (ix2 s q))) = _
  congr 1
  funext a
  apply Fin.ext
  match a with
  | ⟨0, _⟩ =>
    show win1_1.index t 0 * 10240 + 1 * (k1_off1 (grid1.coords t) 0 + 1 * s.val) = (2560 * (t.val % 4) + s.val) % 10240
    rw [h0, o0]; omega
  | ⟨1, _⟩ =>
    show win1_1.index t 1 * 256 + 1 * (k1_off1 (grid1.coords t) 1 + 1 * q.val) = q.val
    rw [h1, o1]; omega

theorem iblk1_2_apply (c : Dev nD) (t : Fin cfg1.N) (j : Fin 256) :
    (iblk1 V c 2 t : Vec F S1x256 .f32) (ix2 0 j) = (V c main_v60 : Vec F S1x256 .f32) (ix2 0 j) := by
  obtain ⟨-, -, ⟨h0, h1⟩, -⟩ := idx1_facts t
  show V c main_v60 (((cfg1.win 2).blk t).view.emb (ix2 0 j)) = _
  congr 1
  funext a
  apply Fin.ext
  match a with
  | ⟨0, _⟩ =>
    show win1_2.index t 0 * 1 + 1 * 0 = 0
    rw [h0]
  | ⟨1, _⟩ =>
    show win1_2.index t 1 * 256 + 1 * j.val = j.val
    rw [h1]; omega

theorem iblk1_3_apply (c : Dev nD) (t : Fin cfg1.N) (j q : Fin 256) :
    (iblk1 V c 3 t : Vec F S256x256 .bf16) (ix2 j q) = (V c main_v50 : Vec F S256x256 .bf16) (ix2 j q) := by
  obtain ⟨-, -, -, ⟨h0, h1⟩, -⟩ := idx1_facts t
  show V c main_v50 (((cfg1.win 3).blk t).view.emb (ix2 j q)) = _
  congr 1
  funext a
  apply Fin.ext
  match a with
  | ⟨0, _⟩ =>
    show win1_3.index t 0 * 256 + 1 * j.val = j.val
    rw [h0]; omega
  | ⟨1, _⟩ =>
    show win1_3.index t 1 * 256 + 1 * q.val = q.val
    rw [h1]; omega

theorem oblk1_apply (t : Fin cfg1.N) (G : Vec F S10240x256 .bf16) (p : Fin 1280) (q : Fin 256) :
    (((cfg1.win 4).blk t).view.read (Elt F) G : Vec F S1280x256 .bf16) (ix2 p q)
      = G (ix2 (Cert.Gcn.tileRow (t.val / 4) p) q) := by
  obtain ⟨-, -, -, -, ⟨h0, h1⟩, -⟩ := idx1_facts t
  have := t.isLt; have hN : cfg1.N = 32 := N_1
  have := p.isLt; have := q.isLt
  show G (((cfg1.win 4).blk t).view.emb (ix2 p q)) = _
  congr 1
  funext a
  apply Fin.ext
  match a with
  | ⟨0, _⟩ =>
    show win1_4.index t 0 * 1280 + 1 * p.val = (1280 * (t.val / 4) + p.val) % 10240
    rw [h0]; omega
  | ⟨1, _⟩ =>
    show win1_4.index t 1 * 256 + 1 * q.val = q.val
    rw [h1]; omega

end Reads

section Value
variable (V : (c : Dev nD) → (b : Ref sig .tc) → Buf (Elt Ideal) ((c : Thread nD τ).loc b))

abbrev adjOf1 (c : Dev nD) : Fin 10240 → Fin 10240 → EReal := fun d s => V c main_v46 (ix2 d s)
abbrev xwOf1 (c : Dev nD) : Fin 10240 → Fin 256 → EReal := fun s q => V c main_v65 (ix2 s q)
abbrev biasOf1 (c : Dev nD) : Fin 256 → EReal := fun q => V c main_v60 (ix2 0 q)
abbrev wnOf1 (c : Dev nD) : Fin 256 → Fin 256 → EReal := fun q j => V c main_v50 (ix2 q j)

/-- At a row tile's last step the accumulator is the full product on the tile's rows: one contraction tile per step since the reset. -/
theorem acc1_full (c : Dev nD) (t : Fin cfg1.N) (h : t.val % 4 = 3) (p : Fin 1280) (q : Fin 256) :
    acc1 V c t.val t.isLt (ix2 p q)
      = Cert.Gcn.mm (adjOf1 V c) (xwOf1 V c) (Cert.Gcn.tileRow (t.val / 4) p) q := by
  have hN : cfg1.N = 32 := N_1
  refine Cert.Gcn.acc_closed (adjOf1 V c) (xwOf1 V c)
    (fun n hn p q => acc1 V c n (lt_of_lt_of_eq hn hN.symm) (ix2 p q)) ?_ ?_ t.val (lt_of_lt_of_eq t.isLt hN) h p q
  · intro n hn hn0 p q
    have e := acc1_first V c ⟨n, lt_of_lt_of_eq hn hN.symm⟩ hn0
    show acc1 V c n _ (ix2 p q) = _
    refine (congrFun e (ix2 p q)).trans ?_
    refine (k1_pay2_apply (xwSlice1 V c ⟨n, lt_of_lt_of_eq hn hN.symm⟩) (k1_pay1 (F := Ideal))
      (iblk1 V c 0 ⟨n, lt_of_lt_of_eq hn hN.symm⟩) p q).trans ?_
    rw [k1_pay1_apply]
    refine congrArg (0 + ·) (Finset.sum_congr rfl fun s _ => ?_)
    rw [iblk1_0_apply, xwSlice1_apply]
  · intro n hn hn0 p q
    have e := acc1_next V c ⟨n, lt_of_lt_of_eq hn hN.symm⟩ hn0
    show acc1 V c n _ (ix2 p q) = _
    refine (congrFun e (ix2 p q)).trans ?_
    refine (k1_pay2_apply (xwSlice1 V c ⟨n, lt_of_lt_of_eq hn hN.symm⟩) (acc1 V c (n - 1) _)
      (iblk1 V c 0 ⟨n, lt_of_lt_of_eq hn hN.symm⟩) p q).trans ?_
    refine congrArg (acc1 V c (n - 1) _ (ix2 p q) + ·) (Finset.sum_congr rfl fun s _ => ?_)
    rw [iblk1_0_apply, xwSlice1_apply]

def fused1 (c : Dev nD) : Buf (Elt Ideal) ((c : Thread nD τ).loc main_v66) :=
  fun i => Cert.Gcn.fusedK (adjOf1 V c) (xwOf1 V c) (biasOf1 V c) (wnOf1 V c) (i 0) (i 1)

/-- What a finishing point writes back is its tile's rows of the fused layer; -/
theorem flushed1_eq (c : Dev nD) (t : Fin cfg1.N) (hf : (cfg1.win 4).flush t = true) :
    (dat1 V c).flushed 4 t = ((cfg1.win 4).blk t).view.read (Elt Ideal) (fused1 V c) := by
  have h3 : t.val % 4 = 3 := (flush1_4 t).mp hf
  obtain ⟨-, -, -, -, -, g0, -, -⟩ := idx1_facts t
  have := t.isLt; have hN : cfg1.N = 32 := N_1
  funext y
  obtain ⟨p, q, rfl⟩ : ∃ (p : Fin 1280) (q : Fin 256), y = ix2 p q := ⟨y 0, y 1, eq_ix2 y⟩
  show (dat1 V c).after 4 t (ix2 p q) = _
  refine (congrFun (after1_out V c t h3) (ix2 p q)).trans ?_
  refine (k1_pay3_apply (grid1.coords t) (acc1 V c t.val t.isLt) (iblk1 V c 2 t) (iblk1 V c 3 t) p q).trans ?_
  rw [oblk1_apply]
  simp only [iblk1_2_apply, iblk1_3_apply, acc1_full V c t h3, g0]
  exact Cert.Gcn.fusedK_of_acc (adjOf1 V c) (xwOf1 V c) (biasOf1 V c) (wnOf1 V c) (t.val / 4) (by omega) p q
    (fun j => Cert.Gcn.mm (adjOf1 V c) (xwOf1 V c) (Cert.Gcn.tileRow (t.val / 4) p) j) (fun _ => rfl)

end Value

/-- the eight finishing points cover the output array: row d is written by point 4 (d / 1280) + 3. -/
theorem cover1 (c : Dev nD) (i : ((cfg1.win 4).arr.view.loc (c.tc : Thread nD τ)).2.ty.Idx) :
    ∃ t : Fin cfg1.N, (cfg1.win 4).flush t = true ∧ i ∈ ((cfg1.win 4).blk t).view.set := by
  have hN : cfg1.N = 32 := N_1
  have hi0 : (i 0).val < 10240 := (i 0).isLt
  have hi1 : (i 1).val < 256 := (i 1).isLt
  obtain ⟨t, ht⟩ : ∃ t : Fin cfg1.N, t.val = 4 * ((i 0).val / 1280) + 3 := ⟨⟨4 * ((i 0).val / 1280) + 3, by omega⟩, rfl⟩
  obtain ⟨-, -, -, -, ⟨h0, h1⟩, -, -, ⟨x0, x1⟩⟩ := idx1_facts t
  refine ⟨t, (flush1_4 t).mpr (by omega), ?_⟩
  show i ∈ ((View.whole main_v66).slice (win1_4.rect t)).set
  rw [View.set_slice_whole, Rect.mem_set_unit]
  intro a
  match a with
  | ⟨0, _⟩ =>
    show win1_4.index t 0 * 1280 ≤ (i 0).val ∧ (i 0).val < win1_4.index t 0 * 1280 + win1_4.xsize (grid1.coords t) 0
    rw [h0, x0]
    omega
  | ⟨1, _⟩ =>
    show win1_4.index t 1 * 256 ≤ (i 1).val ∧ (i 1).val < win1_4.index t 1 * 256 + win1_4.xsize (grid1.coords t) 1
    rw [h1, x1]
    omega

section Final
variable (V : (c : Dev nD) → (b : Ref sig .tc) → Buf (Elt Ideal) ((c : Thread nD τ).loc b))

theorem final1_arr (c : Dev nD) : (dat1 V c).arrAt 4 cfg1.N = fused1 V c :=
  (dat1 V c).arrAt_eq_of_cover 4 (fused1 V c) (flushed1_eq V c) (cover1 c)

theorem final1 (c : Dev nD) (d : Fin 10240) (j : Fin 256) :
    (dat1 V c).arrAt 4 cfg1.N (ix2 d j)
      = Cert.Gcn.fusedK (fun d s => V c main_v46 (ix2 d s)) (fun s q => V c main_v65 (ix2 s q))
          (fun q => V c main_v60 (ix2 0 q)) (fun q j => V c main_v50 (ix2 q j)) d j := by
  rw [final1_arr]
  rfl

end Final

end Cert.KernelIdeal.Hand

end
-- ==== Proof.KI.R2Val.lean ====
import proofs.«427802_j60163901882525_3_alg».proof.Proof.KI.R2
import proofs.«427802_j60163901882525_3_alg».proof.Proof.KI.R1ValA
import proofs.«427802_j60163901882525_3_alg».proof.Proof.GcnTile
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Where each window's block sits, decided over the 32 grid points: point t works on row tile t / 4 at contraction step t % 4. -/
theorem idx2_facts : ∀ t : Fin cfg2.N,
    (win2_0.index t 0 = t.val / 4 ∧ win2_0.index t 1 = t.val % 4)
    ∧ (win2_1.index t 0 = 0 ∧ win2_1.index t 1 = 0)
    ∧ (win2_2.index t 0 = 0 ∧ win2_2.index t 1 = 0)
    ∧ (win2_3.index t 0 = 0 ∧ win2_3.index t 1 = 0)
    ∧ (win2_4.index t 0 = t.val / 4 ∧ win2_4.index t 1 = 0)
    ∧ ((grid2.coords t 0).val = t.val / 4)
    ∧ (k1_off1 (grid2.coords t) 0 = 2560 * (t.val % 4) ∧ k1_off1 (grid2.coords t) 1 = 0)
    ∧ (win2_4.xsize (grid2.coords t) 0 = 1280 ∧ win2_4.xsize (grid2.coords t) 1 = 256) :=
  (by decide +kernel : ∀ t : Fin grid2.N, _)

section Reads
variable {F : FTy → Type} [FloatOps F]
variable (V : (c : Dev nD) → (b : Ref sig .tc) → Buf (Elt F) ((c : Thread nD τ).loc b))

theorem iblk2_0_apply (c : Dev nD) (t : Fin cfg2.N) (p : Fin 1280) (s : Fin 2560) :
    (iblk2 V c 0 t : Vec F S1280x2560 .bf16) (ix2 p s)
      = (V c main_v46 : Vec F S10240x10240 .bf16) (ix2 (Cert.Gcn.tileRow (t.val / 4) p) (Cert.Gcn.tileCol (t.val % 4) s)) := by
  obtain ⟨⟨h0, h1⟩, -⟩ := idx2_facts t
  have := t.isLt; have hN : cfg2.N = 32 := N_2
  have := p.isLt; have := s.isLt
  show V c main_v46 (((cfg2.win 0).blk t).view.emb (ix2 p s)) = _
  congr 1
  funext a
  apply Fin.ext
  match a with
  | ⟨0, _⟩ =>
    show win2_0.index t 0 * 1280 + 1 * p.val = (1280 * (t.val / 4) + p.val) % 10240
    rw [h0]; omega
  | ⟨1, _⟩ =>
    show win2_0.index t 1 * 2560 + 1 * s.val = (2560 * (t.val % 4) + s.val) % 10240
    rw [h1]; omega

theorem xwSlice2_apply (c : Dev nD) (t : Fin cfg2.N) (s : Fin 2560) (q : Fin 256) :
    (xwSlice2 V c t) (ix2 s q)
      = (V c main_v66 : Vec F S10240x256 .bf16) (ix2 (Cert.Gcn.tileCol (t.val % 4) s) q) := by
  obtain ⟨-, ⟨h0, h1⟩, -, -, -, -, ⟨o0, o1⟩, -⟩ := idx2_facts t
  have := t.isLt; have hN : cfg2.N = 32 := N_2
  have := s.isLt; have := q.isLt
  unfold xwSlice2
  show V c main_v66 (((cfg2.win 1).blk t).view.emb ((slice1 (grid2.coords t)).idx (ix2 s q))) = _
  congr 1
  funext a
  apply Fin.ext
  match a with
  | ⟨0, _⟩ =>
    show win2_1.index t 0 * 10240 + 1 * (k1_off1 (grid2.coords t) 0 + 1 * s.val) = (2560 * (t.val % 4) + s.val) % 10240
    rw [h0, o0]; omega
  | ⟨1, _⟩ =>
    show win2_1.index t 1 * 256 + 1 * (k1_off1 (grid2.coords t) 1 + 1 * q.val) = q.val
    rw [h1, o1]; omega

theorem iblk2_2_apply (c : Dev nD) (t : Fin cfg2.N) (j : Fin 256) :
    (iblk2 V c 2 t : Vec F S1x256 .f32) (ix2 0 j) = (V c main_v61 : Vec F S1x256 .f32) (ix2 0 j) := by
  obtain ⟨-, -, ⟨h0, h1⟩, -⟩ := idx2_facts t
  show V c main_v61 (((cfg2.win 2).blk t).view.emb (ix2 0 j)) = _
  congr 1
  funext a
  apply Fin.ext
  match a with
  | ⟨0, _⟩ =>
    show win2_2.index t 0 * 1 + 1 * 0 = 0
    rw [h0]
  | ⟨1, _⟩ =>
    show win2_2.index t 1 * 256 + 1 * j.val = j.val
    rw [h1]; omega

theorem iblk2_3_apply (c : Dev nD) (t : Fin cfg2.N) (j q : Fin 256) :
    (iblk2 V c 3 t : Vec F S256x256 .bf16) (ix2 j q) = (V c main_v51 : Vec F S256x256 .bf16) (ix2 j q) := by
  obtain ⟨-, -, -, ⟨h0, h1⟩, -⟩ := idx2_facts t
  show V c main_v51 (((cfg2.win 3).blk t).view.emb (ix2 j q)) = _
  congr 1
  funext a
  apply Fin.ext
  match a with
  | ⟨0, _⟩ =>
    show win2_3.index t 0 * 256 + 1 * j.val = j.val
    rw [h0]; omega
  | ⟨1, _⟩ =>
    show win2_3.index t 1 * 256 + 1 * q.val = q.val
    rw [h1]; omega

theorem oblk2_apply (t : Fin cfg2.N) (G : Vec F S10240x256 .bf16) (p : Fin 1280) (q : Fin 256) :
    (((cfg2.win 4).blk t).view.read (Elt F) G : Vec F S1280x256 .bf16) (ix2 p q)
      = G (ix2 (Cert.Gcn.tileRow (t.val / 4) p) q) := by
  obtain ⟨-, -, -, -, ⟨h0, h1⟩, -⟩ := idx2_facts t
  have := t.isLt; have hN : cfg2.N = 32 := N_2
  have := p.isLt; have := q.isLt
  show G (((cfg2.win 4).blk t).view.emb (ix2 p q)) = _
  congr 1
  funext a
  apply Fin.ext
  match a with
  | ⟨0, _⟩ =>
    show win2_4.index t 0 * 1280 + 1 * p.val = (1280 * (t.val / 4) + p.val) % 10240
    rw [h0]; omega
  | ⟨1, _⟩ =>
    show win2_4.index t 1 * 256 + 1 * q.val = q.val
    rw [h1]; omega

end Reads

section Value
variable (V : (c : Dev nD) → (b : Ref sig .tc) → Buf (Elt Ideal) ((c : Thread nD τ).loc b))

abbrev adjOf2 (c : Dev nD) : Fin 10240 → Fin 10240 → EReal := fun d s => V c main_v46 (ix2 d s)
abbrev xwOf2 (c : Dev nD) : Fin 10240 → Fin 256 → EReal := fun s q => V c main_v66 (ix2 s q)
abbrev biasOf2 (c : Dev nD) : Fin 256 → EReal := fun q => V c main_v61 (ix2 0 q)
abbrev wnOf2 (c : Dev nD) : Fin 256 → Fin 256 → EReal := fun q j => V c main_v51 (ix2 q j)

/-- At a row tile's last step the accumulator is the full product on the tile's rows: one contraction tile per step since the reset. -/
theorem acc2_full (c : Dev nD) (t : Fin cfg2.N) (h : t.val % 4 = 3) (p : Fin 1280) (q : Fin 256) :
    acc2 V c t.val t.isLt (ix2 p q)
      = Cert.Gcn.mm (adjOf2 V c) (xwOf2 V c) (Cert.Gcn.tileRow (t.val / 4) p) q := by
  have hN : cfg2.N = 32 := N_2
  refine Cert.Gcn.acc_closed (adjOf2 V c) (xwOf2 V c)
    (fun n hn p q => acc2 V c n (lt_of_lt_of_eq hn hN.symm) (ix2 p q)) ?_ ?_ t.val (lt_of_lt_of_eq t.isLt hN) h p q
  · intro n hn hn0 p q
    have e := acc2_first V c ⟨n, lt_of_lt_of_eq hn hN.symm⟩ hn0
    show acc2 V c n _ (ix2 p q) = _
    refine (congrFun e (ix2 p q)).trans ?_
    refine (k1_pay2_apply (xwSlice2 V c ⟨n, lt_of_lt_of_eq hn hN.symm⟩) (k1_pay1 (F := Ideal))
      (iblk2 V c 0 ⟨n, lt_of_lt_of_eq hn hN.symm⟩) p q).trans ?_
    rw [k1_pay1_apply]
    refine congrArg (0 + ·) (Finset.sum_congr rfl fun s _ => ?_)
    rw [iblk2_0_apply, xwSlice2_apply]
  · intro n hn hn0 p q
    have e := acc2_next V c ⟨n, lt_of_lt_of_eq hn hN.symm⟩ hn0
    show acc2 V c n _ (ix2 p q) = _
    refine (congrFun e (ix2 p q)).trans ?_
    refine (k1_pay2_apply (xwSlice2 V c ⟨n, lt_of_lt_of_eq hn hN.symm⟩) (acc2 V c (n - 1) _)
      (iblk2 V c 0 ⟨n, lt_of_lt_of_eq hn hN.symm⟩) p q).trans ?_
    refine congrArg (acc2 V c (n - 1) _ (ix2 p q) + ·) (Finset.sum_congr rfl fun s _ => ?_)
    rw [iblk2_0_apply, xwSlice2_apply]

def fused2 (c : Dev nD) : Buf (Elt Ideal) ((c : Thread nD τ).loc main_v67) :=
  fun i => Cert.Gcn.fusedK (adjOf2 V c) (xwOf2 V c) (biasOf2 V c) (wnOf2 V c) (i 0) (i 1)

/-- What a finishing point writes back is its tile's rows of the fused layer; -/
theorem flushed2_eq (c : Dev nD) (t : Fin cfg2.N) (hf : (cfg2.win 4).flush t = true) :
    (dat2 V c).flushed 4 t = ((cfg2.win 4).blk t).view.read (Elt Ideal) (fused2 V c) := by
  have h3 : t.val % 4 = 3 := (flush2_4 t).mp hf
  obtain ⟨-, -, -, -, -, g0, -, -⟩ := idx2_facts t
  have := t.isLt; have hN : cfg2.N = 32 := N_2
  funext y
  obtain ⟨p, q, rfl⟩ : ∃ (p : Fin 1280) (q : Fin 256), y = ix2 p q := ⟨y 0, y 1, eq_ix2 y⟩
  show (dat2 V c).after 4 t (ix2 p q) = _
  refine (congrFun (after2_out V c t h3) (ix2 p q)).trans ?_
  refine (k1_pay3_apply (grid2.coords t) (acc2 V c t.val t.isLt) (iblk2 V c 2 t) (iblk2 V c 3 t) p q).trans ?_
  rw [oblk2_apply]
  simp only [iblk2_2_apply, iblk2_3_apply, acc2_full V c t h3, g0]
  exact Cert.Gcn.fusedK_of_acc (adjOf2 V c) (xwOf2 V c) (biasOf2 V c) (wnOf2 V c) (t.val / 4) (by omega) p q
    (fun j => Cert.Gcn.mm (adjOf2 V c) (xwOf2 V c) (Cert.Gcn.tileRow (t.val / 4) p) j) (fun _ => rfl)

end Value

/-- the eight finishing points cover the output array: row d is written by point 4 (d / 1280) + 3. -/
theorem cover2 (c : Dev nD) (i : ((cfg2.win 4).arr.view.loc (c.tc : Thread nD τ)).2.ty.Idx) :
    ∃ t : Fin cfg2.N, (cfg2.win 4).flush t = true ∧ i ∈ ((cfg2.win 4).blk t).view.set := by
  have hN : cfg2.N = 32 := N_2
  have hi0 : (i 0).val < 10240 := (i 0).isLt
  have hi1 : (i 1).val < 256 := (i 1).isLt
  obtain ⟨t, ht⟩ : ∃ t : Fin cfg2.N, t.val = 4 * ((i 0).val / 1280) + 3 := ⟨⟨4 * ((i 0).val / 1280) + 3, by omega⟩, rfl⟩
  obtain ⟨-, -, -, -, ⟨h0, h1⟩, -, -, ⟨x0, x1⟩⟩ := idx2_facts t
  refine ⟨t, (flush2_4 t).mpr (by omega), ?_⟩
  show i ∈ ((View.whole main_v67).slice (win2_4.rect t)).set
  rw [View.set_slice_whole, Rect.mem_set_unit]
  intro a
  match a with
  | ⟨0, _⟩ =>
    show win2_4.index t 0 * 1280 ≤ (i 0).val ∧ (i 0).val < win2_4.index t 0 * 1280 + win2_4.xsize (grid2.coords t) 0
    rw [h0, x0]
    omega
  | ⟨1, _⟩ =>
    show win2_4.index t 1 * 256 ≤ (i 1).val ∧ (i 1).val < win2_4.index t 1 * 256 + win2_4.xsize (grid2.coords t) 1
    rw [h1, x1]
    omega

section Final
variable (V : (c : Dev nD) → (b : Ref sig .tc) → Buf (Elt Ideal) ((c : Thread nD τ).loc b))

theorem final2_arr (c : Dev nD) : (dat2 V c).arrAt 4 cfg2.N = fused2 V c :=
  (dat2 V c).arrAt_eq_of_cover 4 (fused2 V c) (flushed2_eq V c) (cover2 c)

theorem final2 (c : Dev nD) (d : Fin 10240) (j : Fin 256) :
    (dat2 V c).arrAt 4 cfg2.N (ix2 d j)
      = Cert.Gcn.fusedK (fun d s => V c main_v46 (ix2 d s)) (fun s q => V c main_v66 (ix2 s q))
          (fun q => V c main_v61 (ix2 0 q)) (fun q j => V c main_v51 (ix2 q j)) d j := by
  rw [final2_arr]
  rfl

end Final

end Cert.KernelIdeal.Hand

end
-- ==== Proof.KI.R3Val.lean ====
import proofs.«427802_j60163901882525_3_alg».proof.Proof.KI.R3
import proofs.«427802_j60163901882525_3_alg».proof.Proof.KI.R1ValA
import proofs.«427802_j60163901882525_3_alg».proof.Proof.GcnTile
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Where each window's block sits, decided over the 32 grid points: point t works on row tile t / 4 at contraction step t % 4. -/
theorem idx3_facts : ∀ t : Fin cfg3.N,
    (win3_0.index t 0 = t.val / 4 ∧ win3_0.index t 1 = t.val % 4)
    ∧ (win3_1.index t 0 = 0 ∧ win3_1.index t 1 = 0)
    ∧ (win3_2.index t 0 = 0 ∧ win3_2.index t 1 = 0)
    ∧ (win3_3.index t 0 = 0 ∧ win3_3.index t 1 = 0)
    ∧ (win3_4.index t 0 = t.val / 4 ∧ win3_4.index t 1 = 0)
    ∧ ((grid3.coords t 0).val = t.val / 4)
    ∧ (k1_off1 (grid3.coords t) 0 = 2560 * (t.val % 4) ∧ k1_off1 (grid3.coords t) 1 = 0)
    ∧ (win3_4.xsize (grid3.coords t) 0 = 1280 ∧ win3_4.xsize (grid3.coords t) 1 = 256) :=
  (by decide +kernel : ∀ t : Fin grid3.N, _)

section Reads
variable {F : FTy → Type} [FloatOps F]
variable (V : (c : Dev nD) → (b : Ref sig .tc) → Buf (Elt F) ((c : Thread nD τ).loc b))

theorem iblk3_0_apply (c : Dev nD) (t : Fin cfg3.N) (p : Fin 1280) (s : Fin 2560) :
    (iblk3 V c 0 t : Vec F S1280x2560 .bf16) (ix2 p s)
      = (V c main_v46 : Vec F S10240x10240 .bf16) (ix2 (Cert.Gcn.tileRow (t.val / 4) p) (Cert.Gcn.tileCol (t.val % 4) s)) := by
  obtain ⟨⟨h0, h1⟩, -⟩ := idx3_facts t
  have := t.isLt; have hN : cfg3.N = 32 := N_3
  have := p.isLt; have := s.isLt
  show V c main_v46 (((cfg3.win 0).blk t).view.emb (ix2 p s)) = _
  congr 1
  funext a
  apply Fin.ext
  match a with
  | ⟨0, _⟩ =>
    show win3_0.index t 0 * 1280 + 1 * p.val = (1280 * (t.val / 4) + p.val) % 10240
    rw [h0]; omega
  | ⟨1, _⟩ =>
    show win3_0.index t 1 * 2560 + 1 * s.val = (2560 * (t.val % 4) + s.val) % 10240
    rw [h1]; omega

theorem xwSlice3_apply (c : Dev nD) (t : Fin cfg3.N) (s : Fin 2560) (q : Fin 256) :
    (xwSlice3 V c t) (ix2 s q)
      = (V c main_v67 : Vec F S10240x256 .bf16) (ix2 (Cert.Gcn.tileCol (t.val % 4) s) q) := by
  obtain ⟨-, ⟨h0, h1⟩, -, -, -, -, ⟨o0, o1⟩, -⟩ := idx3_facts t
  have := t.isLt; have hN : cfg3.N = 32 := N_3
  have := s.isLt; have := q.isLt
  unfold xwSlice3
  show V c main_v67 (((cfg3.win 1).blk t).view.emb ((slice1 (grid3.coords t)).idx (ix2 s q))) = _
  congr 1
  funext a
  apply Fin.ext
  match a with
  | ⟨0, _⟩ =>
    show win3_1.index t 0 * 10240 + 1 * (k1_off1 (grid3.coords t) 0 + 1 * s.val) = (2560 * (t.val % 4) + s.val) % 10240
    rw [h0, o0]; omega
  | ⟨1, _⟩ =>
    show win3_1.index t 1 * 256 + 1 * (k1_off1 (grid3.coords t) 1 + 1 * q.val) = q.val
    rw [h1, o1]; omega

theorem iblk3_2_apply (c : Dev nD) (t : Fin cfg3.N) (j : Fin 256) :
    (iblk3 V c 2 t : Vec F S1x256 .f32) (ix2 0 j) = (V c main_v62 : Vec F S1x256 .f32) (ix2 0 j) := by
  obtain ⟨-, -, ⟨h0, h1⟩, -⟩ := idx3_facts t
  show V c main_v62 (((cfg3.win 2).blk t).view.emb (ix2 0 j)) = _
  congr 1
  funext a
  apply Fin.ext
  match a with
  | ⟨0, _⟩ =>
    show win3_2.index t 0 * 1 + 1 * 0 = 0
    rw [h0]
  | ⟨1, _⟩ =>
    show win3_2.index t 1 * 256 + 1 * j.val = j.val
    rw [h1]; omega

theorem iblk3_3_apply (c : Dev nD) (t : Fin cfg3.N) (j q : Fin 256) :
    (iblk3 V c 3 t : Vec F S256x256 .bf16) (ix2 j q) = (V c main_v52 : Vec F S256x256 .bf16) (ix2 j q) := by
  obtain ⟨-, -, -, ⟨h0, h1⟩, -⟩ := idx3_facts t
  show V c main_v52 (((cfg3.win 3).blk t).view.emb (ix2 j q)) = _
  congr 1
  funext a
  apply Fin.ext
  match a with
  | ⟨0, _⟩ =>
    show win3_3.index t 0 * 256 + 1 * j.val = j.val
    rw [h0]; omega
  | ⟨1, _⟩ =>
    show win3_3.index t 1 * 256 + 1 * q.val = q.val
    rw [h1]; omega

theorem oblk3_apply (t : Fin cfg3.N) (G : Vec F S10240x256 .bf16) (p : Fin 1280) (q : Fin 256) :
    (((cfg3.win 4).blk t).view.read (Elt F) G : Vec F S1280x256 .bf16) (ix2 p q)
      = G (ix2 (Cert.Gcn.tileRow (t.val / 4) p) q) := by
  obtain ⟨-, -, -, -, ⟨h0, h1⟩, -⟩ := idx3_facts t
  have := t.isLt; have hN : cfg3.N = 32 := N_3
  have := p.isLt; have := q.isLt
  show G (((cfg3.win 4).blk t).view.emb (ix2 p q)) = _
  congr 1
  funext a
  apply Fin.ext
  match a with
  | ⟨0, _⟩ =>
    show win3_4.index t 0 * 1280 + 1 * p.val = (1280 * (t.val / 4) + p.val) % 10240
    rw [h0]; omega
  | ⟨1, _⟩ =>
    show win3_4.index t 1 * 256 + 1 * q.val = q.val
    rw [h1]; omega

end Reads

section Value
variable (V : (c : Dev nD) → (b : Ref sig .tc) → Buf (Elt Ideal) ((c : Thread nD τ).loc b))

abbrev adjOf3 (c : Dev nD) : Fin 10240 → Fin 10240 → EReal := fun d s => V c main_v46 (ix2 d s)
abbrev xwOf3 (c : Dev nD) : Fin 10240 → Fin 256 → EReal := fun s q => V c main_v67 (ix2 s q)
abbrev biasOf3 (c : Dev nD) : Fin 256 → EReal := fun q => V c main_v62 (ix2 0 q)
abbrev wnOf3 (c : Dev nD) : Fin 256 → Fin 256 → EReal := fun q j => V c main_v52 (ix2 q j)

/-- At a row tile's last step the accumulator is the full product on the tile's rows: one contraction tile per step since the reset. -/
theorem acc3_full (c : Dev nD) (t : Fin cfg3.N) (h : t.val % 4 = 3) (p : Fin 1280) (q : Fin 256) :
    acc3 V c t.val t.isLt (ix2 p q)
      = Cert.Gcn.mm (adjOf3 V c) (xwOf3 V c) (Cert.Gcn.tileRow (t.val / 4) p) q := by
  have hN : cfg3.N = 32 := N_3
  refine Cert.Gcn.acc_closed (adjOf3 V c) (xwOf3 V c)
    (fun n hn p q => acc3 V c n (lt_of_lt_of_eq hn hN.symm) (ix2 p q)) ?_ ?_ t.val (lt_of_lt_of_eq t.isLt hN) h p q
  · intro n hn hn0 p q
    have e := acc3_first V c ⟨n, lt_of_lt_of_eq hn hN.symm⟩ hn0
    show acc3 V c n _ (ix2 p q) = _
    refine (congrFun e (ix2 p q)).trans ?_
    refine (k1_pay2_apply (xwSlice3 V c ⟨n, lt_of_lt_of_eq hn hN.symm⟩) (k1_pay1 (F := Ideal))
      (iblk3 V c 0 ⟨n, lt_of_lt_of_eq hn hN.symm⟩) p q).trans ?_
    rw [k1_pay1_apply]
    refine congrArg (0 + ·) (Finset.sum_congr rfl fun s _ => ?_)
    rw [iblk3_0_apply, xwSlice3_apply]
  · intro n hn hn0 p q
    have e := acc3_next V c ⟨n, lt_of_lt_of_eq hn hN.symm⟩ hn0
    show acc3 V c n _ (ix2 p q) = _
    refine (congrFun e (ix2 p q)).trans ?_
    refine (k1_pay2_apply (xwSlice3 V c ⟨n, lt_of_lt_of_eq hn hN.symm⟩) (acc3 V c (n - 1) _)
      (iblk3 V c 0 ⟨n, lt_of_lt_of_eq hn hN.symm⟩) p q).trans ?_
    refine congrArg (acc3 V c (n - 1) _ (ix2 p q) + ·) (Finset.sum_congr rfl fun s _ => ?_)
    rw [iblk3_0_apply, xwSlice3_apply]

def fused3 (c : Dev nD) : Buf (Elt Ideal) ((c : Thread nD τ).loc main_v68) :=
  fun i => Cert.Gcn.fusedK (adjOf3 V c) (xwOf3 V c) (biasOf3 V c) (wnOf3 V c) (i 0) (i 1)

/-- What a finishing point writes back is its tile's rows of the fused layer; -/
theorem flushed3_eq (c : Dev nD) (t : Fin cfg3.N) (hf : (cfg3.win 4).flush t = true) :
    (dat3 V c).flushed 4 t = ((cfg3.win 4).blk t).view.read (Elt Ideal) (fused3 V c) := by
  have h3 : t.val % 4 = 3 := (flush3_4 t).mp hf
  obtain ⟨-, -, -, -, -, g0, -, -⟩ := idx3_facts t
  have := t.isLt; have hN : cfg3.N = 32 := N_3
  funext y
  obtain ⟨p, q, rfl⟩ : ∃ (p : Fin 1280) (q : Fin 256), y = ix2 p q := ⟨y 0, y 1, eq_ix2 y⟩
  show (dat3 V c).after 4 t (ix2 p q) = _
  refine (congrFun (after3_out V c t h3) (ix2 p q)).trans ?_
  refine (k1_pay3_apply (grid3.coords t) (acc3 V c t.val t.isLt) (iblk3 V c 2 t) (iblk3 V c 3 t) p q).trans ?_
  rw [oblk3_apply]
  simp only [iblk3_2_apply, iblk3_3_apply, acc3_full V c t h3, g0]
  exact Cert.Gcn.fusedK_of_acc (adjOf3 V c) (xwOf3 V c) (biasOf3 V c) (wnOf3 V c) (t.val / 4) (by omega) p q
    (fun j => Cert.Gcn.mm (adjOf3 V c) (xwOf3 V c) (Cert.Gcn.tileRow (t.val / 4) p) j) (fun _ => rfl)

end Value

/-- the eight finishing points cover the output array: row d is written by point 4 (d / 1280) + 3. -/
theorem cover3 (c : Dev nD) (i : ((cfg3.win 4).arr.view.loc (c.tc : Thread nD τ)).2.ty.Idx) :
    ∃ t : Fin cfg3.N, (cfg3.win 4).flush t = true ∧ i ∈ ((cfg3.win 4).blk t).view.set := by
  have hN : cfg3.N = 32 := N_3
  have hi0 : (i 0).val < 10240 := (i 0).isLt
  have hi1 : (i 1).val < 256 := (i 1).isLt
  obtain ⟨t, ht⟩ : ∃ t : Fin cfg3.N, t.val = 4 * ((i 0).val / 1280) + 3 := ⟨⟨4 * ((i 0).val / 1280) + 3, by omega⟩, rfl⟩
  obtain ⟨-, -, -, -, ⟨h0, h1⟩, -, -, ⟨x0, x1⟩⟩ := idx3_facts t
  refine ⟨t, (flush3_4 t).mpr (by omega), ?_⟩
  show i ∈ ((View.whole main_v68).slice (win3_4.rect t)).set
  rw [View.set_slice_whole, Rect.mem_set_unit]
  intro a
  match a with
  | ⟨0, _⟩ =>
    show win3_4.index t 0 * 1280 ≤ (i 0).val ∧ (i 0).val < win3_4.index t 0 * 1280 + win3_4.xsize (grid3.coords t) 0
    rw [h0, x0]
    omega
  | ⟨1, _⟩ =>
    show win3_4.index t 1 * 256 ≤ (i 1).val ∧ (i 1).val < win3_4.index t 1 * 256 + win3_4.xsize (grid3.coords t) 1
    rw [h1, x1]
    omega

section Final
variable (V : (c : Dev nD) → (b : Ref sig .tc) → Buf (Elt Ideal) ((c : Thread nD τ).loc b))

theorem final3_arr (c : Dev nD) : (dat3 V c).arrAt 4 cfg3.N = fused3 V c :=
  (dat3 V c).arrAt_eq_of_cover 4 (fused3 V c) (flushed3_eq V c) (cover3 c)

theorem final3 (c : Dev nD) (d : Fin 10240) (j : Fin 256) :
    (dat3 V c).arrAt 4 cfg3.N (ix2 d j)
      = Cert.Gcn.fusedK (fun d s => V c main_v46 (ix2 d s)) (fun s q => V c main_v67 (ix2 s q))
          (fun q => V c main_v62 (ix2 0 q)) (fun q j => V c main_v52 (ix2 q j)) d j := by
  rw [final3_arr]
  rfl

end Final

end Cert.KernelIdeal.Hand

end
-- ==== Proof.KI.R4ValA.lean ====
import proofs.«427802_j60163901882525_3_alg».proof.Proof.KI.R1ValA
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Affine

set_option maxRecDepth 16384

noncomputable section

open scoped BigOperators

namespace Cert.KernelIdeal.Hand

open Cert.KernelIdeal Cert.KernelIdeal.Gen
open Idealize.ShloMosaic Idealize.ShloMosaic.ValueIdx

/-- The reset block and an accumulation step are the first layer's: the same payloads under this region's names. -/
theorem k4_pay1_apply (p : Fin 1280) (q : Fin 256) : k4_pay1 (F := Ideal) (ix2 p q) = 0 := k1_pay1_apply p q

theorem k4_pay2_apply (v6 : Vec Ideal S2560x256 .bf16) (v8 : Vec Ideal S1280x256 .f32) (v9 : Vec Ideal S1280x2560 .bf16)
    (p : Fin 1280) (q : Fin 256) :
    k4_pay2 v6 v8 v9 (ix2 p q) = v8 (ix2 p q) + ∑ s : Fin 2560, v9 (ix2 p s) * v6 (ix2 s q) := k1_pay2_apply v6 v8 v9 p q

theorem k4_matmulB_apply (l : FVec Ideal S1280x256 .bf16) (r : FVec Ideal S256x128 .bf16) (p : Fin 1280) (q : Fin 128) :
    matmul dot_S1280x256_S256x128_S1280x128_1_0_0_1_n_n none l r (constant S1280x128 .f32 0x00000000#32) (ix2 p q)
      = ∑ j : Fin 256, l (ix2 p j) * r (ix2 j q) :=
  (congrFun (matmul_zero_eq_dotGeneral _ none l r) _).trans (StackMember.dotGeneral_plain_apply (m := 1280) (k := 256) (n := 128) none l r p q)

theorem k4_pay3_apply (i : grid4.Coords) (v25 : Vec Ideal S1280x256 .f32) (v26 : Vec Ideal S1x256 .f32)
    (v35 : Vec Ideal S256x128 .bf16) (p : Fin 1280) (q : Fin 128) :
    k4_pay3 i v25 v26 v35 (ix2 p q)
      = ∑ j : Fin 256, max (if (i 0).val * 1280 + p.val < 10000 then v25 (ix2 p j) + v26 (ix2 0 j) else 0) 0 * v35 (ix2 j q) := by
  unfold k4_pay3
  simp only [shapeCast_self]
  rw [truncf_apply, k4_matmulB_apply]
  refine Finset.sum_congr rfl fun j _ => ?_
  rw [truncf_apply, maximumf_apply, select_apply, broadcast_apply, addf_apply, broadcastTo_1b_ab_apply]
  have hc : cmpi .slt (addi (broadcast S1280x256 (Scalar.muli (BitVec.ofNat 32 (i 0).val) 1280#32))
        (iota .tc S1280x256 32 [0] iota_S1280x256_d0_w32)) (broadcast S1280x256 10000#32) (ix2 p j)
      = IntOp.cmpi .slt (IntOp.addi (Scalar.muli (BitVec.ofNat 32 (i 0).val) 1280#32) (BitVec.ofNat 32 p.val)) 10000#32 := by
    show IntOp.cmpi .slt (IntOp.addi _ (iota .tc S1280x256 32 [0] iota_S1280x256_d0_w32 (ix2 p j))) _ = _
    rw [iota_single_apply]
    rfl
  have h0 : FloatOps.ofBits (F := Ideal) .f32 0#32 = 0 := Ideal.ofBits_zero_f32
  have hsel : ∀ (b : BitVec 1) (x y : EReal), Scalar.select b x y = if b = 1#1 then x else y := fun _ _ _ => rfl
  rw [hc, h0, hsel]
  by_cases hm : (i 0).val * 1280 + p.val < 10000
  · rw [if_pos ((k1_mask_iff (i 0).val p.val (i 0).isLt p.isLt).mpr hm), if_pos hm]
  · rw [if_neg (mt (k1_mask_iff (i 0).val p.val (i 0).isLt p.isLt).mp hm), if_neg hm]

end Cert.KernelIdeal.Hand

end
-- ==== Proof.KI.R4Val.lean ====
import proofs.«427802_j60163901882525_3_alg».proof.Proof.KI.R4
import proofs.«427802_j60163901882525_3_alg».proof.Proof.KI.R4ValA
import proofs.«427802_j60163901882525_3_alg».proof.Proof.GcnTile
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem idx4_facts : ∀ t : Fin cfg4.N,
    (win4_0.index t 0 = t.val / 4 ∧ win4_0.index t 1 = t.val % 4)
    ∧ (win4_1.index t 0 = 0 ∧ win4_1.index t 1 = 0)
    ∧ (win4_2.index t 0 = 0 ∧ win4_2.index t 1 = 0)
    ∧ (win4_3.index t 0 = 0 ∧ win4_3.index t 1 = 0)
    ∧ (win4_4.index t 0 = t.val / 4 ∧ win4_4.index t 1 = 0)
    ∧ ((grid4.coords t 0).val = t.val / 4)
    ∧ (k4_off1 (grid4.coords t) 0 = 2560 * (t.val % 4) ∧ k4_off1 (grid4.coords t) 1 = 0)
    ∧ (win4_4.xsize (grid4.coords t) 0 = 1280 ∧ win4_4.xsize (grid4.coords t) 1 = 128) :=
  (by decide +kernel : ∀ t : Fin grid4.N, _)

section Reads
variable {F : FTy → Type} [FloatOps F]
variable (V : (c : Dev nD) → (b : Ref sig .tc) → Buf (Elt F) ((c : Thread nD τ).loc b))

theorem iblk4_0_apply (c : Dev nD) (t : Fin cfg4.N) (p : Fin 1280) (s : Fin 2560) :
    (iblk4 V c 0 t : Vec F S1280x2560 .bf16) (ix2 p s)
      = (V c main_v46 : Vec F S10240x10240 .bf16) (ix2 (Cert.Gcn.tileRow (t.val / 4) p) (Cert.Gcn.tileCol (t.val % 4) s)) := by
  obtain ⟨⟨h0, h1⟩, -⟩ := idx4_facts t
  have := t.isLt; have hN : cfg4.N = 32 := N_4
  have := p.isLt; have := s.isLt
  show V c main_v46 (((cfg4.win 0).blk t).view.emb (ix2 p s)) = _
  congr 1
  funext a
  apply Fin.ext
  match a with
  | ⟨0, _⟩ =>
    show win4_0.index t 0 * 1280 + 1 * p.val = (1280 * (t.val / 4) + p.val) % 10240
    rw [h0]; omega
  | ⟨1, _⟩ =>
    show win4_0.index t 1 * 2560 + 1 * s.val = (2560 * (t.val % 4) + s.val) % 10240
    rw [h1]; omega

theorem xwSlice4_apply (c : Dev nD) (t : Fin cfg4.N) (s : Fin 2560) (q : Fin 256) :
    (xwSlice4 V c t) (ix2 s q)
      = (V c main_v68 : Vec F S10240x256 .bf16) (ix2 (Cert.Gcn.tileCol (t.val % 4) s) q) := by
  obtain ⟨-, ⟨h0, h1⟩, -, -, -, -, ⟨o0, o1⟩, -⟩ := idx4_facts t
  have := t.isLt; have hN : cfg4.N = 32 := N_4
  have := s.isLt; have := q.isLt
  unfold xwSlice4
  show V c main_v68 (((cfg4.win 1).blk t).view.emb ((slice4 (grid4.coords t)).idx (ix2 s q))) = _
  congr 1
  funext a
  apply Fin.ext
  match a with
  | ⟨0, _⟩ =>
    show win4_1.index t 0 * 10240 + 1 * (k4_off1 (grid4.coords t) 0 + 1 * s.val) = (2560 * (t.val % 4) + s.val) % 10240
    rw [h0, o0]; omega
  | ⟨1, _⟩ =>
    show win4_1.index t 1 * 256 + 1 * (k4_off1 (grid4.coords t) 1 + 1 * q.val) = q.val
    rw [h1, o1]; omega

theorem iblk4_2_apply (c : Dev nD) (t : Fin cfg4.N) (j : Fin 256) :
    (iblk4 V c 2 t : Vec F S1x256 .f32) (ix2 0 j) = (V c main_v63 : Vec F S1x256 .f32) (ix2 0 j) := by
  obtain ⟨-, -, ⟨h0, h1⟩, -⟩ := idx4_facts t
  show V c main_v63 (((cfg4.win 2).blk t).view.emb (ix2 0 j)) = _
  congr 1
  funext a
  apply Fin.ext
  match a with
  | ⟨0, _⟩ =>
    show win4_2.index t 0 * 1 + 1 * 0 = 0
    rw [h0]
  | ⟨1, _⟩ =>
    show win4_2.index t 1 * 256 + 1 * j.val = j.val
    rw [h1]; omega

theorem iblk4_3_apply (c : Dev nD) (t : Fin cfg4.N) (j : Fin 256) (q : Fin 128) :
    (iblk4 V c 3 t : Vec F S256x128 .bf16) (ix2 j q) = (V c main_v56 : Vec F S256x128 .bf16) (ix2 j q) := by
  obtain ⟨-, -, -, ⟨h0, h1⟩, -⟩ := idx4_facts t
  show V c main_v56 (((cfg4.win 3).blk t).view.emb (ix2 j q)) = _
  congr 1
  funext a
  apply Fin.ext
  match a with
  | ⟨0, _⟩ =>
    show win4_3.index t 0 * 256 + 1 * j.val = j.val
    rw [h0]; omega
  | ⟨1, _⟩ =>
    show win4_3.index t 1 * 128 + 1 * q.val = q.val
    rw [h1]; omega

theorem oblk4_apply (t : Fin cfg4.N) (G : Vec F S10240x128 .bf16) (p : Fin 1280) (q : Fin 128) :
    (((cfg4.win 4).blk t).view.read (Elt F) G : Vec F S1280x128 .bf16) (ix2 p q)
      = G (ix2 (Cert.Gcn.tileRow (t.val / 4) p) q) := by
  obtain ⟨-, -, -, -, ⟨h0, h1⟩, -⟩ := idx4_facts t
  have := t.isLt; have hN : cfg4.N = 32 := N_4
  have := p.isLt; have := q.isLt
  show G (((cfg4.win 4).blk t).view.emb (ix2 p q)) = _
  congr 1
  funext a
  apply Fin.ext
  match a with
  | ⟨0, _⟩ =>
    show win4_4.index t 0 * 1280 + 1 * p.val = (1280 * (t.val / 4) + p.val) % 10240
    rw [h0]; omega
  | ⟨1, _⟩ =>
    show win4_4.index t 1 * 128 + 1 * q.val = q.val
    rw [h1]; omega

end Reads

section Value
variable (V : (c : Dev nD) → (b : Ref sig .tc) → Buf (Elt Ideal) ((c : Thread nD τ).loc b))

abbrev adjOf4 (c : Dev nD) : Fin 10240 → Fin 10240 → EReal := fun d s => V c main_v46 (ix2 d s)
abbrev xwOf4 (c : Dev nD) : Fin 10240 → Fin 256 → EReal := fun s q => V c main_v68 (ix2 s q)
abbrev biasOf4 (c : Dev nD) : Fin 256 → EReal := fun q => V c main_v63 (ix2 0 q)
abbrev wnOf4 (c : Dev nD) : Fin 256 → Fin 128 → EReal := fun q j => V c main_v56 (ix2 q j)

theorem acc4_full (c : Dev nD) (t : Fin cfg4.N) (h : t.val % 4 = 3) (p : Fin 1280) (q : Fin 256) :
    acc4 V c t.val t.isLt (ix2 p q)
      = Cert.Gcn.mm (adjOf4 V c) (xwOf4 V c) (Cert.Gcn.tileRow (t.val / 4) p) q := by
  have hN : cfg4.N = 32 := N_4
  refine Cert.Gcn.acc_closed (adjOf4 V c) (xwOf4 V c)
    (fun n hn p q => acc4 V c n (lt_of_lt_of_eq hn hN.symm) (ix2 p q)) ?_ ?_ t.val (lt_of_lt_of_eq t.isLt hN) h p q
  · intro n hn hn0 p q
    have e := acc4_first V c ⟨n, lt_of_lt_of_eq hn hN.symm⟩ hn0
    show acc4 V c n _ (ix2 p q) = _
    refine (congrFun e (ix2 p q)).trans ?_
    refine (k4_pay2_apply (xwSlice4 V c ⟨n, lt_of_lt_of_eq hn hN.symm⟩) (k4_pay1 (F := Ideal))
      (iblk4 V c 0 ⟨n, lt_of_lt_of_eq hn hN.symm⟩) p q).trans ?_
    rw [k4_pay1_apply]
    refine congrArg (0 + ·) (Finset.sum_congr rfl fun s _ => ?_)
    rw [iblk4_0_apply, xwSlice4_apply]
  · intro n hn hn0 p q
    have e := acc4_next V c ⟨n, lt_of_lt_of_eq hn hN.symm⟩ hn0
    show acc4 V c n _ (ix2 p q) = _
    refine (congrFun e (ix2 p q)).trans ?_
    refine (k4_pay2_apply (xwSlice4 V c ⟨n, lt_of_lt_of_eq hn hN.symm⟩) (acc4 V c (n - 1) _)
      (iblk4 V c 0 ⟨n, lt_of_lt_of_eq hn hN.symm⟩) p q).trans ?_
    refine congrArg (acc4 V c (n - 1) _ (ix2 p q) + ·) (Finset.sum_congr rfl fun s _ => ?_)
    rw [iblk4_0_apply, xwSlice4_apply]

def fused4 (c : Dev nD) : Buf (Elt Ideal) ((c : Thread nD τ).loc main_v69) :=
  fun i => Cert.Gcn.fusedK (adjOf4 V c) (xwOf4 V c) (biasOf4 V c) (wnOf4 V c) (i 0) (i 1)

theorem flushed4_eq (c : Dev nD) (t : Fin cfg4.N) (hf : (cfg4.win 4).flush t = true) :
    (dat4 V c).flushed 4 t = ((cfg4.win 4).blk t).view.read (Elt Ideal) (fused4 V c) := by
  have h3 : t.val % 4 = 3 := (flush4_4 t).mp hf
  obtain ⟨-, -, -, -, -, g0, -, -⟩ := idx4_facts t
  have := t.isLt; have hN : cfg4.N = 32 := N_4
  funext y
  obtain ⟨p, q, rfl⟩ : ∃ (p : Fin 1280) (q : Fin 128), y = ix2 p q := ⟨y 0, y 1, eq_ix2 y⟩
  show (dat4 V c).after 4 t (ix2 p q) = _
  refine (congrFun (after4_out V c t h3) (ix2 p q)).trans ?_
  refine (k4_pay3_apply (grid4.coords t) (acc4 V c t.val t.isLt) (iblk4 V c 2 t) (iblk4 V c 3 t) p q).trans ?_
  rw [oblk4_apply]
  simp only [iblk4_2_apply, iblk4_3_apply, acc4_full V c t h3, g0]
  exact Cert.Gcn.fusedK_of_acc (adjOf4 V c) (xwOf4 V c) (biasOf4 V c) (wnOf4 V c) (t.val / 4) (by omega) p q
    (fun j => Cert.Gcn.mm (adjOf4 V c) (xwOf4 V c) (Cert.Gcn.tileRow (t.val / 4) p) j) (fun _ => rfl)

end Value

theorem cover4 (c : Dev nD) (i : ((cfg4.win 4).arr.view.loc (c.tc : Thread nD τ)).2.ty.Idx) :
    ∃ t : Fin cfg4.N, (cfg4.win 4).flush t = true ∧ i ∈ ((cfg4.win 4).blk t).view.set := by
  have hN : cfg4.N = 32 := N_4
  have hi0 : (i 0).val < 10240 := (i 0).isLt
  have hi1 : (i 1).val < 128 := (i 1).isLt
  obtain ⟨t, ht⟩ : ∃ t : Fin cfg4.N, t.val = 4 * ((i 0).val / 1280) + 3 := ⟨⟨4 * ((i 0).val / 1280) + 3, by omega⟩, rfl⟩
  obtain ⟨-, -, -, -, ⟨h0, h1⟩, -, -, ⟨x0, x1⟩⟩ := idx4_facts t
  refine ⟨t, (flush4_4 t).mpr (by omega), ?_⟩
  show i ∈ ((View.whole main_v69).slice (win4_4.rect t)).set
  rw [View.set_slice_whole, Rect.mem_set_unit]
  intro a
  match a with
  | ⟨0, _⟩ =>
    show win4_4.index t 0 * 1280 ≤ (i 0).val ∧ (i 0).val < win4_4.index t 0 * 1280 + win4_4.xsize (grid4.coords t) 0
    rw [h0, x0]
    omega
  | ⟨1, _⟩ =>
    show win4_4.index t 1 * 128 ≤ (i 1).val ∧ (i 1).val < win4_4.index t 1 * 128 + win4_4.xsize (grid4.coords t) 1
    rw [h1, x1]
    omega

section Final
variable (V : (c : Dev nD) → (b : Ref sig .tc) → Buf (Elt Ideal) ((c : Thread nD τ).loc b))

theorem final4_arr (c : Dev nD) : (dat4 V c).arrAt 4 cfg4.N = fused4 V c :=
  (dat4 V c).arrAt_eq_of_cover 4 (fused4 V c) (flushed4_eq V c) (cover4 c)

theorem final4 (c : Dev nD) (d : Fin 10240) (j : Fin 128) :
    (dat4 V c).arrAt 4 cfg4.N (ix2 d j)
      = Cert.Gcn.fusedK (fun d s => V c main_v46 (ix2 d s)) (fun s q => V c main_v68 (ix2 s q))
          (fun q => V c main_v63 (ix2 0 q)) (fun q j => V c main_v56 (ix2 q j)) d j := by
  rw [final4_arr]
  rfl

end Final

end Cert.KernelIdeal.Hand

end
-- ==== Proof.KI.Acc5.lean ====
import Mathlib.Data.EReal.Basic
import Mathlib.Algebra.BigOperators.Fin
import Mathlib.Algebra.BigOperators.Group.Finset.Basic
import Mathlib.Logic.Equiv.Fin.Basic

noncomputable section

open scoped BigOperators

namespace Cert.KernelIdeal.Hand.V05

def tileEquiv : Fin 4 × Fin 2560 ≃ Fin 10240 := finProdFinEquiv

theorem tileEquiv_val (k : Fin 4) (s : Fin 2560) : (tileEquiv (k, s)).val = 2560 * k.val + s.val := by
  show s.val + 2560 * k.val = _
  omega

theorem sum_tiles {M : Type*} [AddCommMonoid M] (g : Fin 10240 → M) :
    ∑ s : Fin 10240, g s = ∑ k : Fin 4, ∑ s : Fin 2560, g ⟨2560 * k.val + s.val, by have := k.isLt; have := s.isLt; omega⟩ := by
  rw [← Equiv.sum_comp tileEquiv g, Fintype.sum_prod_type]
  exact Finset.sum_congr rfl fun k _ => Finset.sum_congr rfl fun s _ => congrArg g (Fin.ext (tileEquiv_val k s))

theorem acc_four {ι : Type*} {N : ℕ} (f M : (n : ℕ) → n < N → ι → EReal)
    (h0 : ∀ (n : ℕ) (h : n < N), n % 4 = 0 → ∀ i, f n h i = 0 + M n h i)
    (hs : ∀ (n : ℕ) (h : n + 1 < N), ¬ (n + 1) % 4 = 0 → ∀ i, f (n + 1) h i = f n (Nat.lt_of_succ_lt h) i + M (n + 1) h i)
    (b : ℕ) (hb : b % 4 = 0) (h : b + 3 < N) (i : ι) :
    f (b + 3) h i = M b (by omega) i + M (b + 1) (by omega) i + M (b + 2) (by omega) i + M (b + 3) h i := by
  have e3 : f (b + 3) h i = f (b + 2) (by omega) i + M (b + 3) h i := hs (b + 2) h (by omega) i
  have e2 : f (b + 2) (by omega) i = f (b + 1) (by omega) i + M (b + 2) (by omega) i := hs (b + 1) (by omega) (by omega) i
  have e1 : f (b + 1) (by omega) i = f b (by omega) i + M (b + 1) (by omega) i := hs b (by omega) (by omega) i
  have e0 : f b (by omega) i = 0 + M b (by omega) i := h0 b (by omega) hb i
  rw [e3, e2, e1, e0, zero_add]

end Cert.KernelIdeal.Hand.V05

end
-- ==== Proof.KI.R5Val.lean ====
import proofs.«427802_j60163901882525_3_alg».proof.Proof.KI.R5
import proofs.«427802_j60163901882525_3_alg».proof.Proof.KI.Pay05
import proofs.«427802_j60163901882525_3_alg».proof.Proof.KI.Acc5
import proofs.«427802_j60163901882525_3_alg».proof.Proof.GcnSpec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

namespace V05

theorem idx5 : ∀ t : Fin cfg5.N, win5_0.index t (0 : Fin 2) = t.val / 4 ∧ win5_0.index t (1 : Fin 2) = t.val % 4
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0
    ∧ (grid5.coords t (1 : Fin 2)).val = t.val % 4 :=
  (by decide +kernel : ∀ t : Fin grid5.N, _)

section AnyValues

variable {F : FTy → Type} [FloatOps F]
variable (V : (c : Dev nD) → (b : Ref sig .tc) → Buf (Elt F) ((c : Thread nD τ).loc b))

theorem iblk5_0_apply (c : Dev nD) (t : Fin cfg5.N) (p : Fin 1280) (s : Fin 2560) :
    (iblk5 V c 0 t : Vec F S1280x2560 .bf16) (ix2 p s)
      = (V c main_v46 : Vec F S10240x10240 .bf16)
          (ix2 (⟨1280 * (t.val / 4) + p.val, by have := t.isLt; have h : cfg5.N = 32 := N_5; have := p.isLt; omega⟩ : Fin 10240)
            (⟨2560 * (t.val % 4) + s.val, by have := s.isLt; omega⟩ : Fin 10240)) := by
  obtain ⟨e0, e1, -⟩ := idx5 t
  unfold iblk5
  rw [View.read_apply]
  show V c main_v46 (((cfg5.win 0).blk t).view.emb (ix2 p s)) = V c main_v46 _
  refine congrArg (V c main_v46) (funext fun a => Fin.ext ?_)
  match a with
  | ⟨0, _⟩ => show win5_0.index t (0 : Fin 2) * 1280 + 1 * p.val = 1280 * (t.val / 4) + p.val; rw [e0]; omega
  | ⟨1, _⟩ => show win5_0.index t (1 : Fin 2) * 2560 + 1 * s.val = 2560 * (t.val % 4) + s.val; rw [e1]; omega

theorem iblk5_1_apply (c : Dev nD) (t : Fin cfg5.N) (s : Fin 10240) (q : Fin 128) :
    (iblk5 V c 1 t : Vec F S10240x128 .bf16) (ix2 s q) = (V c main_v69 : Vec F S10240x128 .bf16) (ix2 s q) := by
  obtain ⟨-, -, e0, e1, -⟩ := idx5 t
  unfold iblk5
  rw [View.read_apply]
  show V c main_v69 (((cfg5.win 1).blk t).view.emb (ix2 s q)) = V c main_v69 _
  refine congrArg (V c main_v69) (funext fun a => Fin.ext ?_)
  match a with
  | ⟨0, _⟩ => show win5_1.index t (0 : Fin 2) * 10240 + 1 * s.val = s.val; rw [e0]; omega
  | ⟨1, _⟩ => show win5_1.index t (1 : Fin 2) * 128 + 1 * q.val = q.val; rw [e1]; omega

theorem iblk5_2_apply (c : Dev nD) (t : Fin cfg5.N) (q : Fin 128) :
    (iblk5 V c 2 t : Vec F S1x128 .f32) (ix2 (0 : Fin 1) q) = (V c main_v64 : Vec F S1x128 .f32) (ix2 (0 : Fin 1) q) := by
  obtain ⟨-, -, -, -, e0, e1, -⟩ := idx5 t
  unfold iblk5
  rw [View.read_apply]
  show V c main_v64 (((cfg5.win 2).blk t).view.emb (ix2 (0 : Fin 1) q)) = V c main_v64 _
  refine congrArg (V c main_v64) (funext fun a => Fin.ext ?_)
  match a with
  | ⟨0, _⟩ => show win5_2.index t (0 : Fin 2) * 1 + 1 * 0 = 0; rw [e0]
  | ⟨1, _⟩ => show win5_2.index t (1 : Fin 2) * 128 + 1 * q.val = q.val; rw [e1]; omega

theorem xwSlice5_apply (c : Dev nD) (t : Fin cfg5.N) (s : Fin 2560) (q : Fin 128) :
    xwSlice5 V c t (ix2 s q)
      = (V c main_v69 : Vec F S10240x128 .bf16) (ix2 (⟨2560 * (t.val % 4) + s.val, by have := s.isLt; omega⟩ : Fin 10240) q) := by
  obtain ⟨-, -, -, -, -, -, -, -, e8⟩ := idx5 t
  have hidx : (slice5 (grid5.coords t)).idx (ix2 s q)
      = (ix2 (⟨2560 * (t.val % 4) + s.val, by have := s.isLt; omega⟩ : Fin 10240) q : S10240x128.Idx) := by
    funext a; apply Fin.ext
    match a with
    | ⟨0, _⟩ =>
      show k5_off1 (grid5.coords t) (0 : Fin 2) + 1 * s.val = 2560 * (t.val % 4) + s.val
      rw [k5_off1_eq]
      show 2560 * (grid5.coords t (1 : Fin 2)).val + 1 * s.val = _
      rw [e8]; omega
    | ⟨1, _⟩ =>
      show k5_off1 (grid5.coords t) (1 : Fin 2) + 1 * q.val = q.val
      rw [k5_off1_eq]
      show 0 + 1 * q.val = q.val
      omega
  unfold xwSlice5
  show iblk5 V c 1 t ((slice5 (grid5.coords t)).idx (ix2 s q)) = _
  rw [hidx]
  exact iblk5_1_apply V c t _ q

theorem mem_blk5 (t : Fin cfg5.N) (i : S10240x128.Idx) :
    i ∈ ((cfg5.win 3).blk t).view.set ↔ ∀ a : Fin 2, win5_3.index t a * S1280x128.size a ≤ (i a).val ∧ (i a).val < win5_3.index t a * S1280x128.size a + S1280x128.size a := by
  show i ∈ ((View.whole main_v70).slice (win5_3.rect t)).set ↔ _
  rw [View.set_slice_whole, Rect.mem_set_unit]
  exact Iff.rfl

theorem cover5 (i : S10240x128.Idx) : ∃ t : Fin cfg5.N, (cfg5.win 3).flush t = true ∧ i ∈ ((cfg5.win 3).blk t).view.set := by
  have hN : cfg5.N = 32 := N_5
  have hi0 : (i 0).val < 10240 := (i 0).isLt
  have hi1 : (i 1).val < 128 := (i 1).isLt
  let t : Fin cfg5.N := ⟨4 * ((i 0).val / 1280) + 3, by omega⟩
  have ht : t.val = 4 * ((i 0).val / 1280) + 3 := rfl
  obtain ⟨-, -, -, -, -, -, e0, e1, -⟩ := idx5 t
  refine ⟨t, (flush5_3 t).mpr (by rw [ht]; omega), ?_⟩
  rw [mem_blk5]
  intro a
  match a with
  | ⟨0, _⟩ => show win5_3.index t (0 : Fin 2) * 1280 ≤ (i 0).val ∧ (i 0).val < win5_3.index t (0 : Fin 2) * 1280 + 1280; rw [e0, ht]; omega
  | ⟨1, _⟩ => show win5_3.index t (1 : Fin 2) * 128 ≤ (i 1).val ∧ (i 1).val < win5_3.index t (1 : Fin 2) * 128 + 128; rw [e1]; omega

end AnyValues

section AtIdeal

variable (V : (c : Dev nD) → (b : Ref sig .tc) → Buf (Elt Ideal) ((c : Thread nD τ).loc b))

abbrev adjE (c : Dev nD) : Fin 10240 → Fin 10240 → EReal := fun d s => V c main_v46 (ix2 d s)
abbrev xwE (c : Dev nD) : Fin 10240 → Fin 128 → EReal := fun s q => V c main_v69 (ix2 s q)
abbrev biasE (c : Dev nD) : Fin 128 → EReal := fun q => V c main_v64 (ix2 0 q)

theorem ablk5_eq (c : Dev nD) (t : Fin cfg5.N) (p : Fin 1280) (s : Fin 2560) (d s' : Fin 10240)
    (hd : d.val = 1280 * (t.val / 4) + p.val) (hs : s'.val = 2560 * (t.val % 4) + s.val) :
    ablk5 V c t (ix2 p s) = adjE V c d s' := by
  have e := iblk5_0_apply V c t p s
  have e1 : (⟨1280 * (t.val / 4) + p.val, by have := t.isLt; have h : cfg5.N = 32 := N_5; have := p.isLt; omega⟩ : Fin 10240) = d := Fin.ext hd.symm
  have e2 : (⟨2560 * (t.val % 4) + s.val, by have := s.isLt; omega⟩ : Fin 10240) = s' := Fin.ext hs.symm
  rw [e1, e2] at e
  exact e

theorem xwSlice5_eq (c : Dev nD) (t : Fin cfg5.N) (s : Fin 2560) (q : Fin 128) (s' : Fin 10240)
    (hs : s'.val = 2560 * (t.val % 4) + s.val) :
    xwSlice5 V c t (ix2 s q) = xwE V c s' q := by
  have e := xwSlice5_apply V c t s q
  have e2 : (⟨2560 * (t.val % 4) + s.val, by have := s.isLt; omega⟩ : Fin 10240) = s' := Fin.ext hs.symm
  rw [e2] at e
  exact e

def part5 (c : Dev nD) (n : ℕ) (h : n < cfg5.N) (i : Fin 1280 × Fin 128) : EReal :=
  ∑ s : Fin 2560, ablk5 V c ⟨n, h⟩ (ix2 i.1 s) * xwSlice5 V c ⟨n, h⟩ (ix2 s i.2)

theorem part5_eq (c : Dev nD) (n : ℕ) (h : n < cfg5.N) (p : Fin 1280) (q : Fin 128) (d : Fin 10240) (k : Fin 4)
    (hd : d.val = 1280 * (n / 4) + p.val) (hk : n % 4 = k.val) :
    part5 V c n h (p, q)
      = ∑ s : Fin 2560, adjE V c d (⟨2560 * k.val + s.val, by have := k.isLt; have := s.isLt; omega⟩ : Fin 10240)
          * xwE V c (⟨2560 * k.val + s.val, by have := k.isLt; have := s.isLt; omega⟩ : Fin 10240) q := by
  unfold part5
  refine Finset.sum_congr rfl fun s _ => ?_
  rw [ablk5_eq V c ⟨n, h⟩ p s d ⟨2560 * k.val + s.val, by have := k.isLt; have := s.isLt; omega⟩ hd (by show _ = 2560 * (n % 4) + s.val; rw [hk]),
    xwSlice5_eq V c ⟨n, h⟩ s q ⟨2560 * k.val + s.val, by have := k.isLt; have := s.isLt; omega⟩ (by show _ = 2560 * (n % 4) + s.val; rw [hk])]

theorem acc5_run (c : Dev nD) (b : ℕ) (hb : b % 4 = 0) (h : b + 3 < cfg5.N) (p : Fin 1280) (q : Fin 128) :
    acc5 V c (b + 3) h (ix2 p q)
      = part5 V c b (by omega) (p, q) + part5 V c (b + 1) (by omega) (p, q) + part5 V c (b + 2) (by omega) (p, q) + part5 V c (b + 3) h (p, q) := by
  refine acc_four (fun n hn (i : Fin 1280 × Fin 128) => (acc5 V c n hn (ix2 i.1 i.2) : EReal)) (part5 V c) ?_ ?_ b hb h (p, q)
  · intro n hn hmod i
    show acc5 V c n hn (ix2 i.1 i.2) = 0 + part5 V c n hn i
    have e := congrFun (acc5_first V c ⟨n, hn⟩ hmod) (ix2 i.1 i.2)
    refine e.trans ?_
    refine (k5_pay2_apply _ _ _ i.1 i.2).trans ?_
    rw [k5_pay1_apply]
    rfl
  · intro n hn hmod i
    show acc5 V c (n + 1) hn (ix2 i.1 i.2) = acc5 V c n (Nat.lt_of_succ_lt hn) (ix2 i.1 i.2) + part5 V c (n + 1) hn i
    have e := congrFun (acc5_next V c ⟨n + 1, hn⟩ hmod) (ix2 i.1 i.2)
    refine e.trans ?_
    exact k5_pay2_apply _ _ _ i.1 i.2

def agg5 (c : Dev nD) : Vec Ideal S10240x128 .f32 := fun i =>
  Cert.Gcn.finalK (adjE V c) (xwE V c) (biasE V c) (i 0) (i 1)

theorem flushed5_eq (c : Dev nD) (t : Fin cfg5.N) (hf : (cfg5.win 3).flush t = true) :
    (dat5 V c).flushed 3 t = ((cfg5.win 3).blk t).view.read (Elt Ideal) (agg5 V c) := by
  have h3 : t.val % 4 = 3 := (flush5_3 t).mp hf
  have hN : cfg5.N = 32 := N_5
  show (cfg5.win 3).cut (grid5.coords t) ((dat5 V c).after 3 t) = _
  rw [after5_out V c t h3]
  obtain ⟨-, -, -, -, -, -, e0, e1, -⟩ := idx5 t
  funext y
  obtain ⟨p, q, rfl⟩ : ∃ (p : Fin 1280) (q : Fin 128), y = ix2 p q := ⟨y 0, y 1, eq_ix2 y⟩
  refine (k5_pay3_apply (acc5 V c t.val t.isLt) (iblk5 V c 2 t) p q).trans ?_
  rw [View.read_apply]
  have hdlt : 1280 * (t.val / 4) + p.val < 10240 := by have := t.isLt; have := p.isLt; omega
  have hemb : ((cfg5.win 3).blk t).view.emb (ix2 p q)
      = (ix2 (⟨1280 * (t.val / 4) + p.val, hdlt⟩ : Fin 10240) q : S10240x128.Idx) := by
    funext a; apply Fin.ext
    match a with
    | ⟨0, _⟩ => show win5_3.index t (0 : Fin 2) * 1280 + 1 * p.val = 1280 * (t.val / 4) + p.val; rw [e0]; omega
    | ⟨1, _⟩ => show win5_3.index t (1 : Fin 2) * 128 + 1 * q.val = q.val; rw [e1]; omega
  show _ = agg5 V c (((cfg5.win 3).blk t).view.emb (ix2 p q))
  rw [hemb, iblk5_2_apply]
  show _ = Cert.Gcn.finalK (adjE V c) (xwE V c) (biasE V c) (⟨1280 * (t.val / 4) + p.val, hdlt⟩ : Fin 10240) q
  unfold Cert.Gcn.finalK Cert.Gcn.mm
  refine congrArg (· + biasE V c q) ?_

  have hb : (t.val - 3) % 4 = 0 := by omega
  have hlt : t.val - 3 + 3 < cfg5.N := by have := t.isLt; omega
  have hacc : acc5 V c t.val t.isLt (ix2 p q) = acc5 V c (t.val - 3 + 3) hlt (ix2 p q) := by
    have : ∀ (u : ℕ) (hu : u < cfg5.N), u = t.val → acc5 V c t.val t.isLt (ix2 p q) = acc5 V c u hu (ix2 p q) := by
      intro u hu e; subst e; rfl
    exact this _ hlt (by omega)
  rw [hacc, acc5_run V c (t.val - 3) hb hlt p q,
    part5_eq V c (t.val - 3) (by omega) p q ⟨1280 * (t.val / 4) + p.val, hdlt⟩ 0 (by show 1280 * (t.val / 4) + p.val = 1280 * ((t.val - 3) / 4) + p.val; omega) (by show (t.val - 3) % 4 = 0; omega),
    part5_eq V c (t.val - 3 + 1) (by omega) p q ⟨1280 * (t.val / 4) + p.val, hdlt⟩ 1 (by show 1280 * (t.val / 4) + p.val = 1280 * ((t.val - 3 + 1) / 4) + p.val; omega) (by show (t.val - 3 + 1) % 4 = 1; omega),
    part5_eq V c (t.val - 3 + 2) (by omega) p q ⟨1280 * (t.val / 4) + p.val, hdlt⟩ 2 (by show 1280 * (t.val / 4) + p.val = 1280 * ((t.val - 3 + 2) / 4) + p.val; omega) (by show (t.val - 3 + 2) % 4 = 2; omega),
    part5_eq V c (t.val - 3 + 3) hlt p q ⟨1280 * (t.val / 4) + p.val, hdlt⟩ 3 (by show 1280 * (t.val / 4) + p.val = 1280 * ((t.val - 3 + 3) / 4) + p.val; omega) (by show (t.val - 3 + 3) % 4 = 3; omega),
    sum_tiles, Fin.sum_univ_four]

theorem arr5_eq (c : Dev nD) : (dat5 V c).arrAt 3 cfg5.N = agg5 V c :=
  (dat5 V c).arrAt_eq_of_cover 3 (agg5 V c) (flushed5_eq V c) cover5

end AtIdeal

end V05

theorem final5 (V : (c : Dev nD) → (b : Ref sig .tc) → Buf (Elt Ideal) ((c : Thread nD τ).loc b)) (c : Dev nD)
    (d : Fin 10240) (j : Fin 128) :
    (dat5 V c).arrAt 3 cfg5.N (ix2 d j)
      = Cert.Gcn.finalK (fun d s => V c main_v46 (ix2 d s)) (fun s q => V c main_v69 (ix2 s q))
          (fun q => V c main_v64 (ix2 0 q)) d j :=
  congrFun (V05.arr5_eq V c) (ix2 d j)

end Cert.KernelIdeal.Hand

end
-- ==== Proof.KI.Chain.lean ====
import proofs.«427802_j60163901882525_3_alg».proof.Proof.Gen.KernelIdeal.Regions
import proofs.«427802_j60163901882525_3_alg».proof.Proof.KI.Frame
import proofs.«427802_j60163901882525_3_alg».proof.Proof.KI.HostVal
import proofs.«427802_j60163901882525_3_alg».proof.Proof.KI.HostPad
import proofs.«427802_j60163901882525_3_alg».proof.Proof.KI.HostTail
import proofs.«427802_j60163901882525_3_alg».proof.Proof.KI.HostAdj
import proofs.«427802_j60163901882525_3_alg».proof.Proof.KI.R0Val
import proofs.«427802_j60163901882525_3_alg».proof.Proof.KI.R1Val
import proofs.«427802_j60163901882525_3_alg».proof.Proof.KI.R2Val
import proofs.«427802_j60163901882525_3_alg».proof.Proof.KI.R3Val
import proofs.«427802_j60163901882525_3_alg».proof.Proof.KI.R4Val
import proofs.«427802_j60163901882525_3_alg».proof.Proof.KI.R5Val
import proofs.«427802_j60163901882525_3_alg».proof.Proof.GcnSpec
import proofs.«427802_j60163901882525_3_alg».proof.Proof.GcnIdx
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

namespace V05

section Kept

variable {F : FTy → Type} [FloatOps F]
variable (m : (ℓ : Loc nD τ sig) → Buf (Elt F) ℓ) (outs : Gen.Outs (F := F)) (c : Dev nD)

theorem V6_kept (r : Ref sig .tc) (h5 : r ∉ ([main_v65] : List (Ref sig .tc))) : Gen.V6 m outs c r = Gen.V5 m c r :=
  V6_of m outs c r h5
theorem V7_kept (r : Ref sig .tc) (h5 : r ∉ ([main_v65] : List (Ref sig .tc))) (h6 : r ∉ ([main_v66] : List (Ref sig .tc))) :
    Gen.V7 m outs c r = Gen.V5 m c r :=
  (V7_of m outs c r h6).trans (V6_kept m outs c r h5)
theorem V8_kept (r : Ref sig .tc) (h5 : r ∉ ([main_v65] : List (Ref sig .tc))) (h6 : r ∉ ([main_v66] : List (Ref sig .tc)))
    (h7 : r ∉ ([main_v67] : List (Ref sig .tc))) : Gen.V8 m outs c r = Gen.V5 m c r :=
  (V8_of m outs c r h7).trans (V7_kept m outs c r h5 h6)
theorem V9_kept (r : Ref sig .tc) (h5 : r ∉ ([main_v65] : List (Ref sig .tc))) (h6 : r ∉ ([main_v66] : List (Ref sig .tc)))
    (h7 : r ∉ ([main_v67] : List (Ref sig .tc))) (h8 : r ∉ ([main_v68] : List (Ref sig .tc))) : Gen.V9 m outs c r = Gen.V5 m c r :=
  (V9_of m outs c r h8).trans (V8_kept m outs c r h5 h6 h7)
theorem V10_kept (r : Ref sig .tc) (h5 : r ∉ ([main_v65] : List (Ref sig .tc))) (h6 : r ∉ ([main_v66] : List (Ref sig .tc)))
    (h7 : r ∉ ([main_v67] : List (Ref sig .tc))) (h8 : r ∉ ([main_v68] : List (Ref sig .tc))) (h9 : r ∉ ([main_v69] : List (Ref sig .tc))) :
    Gen.V10 m outs c r = Gen.V5 m c r :=
  (V10_of m outs c r h9).trans (V9_kept m outs c r h5 h6 h7 h8)

theorem V6_out : Gen.V6 m outs c main_v65 = outs 6 main_v65 c := Function.update_self ..
theorem V7_out : Gen.V7 m outs c main_v66 = outs 7 main_v66 c := Function.update_self ..
theorem V8_out : Gen.V8 m outs c main_v67 = outs 8 main_v67 c := Function.update_self ..
theorem V9_out : Gen.V9 m outs c main_v68 = outs 9 main_v68 c := Function.update_self ..
theorem V10_out : Gen.V10 m outs c main_v69 = outs 10 main_v69 c := Function.update_self ..

end Kept

section Dense

variable (m : (ℓ : Loc nD τ sig) → Buf (Elt Ideal) ℓ) (c : Dev nD)

abbrev kA : Fin 10240 → Fin 10240 → EReal := fun d s => (Gen.V5 m c main_v46 : S10240x10240.Idx → EReal) (ix2 d s)
abbrev kXp : Fin 10240 → Fin 256 → EReal := fun d q => (Gen.V5 m c main_v48 : S10240x256.Idx → EReal) (ix2 d q)
abbrev kW1 : Fin 256 → Fin 256 → EReal := fun q j => (Gen.V5 m c main_v49 : S256x256.Idx → EReal) (ix2 q j)
abbrev kW2 : Fin 256 → Fin 256 → EReal := fun q j => (Gen.V5 m c main_v50 : S256x256.Idx → EReal) (ix2 q j)
abbrev kW3 : Fin 256 → Fin 256 → EReal := fun q j => (Gen.V5 m c main_v51 : S256x256.Idx → EReal) (ix2 q j)
abbrev kW4 : Fin 256 → Fin 256 → EReal := fun q j => (Gen.V5 m c main_v52 : S256x256.Idx → EReal) (ix2 q j)
abbrev kW5p : Fin 256 → Fin 128 → EReal := fun q j => (Gen.V5 m c main_v56 : S256x128.Idx → EReal) (ix2 q j)
abbrev kb1 : Fin 256 → EReal := fun q => (Gen.V5 m c main_v60 : S1x256.Idx → EReal) (ix2 0 q)
abbrev kb2 : Fin 256 → EReal := fun q => (Gen.V5 m c main_v61 : S1x256.Idx → EReal) (ix2 0 q)
abbrev kb3 : Fin 256 → EReal := fun q => (Gen.V5 m c main_v62 : S1x256.Idx → EReal) (ix2 0 q)
abbrev kb4 : Fin 256 → EReal := fun q => (Gen.V5 m c main_v63 : S1x256.Idx → EReal) (ix2 0 q)
abbrev kb5p : Fin 128 → EReal := fun q => (Gen.V5 m c main_v64 : S1x128.Idx → EReal) (ix2 0 q)

def kH0 : Fin 10240 → Fin 256 → EReal := Cert.Gcn.linK (kXp m c) (kW1 m c)
def kH1 : Fin 10240 → Fin 256 → EReal := Cert.Gcn.fusedK (kA m c) (kH0 m c) (kb1 m c) (kW2 m c)
def kH2 : Fin 10240 → Fin 256 → EReal := Cert.Gcn.fusedK (kA m c) (kH1 m c) (kb2 m c) (kW3 m c)
def kH3 : Fin 10240 → Fin 256 → EReal := Cert.Gcn.fusedK (kA m c) (kH2 m c) (kb3 m c) (kW4 m c)
def kH4 : Fin 10240 → Fin 128 → EReal := Cert.Gcn.fusedK (kA m c) (kH3 m c) (kb4 m c) (kW5p m c)

theorem in1 (s : Fin 10240) (q : Fin 256) : E1 m c main_v65 (ix2 s q) = kH0 m c s q := by
  have h : E1 m c main_v65 = (dat0 (E0 m) c).arrAt 2 cfg0.N :=
    (E1_eq m c main_v65).trans ((V6_out m (outs m) c).trans (outs_6 m c))
  rw [h, final0]
  have e48 : (fun (d : Fin 10240) (q : Fin 256) => E0 m c main_v48 (ix2 d q)) = kXp m c :=
    funext fun d => funext fun q => congrFun (E0_eq m c main_v48) (ix2 d q)
  have e49 : (fun (q : Fin 256) (j : Fin 256) => E0 m c main_v49 (ix2 q j)) = kW1 m c :=
    funext fun q => funext fun j => congrFun (E0_eq m c main_v49) (ix2 q j)
  rw [e48, e49]; rfl

theorem in2 (s : Fin 10240) (q : Fin 256) : E2 m c main_v66 (ix2 s q) = kH1 m c s q := by
  have h : E2 m c main_v66 = (dat1 (E1 m) c).arrAt 4 cfg1.N :=
    (E2_eq m c main_v66).trans ((V7_out m (outs m) c).trans (outs_7 m c))
  rw [h, final1]
  have eA : (fun (d s : Fin 10240) => E1 m c main_v46 (ix2 d s)) = kA m c :=
    funext fun d => funext fun s => congrFun ((E1_eq m c main_v46).trans (V6_kept m (outs m) c main_v46 (by decide))) (ix2 d s)
  have eX : (fun (s : Fin 10240) (q : Fin 256) => E1 m c main_v65 (ix2 s q)) = kH0 m c :=
    funext fun s => funext fun q => in1 m c s q
  have eb : (fun (q : Fin 256) => E1 m c main_v60 (ix2 0 q)) = kb1 m c :=
    funext fun q => congrFun ((E1_eq m c main_v60).trans (V6_kept m (outs m) c main_v60 (by decide))) (ix2 0 q)
  have eW : (fun (q j : Fin 256) => E1 m c main_v50 (ix2 q j)) = kW2 m c :=
    funext fun q => funext fun j => congrFun ((E1_eq m c main_v50).trans (V6_kept m (outs m) c main_v50 (by decide))) (ix2 q j)
  rw [eA, eX, eb, eW]; rfl

theorem in3 (s : Fin 10240) (q : Fin 256) : E3 m c main_v67 (ix2 s q) = kH2 m c s q := by
  have h : E3 m c main_v67 = (dat2 (E2 m) c).arrAt 4 cfg2.N :=
    (E3_eq m c main_v67).trans ((V8_out m (outs m) c).trans (outs_8 m c))
  rw [h, final2]
  have eA : (fun (d s : Fin 10240) => E2 m c main_v46 (ix2 d s)) = kA m c :=
    funext fun d => funext fun s => congrFun ((E2_eq m c main_v46).trans (V7_kept m (outs m) c main_v46 (by decide) (by decide))) (ix2 d s)
  have eX : (fun (s : Fin 10240) (q : Fin 256) => E2 m c main_v66 (ix2 s q)) = kH1 m c :=
    funext fun s => funext fun q => in2 m c s q
  have eb : (fun (q : Fin 256) => E2 m c main_v61 (ix2 0 q)) = kb2 m c :=
    funext fun q => congrFun ((E2_eq m c main_v61).trans (V7_kept m (outs m) c main_v61 (by decide) (by decide))) (ix2 0 q)
  have eW : (fun (q j : Fin 256) => E2 m c main_v51 (ix2 q j)) = kW3 m c :=
    funext fun q => funext fun j => congrFun ((E2_eq m c main_v51).trans (V7_kept m (outs m) c main_v51 (by decide) (by decide))) (ix2 q j)
  rw [eA, eX, eb, eW]; rfl

theorem in4 (s : Fin 10240) (q : Fin 256) : E4 m c main_v68 (ix2 s q) = kH3 m c s q := by
  have h : E4 m c main_v68 = (dat3 (E3 m) c).arrAt 4 cfg3.N :=
    (E4_eq m c main_v68).trans ((V9_out m (outs m) c).trans (outs_9 m c))
  rw [h, final3]
  have eA : (fun (d s : Fin 10240) => E3 m c main_v46 (ix2 d s)) = kA m c :=
    funext fun d => funext fun s => congrFun ((E3_eq m c main_v46).trans (V8_kept m (outs m) c main_v46 (by decide) (by decide) (by decide))) (ix2 d s)
  have eX : (fun (s : Fin 10240) (q : Fin 256) => E3 m c main_v67 (ix2 s q)) = kH2 m c :=
    funext fun s => funext fun q => in3 m c s q
  have eb : (fun (q : Fin 256) => E3 m c main_v62 (ix2 0 q)) = kb3 m c :=
    funext fun q => congrFun ((E3_eq m c main_v62).trans (V8_kept m (outs m) c main_v62 (by decide) (by decide) (by decide))) (ix2 0 q)
  have eW : (fun (q j : Fin 256) => E3 m c main_v52 (ix2 q j)) = kW4 m c :=
    funext fun q => funext fun j => congrFun ((E3_eq m c main_v52).trans (V8_kept m (outs m) c main_v52 (by decide) (by decide) (by decide))) (ix2 q j)
  rw [eA, eX, eb, eW]; rfl

theorem in5 (s : Fin 10240) (q : Fin 128) : E5 m c main_v69 (ix2 s q) = kH4 m c s q := by
  have h : E5 m c main_v69 = (dat4 (E4 m) c).arrAt 4 cfg4.N :=
    (E5_eq m c main_v69).trans ((V10_out m (outs m) c).trans (outs_10 m c))
  rw [h, final4]
  have eA : (fun (d s : Fin 10240) => E4 m c main_v46 (ix2 d s)) = kA m c :=
    funext fun d => funext fun s => congrFun ((E4_eq m c main_v46).trans (V9_kept m (outs m) c main_v46 (by decide) (by decide) (by decide) (by decide))) (ix2 d s)
  have eX : (fun (s : Fin 10240) (q : Fin 256) => E4 m c main_v68 (ix2 s q)) = kH3 m c :=
    funext fun s => funext fun q => in4 m c s q
  have eb : (fun (q : Fin 256) => E4 m c main_v63 (ix2 0 q)) = kb4 m c :=
    funext fun q => congrFun ((E4_eq m c main_v63).trans (V9_kept m (outs m) c main_v63 (by decide) (by decide) (by decide) (by decide))) (ix2 0 q)
  have eW : (fun (q : Fin 256) (j : Fin 128) => E4 m c main_v56 (ix2 q j)) = kW5p m c :=
    funext fun q => funext fun j => congrFun ((E4_eq m c main_v56).trans (V9_kept m (outs m) c main_v56 (by decide) (by decide) (by decide) (by decide))) (ix2 q j)
  rw [eA, eX, eb, eW]; rfl

theorem kernel_dense (d : Fin 10000) (j : Fin 40) :
    (Gen.V13 m (outs m) c main_v71 : S10000x40.Idx → EReal) (ix2 d j)
      = Cert.Gcn.finalK (kA m c) (kH4 m c) (kb5p m c) (Fin.castLE (by decide) d) (Fin.castLE (by decide) j) := by
  rw [V13_logits, outs_11, final5]
  have eA : (fun (d s : Fin 10240) => E5 m c main_v46 (ix2 d s)) = kA m c :=
    funext fun d => funext fun s => congrFun ((E5_eq m c main_v46).trans (V10_kept m (outs m) c main_v46 (by decide) (by decide) (by decide) (by decide) (by decide))) (ix2 d s)
  have eX : (fun (s : Fin 10240) (q : Fin 128) => E5 m c main_v69 (ix2 s q)) = kH4 m c :=
    funext fun s => funext fun q => in5 m c s q
  have eb : (fun (q : Fin 128) => E5 m c main_v64 (ix2 0 q)) = kb5p m c :=
    funext fun q => congrFun ((E5_eq m c main_v64).trans (V10_kept m (outs m) c main_v64 (by decide) (by decide) (by decide) (by decide) (by decide))) (ix2 0 q)
  rw [eA, eX, eb]

end Dense

end V05

section Logits

variable (m : (ℓ : Loc nD τ sig) → Buf (Elt Ideal) ℓ) (c : Dev nD)

theorem kernel_logits (hr : Cert.Gcn.InRange (m ((c : Thread nD τ).loc main_arg1))) (d : Fin 10000) (j : Fin 40) :
    (Gen.V13 m (outs m) c main_v71 : S10000x40.Idx → EReal) (ix2 d j)
      = Cert.Gcn.logitsR (Cert.Gcn.srcOf (m ((c : Thread nD τ).loc main_arg1))) (Cert.Gcn.dstOf (m ((c : Thread nD τ).loc main_arg1)))
          (nrmK (m ((c : Thread nD τ).loc main_arg1)))
          (Cert.Gcn.layerR (Cert.Gcn.srcOf (m ((c : Thread nD τ).loc main_arg1))) (Cert.Gcn.dstOf (m ((c : Thread nD τ).loc main_arg1))) (nrmK (m ((c : Thread nD τ).loc main_arg1)))
            (Cert.Gcn.layerR (Cert.Gcn.srcOf (m ((c : Thread nD τ).loc main_arg1))) (Cert.Gcn.dstOf (m ((c : Thread nD τ).loc main_arg1))) (nrmK (m ((c : Thread nD τ).loc main_arg1)))
              (Cert.Gcn.layerR (Cert.Gcn.srcOf (m ((c : Thread nD τ).loc main_arg1))) (Cert.Gcn.dstOf (m ((c : Thread nD τ).loc main_arg1))) (nrmK (m ((c : Thread nD τ).loc main_arg1)))
                (Cert.Gcn.layerR (Cert.Gcn.srcOf (m ((c : Thread nD τ).loc main_arg1))) (Cert.Gcn.dstOf (m ((c : Thread nD τ).loc main_arg1))) (nrmK (m ((c : Thread nD τ).loc main_arg1)))
                  (Cert.Gcn.linR (fun (d : Fin 10000) (q : Fin 256) => (m ((c : Thread nD τ).loc main_arg0) : S10000x256.Idx → EReal) (ix2 d q))
                    (fun (q j : Fin 256) => (m ((c : Thread nD τ).loc main_arg2) : S256x256.Idx → EReal) (ix2 q j)))
                  (fun (q : Fin 256) => (m ((c : Thread nD τ).loc main_arg3) : S256.Idx → EReal) (ix1 q))
                  (fun (q j : Fin 256) => (m ((c : Thread nD τ).loc main_arg4) : S256x256.Idx → EReal) (ix2 q j)))
                (fun (q : Fin 256) => (m ((c : Thread nD τ).loc main_arg5) : S256.Idx → EReal) (ix1 q))
                (fun (q j : Fin 256) => (m ((c : Thread nD τ).loc main_arg6) : S256x256.Idx → EReal) (ix2 q j)))
              (fun (q : Fin 256) => (m ((c : Thread nD τ).loc main_arg7) : S256.Idx → EReal) (ix1 q))
              (fun (q j : Fin 256) => (m ((c : Thread nD τ).loc main_arg8) : S256x256.Idx → EReal) (ix2 q j)))
            (fun (q : Fin 256) => (m ((c : Thread nD τ).loc main_arg9) : S256.Idx → EReal) (ix1 q))
            (fun (q : Fin 256) (j : Fin 40) => (m ((c : Thread nD τ).loc main_arg10) : S256x40.Idx → EReal) (ix2 q j)))
          (fun (j : Fin 40) => (m ((c : Thread nD τ).loc main_arg11) : S40.Idx → EReal) (ix1 j)) d j := by
  rw [V05.kernel_dense]
  have hA : V05.kA m c = Cert.Gcn.adj (Cert.Gcn.srcOf (m ((c : Thread nD τ).loc main_arg1))) (Cert.Gcn.dstOf (m ((c : Thread nD τ).loc main_arg1)))
      (nrmK (m ((c : Thread nD τ).loc main_arg1))) := funext fun d => funext fun s => V5_adj m c hr d s
  have hW1 : V05.kW1 m c = fun (q j : Fin 256) => (m ((c : Thread nD τ).loc main_arg2) : S256x256.Idx → EReal) (ix2 q j) :=
    funext fun q => funext fun j => congrFun (V5_W1 m c) (ix2 q j)
  have hW2 : V05.kW2 m c = fun (q j : Fin 256) => (m ((c : Thread nD τ).loc main_arg4) : S256x256.Idx → EReal) (ix2 q j) :=
    funext fun q => funext fun j => congrFun (V5_W2 m c) (ix2 q j)
  have hW3 : V05.kW3 m c = fun (q j : Fin 256) => (m ((c : Thread nD τ).loc main_arg6) : S256x256.Idx → EReal) (ix2 q j) :=
    funext fun q => funext fun j => congrFun (V5_W3 m c) (ix2 q j)
  have hW4 : V05.kW4 m c = fun (q j : Fin 256) => (m ((c : Thread nD τ).loc main_arg8) : S256x256.Idx → EReal) (ix2 q j) :=
    funext fun q => funext fun j => congrFun (V5_W4 m c) (ix2 q j)
  have hb1 : V05.kb1 m c = fun (q : Fin 256) => (m ((c : Thread nD τ).loc main_arg3) : S256.Idx → EReal) (ix1 q) := funext fun q => V5_b1 m c q
  have hb2 : V05.kb2 m c = fun (q : Fin 256) => (m ((c : Thread nD τ).loc main_arg5) : S256.Idx → EReal) (ix1 q) := funext fun q => V5_b2 m c q
  have hb3 : V05.kb3 m c = fun (q : Fin 256) => (m ((c : Thread nD τ).loc main_arg7) : S256.Idx → EReal) (ix1 q) := funext fun q => V5_b3 m c q
  have hb4 : V05.kb4 m c = fun (q : Fin 256) => (m ((c : Thread nD τ).loc main_arg9) : S256.Idx → EReal) (ix1 q) := funext fun q => V5_b4 m c q
  unfold V05.kH4 V05.kH3 V05.kH2 V05.kH1 V05.kH0
  rw [hA, hW1, hW2, hW3, hW4, hb1, hb2, hb3, hb4]
  refine Cert.Gcn.network_eq _ _ _ (nrmK_nonneg _) _ (V05.kXp m c) ?_ _ _ _ _ _ _ _ _ _ (V05.kW5p m c) ?_ _ (V05.kb5p m c) ?_ d j
  · intro d q
    show (Gen.V5 m c main_v48 : S10240x256.Idx → EReal) (ix2 (Fin.castLE (by decide) d) q) = _
    rw [V5_xpad, dif_pos (show (Fin.castLE (by decide) d : Fin 10240).val < 10000 from d.isLt)]
    rfl
  · intro q j
    show (Gen.V5 m c main_v56 : S256x128.Idx → EReal) (ix2 q (Fin.castLE (by decide) j)) = _
    rw [V5_W5p, dif_pos (show (Fin.castLE (by decide) j : Fin 128).val < 40 from j.isLt)]
    rfl
  · intro j
    show (Gen.V5 m c main_v64 : S1x128.Idx → EReal) (ix2 0 (Fin.castLE (by decide) j)) = _
    rw [V5_b5p, dif_pos (show (Fin.castLE (by decide) j : Fin 128).val < 40 from j.isLt)]
    rfl

end Logits

end Cert.KernelIdeal.Hand

end
-- ==== Proof.PreDecode.lean ====
import proofs.«427802_j60163901882525_3_alg».proof.Pre_finite_inputs
import proofs.«427802_j60163901882525_3_alg».proof.Proof.GcnIdx
import Idealize.ShloMosaic.Lib.ReduceAll
import Idealize.ShloMosaic.Lib.Affine
import Idealize.ShloMosaic.Lib.ValueIdx

noncomputable section

namespace Cert.Hand

open Idealize.ShloMosaic Idealize.ShloMosaic.ValueIdx

instance : Subsingleton Cert.Pre_finite_inputs.S_.Idx := ⟨fun a b => funext fun d => d.elim0⟩

theorem inRange_of_pre {F : FTy → Type} [FloatOps F] [Cert.Pre_finite_inputs.Facts]
    (a0 : FVec F Cert.Pre_finite_inputs.S10000x256 .f32) (a1 : IVec Cert.Pre_finite_inputs.S2x320000 32)
    (a2 : FVec F Cert.Pre_finite_inputs.S256x256 .f32) (a3 : FVec F Cert.Pre_finite_inputs.S256 .f32)
    (a4 : FVec F Cert.Pre_finite_inputs.S256x256 .f32) (a5 : FVec F Cert.Pre_finite_inputs.S256 .f32)
    (a6 : FVec F Cert.Pre_finite_inputs.S256x256 .f32) (a7 : FVec F Cert.Pre_finite_inputs.S256 .f32)
    (a8 : FVec F Cert.Pre_finite_inputs.S256x256 .f32) (a9 : FVec F Cert.Pre_finite_inputs.S256 .f32)
    (a10 : FVec F Cert.Pre_finite_inputs.S256x40 .f32) (a11 : FVec F Cert.Pre_finite_inputs.S40 .f32)
    (h : Cert.Pre_finite_inputs.fn (F := F) a0 a1 a2 a3 a4 a5 a6 a7 a8 a9 a10 a11 = (fun _ => 1#1)) :
    Cert.Gcn.InRange a1 := by
  have h0 := congrFun h ix0
  dsimp only [Cert.Pre_finite_inputs.fn, Cert.Pre_finite_inputs.fn_part1, Cert.Pre_finite_inputs.fn_part2,
    Cert.Pre_finite_inputs.fn_part3] at h0
  have h1 := (IntOp.andi_eq_one.1 h0).2
  intro i
  have h2 := Host.reduce_andi_all _ _ _ _ _ h1 i
  have h3 := IntOp.andi_eq_one.1 h2
  have hge := IntOp.cmpi_sge.1 h3.1
  have hlt := IntOp.cmpi_slt.1 h3.2
  exact ⟨hge, hlt⟩

end Cert.Hand

end
-- ==== Proof.RefReadP.lean ====
/- The reference program one operation at a time: each stage as a function of the arguments, and, for the stages the value
   proof reads, the stage at an index from its operands at an index. -/
import proofs.«427802_j60163901882525_3_alg».proof.Proof.RefRunP
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
def val_main_v0 : (⟨S10000, .i32⟩ : BufTy).Contents (Elt F) :=
  iotaInDim S10000 32 0
def val_main_v1 (x1 : (⟨S2x320000, .i32⟩ : BufTy).Contents (Elt F)) : (⟨S1x320000, .i32⟩ : BufTy).Contents (Elt F) :=
  extractStridedSlice S1x320000 ![0, 0] (x1) slices_S2x320000_S1x320000_0_0
abbrev idx_main_v1 (i : S1x320000.Idx) : S2x320000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v1_apply (x1 : (⟨S2x320000, .i32⟩ : BufTy).Contents (Elt F)) (i : S1x320000.Idx) :
    val_main_v1 (F := F) x1 i = x1 (idx_main_v1 i) := by
  unfold val_main_v1
  exact extractStridedSlice_apply ![0, 0] x1 slices_S2x320000_S1x320000_0_0 i (idx_main_v1 i) (fun a => match a with
    | ⟨0, _⟩ => by show (i 0).val = 0 + (i 0).val; omega
    | ⟨1, _⟩ => by show (i 1).val = 0 + (i 1).val; omega)

def val_main_v2 (x1 : (⟨S2x320000, .i32⟩ : BufTy).Contents (Elt F)) : (⟨S320000, .i32⟩ : BufTy).Contents (Elt F) :=
  shapeCast _ (val_main_v1 (F := F) x1) shapeCasts_S1x320000_S320000
abbrev idx_main_v2 (i : S320000.Idx) : S1x320000.Idx := fun a => match a with
  | ⟨0, _⟩ => ⟨0, Nat.one_pos⟩
  | ⟨1, _⟩ => ⟨((i 0).val) % 320000, by have h0 : (i 0).val < 320000 := (i 0).isLt; show ((i 0).val) % 320000 < 320000; omega⟩
theorem val_main_v2_apply (x1 : (⟨S2x320000, .i32⟩ : BufTy).Contents (Elt F)) (i : S320000.Idx) :
    val_main_v2 (F := F) x1 i = val_main_v1 (F := F) x1 (idx_main_v2 i) := by
  unfold val_main_v2
  generalize val_main_v1 (F := F) x1 = y
  exact shapeCast_apply y shapeCasts_S1x320000_S320000 i (idx_main_v2 i)
    (by rewrite [Shape.rowMajor_val_two, Shape.rowMajor_val_one]; have h0 : (i 0).val < 320000 := (i 0).isLt; show 0 * 320000 + ((i 0).val) % 320000 = (i 0).val; omega)

def val_main_v3 (x1 : (⟨S2x320000, .i32⟩ : BufTy).Contents (Elt F)) : (⟨S330000, .i32⟩ : BufTy).Contents (Elt F) :=
  concatenate S330000 0 [⟨S320000, (val_main_v2 (F := F) x1)⟩, ⟨S10000, (val_main_v0 (F := F))⟩] concatenates_S320000_S10000_S330000_d0

def val_main_v4 (x1 : (⟨S2x320000, .i32⟩ : BufTy).Contents (Elt F)) : (⟨S1x320000, .i32⟩ : BufTy).Contents (Elt F) :=
  extractStridedSlice S1x320000 ![1, 0] (x1) slices_S2x320000_S1x320000_1_0
abbrev idx_main_v4 (i : S1x320000.Idx) : S2x320000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v4_apply (x1 : (⟨S2x320000, .i32⟩ : BufTy).Contents (Elt F)) (i : S1x320000.Idx) :
    val_main_v4 (F := F) x1 i = x1 (idx_main_v4 i) := by
  unfold val_main_v4
  exact extractStridedSlice_apply ![1, 0] x1 slices_S2x320000_S1x320000_1_0 i (idx_main_v4 i) (fun a => match a with
    | ⟨0, _⟩ => by show 1 + (i 0).val = 1 + (i 0).val; omega
    | ⟨1, _⟩ => by show (i 1).val = 0 + (i 1).val; omega)

def val_main_v5 (x1 : (⟨S2x320000, .i32⟩ : BufTy).Contents (Elt F)) : (⟨S320000, .i32⟩ : BufTy).Contents (Elt F) :=
  shapeCast _ (val_main_v4 (F := F) x1) shapeCasts_S1x320000_S320000
abbrev idx_main_v5 (i : S320000.Idx) : S1x320000.Idx := fun a => match a with
  | ⟨0, _⟩ => ⟨0, Nat.one_pos⟩
  | ⟨1, _⟩ => ⟨((i 0).val) % 320000, by have h0 : (i 0).val < 320000 := (i 0).isLt; show ((i 0).val) % 320000 < 320000; omega⟩
theorem val_main_v5_apply (x1 : (⟨S2x320000, .i32⟩ : BufTy).Contents (Elt F)) (i : S320000.Idx) :
    val_main_v5 (F := F) x1 i = val_main_v4 (F := F) x1 (idx_main_v5 i) := by
  unfold val_main_v5
  generalize val_main_v4 (F := F) x1 = y
  exact shapeCast_apply y shapeCasts_S1x320000_S320000 i (idx_main_v5 i)
    (by rewrite [Shape.rowMajor_val_two, Shape.rowMajor_val_one]; have h0 : (i 0).val < 320000 := (i 0).isLt; show 0 * 320000 + ((i 0).val) % 320000 = (i 0).val; omega)

def val_main_v6 (x1 : (⟨S2x320000, .i32⟩ : BufTy).Contents (Elt F)) : (⟨S330000, .i32⟩ : BufTy).Contents (Elt F) :=
  concatenate S330000 0 [⟨S320000, (val_main_v5 (F := F) x1)⟩, ⟨S10000, (val_main_v0 (F := F))⟩] concatenates_S320000_S10000_S330000_d0

def val_main_cst : (⟨S_, .f32⟩ : BufTy).Contents (Elt F) :=
  constant S_ .f32 0x3F800000#32
def val_main_v7 : (⟨S330000, .f32⟩ : BufTy).Contents (Elt F) :=
  broadcastInDim S330000 ![] bcast_S_S330000 (val_main_cst (F := F))
def val_main_cst_0 : (⟨S_, .f32⟩ : BufTy).Contents (Elt F) :=
  constant S_ .f32 0x00000000#32
def val_main_v8 : (⟨S10000, .f32⟩ : BufTy).Contents (Elt F) :=
  broadcastInDim S10000 ![] bcast_S_S10000 (val_main_cst_0 (F := F))
def val_main_v9 (x1 : (⟨S2x320000, .i32⟩ : BufTy).Contents (Elt F)) : (⟨S330000x1, .i32⟩ : BufTy).Contents (Elt F) :=
  broadcastInDim S330000x1 ![0] bcast_S330000_S330000x1_0 (val_main_v6 (F := F) x1)
def val_main_v10 (x1 : (⟨S2x320000, .i32⟩ : BufTy).Contents (Elt F)) : (⟨S10000, .f32⟩ : BufTy).Contents (Elt F) :=
  Host.scatterAdd scatter_S10000_S330000x1_S330000_n_0_0_1 (val_main_v8 (F := F)) (val_main_v9 (F := F) x1) (val_main_v7 (F := F))

def val_main_cst_1 : (⟨S_, .f32⟩ : BufTy).Contents (Elt F) :=
  constant S_ .f32 0x00000000#32
def val_main_v11 : (⟨S10000, .f32⟩ : BufTy).Contents (Elt F) :=
  broadcastInDim S10000 ![] bcast_S_S10000 (val_main_cst_1 (F := F))
def val_main_v12 (x1 : (⟨S2x320000, .i32⟩ : BufTy).Contents (Elt F)) : (⟨S10000, .i1⟩ : BufTy).Contents (Elt F) :=
  cmpf .ogt (val_main_v10 (F := F) x1) (val_main_v11 (F := F))
def val_main_cst_2 : (⟨S_, .f32⟩ : BufTy).Contents (Elt F) :=
  constant S_ .f32 0xBF000000#32
def val_main_v13 : (⟨S10000, .f32⟩ : BufTy).Contents (Elt F) :=
  broadcastInDim S10000 ![] bcast_S_S10000 (val_main_cst_2 (F := F))
def val_main_v14 (x1 : (⟨S2x320000, .i32⟩ : BufTy).Contents (Elt F)) : (⟨S10000, .f32⟩ : BufTy).Contents (Elt F) :=
  Host.powf (val_main_v10 (F := F) x1) (val_main_v13 (F := F))
def val_main_cst_3 : (⟨S_, .f32⟩ : BufTy).Contents (Elt F) :=
  constant S_ .f32 0x00000000#32
def val_main_call0_v0 : (⟨S_, .f32⟩ : BufTy).Contents (Elt F) :=
  id (val_main_cst_3 (F := F))
def val_main_call0_v1 : (⟨S10000, .f32⟩ : BufTy).Contents (Elt F) :=
  broadcastInDim S10000 ![] bcast_S_S10000 (val_main_call0_v0 (F := F))
def val_main_v15 (x1 : (⟨S2x320000, .i32⟩ : BufTy).Contents (Elt F)) : (⟨S10000, .f32⟩ : BufTy).Contents (Elt F) :=
  select (val_main_v12 (F := F) x1) (val_main_v14 (F := F) x1) (val_main_call0_v1 (F := F))
def val_main_c : (⟨S_, .i32⟩ : BufTy).Contents (Elt F) :=
  constantI S_ 32 0#32
def val_main_v16 : (⟨S330000, .i32⟩ : BufTy).Contents (Elt F) :=
  broadcastInDim S330000 ![] bcast_S_S330000 (val_main_c (F := F))
def val_main_v17 (x1 : (⟨S2x320000, .i32⟩ : BufTy).Contents (Elt F)) : (⟨S330000, .i1⟩ : BufTy).Contents (Elt F) :=
  cmpi .slt (val_main_v3 (F := F) x1) (val_main_v16 (F := F))
def val_main_c_4 : (⟨S_, .i32⟩ : BufTy).Contents (Elt F) :=
  constantI S_ 32 10000#32
def val_main_v18 : (⟨S330000, .i32⟩ : BufTy).Contents (Elt F) :=
  broadcastInDim S330000 ![] bcast_S_S330000 (val_main_c_4 (F := F))
def val_main_v19 (x1 : (⟨S2x320000, .i32⟩ : BufTy).Contents (Elt F)) : (⟨S330000, .i32⟩ : BufTy).Contents (Elt F) :=
  addi (val_main_v3 (F := F) x1) (val_main_v18 (F := F))
def val_main_v20 (x1 : (⟨S2x320000, .i32⟩ : BufTy).Contents (Elt F)) : (⟨S330000, .i32⟩ : BufTy).Contents (Elt F) :=
  select (val_main_v17 (F := F) x1) (val_main_v19 (F := F) x1) (val_main_v3 (F := F) x1)
def val_main_v21 (x1 : (⟨S2x320000, .i32⟩ : BufTy).Contents (Elt F)) : (⟨S330000x1, .i32⟩ : BufTy).Contents (Elt F) :=
  broadcastInDim S330000x1 ![0] bcast_S330000_S330000x1_0 (val_main_v20 (F := F) x1)
def val_main_v22 (x1 : (⟨S2x320000, .i32⟩ : BufTy).Contents (Elt F)) : (⟨S330000, .f32⟩ : BufTy).Contents (Elt F) :=
  Host.gather gather_S10000_S330000x1_S330000_n_0_n_n_0_1_1 (val_main_v15 (F := F) x1) (val_main_v21 (F := F) x1)

def val_main_c_5 : (⟨S_, .i32⟩ : BufTy).Contents (Elt F) :=
  constantI S_ 32 0#32
def val_main_v23 : (⟨S330000, .i32⟩ : BufTy).Contents (Elt F) :=
  broadcastInDim S330000 ![] bcast_S_S330000 (val_main_c_5 (F := F))
def val_main_v24 (x1 : (⟨S2x320000, .i32⟩ : BufTy).Contents (Elt F)) : (⟨S330000, .i1⟩ : BufTy).Contents (Elt F) :=
  cmpi .slt (val_main_v6 (F := F) x1) (val_main_v23 (F := F))
def val_main_c_6 : (⟨S_, .i32⟩ : BufTy).Contents (Elt F) :=
  constantI S_ 32 10000#32
def val_main_v25 : (⟨S330000, .i32⟩ : BufTy).Contents (Elt F) :=
  broadcastInDim S330000 ![] bcast_S_S330000 (val_main_c_6 (F := F))
def val_main_v26 (x1 : (⟨S2x320000, .i32⟩ : BufTy).Contents (Elt F)) : (⟨S330000, .i32⟩ : BufTy).Contents (Elt F) :=
  addi (val_main_v6 (F := F) x1) (val_main_v25 (F := F))
def val_main_v27 (x1 : (⟨S2x320000, .i32⟩ : BufTy).Contents (Elt F)) : (⟨S330000, .i32⟩ : BufTy).Contents (Elt F) :=
  select (val_main_v24 (F := F) x1) (val_main_v26 (F := F) x1) (val_main_v6 (F := F) x1)
def val_main_v28 (x1 : (⟨S2x320000, .i32⟩ : BufTy).Contents (Elt F)) : (⟨S330000x1, .i32⟩ : BufTy).Contents (Elt F) :=
  broadcastInDim S330000x1 ![0] bcast_S330000_S330000x1_0 (val_main_v27 (F := F) x1)
def val_main_v29 (x1 : (⟨S2x320000, .i32⟩ : BufTy).Contents (Elt F)) : (⟨S330000, .f32⟩ : BufTy).Contents (Elt F) :=
  Host.gather gather_S10000_S330000x1_S330000_n_0_n_n_0_1_1 (val_main_v15 (F := F) x1) (val_main_v28 (F := F) x1)

def val_main_v30 (x1 : (⟨S2x320000, .i32⟩ : BufTy).Contents (Elt F)) : (⟨S330000, .f32⟩ : BufTy).Contents (Elt F) :=
  mulf (val_main_v22 (F := F) x1) (val_main_v29 (F := F) x1)
def val_main_v31 (x0 : (⟨S10000x256, .f32⟩ : BufTy).Contents (Elt F)) (x2 : (⟨S256x256, .f32⟩ : BufTy).Contents (Elt F)) : (⟨S10000x256, .f32⟩ : BufTy).Contents (Elt F) :=
  Host.dotGeneral dot_S10000x256_S256x256_S10000x256_1_0_0_1_n_n none (x0) (x2)
theorem lhs_main_v31_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs_main_v31_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_main_v31_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_main_v31_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl
abbrev lidx_main_v31 (i : S10000x256.Idx) (k : Fin 256) : S10000x256.Idx := fun a => match a with
  | ⟨0, _⟩ => ⟨(i 0).val, (i 0).isLt⟩
  | ⟨1, _⟩ => ⟨k.val, k.isLt⟩
abbrev ridx_main_v31 (i : S10000x256.Idx) (k : Fin 256) : S256x256.Idx := fun a => match a with
  | ⟨0, _⟩ => ⟨k.val, k.isLt⟩
  | ⟨1, _⟩ => ⟨(i 1).val, (i 1).isLt⟩

theorem val_main_v31_apply (x0 : (⟨S10000x256, .f32⟩ : BufTy).Contents (Elt Ideal)) (x2 : (⟨S256x256, .f32⟩ : BufTy).Contents (Elt Ideal)) (i : S10000x256.Idx) :
    val_main_v31 (F := Ideal) x0 x2 i = ∑ k : Fin 256, x0 (lidx_main_v31 i k) * x2 (ridx_main_v31 i k) := by
  unfold val_main_v31
  simp only [Host.dotGeneral]
  rw [Ideal.dotGeneral_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx i ((ValueIdx.contrEquiv1 dot_S10000x256_S256x256_S10000x256_1_0_0_1_n_n 256 rfl rfl).symm k) = lidx_main_v31 i k := funext fun a => Fin.ext (by
    match a with
    | ⟨0, _⟩ => exact lhs_main_v31_0 _ _
    | ⟨1, _⟩ => exact (lhs_main_v31_1 _ _).trans hk)
  have er : dot_S10000x256_S256x256_S10000x256_1_0_0_1_n_n.rhsIdx i ((ValueIdx.contrEquiv1 dot_S10000x256_S256x256_S10000x256_1_0_0_1_n_n 256 rfl rfl).symm k) = ridx_main_v31 i k := funext fun a => Fin.ext (by
    match a with
    | ⟨0, _⟩ => exact (rhs_main_v31_0 _ _).trans hk
    | ⟨1, _⟩ => exact rhs_main_v31_1 _ _)
  rw [el, er]

def val_main_c_7 : (⟨S_, .i32⟩ : BufTy).Contents (Elt F) :=
  constantI S_ 32 0#32
theorem val_main_c_7_apply (i : S_.Idx) :
    val_main_c_7 (F := F) i = 0#32 := rfl

def val_main_v32 : (⟨S330000, .i32⟩ : BufTy).Contents (Elt F) :=
  broadcastInDim S330000 ![] bcast_S_S330000 (val_main_c_7 (F := F))
abbrev idx_main_v32 (i : S330000.Idx) : S_.Idx := fun a => a.elim0
theorem val_main_v32_apply (i : S330000.Idx) :
    val_main_v32 (F := F) i = val_main_c_7 (F := F) (idx_main_v32 i) := by
  unfold val_main_v32
  generalize val_main_c_7 (F := F) = y
  exact broadcastInDim_apply _ bcast_S_S330000 y i (idx_main_v32 i) (fun a => a.elim0)

def val_main_v33 (x1 : (⟨S2x320000, .i32⟩ : BufTy).Contents (Elt F)) : (⟨S330000, .i1⟩ : BufTy).Contents (Elt F) :=
  cmpi .slt (val_main_v3 (F := F) x1) (val_main_v32 (F := F))
theorem val_main_v33_apply (x1 : (⟨S2x320000, .i32⟩ : BufTy).Contents (Elt F)) (i : S330000.Idx) :
    val_main_v33 (F := F) x1 i = IntOp.cmpi .slt (val_main_v3 (F := F) x1 i) (val_main_v32 (F := F) i) := rfl

def val_main_c_8 : (⟨S_, .i32⟩ : BufTy).Contents (Elt F) :=
  constantI S_ 32 10000#32
def val_main_v34 : (⟨S330000, .i32⟩ : BufTy).Contents (Elt F) :=
  broadcastInDim S330000 ![] bcast_S_S330000 (val_main_c_8 (F := F))
def val_main_v35 (x1 : (⟨S2x320000, .i32⟩ : BufTy).Contents (Elt F)) : (⟨S330000, .i32⟩ : BufTy).Contents (Elt F) :=
  addi (val_main_v3 (F := F) x1) (val_main_v34 (F := F))
def val_main_v36 (x1 : (⟨S2x320000, .i32⟩ : BufTy).Contents (Elt F)) : (⟨S330000, .i32⟩ : BufTy).Contents (Elt F) :=
  select (val_main_v33 (F := F) x1) (val_main_v35 (F := F) x1) (val_main_v3 (F := F) x1)
theorem val_main_v36_apply (x1 : (⟨S2x320000, .i32⟩ : BufTy).Contents (Elt F)) (i : S330000.Idx) :
    val_main_v36 (F := F) x1 i = Scalar.select (val_main_v33 (F := F) x1 i) (val_main_v35 (F := F) x1 i) (val_main_v3 (F := F) x1 i) := rfl

def val_main_v37 (x1 : (⟨S2x320000, .i32⟩ : BufTy).Contents (Elt F)) : (⟨S330000x1, .i32⟩ : BufTy).Contents (Elt F) :=
  broadcastInDim S330000x1 ![0] bcast_S330000_S330000x1_0 (val_main_v36 (F := F) x1)
def val_main_v38 (x0 : (⟨S10000x256, .f32⟩ : BufTy).Contents (Elt F)) (x1 : (⟨S2x320000, .i32⟩ : BufTy).Contents (Elt F)) (x2 : (⟨S256x256, .f32⟩ : BufTy).Contents (Elt F)) : (⟨S330000x256, .f32⟩ : BufTy).Contents (Elt F) :=
  Host.gather gather_S10000x256_S330000x1_S330000x256_1_0_n_n_0_1_1256 (val_main_v31 (F := F) x0 x2) (val_main_v37 (F := F) x1)

def val_main_v39 (x1 : (⟨S2x320000, .i32⟩ : BufTy).Contents (Elt F)) : (⟨S330000x1, .f32⟩ : BufTy).Contents (Elt F) :=
  broadcastInDim S330000x1 ![0] bcast_S330000_S330000x1_0 (val_main_v30 (F := F) x1)
def val_main_v40 (x1 : (⟨S2x320000, .i32⟩ : BufTy).Contents (Elt F)) : (⟨S330000x256, .f32⟩ : BufTy).Contents (Elt F) :=
  broadcastInDim S330000x256 ![0, 1] bcast_S330000x1_S330000x256_0_1 (val_main_v39 (F := F) x1)
def val_main_v41 (x0 : (⟨S10000x256, .f32⟩ : BufTy).Contents (Elt F)) (x1 : (⟨S2x320000, .i32⟩ : BufTy).Contents (Elt F)) (x2 : (⟨S256x256, .f32⟩ : BufTy).Contents (Elt F)) : (⟨S330000x256, .f32⟩ : BufTy).Contents (Elt F) :=
  mulf (val_main_v38 (F := F) x0 x1 x2) (val_main_v40 (F := F) x1)
def val_main_cst_9 : (⟨S_, .f32⟩ : BufTy).Contents (Elt F) :=
  constant S_ .f32 0x00000000#32
def val_main_v42 : (⟨S10000x256, .f32⟩ : BufTy).Contents (Elt F) :=
  broadcastInDim S10000x256 ![] bcast_S_S10000x256 (val_main_cst_9 (F := F))
def val_main_v43 (x1 : (⟨S2x320000, .i32⟩ : BufTy).Contents (Elt F)) : (⟨S330000x1, .i32⟩ : BufTy).Contents (Elt F) :=
  broadcastInDim S330000x1 ![0] bcast_S330000_S330000x1_0 (val_main_v6 (F := F) x1)
def val_main_v44 (x0 : (⟨S10000x256, .f32⟩ : BufTy).Contents (Elt F)) (x1 : (⟨S2x320000, .i32⟩ : BufTy).Contents (Elt F)) (x2 : (⟨S256x256, .f32⟩ : BufTy).Contents (Elt F)) : (⟨S10000x256, .f32⟩ : BufTy).Contents (Elt F) :=
  Host.scatterAdd scatter_S10000x256_S330000x1_S330000x256_1_0_0_1 (val_main_v42 (F := F)) (val_main_v43 (F := F) x1) (val_main_v41 (F := F) x0 x1 x2)

def val_main_v45 (x3 : (⟨S256, .f32⟩ : BufTy).Contents (Elt F)) : (⟨S1x256, .f32⟩ : BufTy).Contents (Elt F) :=
  broadcastInDim S1x256 ![1] bcast_S256_S1x256_1 (x3)
def val_main_v46 (x3 : (⟨S256, .f32⟩ : BufTy).Contents (Elt F)) : (⟨S10000x256, .f32⟩ : BufTy).Contents (Elt F) :=
  broadcastInDim S10000x256 ![0, 1] bcast_S1x256_S10000x256_0_1 (val_main_v45 (F := F) x3)
def val_main_v47 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) : (⟨S10000x256, .f32⟩ : BufTy).Contents (Elt F) :=
  addf (val_main_v44 (F := F) x0 x1 x2) (val_main_v46 (F := F) x3)
def val_main_call1_cst : (⟨S_, .f32⟩ : BufTy).Contents (Elt F) :=
  constant S_ .f32 0x00000000#32
def val_main_call1_v0 : (⟨S10000x256, .f32⟩ : BufTy).Contents (Elt F) :=
  broadcastInDim S10000x256 ![] bcast_S_S10000x256 (val_main_call1_cst (F := F))
def val_main_v48 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) : (⟨S10000x256, .f32⟩ : BufTy).Contents (Elt F) :=
  maximumf (val_main_v47 (F := F) x0 x1 x2 x3) (val_main_call1_v0 (F := F))
def val_main_v49 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) : (⟨S10000x256, .f32⟩ : BufTy).Contents (Elt F) :=
  Host.dotGeneral dot_S10000x256_S256x256_S10000x256_1_0_0_1_n_n none (val_main_v48 (F := F) x0 x1 x2 x3) (x4)
theorem lhs_main_v49_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs_main_v49_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_main_v49_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_main_v49_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl
abbrev lidx_main_v49 (i : S10000x256.Idx) (k : Fin 256) : S10000x256.Idx := fun a => match a with
  | ⟨0, _⟩ => ⟨(i 0).val, (i 0).isLt⟩
  | ⟨1, _⟩ => ⟨k.val, k.isLt⟩
abbrev ridx_main_v49 (i : S10000x256.Idx) (k : Fin 256) : S256x256.Idx := fun a => match a with
  | ⟨0, _⟩ => ⟨k.val, k.isLt⟩
  | ⟨1, _⟩ => ⟨(i 1).val, (i 1).isLt⟩

theorem val_main_v49_apply (x0 : (⟨S10000x256, .f32⟩ : BufTy).Contents (Elt Ideal)) (x1 : (⟨S2x320000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (i : S10000x256.Idx) :
    val_main_v49 (F := Ideal) x0 x1 x2 x3 x4 i = ∑ k : Fin 256, (val_main_v48 (F := Ideal) x0 x1 x2 x3) (lidx_main_v49 i k) * x4 (ridx_main_v49 i k) := by
  unfold val_main_v49
  generalize val_main_v48 (F := Ideal) x0 x1 x2 x3 = y0
  simp only [Host.dotGeneral]
  rw [Ideal.dotGeneral_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx i ((ValueIdx.contrEquiv1 dot_S10000x256_S256x256_S10000x256_1_0_0_1_n_n 256 rfl rfl).symm k) = lidx_main_v49 i k := funext fun a => Fin.ext (by
    match a with
    | ⟨0, _⟩ => exact lhs_main_v49_0 _ _
    | ⟨1, _⟩ => exact (lhs_main_v49_1 _ _).trans hk)
  have er : dot_S10000x256_S256x256_S10000x256_1_0_0_1_n_n.rhsIdx i ((ValueIdx.contrEquiv1 dot_S10000x256_S256x256_S10000x256_1_0_0_1_n_n 256 rfl rfl).symm k) = ridx_main_v49 i k := funext fun a => Fin.ext (by
    match a with
    | ⟨0, _⟩ => exact (rhs_main_v49_0 _ _).trans hk
    | ⟨1, _⟩ => exact rhs_main_v49_1 _ _)
  rw [el, er]

def val_main_c_10 : (⟨S_, .i32⟩ : BufTy).Contents (Elt F) :=
  constantI S_ 32 0#32
theorem val_main_c_10_apply (i : S_.Idx) :
    val_main_c_10 (F := F) i = 0#32 := rfl

def val_main_v50 : (⟨S330000, .i32⟩ : BufTy).Contents (Elt F) :=
  broadcastInDim S330000 ![] bcast_S_S330000 (val_main_c_10 (F := F))
abbrev idx_main_v50 (i : S330000.Idx) : S_.Idx := fun a => a.elim0
theorem val_main_v50_apply (i : S330000.Idx) :
    val_main_v50 (F := F) i = val_main_c_10 (F := F) (idx_main_v50 i) := by
  unfold val_main_v50
  generalize val_main_c_10 (F := F) = y
  exact broadcastInDim_apply _ bcast_S_S330000 y i (idx_main_v50 i) (fun a => a.elim0)

def val_main_v51 (x1 : (⟨S2x320000, .i32⟩ : BufTy).Contents (Elt F)) : (⟨S330000, .i1⟩ : BufTy).Contents (Elt F) :=
  cmpi .slt (val_main_v3 (F := F) x1) (val_main_v50 (F := F))
theorem val_main_v51_apply (x1 : (⟨S2x320000, .i32⟩ : BufTy).Contents (Elt F)) (i : S330000.Idx) :
    val_main_v51 (F := F) x1 i = IntOp.cmpi .slt (val_main_v3 (F := F) x1 i) (val_main_v50 (F := F) i) := rfl

def val_main_c_11 : (⟨S_, .i32⟩ : BufTy).Contents (Elt F) :=
  constantI S_ 32 10000#32
def val_main_v52 : (⟨S330000, .i32⟩ : BufTy).Contents (Elt F) :=
  broadcastInDim S330000 ![] bcast_S_S330000 (val_main_c_11 (F := F))
def val_main_v53 (x1 : (⟨S2x320000, .i32⟩ : BufTy).Contents (Elt F)) : (⟨S330000, .i32⟩ : BufTy).Contents (Elt F) :=
  addi (val_main_v3 (F := F) x1) (val_main_v52 (F := F))
def val_main_v54 (x1 : (⟨S2x320000, .i32⟩ : BufTy).Contents (Elt F)) : (⟨S330000, .i32⟩ : BufTy).Contents (Elt F) :=
  select (val_main_v51 (F := F) x1) (val_main_v53 (F := F) x1) (val_main_v3 (F := F) x1)
theorem val_main_v54_apply (x1 : (⟨S2x320000, .i32⟩ : BufTy).Contents (Elt F)) (i : S330000.Idx) :
    val_main_v54 (F := F) x1 i = Scalar.select (val_main_v51 (F := F) x1 i) (val_main_v53 (F := F) x1 i) (val_main_v3 (F := F) x1 i) := rfl

def val_main_v55 (x1 : (⟨S2x320000, .i32⟩ : BufTy).Contents (Elt F)) : (⟨S330000x1, .i32⟩ : BufTy).Contents (Elt F) :=
  broadcastInDim S330000x1 ![0] bcast_S330000_S330000x1_0 (val_main_v54 (F := F) x1)
def val_main_v56 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) : (⟨S330000x256, .f32⟩ : BufTy).Contents (Elt F) :=
  Host.gather gather_S10000x256_S330000x1_S330000x256_1_0_n_n_0_1_1256 (val_main_v49 (F := F) x0 x1 x2 x3 x4) (val_main_v55 (F := F) x1)

def val_main_v57 (x1 : (⟨S2x320000, .i32⟩ : BufTy).Contents (Elt F)) : (⟨S330000x1, .f32⟩ : BufTy).Contents (Elt F) :=
  broadcastInDim S330000x1 ![0] bcast_S330000_S330000x1_0 (val_main_v30 (F := F) x1)
def val_main_v58 (x1 : (⟨S2x320000, .i32⟩ : BufTy).Contents (Elt F)) : (⟨S330000x256, .f32⟩ : BufTy).Contents (Elt F) :=
  broadcastInDim S330000x256 ![0, 1] bcast_S330000x1_S330000x256_0_1 (val_main_v57 (F := F) x1)
def val_main_v59 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) : (⟨S330000x256, .f32⟩ : BufTy).Contents (Elt F) :=
  mulf (val_main_v56 (F := F) x0 x1 x2 x3 x4) (val_main_v58 (F := F) x1)
def val_main_cst_12 : (⟨S_, .f32⟩ : BufTy).Contents (Elt F) :=
  constant S_ .f32 0x00000000#32
def val_main_v60 : (⟨S10000x256, .f32⟩ : BufTy).Contents (Elt F) :=
  broadcastInDim S10000x256 ![] bcast_S_S10000x256 (val_main_cst_12 (F := F))
def val_main_v61 (x1 : (⟨S2x320000, .i32⟩ : BufTy).Contents (Elt F)) : (⟨S330000x1, .i32⟩ : BufTy).Contents (Elt F) :=
  broadcastInDim S330000x1 ![0] bcast_S330000_S330000x1_0 (val_main_v6 (F := F) x1)
def val_main_v62 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) : (⟨S10000x256, .f32⟩ : BufTy).Contents (Elt F) :=
  Host.scatterAdd scatter_S10000x256_S330000x1_S330000x256_1_0_0_1 (val_main_v60 (F := F)) (val_main_v61 (F := F) x1) (val_main_v59 (F := F) x0 x1 x2 x3 x4)

def val_main_v63 (x5 : (⟨S256, .f32⟩ : BufTy).Contents (Elt F)) : (⟨S1x256, .f32⟩ : BufTy).Contents (Elt F) :=
  broadcastInDim S1x256 ![1] bcast_S256_S1x256_1 (x5)
def val_main_v64 (x5 : (⟨S256, .f32⟩ : BufTy).Contents (Elt F)) : (⟨S10000x256, .f32⟩ : BufTy).Contents (Elt F) :=
  broadcastInDim S10000x256 ![0, 1] bcast_S1x256_S10000x256_0_1 (val_main_v63 (F := F) x5)
def val_main_v65 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) : (⟨S10000x256, .f32⟩ : BufTy).Contents (Elt F) :=
  addf (val_main_v62 (F := F) x0 x1 x2 x3 x4) (val_main_v64 (F := F) x5)
def val_main_call2_cst : (⟨S_, .f32⟩ : BufTy).Contents (Elt F) :=
  constant S_ .f32 0x00000000#32
def val_main_call2_v0 : (⟨S10000x256, .f32⟩ : BufTy).Contents (Elt F) :=
  broadcastInDim S10000x256 ![] bcast_S_S10000x256 (val_main_call2_cst (F := F))
def val_main_v66 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) : (⟨S10000x256, .f32⟩ : BufTy).Contents (Elt F) :=
  maximumf (val_main_v65 (F := F) x0 x1 x2 x3 x4 x5) (val_main_call2_v0 (F := F))
def val_main_v67 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) : (⟨S10000x256, .f32⟩ : BufTy).Contents (Elt F) :=
  Host.dotGeneral dot_S10000x256_S256x256_S10000x256_1_0_0_1_n_n none (val_main_v66 (F := F) x0 x1 x2 x3 x4 x5) (x6)
theorem lhs_main_v67_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs_main_v67_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_main_v67_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_main_v67_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl
abbrev lidx_main_v67 (i : S10000x256.Idx) (k : Fin 256) : S10000x256.Idx := fun a => match a with
  | ⟨0, _⟩ => ⟨(i 0).val, (i 0).isLt⟩
  | ⟨1, _⟩ => ⟨k.val, k.isLt⟩
abbrev ridx_main_v67 (i : S10000x256.Idx) (k : Fin 256) : S256x256.Idx := fun a => match a with
  | ⟨0, _⟩ => ⟨k.val, k.isLt⟩
  | ⟨1, _⟩ => ⟨(i 1).val, (i 1).isLt⟩

theorem val_main_v67_apply (x0 : (⟨S10000x256, .f32⟩ : BufTy).Contents (Elt Ideal)) (x1 : (⟨S2x320000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (i : S10000x256.Idx) :
    val_main_v67 (F := Ideal) x0 x1 x2 x3 x4 x5 x6 i = ∑ k : Fin 256, (val_main_v66 (F := Ideal) x0 x1 x2 x3 x4 x5) (lidx_main_v67 i k) * x6 (ridx_main_v67 i k) := by
  unfold val_main_v67
  generalize val_main_v66 (F := Ideal) x0 x1 x2 x3 x4 x5 = y0
  simp only [Host.dotGeneral]
  rw [Ideal.dotGeneral_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx i ((ValueIdx.contrEquiv1 dot_S10000x256_S256x256_S10000x256_1_0_0_1_n_n 256 rfl rfl).symm k) = lidx_main_v67 i k := funext fun a => Fin.ext (by
    match a with
    | ⟨0, _⟩ => exact lhs_main_v67_0 _ _
    | ⟨1, _⟩ => exact (lhs_main_v67_1 _ _).trans hk)
  have er : dot_S10000x256_S256x256_S10000x256_1_0_0_1_n_n.rhsIdx i ((ValueIdx.contrEquiv1 dot_S10000x256_S256x256_S10000x256_1_0_0_1_n_n 256 rfl rfl).symm k) = ridx_main_v67 i k := funext fun a => Fin.ext (by
    match a with
    | ⟨0, _⟩ => exact (rhs_main_v67_0 _ _).trans hk
    | ⟨1, _⟩ => exact rhs_main_v67_1 _ _)
  rw [el, er]

def val_main_c_13 : (⟨S_, .i32⟩ : BufTy).Contents (Elt F) :=
  constantI S_ 32 0#32
theorem val_main_c_13_apply (i : S_.Idx) :
    val_main_c_13 (F := F) i = 0#32 := rfl

def val_main_v68 : (⟨S330000, .i32⟩ : BufTy).Contents (Elt F) :=
  broadcastInDim S330000 ![] bcast_S_S330000 (val_main_c_13 (F := F))
abbrev idx_main_v68 (i : S330000.Idx) : S_.Idx := fun a => a.elim0
theorem val_main_v68_apply (i : S330000.Idx) :
    val_main_v68 (F := F) i = val_main_c_13 (F := F) (idx_main_v68 i) := by
  unfold val_main_v68
  generalize val_main_c_13 (F := F) = y
  exact broadcastInDim_apply _ bcast_S_S330000 y i (idx_main_v68 i) (fun a => a.elim0)

def val_main_v69 (x1 : (⟨S2x320000, .i32⟩ : BufTy).Contents (Elt F)) : (⟨S330000, .i1⟩ : BufTy).Contents (Elt F) :=
  cmpi .slt (val_main_v3 (F := F) x1) (val_main_v68 (F := F))
theorem val_main_v69_apply (x1 : (⟨S2x320000, .i32⟩ : BufTy).Contents (Elt F)) (i : S330000.Idx) :
    val_main_v69 (F := F) x1 i = IntOp.cmpi .slt (val_main_v3 (F := F) x1 i) (val_main_v68 (F := F) i) := rfl

def val_main_c_14 : (⟨S_, .i32⟩ : BufTy).Contents (Elt F) :=
  constantI S_ 32 10000#32
def val_main_v70 : (⟨S330000, .i32⟩ : BufTy).Contents (Elt F) :=
  broadcastInDim S330000 ![] bcast_S_S330000 (val_main_c_14 (F := F))
def val_main_v71 (x1 : (⟨S2x320000, .i32⟩ : BufTy).Contents (Elt F)) : (⟨S330000, .i32⟩ : BufTy).Contents (Elt F) :=
  addi (val_main_v3 (F := F) x1) (val_main_v70 (F := F))
def val_main_v72 (x1 : (⟨S2x320000, .i32⟩ : BufTy).Contents (Elt F)) : (⟨S330000, .i32⟩ : BufTy).Contents (Elt F) :=
  select (val_main_v69 (F := F) x1) (val_main_v71 (F := F) x1) (val_main_v3 (F := F) x1)
theorem val_main_v72_apply (x1 : (⟨S2x320000, .i32⟩ : BufTy).Contents (Elt F)) (i : S330000.Idx) :
    val_main_v72 (F := F) x1 i = Scalar.select (val_main_v69 (F := F) x1 i) (val_main_v71 (F := F) x1 i) (val_main_v3 (F := F) x1 i) := rfl

def val_main_v73 (x1 : (⟨S2x320000, .i32⟩ : BufTy).Contents (Elt F)) : (⟨S330000x1, .i32⟩ : BufTy).Contents (Elt F) :=
  broadcastInDim S330000x1 ![0] bcast_S330000_S330000x1_0 (val_main_v72 (F := F) x1)
def val_main_v74 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) : (⟨S330000x256, .f32⟩ : BufTy).Contents (Elt F) :=
  Host.gather gather_S10000x256_S330000x1_S330000x256_1_0_n_n_0_1_1256 (val_main_v67 (F := F) x0 x1 x2 x3 x4 x5 x6) (val_main_v73 (F := F) x1)

def val_main_v75 (x1 : (⟨S2x320000, .i32⟩ : BufTy).Contents (Elt F)) : (⟨S330000x1, .f32⟩ : BufTy).Contents (Elt F) :=
  broadcastInDim S330000x1 ![0] bcast_S330000_S330000x1_0 (val_main_v30 (F := F) x1)
def val_main_v76 (x1 : (⟨S2x320000, .i32⟩ : BufTy).Contents (Elt F)) : (⟨S330000x256, .f32⟩ : BufTy).Contents (Elt F) :=
  broadcastInDim S330000x256 ![0, 1] bcast_S330000x1_S330000x256_0_1 (val_main_v75 (F := F) x1)
def val_main_v77 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) : (⟨S330000x256, .f32⟩ : BufTy).Contents (Elt F) :=
  mulf (val_main_v74 (F := F) x0 x1 x2 x3 x4 x5 x6) (val_main_v76 (F := F) x1)
def val_main_cst_15 : (⟨S_, .f32⟩ : BufTy).Contents (Elt F) :=
  constant S_ .f32 0x00000000#32
def val_main_v78 : (⟨S10000x256, .f32⟩ : BufTy).Contents (Elt F) :=
  broadcastInDim S10000x256 ![] bcast_S_S10000x256 (val_main_cst_15 (F := F))
def val_main_v79 (x1 : (⟨S2x320000, .i32⟩ : BufTy).Contents (Elt F)) : (⟨S330000x1, .i32⟩ : BufTy).Contents (Elt F) :=
  broadcastInDim S330000x1 ![0] bcast_S330000_S330000x1_0 (val_main_v6 (F := F) x1)
def val_main_v80 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) : (⟨S10000x256, .f32⟩ : BufTy).Contents (Elt F) :=
  Host.scatterAdd scatter_S10000x256_S330000x1_S330000x256_1_0_0_1 (val_main_v78 (F := F)) (val_main_v79 (F := F) x1) (val_main_v77 (F := F) x0 x1 x2 x3 x4 x5 x6)

def val_main_v81 (x7 : (⟨S256, .f32⟩ : BufTy).Contents (Elt F)) : (⟨S1x256, .f32⟩ : BufTy).Contents (Elt F) :=
  broadcastInDim S1x256 ![1] bcast_S256_S1x256_1 (x7)
def val_main_v82 (x7 : (⟨S256, .f32⟩ : BufTy).Contents (Elt F)) : (⟨S10000x256, .f32⟩ : BufTy).Contents (Elt F) :=
  broadcastInDim S10000x256 ![0, 1] bcast_S1x256_S10000x256_0_1 (val_main_v81 (F := F) x7)
def val_main_v83 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) : (⟨S10000x256, .f32⟩ : BufTy).Contents (Elt F) :=
  addf (val_main_v80 (F := F) x0 x1 x2 x3 x4 x5 x6) (val_main_v82 (F := F) x7)
def val_main_call3_cst : (⟨S_, .f32⟩ : BufTy).Contents (Elt F) :=
  constant S_ .f32 0x00000000#32
def val_main_call3_v0 : (⟨S10000x256, .f32⟩ : BufTy).Contents (Elt F) :=
  broadcastInDim S10000x256 ![] bcast_S_S10000x256 (val_main_call3_cst (F := F))
def val_main_v84 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) : (⟨S10000x256, .f32⟩ : BufTy).Contents (Elt F) :=
  maximumf (val_main_v83 (F := F) x0 x1 x2 x3 x4 x5 x6 x7) (val_main_call3_v0 (F := F))
def val_main_v85 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) : (⟨S10000x256, .f32⟩ : BufTy).Contents (Elt F) :=
  Host.dotGeneral dot_S10000x256_S256x256_S10000x256_1_0_0_1_n_n none (val_main_v84 (F := F) x0 x1 x2 x3 x4 x5 x6 x7) (x8)
theorem lhs_main_v85_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs_main_v85_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_main_v85_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_main_v85_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl
abbrev lidx_main_v85 (i : S10000x256.Idx) (k : Fin 256) : S10000x256.Idx := fun a => match a with
  | ⟨0, _⟩ => ⟨(i 0).val, (i 0).isLt⟩
  | ⟨1, _⟩ => ⟨k.val, k.isLt⟩
abbrev ridx_main_v85 (i : S10000x256.Idx) (k : Fin 256) : S256x256.Idx := fun a => match a with
  | ⟨0, _⟩ => ⟨k.val, k.isLt⟩
  | ⟨1, _⟩ => ⟨(i 1).val, (i 1).isLt⟩

theorem val_main_v85_apply (x0 : (⟨S10000x256, .f32⟩ : BufTy).Contents (Elt Ideal)) (x1 : (⟨S2x320000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (i : S10000x256.Idx) :
    val_main_v85 (F := Ideal) x0 x1 x2 x3 x4 x5 x6 x7 x8 i = ∑ k : Fin 256, (val_main_v84 (F := Ideal) x0 x1 x2 x3 x4 x5 x6 x7) (lidx_main_v85 i k) * x8 (ridx_main_v85 i k) := by
  unfold val_main_v85
  generalize val_main_v84 (F := Ideal) x0 x1 x2 x3 x4 x5 x6 x7 = y0
  simp only [Host.dotGeneral]
  rw [Ideal.dotGeneral_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx i ((ValueIdx.contrEquiv1 dot_S10000x256_S256x256_S10000x256_1_0_0_1_n_n 256 rfl rfl).symm k) = lidx_main_v85 i k := funext fun a => Fin.ext (by
    match a with
    | ⟨0, _⟩ => exact lhs_main_v85_0 _ _
    | ⟨1, _⟩ => exact (lhs_main_v85_1 _ _).trans hk)
  have er : dot_S10000x256_S256x256_S10000x256_1_0_0_1_n_n.rhsIdx i ((ValueIdx.contrEquiv1 dot_S10000x256_S256x256_S10000x256_1_0_0_1_n_n 256 rfl rfl).symm k) = ridx_main_v85 i k := funext fun a => Fin.ext (by
    match a with
    | ⟨0, _⟩ => exact (rhs_main_v85_0 _ _).trans hk
    | ⟨1, _⟩ => exact rhs_main_v85_1 _ _)
  rw [el, er]

def val_main_c_16 : (⟨S_, .i32⟩ : BufTy).Contents (Elt F) :=
  constantI S_ 32 0#32
theorem val_main_c_16_apply (i : S_.Idx) :
    val_main_c_16 (F := F) i = 0#32 := rfl

def val_main_v86 : (⟨S330000, .i32⟩ : BufTy).Contents (Elt F) :=
  broadcastInDim S330000 ![] bcast_S_S330000 (val_main_c_16 (F := F))
abbrev idx_main_v86 (i : S330000.Idx) : S_.Idx := fun a => a.elim0
theorem val_main_v86_apply (i : S330000.Idx) :
    val_main_v86 (F := F) i = val_main_c_16 (F := F) (idx_main_v86 i) := by
  unfold val_main_v86
  generalize val_main_c_16 (F := F) = y
  exact broadcastInDim_apply _ bcast_S_S330000 y i (idx_main_v86 i) (fun a => a.elim0)

def val_main_v87 (x1 : (⟨S2x320000, .i32⟩ : BufTy).Contents (Elt F)) : (⟨S330000, .i1⟩ : BufTy).Contents (Elt F) :=
  cmpi .slt (val_main_v3 (F := F) x1) (val_main_v86 (F := F))
theorem val_main_v87_apply (x1 : (⟨S2x320000, .i32⟩ : BufTy).Contents (Elt F)) (i : S330000.Idx) :
    val_main_v87 (F := F) x1 i = IntOp.cmpi .slt (val_main_v3 (F := F) x1 i) (val_main_v86 (F := F) i) := rfl

def val_main_c_17 : (⟨S_, .i32⟩ : BufTy).Contents (Elt F) :=
  constantI S_ 32 10000#32
def val_main_v88 : (⟨S330000, .i32⟩ : BufTy).Contents (Elt F) :=
  broadcastInDim S330000 ![] bcast_S_S330000 (val_main_c_17 (F := F))
def val_main_v89 (x1 : (⟨S2x320000, .i32⟩ : BufTy).Contents (Elt F)) : (⟨S330000, .i32⟩ : BufTy).Contents (Elt F) :=
  addi (val_main_v3 (F := F) x1) (val_main_v88 (F := F))
def val_main_v90 (x1 : (⟨S2x320000, .i32⟩ : BufTy).Contents (Elt F)) : (⟨S330000, .i32⟩ : BufTy).Contents (Elt F) :=
  select (val_main_v87 (F := F) x1) (val_main_v89 (F := F) x1) (val_main_v3 (F := F) x1)
theorem val_main_v90_apply (x1 : (⟨S2x320000, .i32⟩ : BufTy).Contents (Elt F)) (i : S330000.Idx) :
    val_main_v90 (F := F) x1 i = Scalar.select (val_main_v87 (F := F) x1 i) (val_main_v89 (F := F) x1 i) (val_main_v3 (F := F) x1 i) := rfl

def val_main_v91 (x1 : (⟨S2x320000, .i32⟩ : BufTy).Contents (Elt F)) : (⟨S330000x1, .i32⟩ : BufTy).Contents (Elt F) :=
  broadcastInDim S330000x1 ![0] bcast_S330000_S330000x1_0 (val_main_v90 (F := F) x1)
def val_main_v92 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) : (⟨S330000x256, .f32⟩ : BufTy).Contents (Elt F) :=
  Host.gather gather_S10000x256_S330000x1_S330000x256_1_0_n_n_0_1_1256 (val_main_v85 (F := F) x0 x1 x2 x3 x4 x5 x6 x7 x8) (val_main_v91 (F := F) x1)

def val_main_v93 (x1 : (⟨S2x320000, .i32⟩ : BufTy).Contents (Elt F)) : (⟨S330000x1, .f32⟩ : BufTy).Contents (Elt F) :=
  broadcastInDim S330000x1 ![0] bcast_S330000_S330000x1_0 (val_main_v30 (F := F) x1)
def val_main_v94 (x1 : (⟨S2x320000, .i32⟩ : BufTy).Contents (Elt F)) : (⟨S330000x256, .f32⟩ : BufTy).Contents (Elt F) :=
  broadcastInDim S330000x256 ![0, 1] bcast_S330000x1_S330000x256_0_1 (val_main_v93 (F := F) x1)
def val_main_v95 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) : (⟨S330000x256, .f32⟩ : BufTy).Contents (Elt F) :=
  mulf (val_main_v92 (F := F) x0 x1 x2 x3 x4 x5 x6 x7 x8) (val_main_v94 (F := F) x1)
def val_main_cst_18 : (⟨S_, .f32⟩ : BufTy).Contents (Elt F) :=
  constant S_ .f32 0x00000000#32
def val_main_v96 : (⟨S10000x256, .f32⟩ : BufTy).Contents (Elt F) :=
  broadcastInDim S10000x256 ![] bcast_S_S10000x256 (val_main_cst_18 (F := F))
def val_main_v97 (x1 : (⟨S2x320000, .i32⟩ : BufTy).Contents (Elt F)) : (⟨S330000x1, .i32⟩ : BufTy).Contents (Elt F) :=
  broadcastInDim S330000x1 ![0] bcast_S330000_S330000x1_0 (val_main_v6 (F := F) x1)
def val_main_v98 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) : (⟨S10000x256, .f32⟩ : BufTy).Contents (Elt F) :=
  Host.scatterAdd scatter_S10000x256_S330000x1_S330000x256_1_0_0_1 (val_main_v96 (F := F)) (val_main_v97 (F := F) x1) (val_main_v95 (F := F) x0 x1 x2 x3 x4 x5 x6 x7 x8)

def val_main_v99 (x9 : (⟨S256, .f32⟩ : BufTy).Contents (Elt F)) : (⟨S1x256, .f32⟩ : BufTy).Contents (Elt F) :=
  broadcastInDim S1x256 ![1] bcast_S256_S1x256_1 (x9)
def val_main_v100 (x9 : (⟨S256, .f32⟩ : BufTy).Contents (Elt F)) : (⟨S10000x256, .f32⟩ : BufTy).Contents (Elt F) :=
  broadcastInDim S10000x256 ![0, 1] bcast_S1x256_S10000x256_0_1 (val_main_v99 (F := F) x9)
def val_main_v101 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) : (⟨S10000x256, .f32⟩ : BufTy).Contents (Elt F) :=
  addf (val_main_v98 (F := F) x0 x1 x2 x3 x4 x5 x6 x7 x8) (val_main_v100 (F := F) x9)
def val_main_call4_cst : (⟨S_, .f32⟩ : BufTy).Contents (Elt F) :=
  constant S_ .f32 0x00000000#32
def val_main_call4_v0 : (⟨S10000x256, .f32⟩ : BufTy).Contents (Elt F) :=
  broadcastInDim S10000x256 ![] bcast_S_S10000x256 (val_main_call4_cst (F := F))
def val_main_v102 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) : (⟨S10000x256, .f32⟩ : BufTy).Contents (Elt F) :=
  maximumf (val_main_v101 (F := F) x0 x1 x2 x3 x4 x5 x6 x7 x8 x9) (val_main_call4_v0 (F := F))
def val_main_v103 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) : (⟨S10000x40, .f32⟩ : BufTy).Contents (Elt F) :=
  Host.dotGeneral dot_S10000x256_S256x40_S10000x40_1_0_0_1_n_n none (val_main_v102 (F := F) x0 x1 x2 x3 x4 x5 x6 x7 x8 x9) (x10)
theorem lhs_main_v103_0 (i : S10000x40.Idx) (q : dot_S10000x256_S256x40_S10000x40_1_0_0_1_n_n.contr.Idx) :
    (dot_S10000x256_S256x40_S10000x40_1_0_0_1_n_n.lhsIdx i q 0).val = (i 0).val := by
  unfold DotDims.lhsIdx
  rw [dif_neg (show ¬(0 : Fin S10000x256.rank) ∈ dot_S10000x256_S256x40_S10000x40_1_0_0_1_n_n.lhsBatch by decide), dif_pos (show (0 : Fin S10000x256.rank) ∈ dot_S10000x256_S256x40_S10000x40_1_0_0_1_n_n.lhsNonContracting by decide)]
  rfl
theorem lhs_main_v103_1 (i : S10000x40.Idx) (q : dot_S10000x256_S256x40_S10000x40_1_0_0_1_n_n.contr.Idx) :
    (dot_S10000x256_S256x40_S10000x40_1_0_0_1_n_n.lhsIdx i q 1).val = (q ⟨0, by decide⟩).val :=
  dot_S10000x256_S256x40_S10000x40_1_0_0_1_n_n.lhsIdx_val_of_single rfl i q
theorem rhs_main_v103_0 (i : S10000x40.Idx) (q : dot_S10000x256_S256x40_S10000x40_1_0_0_1_n_n.contr.Idx) :
    (dot_S10000x256_S256x40_S10000x40_1_0_0_1_n_n.rhsIdx i q 0).val = (q ⟨0, by decide⟩).val :=
  dot_S10000x256_S256x40_S10000x40_1_0_0_1_n_n.rhsIdx_val_of_single rfl i q
theorem rhs_main_v103_1 (i : S10000x40.Idx) (q : dot_S10000x256_S256x40_S10000x40_1_0_0_1_n_n.contr.Idx) :
    (dot_S10000x256_S256x40_S10000x40_1_0_0_1_n_n.rhsIdx i q 1).val = (i 1).val := by
  unfold DotDims.rhsIdx
  rw [dif_neg (show ¬(1 : Fin S256x40.rank) ∈ dot_S10000x256_S256x40_S10000x40_1_0_0_1_n_n.rhsBatch by decide), dif_pos (show (1 : Fin S256x40.rank) ∈ dot_S10000x256_S256x40_S10000x40_1_0_0_1_n_n.rhsNonContracting by decide)]
  rfl
abbrev lidx_main_v103 (i : S10000x40.Idx) (k : Fin 256) : S10000x256.Idx := fun a => match a with
  | ⟨0, _⟩ => ⟨(i 0).val, (i 0).isLt⟩
  | ⟨1, _⟩ => ⟨k.val, k.isLt⟩
abbrev ridx_main_v103 (i : S10000x40.Idx) (k : Fin 256) : S256x40.Idx := fun a => match a with
  | ⟨0, _⟩ => ⟨k.val, k.isLt⟩
  | ⟨1, _⟩ => ⟨(i 1).val, (i 1).isLt⟩

theorem val_main_v103_apply (x0 : (⟨S10000x256, .f32⟩ : BufTy).Contents (Elt Ideal)) (x1 : (⟨S2x320000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x40, .f32⟩ : BufTy).Contents (Elt Ideal)) (i : S10000x40.Idx) :
    val_main_v103 (F := Ideal) x0 x1 x2 x3 x4 x5 x6 x7 x8 x9 x10 i = ∑ k : Fin 256, (val_main_v102 (F := Ideal) x0 x1 x2 x3 x4 x5 x6 x7 x8 x9) (lidx_main_v103 i k) * x10 (ridx_main_v103 i k) := by
  unfold val_main_v103
  generalize val_main_v102 (F := Ideal) x0 x1 x2 x3 x4 x5 x6 x7 x8 x9 = y0
  simp only [Host.dotGeneral]
  rw [Ideal.dotGeneral_apply, ← Equiv.sum_comp (ValueIdx.contrEquiv1 dot_S10000x256_S256x40_S10000x40_1_0_0_1_n_n 256 rfl rfl).symm]
  refine Finset.sum_congr rfl fun k _ => ?_
  have hk := ValueIdx.contrEquiv1_symm_val dot_S10000x256_S256x40_S10000x40_1_0_0_1_n_n 256 rfl rfl k
  have el : dot_S10000x256_S256x40_S10000x40_1_0_0_1_n_n.lhsIdx i ((ValueIdx.contrEquiv1 dot_S10000x256_S256x40_S10000x40_1_0_0_1_n_n 256 rfl rfl).symm k) = lidx_main_v103 i k := funext fun a => Fin.ext (by
    match a with
    | ⟨0, _⟩ => exact lhs_main_v103_0 _ _
    | ⟨1, _⟩ => exact (lhs_main_v103_1 _ _).trans hk)
  have er : dot_S10000x256_S256x40_S10000x40_1_0_0_1_n_n.rhsIdx i ((ValueIdx.contrEquiv1 dot_S10000x256_S256x40_S10000x40_1_0_0_1_n_n 256 rfl rfl).symm k) = ridx_main_v103 i k := funext fun a => Fin.ext (by
    match a with
    | ⟨0, _⟩ => exact (rhs_main_v103_0 _ _).trans hk
    | ⟨1, _⟩ => exact rhs_main_v103_1 _ _)
  rw [el, er]

def val_main_c_19 : (⟨S_, .i32⟩ : BufTy).Contents (Elt F) :=
  constantI S_ 32 0#32
theorem val_main_c_19_apply (i : S_.Idx) :
    val_main_c_19 (F := F) i = 0#32 := rfl

def val_main_v104 : (⟨S330000, .i32⟩ : BufTy).Contents (Elt F) :=
  broadcastInDim S330000 ![] bcast_S_S330000 (val_main_c_19 (F := F))
abbrev idx_main_v104 (i : S330000.Idx) : S_.Idx := fun a => a.elim0
theorem val_main_v104_apply (i : S330000.Idx) :
    val_main_v104 (F := F) i = val_main_c_19 (F := F) (idx_main_v104 i) := by
  unfold val_main_v104
  generalize val_main_c_19 (F := F) = y
  exact broadcastInDim_apply _ bcast_S_S330000 y i (idx_main_v104 i) (fun a => a.elim0)

def val_main_v105 (x1 : (⟨S2x320000, .i32⟩ : BufTy).Contents (Elt F)) : (⟨S330000, .i1⟩ : BufTy).Contents (Elt F) :=
  cmpi .slt (val_main_v3 (F := F) x1) (val_main_v104 (F := F))
theorem val_main_v105_apply (x1 : (⟨S2x320000, .i32⟩ : BufTy).Contents (Elt F)) (i : S330000.Idx) :
    val_main_v105 (F := F) x1 i = IntOp.cmpi .slt (val_main_v3 (F := F) x1 i) (val_main_v104 (F := F) i) := rfl

def val_main_c_20 : (⟨S_, .i32⟩ : BufTy).Contents (Elt F) :=
  constantI S_ 32 10000#32
def val_main_v106 : (⟨S330000, .i32⟩ : BufTy).Contents (Elt F) :=
  broadcastInDim S330000 ![] bcast_S_S330000 (val_main_c_20 (F := F))
def val_main_v107 (x1 : (⟨S2x320000, .i32⟩ : BufTy).Contents (Elt F)) : (⟨S330000, .i32⟩ : BufTy).Contents (Elt F) :=
  addi (val_main_v3 (F := F) x1) (val_main_v106 (F := F))
def val_main_v108 (x1 : (⟨S2x320000, .i32⟩ : BufTy).Contents (Elt F)) : (⟨S330000, .i32⟩ : BufTy).Contents (Elt F) :=
  select (val_main_v105 (F := F) x1) (val_main_v107 (F := F) x1) (val_main_v3 (F := F) x1)
theorem val_main_v108_apply (x1 : (⟨S2x320000, .i32⟩ : BufTy).Contents (Elt F)) (i : S330000.Idx) :
    val_main_v108 (F := F) x1 i = Scalar.select (val_main_v105 (F := F) x1 i) (val_main_v107 (F := F) x1 i) (val_main_v3 (F := F) x1 i) := rfl

def val_main_v109 (x1 : (⟨S2x320000, .i32⟩ : BufTy).Contents (Elt F)) : (⟨S330000x1, .i32⟩ : BufTy).Contents (Elt F) :=
  broadcastInDim S330000x1 ![0] bcast_S330000_S330000x1_0 (val_main_v108 (F := F) x1)
def val_main_v110 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) : (⟨S330000x40, .f32⟩ : BufTy).Contents (Elt F) :=
  Host.gather gather_S10000x40_S330000x1_S330000x40_1_0_n_n_0_1_140 (val_main_v103 (F := F) x0 x1 x2 x3 x4 x5 x6 x7 x8 x9 x10) (val_main_v109 (F := F) x1)

def val_main_v111 (x1 : (⟨S2x320000, .i32⟩ : BufTy).Contents (Elt F)) : (⟨S330000x1, .f32⟩ : BufTy).Contents (Elt F) :=
  broadcastInDim S330000x1 ![0] bcast_S330000_S330000x1_0 (val_main_v30 (F := F) x1)
def val_main_v112 (x1 : (⟨S2x320000, .i32⟩ : BufTy).Contents (Elt F)) : (⟨S330000x40, .f32⟩ : BufTy).Contents (Elt F) :=
  broadcastInDim S330000x40 ![0, 1] bcast_S330000x1_S330000x40_0_1 (val_main_v111 (F := F) x1)
def val_main_v113 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) : (⟨S330000x40, .f32⟩ : BufTy).Contents (Elt F) :=
  mulf (val_main_v110 (F := F) x0 x1 x2 x3 x4 x5 x6 x7 x8 x9 x10) (val_main_v112 (F := F) x1)
def val_main_cst_21 : (⟨S_, .f32⟩ : BufTy).Contents (Elt F) :=
  constant S_ .f32 0x00000000#32
def val_main_v114 : (⟨S10000x40, .f32⟩ : BufTy).Contents (Elt F) :=
  broadcastInDim S10000x40 ![] bcast_S_S10000x40 (val_main_cst_21 (F := F))
def val_main_v115 (x1 : (⟨S2x320000, .i32⟩ : BufTy).Contents (Elt F)) : (⟨S330000x1, .i32⟩ : BufTy).Contents (Elt F) :=
  broadcastInDim S330000x1 ![0] bcast_S330000_S330000x1_0 (val_main_v6 (F := F) x1)
def val_main_v116 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) : (⟨S10000x40, .f32⟩ : BufTy).Contents (Elt F) :=
  Host.scatterAdd scatter_S10000x40_S330000x1_S330000x40_1_0_0_1 (val_main_v114 (F := F)) (val_main_v115 (F := F) x1) (val_main_v113 (F := F) x0 x1 x2 x3 x4 x5 x6 x7 x8 x9 x10)

def val_main_v117 (x11 : (⟨S40, .f32⟩ : BufTy).Contents (Elt F)) : (⟨S1x40, .f32⟩ : BufTy).Contents (Elt F) :=
  broadcastInDim S1x40 ![1] bcast_S40_S1x40_1 (x11)
def val_main_v118 (x11 : (⟨S40, .f32⟩ : BufTy).Contents (Elt F)) : (⟨S10000x40, .f32⟩ : BufTy).Contents (Elt F) :=
  broadcastInDim S10000x40 ![0, 1] bcast_S1x40_S10000x40_0_1 (val_main_v117 (F := F) x11)
def val_main_v119 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x40, .f32⟩ : BufTy).Contents (Elt F) :=
  addf (val_main_v116 (F := F) x0 x1 x2 x3 x4 x5 x6 x7 x8 x9 x10) (val_main_v118 (F := F) x11)
def val_main_call5_cst : (⟨S_, .f32⟩ : BufTy).Contents (Elt F) :=
  constant S_ .f32 0xFF800000#32
def val_main_call5_v0 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000, .f32⟩ : BufTy).Contents (Elt F) :=
  Host.reduce FloatOps.maximumf (val_main_v119 (F := F) x0 x1 x2 x3 x4 x5 x6 x7 x8 x9 x10 x11) (val_main_call5_cst (F := F)) reducesTo_S10000x40_S10000_d1 h_S_

def val_main_call5_cst_0 : (⟨S_, .f32⟩ : BufTy).Contents (Elt F) :=
  constant S_ .f32 0xFF800000#32
def val_main_call5_v1 : (⟨S10000, .f32⟩ : BufTy).Contents (Elt F) :=
  broadcastInDim S10000 ![] bcast_S_S10000 (val_main_call5_cst_0 (F := F))
def val_main_call5_v2 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000, .f32⟩ : BufTy).Contents (Elt F) :=
  maximumf (val_main_call5_v1 (F := F)) (val_main_call5_v0 (F := F) x0 x1 x2 x3 x4 x5 x6 x7 x8 x9 x10 x11)
def val_main_call5_v3 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x1, .f32⟩ : BufTy).Contents (Elt F) :=
  broadcastInDim S10000x1 ![0] bcast_S10000_S10000x1_0 (val_main_call5_v2 (F := F) x0 x1 x2 x3 x4 x5 x6 x7 x8 x9 x10 x11)
def val_main_call5_v4 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x40, .f32⟩ : BufTy).Contents (Elt F) :=
  broadcastInDim S10000x40 ![0, 1] bcast_S10000x1_S10000x40_0_1 (val_main_call5_v3 (F := F) x0 x1 x2 x3 x4 x5 x6 x7 x8 x9 x10 x11)
def val_main_call5_v5 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x40, .f32⟩ : BufTy).Contents (Elt F) :=
  subf (val_main_v119 (F := F) x0 x1 x2 x3 x4 x5 x6 x7 x8 x9 x10 x11) (val_main_call5_v4 (F := F) x0 x1 x2 x3 x4 x5 x6 x7 x8 x9 x10 x11)
def val_main_call5_v6 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x40, .f32⟩ : BufTy).Contents (Elt F) :=
  Host.exp (val_main_call5_v5 (F := F) x0 x1 x2 x3 x4 x5 x6 x7 x8 x9 x10 x11)
def val_main_call5_cst_1 : (⟨S_, .f32⟩ : BufTy).Contents (Elt F) :=
  constant S_ .f32 0x00000000#32
def val_main_call5_v7 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000, .f32⟩ : BufTy).Contents (Elt F) :=
  Host.reduceAdd (val_main_call5_v6 (F := F) x0 x1 x2 x3 x4 x5 x6 x7 x8 x9 x10 x11) (val_main_call5_cst_1 (F := F)) reducesTo_S10000x40_S10000_d1 h_S_
def val_main_call5_v8 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x1, .f32⟩ : BufTy).Contents (Elt F) :=
  broadcastInDim S10000x1 ![0] bcast_S10000_S10000x1_0 (val_main_call5_v7 (F := F) x0 x1 x2 x3 x4 x5 x6 x7 x8 x9 x10 x11)
def val_main_call5_v9 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x1, .f32⟩ : BufTy).Contents (Elt F) :=
  Host.log (val_main_call5_v8 (F := F) x0 x1 x2 x3 x4 x5 x6 x7 x8 x9 x10 x11)
def val_main_call5_v10 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x40, .f32⟩ : BufTy).Contents (Elt F) :=
  broadcastInDim S10000x40 ![0, 1] bcast_S10000x1_S10000x40_0_1 (val_main_call5_v9 (F := F) x0 x1 x2 x3 x4 x5 x6 x7 x8 x9 x10 x11)
def val_main_v120 (x0 : (⟨S10000x256, .f32⟩ : BufTy).Contents (Elt F)) (x1 : (⟨S2x320000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S256, .f32⟩ : BufTy).Contents (Elt F)) (x10 : (⟨S256x40, .f32⟩ : BufTy).Contents (Elt F)) (x11 : (⟨S40, .f32⟩ : BufTy).Contents (Elt F)) : (⟨S10000x40, .f32⟩ : BufTy).Contents (Elt F) :=
  subf (val_main_call5_v5 (F := F) x0 x1 x2 x3 x4 x5 x6 x7 x8 x9 x10 x11) (val_main_call5_v10 (F := F) x0 x1 x2 x3 x4 x5 x6 x7 x8 x9 x10 x11)
theorem val_main_v120_eq (m : (ℓ : Loc nD τ sig) → Buf (Elt F) ℓ) (c : Dev nD) :
    Cert.ReferenceIdeal.Value.res_main_v120 m c = val_main_v120 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v120; rfl

theorem val_main_v119_eq (m : (ℓ : Loc nD τ sig) → Buf (Elt F) ℓ) (c : Dev nD) :
    Cert.ReferenceIdeal.Value.res_main_v119 m c = val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v119; rfl

end Cert.ReferenceIdeal.Read

end
-- ==== Proof.RefVal1.lean ====
import Idealize.ShloMosaic.Lib.ValueIdx
import Idealize.ShloMosaic.PureOps.Ideal.Laws
import Idealize.ShloMosaic.Lib.Pipeline.Value
import Idealize.ShloMosaic.Lib.DynamicIndex
import proofs.«427802_j60163901882525_3_alg».proof.Proof.GcnSpec
import proofs.«427802_j60163901882525_3_alg».proof.Proof.GcnIdx

noncomputable section

open scoped BigOperators

namespace Cert.ReferenceIdeal.Hand

open Idealize.ShloMosaic Idealize.ShloMosaic.ValueIdx

abbrev rowScatter (n : ℕ)
    (wf : ScatterDims.WF ⟨2, ![10000, n]⟩ ⟨2, ![330000, 1]⟩ ⟨2, ![330000, n]⟩ [1] [0] [0] 1) :
    ScatterDims ⟨2, ![10000, n]⟩ ⟨2, ![330000, 1]⟩ ⟨2, ![330000, n]⟩ where
  updateWindowDims := [1]
  insertedWindowDims := [0]
  scatterDimsToOperandDims := [0]
  indexVectorDim := 1
  wf := wf

section Scatter
variable {n : ℕ} (wf : ScatterDims.WF ⟨2, ![10000, n]⟩ ⟨2, ![330000, 1]⟩ ⟨2, ![330000, n]⟩ [1] [0] [0] 1)

theorem scatter_siIdx (j : (⟨2, ![330000, n]⟩ : Shape).Idx) (c : Fin 1) :
    (rowScatter n wf).siIdx j c = ix2 (j 0) (0 : Fin 1) := by
  funext b
  match b with
  | ⟨0, _⟩ => rfl
  | ⟨1, _⟩ => exact Fin.ext (by have := c.isLt; show c.val = 0; omega)

theorem scatter_start0 (j : (⟨2, ![330000, n]⟩ : Shape).Idx) (idx : IVec ⟨2, ![330000, 1]⟩ 32) :
    (rowScatter n wf).start j idx 0 = (idx (ix2 (j 0) (0 : Fin 1))).toInt := by
  unfold ScatterDims.start
  rw [dif_pos (show (0 : Fin 2) ∈ (rowScatter n wf).scatterDimsToOperandDims from List.mem_singleton.mpr rfl)]
  rw [scatter_siIdx]
  rfl

theorem scatter_start1 (j : (⟨2, ![330000, n]⟩ : Shape).Idx) (idx : IVec ⟨2, ![330000, 1]⟩ 32) :
    (rowScatter n wf).start j idx 1 = 0 := by
  have h : ¬ (1 : Fin 2) ∈ ([0] : List (Fin 2)) := by decide
  unfold ScatterDims.start
  rw [dif_neg (show ¬ (1 : Fin 2) ∈ (rowScatter n wf).scatterDimsToOperandDims from h)]

theorem scatter_window0 (j : (⟨2, ![330000, n]⟩ : Shape).Idx) :
    (rowScatter n wf).window j 0 = 0 := by
  have h : ¬ (0 : Fin 2) ∈ (List.finRange 2).filter (· ∉ ([0] : List (Fin 2))) := by decide
  unfold ScatterDims.window
  rw [dif_neg (show ¬ (0 : Fin 2) ∈ (rowScatter n wf).sKept from h)]

theorem scatter_window1 (j : (⟨2, ![330000, n]⟩ : Shape).Idx) :
    (rowScatter n wf).window j 1 = (j 1).val := by
  have h : (1 : Fin 2) ∈ (List.finRange 2).filter (· ∉ ([0] : List (Fin 2))) := by decide
  unfold ScatterDims.window
  rw [dif_pos (show (1 : Fin 2) ∈ (rowScatter n wf).sKept from h)]
  rfl

end Scatter

section Scatter2
variable {n : ℕ} (wf : ScatterDims.WF ⟨2, ![10000, n]⟩ ⟨2, ![330000, 1]⟩ ⟨2, ![330000, n]⟩ [1] [0] [0] 1)

theorem scatter_resultIdx (j : (⟨2, ![330000, n]⟩ : Shape).Idx) (idx : IVec ⟨2, ![330000, 1]⟩ 32) (d : Fin 10000) (q : Fin n) :
    (rowScatter n wf).resultIdx? j idx = some (ix2 d q)
      ↔ ((idx (ix2 (j 0) (0 : Fin 1))).toInt = (d.val : ℤ) ∧ j 1 = q) := by
  have h0 : (rowScatter n wf).start j idx 0 + ((rowScatter n wf).window j 0 : ℤ) = (idx (ix2 (j 0) (0 : Fin 1))).toInt := by
    rw [scatter_start0, scatter_window0]; simp
  have h1 : (rowScatter n wf).start j idx 1 + ((rowScatter n wf).window j 1 : ℤ) = ((j 1).val : ℤ) := by
    rw [scatter_start1, scatter_window1]; simp
  unfold ScatterDims.resultIdx?
  by_cases hc : ∀ a, 0 ≤ (rowScatter n wf).start j idx a + ((rowScatter n wf).window j a : ℤ)
      ∧ (rowScatter n wf).start j idx a + ((rowScatter n wf).window j a : ℤ) < ((⟨2, ![10000, n]⟩ : Shape).size a : ℤ)
  · rw [dif_pos hc]
    constructor
    · intro e
      have e' := Option.some.inj e
      have e0 : ((rowScatter n wf).start j idx 0 + ((rowScatter n wf).window j 0 : ℤ)).toNat = d.val :=
        congrArg (fun f : (⟨2, ![10000, n]⟩ : Shape).Idx => (f 0).val) e'
      have e1 : ((rowScatter n wf).start j idx 1 + ((rowScatter n wf).window j 1 : ℤ)).toNat = q.val :=
        congrArg (fun f : (⟨2, ![10000, n]⟩ : Shape).Idx => (f 1).val) e'
      have c0 := (hc 0).1
      rw [h0] at e0 c0
      rw [h1] at e1
      refine ⟨by omega, Fin.ext ?_⟩
      simpa using e1
    · rintro ⟨hT, hq⟩
      congr 1
      funext a
      match a with
      | ⟨0, _⟩ =>
        apply Fin.ext
        show ((rowScatter n wf).start j idx 0 + ((rowScatter n wf).window j 0 : ℤ)).toNat = d.val
        rw [h0, hT]; simp
      | ⟨1, _⟩ =>
        apply Fin.ext
        show ((rowScatter n wf).start j idx 1 + ((rowScatter n wf).window j 1 : ℤ)).toNat = q.val
        rw [h1, ← hq]; simp
  · rw [dif_neg hc]
    constructor
    · intro e; cases e
    · rintro ⟨hT, hq⟩
      exfalso; apply hc
      intro a
      match a with
      | ⟨0, _⟩ =>
        show 0 ≤ (rowScatter n wf).start j idx 0 + ((rowScatter n wf).window j 0 : ℤ)
          ∧ (rowScatter n wf).start j idx 0 + ((rowScatter n wf).window j 0 : ℤ) < ((10000 : ℕ) : ℤ)
        rw [h0, hT]; have := d.isLt; omega
      | ⟨1, _⟩ =>
        show 0 ≤ (rowScatter n wf).start j idx 1 + ((rowScatter n wf).window j 1 : ℤ)
          ∧ (rowScatter n wf).start j idx 1 + ((rowScatter n wf).window j 1 : ℤ) < ((n : ℕ) : ℤ)
        rw [h1]; have := (j 1).isLt; have hh : (j 1).val < n := (j 1).isLt; omega

theorem scatterAdd_rows (x : FVec Ideal ⟨2, ![10000, n]⟩ .f32) (idx : IVec ⟨2, ![330000, 1]⟩ 32)
    (upd : FVec Ideal ⟨2, ![330000, n]⟩ .f32) (d : Fin 10000) (q : Fin n) :
    Host.scatterAdd (rowScatter n wf) x idx upd (ix2 d q)
      = x (ix2 d q) + ∑ e ∈ Finset.univ.filter (fun e : Fin 330000 => (idx (ix2 e (0 : Fin 1))).toInt = (d.val : ℤ)),
          upd (ix2 e q) := by
  show Ideal.hostScatterAdd (rowScatter n wf) x idx upd (ix2 d q) = _
  unfold Ideal.hostScatterAdd
  refine congrArg (x (ix2 d q) + ·) ?_
  rw [Finset.sum_filter, sum_idx2, Finset.sum_filter]
  refine Finset.sum_congr rfl (fun e _ => ?_)
  have hp : ∀ b : Fin n, ((rowScatter n wf).resultIdx? (ix2 e b) idx = some (ix2 d q))
      ↔ ((idx (ix2 e (0 : Fin 1))).toInt = (d.val : ℤ) ∧ b = q) := fun b => scatter_resultIdx wf (ix2 e b) idx d q
  simp only [hp]
  by_cases hT : (idx (ix2 e (0 : Fin 1))).toInt = (d.val : ℤ)
  · simp only [hT, true_and, if_true]
    rw [Finset.sum_ite_eq' Finset.univ q (fun b => upd (ix2 e b))]
    simp
  · simp [hT]

end Scatter2

abbrev rowGather (n : ℕ)
    (wf : GatherDims.WF ⟨2, ![10000, n]⟩ ⟨2, ![330000, 1]⟩ ⟨2, ![330000, n]⟩ [1] [0] [] [0] [] 1 ![1, n]) :
    GatherDims ⟨2, ![10000, n]⟩ ⟨2, ![330000, 1]⟩ ⟨2, ![330000, n]⟩ where
  offsetDims := [1]
  collapsedSliceDims := [0]
  operandBatchingDims := []
  startIndicesBatchingDims := []
  startIndexMap := [0]
  indexVectorDim := 1
  sliceSizes := ![1, n]
  wf := wf

section Gather
variable {n : ℕ} {α : Type}
  (wf : GatherDims.WF ⟨2, ![10000, n]⟩ ⟨2, ![330000, 1]⟩ ⟨2, ![330000, n]⟩ [1] [0] [] [0] [] 1 ![1, n])

theorem gather_siIdx (j : (⟨2, ![330000, n]⟩ : Shape).Idx) (c : Fin 1) :
    (rowGather n wf).siIdx j c = ix2 (j 0) (0 : Fin 1) := by
  funext b
  match b with
  | ⟨0, _⟩ => rfl
  | ⟨1, _⟩ => exact Fin.ext (by have := c.isLt; show c.val = 0; omega)

theorem gather_start0 (j : (⟨2, ![330000, n]⟩ : Shape).Idx) (idx : IVec ⟨2, ![330000, 1]⟩ 32) :
    (rowGather n wf).start j idx 0 = min (idx (ix2 (j 0) (0 : Fin 1))).toInt.toNat 9999 := by
  unfold GatherDims.start
  rw [dif_pos (show (0 : Fin 2) ∈ (rowGather n wf).startIndexMap from List.mem_singleton.mpr rfl)]
  rw [gather_siIdx]
  rfl

theorem gather_start1 (j : (⟨2, ![330000, n]⟩ : Shape).Idx) (idx : IVec ⟨2, ![330000, 1]⟩ 32) :
    (rowGather n wf).start j idx 1 = 0 := by
  have h : ¬ (1 : Fin 2) ∈ ([0] : List (Fin 2)) := by decide
  unfold GatherDims.start
  rw [dif_neg (show ¬ (1 : Fin 2) ∈ (rowGather n wf).startIndexMap from h)]

theorem gather_off0 (j : (⟨2, ![330000, n]⟩ : Shape).Idx) : (rowGather n wf).offCoord j 0 = 0 := by
  have h : ¬ (0 : Fin 2) ∈ (List.finRange 2).filter (· ∉ (([0] : List (Fin 2)) ++ [])) := by decide
  exact GatherDims.offCoord_eq_zero _ _ _ (show ¬ (0 : Fin 2) ∈ (rowGather n wf).sKept from h)

theorem gather_off1 (j : (⟨2, ![330000, n]⟩ : Shape).Idx) : (rowGather n wf).offCoord j 1 = (j 1).val := by
  have h : (1 : Fin 2) ∈ (List.finRange 2).filter (· ∉ (([0] : List (Fin 2)) ++ [])) := by decide
  unfold GatherDims.offCoord
  rw [dif_pos (show (1 : Fin 2) ∈ (rowGather n wf).sKept from h)]
  rfl

theorem gather_rows (x : (⟨2, ![10000, n]⟩ : Shape).Idx → α) (idx : IVec ⟨2, ![330000, 1]⟩ 32) (e : Fin 330000) (q : Fin n) :
    Host.gather (rowGather n wf) x idx (ix2 e q)
      = x (ix2 (⟨min (idx (ix2 e (0 : Fin 1))).toInt.toNat 9999, by omega⟩ : Fin 10000) q) := by
  unfold Host.gather
  refine congrArg x (funext fun a => Fin.ext ?_)
  match a with
  | ⟨0, _⟩ =>
    show (rowGather n wf).start (ix2 e q) idx 0 + (rowGather n wf).batchCoord (ix2 e q) 0 + (rowGather n wf).offCoord (ix2 e q) 0
      = min (idx (ix2 e (0 : Fin 1))).toInt.toNat 9999
    rw [GatherDims.batchCoord_eq_zero _ _ _ List.not_mem_nil, gather_off0, gather_start0]
    rfl
  | ⟨1, _⟩ =>
    show (rowGather n wf).start (ix2 e q) idx 1 + (rowGather n wf).batchCoord (ix2 e q) 1 + (rowGather n wf).offCoord (ix2 e q) 1
      = q.val
    rw [GatherDims.batchCoord_eq_zero _ _ _ List.not_mem_nil, gather_off1, gather_start1]
    simp only [Nat.zero_add, Nat.add_zero]
    rfl

end Gather

section Agg
variable {n : ℕ}

theorem bcast_col {α : Type} (hb : (⟨1, ![330000]⟩ : Shape).BroadcastsInDim ⟨2, ![330000, 1]⟩ ![0])
    (v : (⟨1, ![330000]⟩ : Shape).Idx → α) (e : Fin 330000) (z : Fin 1) :
    broadcastInDim ⟨2, ![330000, 1]⟩ ![0] hb v (ix2 e z) = v (ix1 e) :=
  broadcastInDim_apply _ hb v (ix2 e z) (ix1 e) (fun a => match a with
    | ⟨0, _⟩ => by show e.val = if (330000 : Nat) = 1 then 0 else e.val; rw [if_neg (by decide)])

theorem bcast_col_rect {α : Type} (hb : (⟨2, ![330000, 1]⟩ : Shape).BroadcastsInDim ⟨2, ![330000, n]⟩ ![0, 1])
    (w : (⟨2, ![330000, 1]⟩ : Shape).Idx → α) (e : Fin 330000) (q : Fin n) :
    broadcastInDim ⟨2, ![330000, n]⟩ ![0, 1] hb w (ix2 e q) = w (ix2 e (0 : Fin 1)) :=
  broadcastInDim_apply _ hb w (ix2 e q) (ix2 e (0 : Fin 1)) (fun a => match a with
    | ⟨0, _⟩ => by show e.val = if (330000 : Nat) = 1 then 0 else e.val; rw [if_neg (by decide)]
    | ⟨1, _⟩ => by show 0 = if (1 : Nat) = 1 then 0 else q.val; rw [if_pos rfl])

theorem bcast_zero (hz : (⟨0, ![]⟩ : Shape).BroadcastsInDim ⟨2, ![10000, n]⟩ ![]) (i : (⟨2, ![10000, n]⟩ : Shape).Idx) :
    broadcastInDim ⟨2, ![10000, n]⟩ ![] hz (constant (F := Ideal) ⟨0, ![]⟩ .f32 0x00000000#32) i = (0 : EReal) := by
  rw [broadcastInDim_apply _ hz _ i ix0 (fun a => a.elim0)]
  exact Ideal.ofBits_zero_f32

variable (wfS : ScatterDims.WF ⟨2, ![10000, n]⟩ ⟨2, ![330000, 1]⟩ ⟨2, ![330000, n]⟩ [1] [0] [0] 1)
  (wfG : GatherDims.WF ⟨2, ![10000, n]⟩ ⟨2, ![330000, 1]⟩ ⟨2, ![330000, n]⟩ [1] [0] [] [0] [] 1 ![1, n])
  (hz : (⟨0, ![]⟩ : Shape).BroadcastsInDim ⟨2, ![10000, n]⟩ ![])
  (hb1 : (⟨1, ![330000]⟩ : Shape).BroadcastsInDim ⟨2, ![330000, 1]⟩ ![0])
  (hb2 : (⟨2, ![330000, 1]⟩ : Shape).BroadcastsInDim ⟨2, ![330000, n]⟩ ![0, 1])

theorem agg_apply (h : FVec Ideal ⟨2, ![10000, n]⟩ .f32) (sv dv : IVec ⟨1, ![330000]⟩ 32) (nv : FVec Ideal ⟨1, ![330000]⟩ .f32)
    (src dst : Fin 330000 → Fin 10000)
    (hs : ∀ e, min (sv (ix1 e)).toInt.toNat 9999 = (src e).val)
    (hd : ∀ e, (dv (ix1 e)).toInt = ((dst e).val : ℤ))
    (d : Fin 10000) (q : Fin n) :
    Host.scatterAdd (rowScatter n wfS)
        (broadcastInDim ⟨2, ![10000, n]⟩ ![] hz (constant (F := Ideal) ⟨0, ![]⟩ .f32 0x00000000#32))
        (broadcastInDim ⟨2, ![330000, 1]⟩ ![0] hb1 dv)
        (mulf (Host.gather (rowGather n wfG) h (broadcastInDim ⟨2, ![330000, 1]⟩ ![0] hb1 sv))
          (broadcastInDim ⟨2, ![330000, n]⟩ ![0, 1] hb2 (broadcastInDim ⟨2, ![330000, 1]⟩ ![0] hb1 nv))) (ix2 d q)
      = Cert.Gcn.aggR src dst (fun e => nv (ix1 e)) (fun a b => h (ix2 a b)) d q := by
  rw [scatterAdd_rows, bcast_zero, zero_add]
  unfold Cert.Gcn.aggR
  have hf : ∀ e : Fin 330000,
      ((broadcastInDim ⟨2, ![330000, 1]⟩ ![0] hb1 dv (ix2 e (0 : Fin 1))).toInt = (d.val : ℤ)) ↔ dst e = d := by
    intro e
    rw [bcast_col, hd e]
    constructor
    · intro hh; exact Fin.ext (by exact_mod_cast hh)
    · intro hh; rw [hh]
  rw [Finset.filter_congr (fun e _ => hf e)]
  refine Finset.sum_congr rfl (fun e _ => ?_)
  rw [mulf_apply, gather_rows, bcast_col_rect]
  have he : (⟨min (broadcastInDim ⟨2, ![330000, 1]⟩ ![0] hb1 sv (ix2 e (0 : Fin 1))).toInt.toNat 9999, by omega⟩ : Fin 10000)
      = src e := Fin.ext (by
    show min (broadcastInDim ⟨2, ![330000, 1]⟩ ![0] hb1 sv (ix2 e (0 : Fin 1))).toInt.toNat 9999 = (src e).val
    rw [bcast_col]; exact hs e)
  rw [he, bcast_col]

end Agg

section Epilogue
variable {n : ℕ}

theorem bcast_row_rect {α : Type} {m : ℕ} (hb1 : (⟨1, ![n]⟩ : Shape).BroadcastsInDim ⟨2, ![1, n]⟩ ![1])
    (hb2 : (⟨2, ![1, n]⟩ : Shape).BroadcastsInDim ⟨2, ![m, n]⟩ ![0, 1]) (b : (⟨1, ![n]⟩ : Shape).Idx → α)
    (d : Fin m) (q : Fin n) :
    broadcastInDim ⟨2, ![m, n]⟩ ![0, 1] hb2 (broadcastInDim ⟨2, ![1, n]⟩ ![1] hb1 b) (ix2 d q) = b (ix1 q) := by
  have hq : q.val = if n = 1 then 0 else q.val := by
    by_cases h1 : n = 1
    · rw [if_pos h1]; have := q.isLt; omega
    · rw [if_neg h1]
  rw [broadcastInDim_apply _ hb2 _ (ix2 d q) (ix2 (0 : Fin 1) q) (fun a => match a with
    | ⟨0, _⟩ => by show 0 = if (1 : Nat) = 1 then 0 else d.val; rw [if_pos rfl]
    | ⟨1, _⟩ => hq)]
  exact broadcastInDim_apply _ hb1 b (ix2 (0 : Fin 1) q) (ix1 q) (fun a => match a with
    | ⟨0, _⟩ => hq)

theorem relu_bias_apply (hb1 : (⟨1, ![n]⟩ : Shape).BroadcastsInDim ⟨2, ![1, n]⟩ ![1])
    (hb2 : (⟨2, ![1, n]⟩ : Shape).BroadcastsInDim ⟨2, ![10000, n]⟩ ![0, 1])
    (hz : (⟨0, ![]⟩ : Shape).BroadcastsInDim ⟨2, ![10000, n]⟩ ![])
    (a : FVec Ideal ⟨2, ![10000, n]⟩ .f32) (b : FVec Ideal ⟨1, ![n]⟩ .f32) (d : Fin 10000) (q : Fin n) :
    maximumf (addf a (broadcastInDim ⟨2, ![10000, n]⟩ ![0, 1] hb2 (broadcastInDim ⟨2, ![1, n]⟩ ![1] hb1 b)))
        (broadcastInDim ⟨2, ![10000, n]⟩ ![] hz (constant (F := Ideal) ⟨0, ![]⟩ .f32 0x00000000#32)) (ix2 d q)
      = max (a (ix2 d q) + b (ix1 q)) 0 := by
  rw [maximumf_apply, addf_apply, bcast_row_rect, bcast_zero]

theorem bias_apply (hb1 : (⟨1, ![n]⟩ : Shape).BroadcastsInDim ⟨2, ![1, n]⟩ ![1])
    (hb2 : (⟨2, ![1, n]⟩ : Shape).BroadcastsInDim ⟨2, ![10000, n]⟩ ![0, 1])
    (a : FVec Ideal ⟨2, ![10000, n]⟩ .f32) (b : FVec Ideal ⟨1, ![n]⟩ .f32) (d : Fin 10000) (q : Fin n) :
    addf a (broadcastInDim ⟨2, ![10000, n]⟩ ![0, 1] hb2 (broadcastInDim ⟨2, ![1, n]⟩ ![1] hb1 b)) (ix2 d q)
      = a (ix2 d q) + b (ix1 q) := by
  rw [addf_apply, bcast_row_rect]

end Epilogue

section Words

theorem concat_word {α : Type}
    (hc : Shape.Concatenates [(⟨1, ![320000]⟩ : Shape), (⟨1, ![10000]⟩ : Shape)] ⟨1, ![330000]⟩ 0)
    (a : (⟨1, ![320000]⟩ : Shape).Idx → α) (b : (⟨1, ![10000]⟩ : Shape).Idx → α) (e : Fin 330000) :
    concatenate ⟨1, ![330000]⟩ 0 [⟨⟨1, ![320000]⟩, a⟩, ⟨⟨1, ![10000]⟩, b⟩] hc (ix1 e)
      = if h : e.val < 320000 then a (ix1 ⟨e.val, h⟩) else b (ix1 ⟨e.val - 320000, by have := e.isLt; omega⟩) := by
  by_cases h : e.val < 320000
  · rw [dif_pos h]
    exact concatenate_pair_apply_left 0 a b hc (ix1 e) rfl (ix1 ⟨e.val, h⟩) (fun b => match b with | ⟨0, _⟩ => rfl)
  · rw [dif_neg h]
    exact concatenate_pair_apply_right 0 a b hc (ix1 e) rfl rfl (ix1 ⟨e.val - 320000, by have := e.isLt; omega⟩)
      (fun b hb => match b with | ⟨0, _⟩ => absurd rfl hb)
      (by show e.val - 320000 + 320000 = e.val; omega)

theorem wrap_word (x y : BitVec 32) (h : 0 ≤ x.toInt) : Scalar.select (IntOp.cmpi .slt x 0#32) y x = x := by
  have hlt : x.slt 0#32 = false := by
    simp only [BitVec.slt, BitVec.toInt_zero, decide_eq_false_iff_not, Int.not_lt]
    exact h
  show (if BitVec.ofBool (x.slt 0#32) = 1 then y else x) = x
  rw [hlt]
  rfl

theorem endpoint_word (ei : IVec (⟨2, ![2, 320000]⟩ : Shape) 32) (hr : Cert.Gcn.InRange ei) (r : Fin 2) (e : Fin 330000)
    (w : BitVec 32)
    (hw : w = if h : e.val < 320000 then ei (ix2 r ⟨e.val, h⟩) else BitVec.ofNat 32 (e.val - 320000)) :
    w.toInt = ((Cert.Gcn.endpoint ei r e).val : ℤ) := by
  unfold Cert.Gcn.endpoint
  by_cases h : e.val < 320000
  · rw [dif_pos h] at hw
    rw [dif_pos h, hw]
    have := hr (ix2 r ⟨e.val, h⟩)
    show (ei (ix2 r ⟨e.val, h⟩)).toInt = ((min (ei (ix2 r ⟨e.val, h⟩)).toInt.toNat 9999 : ℕ) : ℤ)
    omega
  · rw [dif_neg h] at hw
    rw [dif_neg h, hw]
    have := e.isLt
    rw [toInt_ofNat_of_lt (by omega)]

end Words

end Cert.ReferenceIdeal.Hand

end
-- ==== Proof.RefVal2.lean ====
import proofs.«427802_j60163901882525_3_alg».proof.Proof.RefReadP
import proofs.«427802_j60163901882525_3_alg».proof.Proof.RefVal1

noncomputable section

open scoped BigOperators

namespace Cert.ReferenceIdeal.Hand

open Cert.ReferenceIdeal Cert.ReferenceIdeal.Read Idealize.ShloMosaic Idealize.ShloMosaic.ValueIdx
open Idealize.ShloMosaic.TcCoe Idealize.SL.Sem
open Cert.Gcn (InRange srcOf dstOf endpoint aggR linR layerR logitsR)

def nrmR (ei : IVec S2x320000 32) : Fin 330000 → EReal := fun e => val_main_v30 (F := Ideal) ei (ix1 e)

def lsmG {F : FTy → Type} [FloatOps F] (z : (⟨S10000x40, .f32⟩ : BufTy).Contents (Elt F)) :
    (⟨S10000x40, .f32⟩ : BufTy).Contents (Elt F) :=
  subf
    (subf z (broadcastInDim S10000x40 ![0, 1] Gen.bcast_S10000x1_S10000x40_0_1
      (broadcastInDim S10000x1 ![0] Gen.bcast_S10000_S10000x1_0
        (maximumf (broadcastInDim S10000 ![] Gen.bcast_S_S10000 (constant (F := F) S_ .f32 0xFF800000#32))
          (Host.reduce FloatOps.maximumf z (constant (F := F) S_ .f32 0xFF800000#32) Gen.reducesTo_S10000x40_S10000_d1 Gen.h_S_)))))
    (broadcastInDim S10000x40 ![0, 1] Gen.bcast_S10000x1_S10000x40_0_1
      (Host.log (broadcastInDim S10000x1 ![0] Gen.bcast_S10000_S10000x1_0
        (Host.reduceAdd
          (Host.exp (subf z (broadcastInDim S10000x40 ![0, 1] Gen.bcast_S10000x1_S10000x40_0_1
            (broadcastInDim S10000x1 ![0] Gen.bcast_S10000_S10000x1_0
              (maximumf (broadcastInDim S10000 ![] Gen.bcast_S_S10000 (constant (F := F) S_ .f32 0xFF800000#32))
                (Host.reduce FloatOps.maximumf z (constant (F := F) S_ .f32 0xFF800000#32) Gen.reducesTo_S10000x40_S10000_d1 Gen.h_S_))))))
          (constant (F := F) S_ .f32 0x00000000#32) Gen.reducesTo_S10000x40_S10000_d1 Gen.h_S_))))

def lsmR (z : (⟨S10000x40, .f32⟩ : BufTy).Contents (Elt Ideal)) : (⟨S10000x40, .f32⟩ : BufTy).Contents (Elt Ideal) :=
  lsmG (F := Ideal) z

section LogSoftmax
variable {F : FTy → Type} [FloatOps F]
  (x0 : (⟨S10000x256, .f32⟩ : BufTy).Contents (Elt F)) (x1 : (⟨S2x320000, .i32⟩ : BufTy).Contents (Elt F))
  (x2 : (⟨S256x256, .f32⟩ : BufTy).Contents (Elt F)) (x3 : (⟨S256, .f32⟩ : BufTy).Contents (Elt F))
  (x4 : (⟨S256x256, .f32⟩ : BufTy).Contents (Elt F)) (x5 : (⟨S256, .f32⟩ : BufTy).Contents (Elt F))
  (x6 : (⟨S256x256, .f32⟩ : BufTy).Contents (Elt F)) (x7 : (⟨S256, .f32⟩ : BufTy).Contents (Elt F))
  (x8 : (⟨S256x256, .f32⟩ : BufTy).Contents (Elt F)) (x9 : (⟨S256, .f32⟩ : BufTy).Contents (Elt F))
  (x10 : (⟨S256x40, .f32⟩ : BufTy).Contents (Elt F)) (x11 : (⟨S40, .f32⟩ : BufTy).Contents (Elt F))

theorem lsm_stage :
    val_main_v120 (F := F) x0 x1 x2 x3 x4 x5 x6 x7 x8 x9 x10 x11
      = lsmG (val_main_v119 (F := F) x0 x1 x2 x3 x4 x5 x6 x7 x8 x9 x10 x11) := by
  generalize hz : val_main_v119 (F := F) x0 x1 x2 x3 x4 x5 x6 x7 x8 x9 x10 x11 = z
  unfold val_main_v120 val_main_call5_v10 val_main_call5_v9 val_main_call5_v8 val_main_call5_v7 val_main_call5_v6
    val_main_call5_v5 val_main_call5_v4 val_main_call5_v3 val_main_call5_v2 val_main_call5_v1 val_main_call5_v0
    val_main_call5_cst val_main_call5_cst_0 val_main_call5_cst_1 lsmG
  rw [hz]

end LogSoftmax

section Words
variable (x1 : IVec S2x320000 32)

theorem v3_word (e : Fin 330000) :
    val_main_v3 (F := Ideal) x1 (ix1 e)
      = if h : e.val < 320000 then x1 (ix2 (0 : Fin 2) ⟨e.val, h⟩) else BitVec.ofNat 32 (e.val - 320000) := by
  unfold val_main_v3
  refine (concat_word Gen.concatenates_S320000_S10000_S330000_d0 (val_main_v2 (F := Ideal) x1) (val_main_v0 (F := Ideal)) e).trans ?_
  by_cases h : e.val < 320000
  · rw [dif_pos h, dif_pos h, val_main_v2_apply, val_main_v1_apply]
    refine congrArg x1 (funext fun a => Fin.ext ?_)
    match a with
    | ⟨0, _⟩ => rfl
    | ⟨1, _⟩ => exact Nat.mod_eq_of_lt h
  · rw [dif_neg h, dif_neg h]
    rfl

theorem v6_word (e : Fin 330000) :
    val_main_v6 (F := Ideal) x1 (ix1 e)
      = if h : e.val < 320000 then x1 (ix2 (1 : Fin 2) ⟨e.val, h⟩) else BitVec.ofNat 32 (e.val - 320000) := by
  unfold val_main_v6
  refine (concat_word Gen.concatenates_S320000_S10000_S330000_d0 (val_main_v5 (F := Ideal) x1) (val_main_v0 (F := Ideal)) e).trans ?_
  by_cases h : e.val < 320000
  · rw [dif_pos h, dif_pos h, val_main_v5_apply, val_main_v4_apply]
    refine congrArg x1 (funext fun a => Fin.ext ?_)
    match a with
    | ⟨0, _⟩ => rfl
    | ⟨1, _⟩ => exact Nat.mod_eq_of_lt h
  · rw [dif_neg h, dif_neg h]
    rfl

theorem dst_word (hr : InRange x1) (e : Fin 330000) :
    (val_main_v6 (F := Ideal) x1 (ix1 e)).toInt = ((dstOf x1 e).val : ℤ) :=
  endpoint_word x1 hr 1 e _ (v6_word x1 e)

theorem src_raw (hr : InRange x1) (e : Fin 330000) :
    (val_main_v3 (F := Ideal) x1 (ix1 e)).toInt = ((srcOf x1 e).val : ℤ) :=
  endpoint_word x1 hr 0 e _ (v3_word x1 e)

theorem src_word (hr : InRange x1) (w y : IVec S330000 32)
    (hw : ∀ i, w i = Scalar.select (IntOp.cmpi .slt (val_main_v3 (F := Ideal) x1 i) 0#32) (y i) (val_main_v3 (F := Ideal) x1 i))
    (e : Fin 330000) : min (w (ix1 e)).toInt.toNat 9999 = (srcOf x1 e).val := by
  have h3 := src_raw x1 hr e
  rw [hw, wrap_word _ _ (by rw [h3]; exact Int.natCast_nonneg _), h3, Int.toNat_natCast]
  have := (srcOf x1 e).isLt
  omega

end Words

theorem layer_step {m : ℕ} (src dst : Fin 330000 → Fin 10000) (nrm : Fin 330000 → EReal)
    (hp agg act : FVec Ideal S10000x256 .f32) (b : FVec Ideal S256 .f32) (W : FVec Ideal ⟨2, ![256, m]⟩ .f32)
    (out : FVec Ideal ⟨2, ![10000, m]⟩ .f32)
    (hagg : ∀ d q, agg (ix2 d q) = aggR src dst nrm (fun a c => hp (ix2 a c)) d q)
    (hact : ∀ d q, act (ix2 d q) = max (agg (ix2 d q) + b (ix1 q)) 0)
    (hout : ∀ d j, out (ix2 d j) = ∑ k : Fin 256, act (ix2 d k) * W (ix2 k j)) :
    (fun d j => out (ix2 d j))
      = layerR src dst nrm (fun a c => hp (ix2 a c)) (fun q => b (ix1 q)) (fun k j => W (ix2 k j)) := by
  funext d j
  unfold Cert.Gcn.layerR
  rw [hout]
  refine Finset.sum_congr rfl (fun k _ => ?_)
  rw [hact, hagg]

section Layers
variable (x0 : FVec Ideal S10000x256 .f32) (x1 : IVec S2x320000 32)
  (x2 : FVec Ideal S256x256 .f32) (x3 : FVec Ideal S256 .f32) (x4 : FVec Ideal S256x256 .f32) (x5 : FVec Ideal S256 .f32)
  (x6 : FVec Ideal S256x256 .f32) (x7 : FVec Ideal S256 .f32) (x8 : FVec Ideal S256x256 .f32) (x9 : FVec Ideal S256 .f32)
  (x10 : FVec Ideal S256x40 .f32) (x11 : FVec Ideal S40 .f32)

theorem lin1 :
    (fun d j => val_main_v31 (F := Ideal) x0 x2 (ix2 d j))
      = linR (fun d q => x0 (ix2 d q)) (fun q j => x2 (ix2 q j)) := by
  funext d j
  unfold Cert.Gcn.linR
  rw [val_main_v31_apply]
  refine Finset.sum_congr rfl (fun k _ => ?_)
  have e1 : lidx_main_v31 (ix2 d j) k = ix2 d k := funext fun a => match a with | ⟨0, _⟩ => rfl | ⟨1, _⟩ => rfl
  have e2 : ridx_main_v31 (ix2 d j) k = ix2 k j := funext fun a => match a with | ⟨0, _⟩ => rfl | ⟨1, _⟩ => rfl
  rw [e1, e2]

theorem agg1 (hr : InRange x1) (d : Fin 10000) (q : Fin 256) :
    val_main_v44 (F := Ideal) x0 x1 x2 (ix2 d q)
      = aggR (srcOf x1) (dstOf x1) (nrmR x1) (fun a c => val_main_v31 (F := Ideal) x0 x2 (ix2 a c)) d q := by
  unfold val_main_v44 val_main_v41 val_main_v38 val_main_v40 val_main_v39 val_main_v43 val_main_v42 val_main_v37 val_main_cst_9
  exact agg_apply (n := 256) Gen.scatter_S10000x256_S330000x1_S330000x256_1_0_0_1_wf
    Gen.gather_S10000x256_S330000x1_S330000x256_1_0_n_n_0_1_1256_wf
    Gen.bcast_S_S10000x256 Gen.bcast_S330000_S330000x1_0 Gen.bcast_S330000x1_S330000x256_0_1
    (val_main_v31 (F := Ideal) x0 x2) (val_main_v36 (F := Ideal) x1) (val_main_v6 (F := Ideal) x1) (val_main_v30 (F := Ideal) x1)
    (srcOf x1) (dstOf x1)
    (src_word x1 hr _ (val_main_v35 (F := Ideal) x1)
      (fun i => by rw [val_main_v36_apply, val_main_v33_apply, val_main_v32_apply, val_main_c_7_apply]))
    (dst_word x1 hr) d q

theorem act1 (d : Fin 10000) (q : Fin 256) :
    val_main_v48 (F := Ideal) x0 x1 x2 x3 (ix2 d q) = max (val_main_v44 (F := Ideal) x0 x1 x2 (ix2 d q) + x3 (ix1 q)) 0 := by
  unfold val_main_v48 val_main_v47 val_main_v46 val_main_v45 val_main_call1_v0 val_main_call1_cst
  exact relu_bias_apply (n := 256) Gen.bcast_S256_S1x256_1 Gen.bcast_S1x256_S10000x256_0_1 Gen.bcast_S_S10000x256
    (val_main_v44 (F := Ideal) x0 x1 x2) x3 d q

theorem out1 (d : Fin 10000) (j : Fin 256) :
    val_main_v49 (F := Ideal) x0 x1 x2 x3 x4 (ix2 d j)
      = ∑ k : Fin 256, val_main_v48 (F := Ideal) x0 x1 x2 x3 (ix2 d k) * x4 (ix2 k j) := by
  rw [val_main_v49_apply]
  refine Finset.sum_congr rfl (fun k _ => ?_)
  have e1 : lidx_main_v49 (ix2 d j) k = ix2 d k := funext fun a => match a with | ⟨0, _⟩ => rfl | ⟨1, _⟩ => rfl
  have e2 : ridx_main_v49 (ix2 d j) k = ix2 k j := funext fun a => match a with | ⟨0, _⟩ => rfl | ⟨1, _⟩ => rfl
  rw [e1, e2]

theorem lay1 (hr : InRange x1) :
    (fun d j => val_main_v49 (F := Ideal) x0 x1 x2 x3 x4 (ix2 d j))
      = layerR (srcOf x1) (dstOf x1) (nrmR x1) (linR (fun d q => x0 (ix2 d q)) (fun q j => x2 (ix2 q j)))
          (fun q => x3 (ix1 q)) (fun q j => x4 (ix2 q j)) := by
  rw [layer_step (m := 256) (srcOf x1) (dstOf x1) (nrmR x1) (val_main_v31 (F := Ideal) x0 x2) (val_main_v44 (F := Ideal) x0 x1 x2)
    (val_main_v48 (F := Ideal) x0 x1 x2 x3) x3 x4 (val_main_v49 (F := Ideal) x0 x1 x2 x3 x4)
    (agg1 x0 x1 x2 hr) (act1 x0 x1 x2 x3) (out1 x0 x1 x2 x3 x4), lin1 x0 x2]

theorem agg2 (hr : InRange x1) (d : Fin 10000) (q : Fin 256) :
    val_main_v62 (F := Ideal) x0 x1 x2 x3 x4 (ix2 d q)
      = aggR (srcOf x1) (dstOf x1) (nrmR x1) (fun a c => val_main_v49 (F := Ideal) x0 x1 x2 x3 x4 (ix2 a c)) d q := by
  unfold val_main_v62 val_main_v59 val_main_v56 val_main_v58 val_main_v57 val_main_v61 val_main_v60 val_main_v55 val_main_cst_12
  exact agg_apply (n := 256) Gen.scatter_S10000x256_S330000x1_S330000x256_1_0_0_1_wf
    Gen.gather_S10000x256_S330000x1_S330000x256_1_0_n_n_0_1_1256_wf
    Gen.bcast_S_S10000x256 Gen.bcast_S330000_S330000x1_0 Gen.bcast_S330000x1_S330000x256_0_1
    (val_main_v49 (F := Ideal) x0 x1 x2 x3 x4) (val_main_v54 (F := Ideal) x1) (val_main_v6 (F := Ideal) x1) (val_main_v30 (F := Ideal) x1)
    (srcOf x1) (dstOf x1)
    (src_word x1 hr _ (val_main_v53 (F := Ideal) x1)
      (fun i => by rw [val_main_v54_apply, val_main_v51_apply, val_main_v50_apply, val_main_c_10_apply]))
    (dst_word x1 hr) d q

theorem act2 (d : Fin 10000) (q : Fin 256) :
    val_main_v66 (F := Ideal) x0 x1 x2 x3 x4 x5 (ix2 d q)
      = max (val_main_v62 (F := Ideal) x0 x1 x2 x3 x4 (ix2 d q) + x5 (ix1 q)) 0 := by
  unfold val_main_v66 val_main_v65 val_main_v64 val_main_v63 val_main_call2_v0 val_main_call2_cst
  exact relu_bias_apply (n := 256) Gen.bcast_S256_S1x256_1 Gen.bcast_S1x256_S10000x256_0_1 Gen.bcast_S_S10000x256
    (val_main_v62 (F := Ideal) x0 x1 x2 x3 x4) x5 d q

theorem out2 (d : Fin 10000) (j : Fin 256) :
    val_main_v67 (F := Ideal) x0 x1 x2 x3 x4 x5 x6 (ix2 d j)
      = ∑ k : Fin 256, val_main_v66 (F := Ideal) x0 x1 x2 x3 x4 x5 (ix2 d k) * x6 (ix2 k j) := by
  rw [val_main_v67_apply]
  refine Finset.sum_congr rfl (fun k _ => ?_)
  have e1 : lidx_main_v67 (ix2 d j) k = ix2 d k := funext fun a => match a with | ⟨0, _⟩ => rfl | ⟨1, _⟩ => rfl
  have e2 : ridx_main_v67 (ix2 d j) k = ix2 k j := funext fun a => match a with | ⟨0, _⟩ => rfl | ⟨1, _⟩ => rfl
  rw [e1, e2]

theorem lay2 (hr : InRange x1) :
    (fun d j => val_main_v67 (F := Ideal) x0 x1 x2 x3 x4 x5 x6 (ix2 d j))
      = layerR (srcOf x1) (dstOf x1) (nrmR x1)
          (layerR (srcOf x1) (dstOf x1) (nrmR x1) (linR (fun d q => x0 (ix2 d q)) (fun q j => x2 (ix2 q j)))
            (fun q => x3 (ix1 q)) (fun q j => x4 (ix2 q j)))
          (fun q => x5 (ix1 q)) (fun q j => x6 (ix2 q j)) := by
  rw [layer_step (m := 256) (srcOf x1) (dstOf x1) (nrmR x1) (val_main_v49 (F := Ideal) x0 x1 x2 x3 x4)
    (val_main_v62 (F := Ideal) x0 x1 x2 x3 x4) (val_main_v66 (F := Ideal) x0 x1 x2 x3 x4 x5) x5 x6
    (val_main_v67 (F := Ideal) x0 x1 x2 x3 x4 x5 x6)
    (agg2 x0 x1 x2 x3 x4 hr) (act2 x0 x1 x2 x3 x4 x5) (out2 x0 x1 x2 x3 x4 x5 x6), lay1 x0 x1 x2 x3 x4 hr]

theorem agg3 (hr : InRange x1) (d : Fin 10000) (q : Fin 256) :
    val_main_v80 (F := Ideal) x0 x1 x2 x3 x4 x5 x6 (ix2 d q)
      = aggR (srcOf x1) (dstOf x1) (nrmR x1) (fun a c => val_main_v67 (F := Ideal) x0 x1 x2 x3 x4 x5 x6 (ix2 a c)) d q := by
  unfold val_main_v80 val_main_v77 val_main_v74 val_main_v76 val_main_v75 val_main_v79 val_main_v78 val_main_v73 val_main_cst_15
  exact agg_apply (n := 256) Gen.scatter_S10000x256_S330000x1_S330000x256_1_0_0_1_wf
    Gen.gather_S10000x256_S330000x1_S330000x256_1_0_n_n_0_1_1256_wf
    Gen.bcast_S_S10000x256 Gen.bcast_S330000_S330000x1_0 Gen.bcast_S330000x1_S330000x256_0_1
    (val_main_v67 (F := Ideal) x0 x1 x2 x3 x4 x5 x6) (val_main_v72 (F := Ideal) x1) (val_main_v6 (F := Ideal) x1)
    (val_main_v30 (F := Ideal) x1) (srcOf x1) (dstOf x1)
    (src_word x1 hr _ (val_main_v71 (F := Ideal) x1)
      (fun i => by rw [val_main_v72_apply, val_main_v69_apply, val_main_v68_apply, val_main_c_13_apply]))
    (dst_word x1 hr) d q

theorem act3 (d : Fin 10000) (q : Fin 256) :
    val_main_v84 (F := Ideal) x0 x1 x2 x3 x4 x5 x6 x7 (ix2 d q)
      = max (val_main_v80 (F := Ideal) x0 x1 x2 x3 x4 x5 x6 (ix2 d q) + x7 (ix1 q)) 0 := by
  unfold val_main_v84 val_main_v83 val_main_v82 val_main_v81 val_main_call3_v0 val_main_call3_cst
  exact relu_bias_apply (n := 256) Gen.bcast_S256_S1x256_1 Gen.bcast_S1x256_S10000x256_0_1 Gen.bcast_S_S10000x256
    (val_main_v80 (F := Ideal) x0 x1 x2 x3 x4 x5 x6) x7 d q

theorem out3 (d : Fin 10000) (j : Fin 256) :
    val_main_v85 (F := Ideal) x0 x1 x2 x3 x4 x5 x6 x7 x8 (ix2 d j)
      = ∑ k : Fin 256, val_main_v84 (F := Ideal) x0 x1 x2 x3 x4 x5 x6 x7 (ix2 d k) * x8 (ix2 k j) := by
  rw [val_main_v85_apply]
  refine Finset.sum_congr rfl (fun k _ => ?_)
  have e1 : lidx_main_v85 (ix2 d j) k = ix2 d k := funext fun a => match a with | ⟨0, _⟩ => rfl | ⟨1, _⟩ => rfl
  have e2 : ridx_main_v85 (ix2 d j) k = ix2 k j := funext fun a => match a with | ⟨0, _⟩ => rfl | ⟨1, _⟩ => rfl
  rw [e1, e2]

theorem lay3 (hr : InRange x1) :
    (fun d j => val_main_v85 (F := Ideal) x0 x1 x2 x3 x4 x5 x6 x7 x8 (ix2 d j))
      = layerR (srcOf x1) (dstOf x1) (nrmR x1)
          (layerR (srcOf x1) (dstOf x1) (nrmR x1)
            (layerR (srcOf x1) (dstOf x1) (nrmR x1) (linR (fun d q => x0 (ix2 d q)) (fun q j => x2 (ix2 q j)))
              (fun q => x3 (ix1 q)) (fun q j => x4 (ix2 q j)))
            (fun q => x5 (ix1 q)) (fun q j => x6 (ix2 q j)))
          (fun q => x7 (ix1 q)) (fun q j => x8 (ix2 q j)) := by
  rw [layer_step (m := 256) (srcOf x1) (dstOf x1) (nrmR x1) (val_main_v67 (F := Ideal) x0 x1 x2 x3 x4 x5 x6)
    (val_main_v80 (F := Ideal) x0 x1 x2 x3 x4 x5 x6) (val_main_v84 (F := Ideal) x0 x1 x2 x3 x4 x5 x6 x7) x7 x8
    (val_main_v85 (F := Ideal) x0 x1 x2 x3 x4 x5 x6 x7 x8)
    (agg3 x0 x1 x2 x3 x4 x5 x6 hr) (act3 x0 x1 x2 x3 x4 x5 x6 x7) (out3 x0 x1 x2 x3 x4 x5 x6 x7 x8),
    lay2 x0 x1 x2 x3 x4 x5 x6 hr]

theorem agg4 (hr : InRange x1) (d : Fin 10000) (q : Fin 256) :
    val_main_v98 (F := Ideal) x0 x1 x2 x3 x4 x5 x6 x7 x8 (ix2 d q)
      = aggR (srcOf x1) (dstOf x1) (nrmR x1)
          (fun a c => val_main_v85 (F := Ideal) x0 x1 x2 x3 x4 x5 x6 x7 x8 (ix2 a c)) d q := by
  unfold val_main_v98 val_main_v95 val_main_v92 val_main_v94 val_main_v93 val_main_v97 val_main_v96 val_main_v91 val_main_cst_18
  exact agg_apply (n := 256) Gen.scatter_S10000x256_S330000x1_S330000x256_1_0_0_1_wf
    Gen.gather_S10000x256_S330000x1_S330000x256_1_0_n_n_0_1_1256_wf
    Gen.bcast_S_S10000x256 Gen.bcast_S330000_S330000x1_0 Gen.bcast_S330000x1_S330000x256_0_1
    (val_main_v85 (F := Ideal) x0 x1 x2 x3 x4 x5 x6 x7 x8) (val_main_v90 (F := Ideal) x1) (val_main_v6 (F := Ideal) x1)
    (val_main_v30 (F := Ideal) x1) (srcOf x1) (dstOf x1)
    (src_word x1 hr _ (val_main_v89 (F := Ideal) x1)
      (fun i => by rw [val_main_v90_apply, val_main_v87_apply, val_main_v86_apply, val_main_c_16_apply]))
    (dst_word x1 hr) d q

theorem act4 (d : Fin 10000) (q : Fin 256) :
    val_main_v102 (F := Ideal) x0 x1 x2 x3 x4 x5 x6 x7 x8 x9 (ix2 d q)
      = max (val_main_v98 (F := Ideal) x0 x1 x2 x3 x4 x5 x6 x7 x8 (ix2 d q) + x9 (ix1 q)) 0 := by
  unfold val_main_v102 val_main_v101 val_main_v100 val_main_v99 val_main_call4_v0 val_main_call4_cst
  exact relu_bias_apply (n := 256) Gen.bcast_S256_S1x256_1 Gen.bcast_S1x256_S10000x256_0_1 Gen.bcast_S_S10000x256
    (val_main_v98 (F := Ideal) x0 x1 x2 x3 x4 x5 x6 x7 x8) x9 d q

theorem out4 (d : Fin 10000) (j : Fin 40) :
    val_main_v103 (F := Ideal) x0 x1 x2 x3 x4 x5 x6 x7 x8 x9 x10 (ix2 d j)
      = ∑ k : Fin 256, val_main_v102 (F := Ideal) x0 x1 x2 x3 x4 x5 x6 x7 x8 x9 (ix2 d k) * x10 (ix2 k j) := by
  rw [val_main_v103_apply]
  refine Finset.sum_congr rfl (fun k _ => ?_)
  have e1 : lidx_main_v103 (ix2 d j) k = ix2 d k := funext fun a => match a with | ⟨0, _⟩ => rfl | ⟨1, _⟩ => rfl
  have e2 : ridx_main_v103 (ix2 d j) k = ix2 k j := funext fun a => match a with | ⟨0, _⟩ => rfl | ⟨1, _⟩ => rfl
  rw [e1, e2]

theorem lay4 (hr : InRange x1) :
    (fun d j => val_main_v103 (F := Ideal) x0 x1 x2 x3 x4 x5 x6 x7 x8 x9 x10 (ix2 d j))
      = layerR (srcOf x1) (dstOf x1) (nrmR x1)
          (layerR (srcOf x1) (dstOf x1) (nrmR x1)
            (layerR (srcOf x1) (dstOf x1) (nrmR x1)
              (layerR (srcOf x1) (dstOf x1) (nrmR x1) (linR (fun d q => x0 (ix2 d q)) (fun q j => x2 (ix2 q j)))
                (fun q => x3 (ix1 q)) (fun q j => x4 (ix2 q j)))
              (fun q => x5 (ix1 q)) (fun q j => x6 (ix2 q j)))
            (fun q => x7 (ix1 q)) (fun q j => x8 (ix2 q j)))
          (fun q => x9 (ix1 q)) (fun q j => x10 (ix2 q j)) := by
  rw [layer_step (m := 40) (srcOf x1) (dstOf x1) (nrmR x1) (val_main_v85 (F := Ideal) x0 x1 x2 x3 x4 x5 x6 x7 x8)
    (val_main_v98 (F := Ideal) x0 x1 x2 x3 x4 x5 x6 x7 x8) (val_main_v102 (F := Ideal) x0 x1 x2 x3 x4 x5 x6 x7 x8 x9) x9 x10
    (val_main_v103 (F := Ideal) x0 x1 x2 x3 x4 x5 x6 x7 x8 x9 x10)
    (agg4 x0 x1 x2 x3 x4 x5 x6 x7 x8 hr) (act4 x0 x1 x2 x3 x4 x5 x6 x7 x8 x9) (out4 x0 x1 x2 x3 x4 x5 x6 x7 x8 x9 x10),
    lay3 x0 x1 x2 x3 x4 x5 x6 x7 x8 hr]

theorem agg5 (hr : InRange x1) (d : Fin 10000) (q : Fin 40) :
    val_main_v116 (F := Ideal) x0 x1 x2 x3 x4 x5 x6 x7 x8 x9 x10 (ix2 d q)
      = aggR (srcOf x1) (dstOf x1) (nrmR x1)
          (fun a c => val_main_v103 (F := Ideal) x0 x1 x2 x3 x4 x5 x6 x7 x8 x9 x10 (ix2 a c)) d q := by
  unfold val_main_v116 val_main_v113 val_main_v110 val_main_v112 val_main_v111 val_main_v115 val_main_v114 val_main_v109 val_main_cst_21
  exact agg_apply (n := 40) Gen.scatter_S10000x40_S330000x1_S330000x40_1_0_0_1_wf
    Gen.gather_S10000x40_S330000x1_S330000x40_1_0_n_n_0_1_140_wf
    Gen.bcast_S_S10000x40 Gen.bcast_S330000_S330000x1_0 Gen.bcast_S330000x1_S330000x40_0_1
    (val_main_v103 (F := Ideal) x0 x1 x2 x3 x4 x5 x6 x7 x8 x9 x10) (val_main_v108 (F := Ideal) x1) (val_main_v6 (F := Ideal) x1)
    (val_main_v30 (F := Ideal) x1) (srcOf x1) (dstOf x1)
    (src_word x1 hr _ (val_main_v107 (F := Ideal) x1)
      (fun i => by rw [val_main_v108_apply, val_main_v105_apply, val_main_v104_apply, val_main_c_19_apply]))
    (dst_word x1 hr) d q

theorem logits_stage (hr : InRange x1) (d : Fin 10000) (j : Fin 40) :
    val_main_v119 (F := Ideal) x0 x1 x2 x3 x4 x5 x6 x7 x8 x9 x10 x11 (ix2 d j)
      = logitsR (srcOf x1) (dstOf x1) (nrmR x1)
          (layerR (srcOf x1) (dstOf x1) (nrmR x1)
            (layerR (srcOf x1) (dstOf x1) (nrmR x1)
              (layerR (srcOf x1) (dstOf x1) (nrmR x1)
                (layerR (srcOf x1) (dstOf x1) (nrmR x1) (linR (fun d q => x0 (ix2 d q)) (fun q j => x2 (ix2 q j)))
                  (fun q => x3 (ix1 q)) (fun q j => x4 (ix2 q j)))
                (fun q => x5 (ix1 q)) (fun q j => x6 (ix2 q j)))
              (fun q => x7 (ix1 q)) (fun q j => x8 (ix2 q j)))
            (fun q => x9 (ix1 q)) (fun q j => x10 (ix2 q j)))
          (fun q => x11 (ix1 q)) d j := by
  unfold val_main_v119 val_main_v118 val_main_v117
  refine (bias_apply (n := 40) Gen.bcast_S40_S1x40_1 Gen.bcast_S1x40_S10000x40_0_1
    (val_main_v116 (F := Ideal) x0 x1 x2 x3 x4 x5 x6 x7 x8 x9 x10) x11 d j).trans ?_
  unfold Cert.Gcn.logitsR
  rw [agg5 x0 x1 x2 x3 x4 x5 x6 x7 x8 x9 x10 hr d j, lay4 x0 x1 x2 x3 x4 x5 x6 x7 x8 x9 x10 hr]

end Layers

section Results
variable (m' : (ℓ : Loc nD τ sig) → Buf (Elt Ideal) ℓ) (c : Dev nD)

theorem ref_logits (hr : InRange (m' ((c.tc : Thread nD τ).loc main_arg1))) (d : Fin 10000) (j : Fin 40) :
    Cert.ReferenceIdeal.Value.res_main_v119 m' c (ix2 d j)
      = logitsR (srcOf (m' ((c.tc : Thread nD τ).loc main_arg1))) (dstOf (m' ((c.tc : Thread nD τ).loc main_arg1))) (nrmR (m' ((c.tc : Thread nD τ).loc main_arg1)))
          (layerR (srcOf (m' ((c.tc : Thread nD τ).loc main_arg1))) (dstOf (m' ((c.tc : Thread nD τ).loc main_arg1))) (nrmR (m' ((c.tc : Thread nD τ).loc main_arg1)))
            (layerR (srcOf (m' ((c.tc : Thread nD τ).loc main_arg1))) (dstOf (m' ((c.tc : Thread nD τ).loc main_arg1))) (nrmR (m' ((c.tc : Thread nD τ).loc main_arg1)))
              (layerR (srcOf (m' ((c.tc : Thread nD τ).loc main_arg1))) (dstOf (m' ((c.tc : Thread nD τ).loc main_arg1))) (nrmR (m' ((c.tc : Thread nD τ).loc main_arg1)))
                (layerR (srcOf (m' ((c.tc : Thread nD τ).loc main_arg1))) (dstOf (m' ((c.tc : Thread nD τ).loc main_arg1))) (nrmR (m' ((c.tc : Thread nD τ).loc main_arg1)))
                  (linR (fun d q => (m' ((c.tc : Thread nD τ).loc main_arg0)) (ix2 d q)) (fun q j => (m' ((c.tc : Thread nD τ).loc main_arg2)) (ix2 q j)))
                  (fun q => (m' ((c.tc : Thread nD τ).loc main_arg3)) (ix1 q)) (fun q j => (m' ((c.tc : Thread nD τ).loc main_arg4)) (ix2 q j)))
                (fun q => (m' ((c.tc : Thread nD τ).loc main_arg5)) (ix1 q)) (fun q j => (m' ((c.tc : Thread nD τ).loc main_arg6)) (ix2 q j)))
              (fun q => (m' ((c.tc : Thread nD τ).loc main_arg7)) (ix1 q)) (fun q j => (m' ((c.tc : Thread nD τ).loc main_arg8)) (ix2 q j)))
            (fun q => (m' ((c.tc : Thread nD τ).loc main_arg9)) (ix1 q)) (fun q j => (m' ((c.tc : Thread nD τ).loc main_arg10)) (ix2 q j)))
          (fun q => (m' ((c.tc : Thread nD τ).loc main_arg11)) (ix1 q)) d j := by
  rw [val_main_v119_eq]
  exact logits_stage (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) hr d j

theorem ref_logp :
    Cert.ReferenceIdeal.Value.res_main_v120 m' c = lsmR (Cert.ReferenceIdeal.Value.res_main_v119 m' c) := by
  rw [val_main_v120_eq, val_main_v119_eq]
  exact lsm_stage (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))

end Results

end Cert.ReferenceIdeal.Hand

end
-- ==== Proof.RefLink.lean ====
import proofs.«427802_j60163901882525_3_alg».proof.Proof.RefVal2
import proofs.«427802_j60163901882525_3_alg».proof.Proof.KI.HostAdj1
import proofs.«427802_j60163901882525_3_alg».proof.Proof.KI.HostTail

noncomputable section

namespace Cert.ReferenceIdeal.Hand

open Cert.ReferenceIdeal Cert.ReferenceIdeal.Read Idealize.ShloMosaic Idealize.ShloMosaic.ValueIdx

theorem nrmR_eq_nrmK (ei : IVec S2x320000 32) : nrmR ei = Cert.KernelIdeal.Hand.nrmK ei := by
  funext e
  unfold nrmR Cert.KernelIdeal.Hand.nrmK Cert.KernelIdeal.Hand.nrmV Cert.KernelIdeal.Hand.nrmOf
    Cert.KernelIdeal.Hand.dinvV Cert.KernelIdeal.Hand.dinvOf Cert.KernelIdeal.Hand.degOf Cert.KernelIdeal.Hand.wrapV
    Cert.KernelIdeal.Hand.srcV Cert.KernelIdeal.Hand.dstV Cert.KernelIdeal.Hand.endsV
  unfold val_main_v30 val_main_v22 val_main_v29 val_main_v21 val_main_v28 val_main_v20 val_main_v27 val_main_v17 val_main_v24
    val_main_v19 val_main_v26 val_main_v16 val_main_v23 val_main_v18 val_main_v25 val_main_c val_main_c_5 val_main_c_4 val_main_c_6
    val_main_v15 val_main_v12 val_main_v14 val_main_call0_v1 val_main_call0_v0 val_main_cst_3 val_main_v11 val_main_cst_1
    val_main_v13 val_main_cst_2 val_main_v10 val_main_v8 val_main_cst_0 val_main_v9 val_main_v7 val_main_cst
    val_main_v3 val_main_v6 val_main_v2 val_main_v5 val_main_v1 val_main_v4 val_main_v0
  rfl

theorem lsmR_eq_lsm : lsmR = Cert.KernelIdeal.Hand.lsm := by
  funext z
  unfold lsmR lsmG Cert.KernelIdeal.Hand.lsm
  rfl

end Cert.ReferenceIdeal.Hand

end
-- ==== Proof.lean ====
import proofs.«427802_j60163901882525_3_alg».proof.Defs
import proofs.«427802_j60163901882525_3_alg».proof.Proof.Gen.Kernel
import proofs.«427802_j60163901882525_3_alg».proof.Proof.Gen.KernelIdeal
import proofs.«427802_j60163901882525_3_alg».proof.Proof.Gen.ReferenceIdeal
import proofs.«427802_j60163901882525_3_alg».proof.Proof.Gen.Pre_finite_inputs
import proofs.«427802_j60163901882525_3_alg».proof.Proof.K.Frame
import proofs.«427802_j60163901882525_3_alg».proof.Proof.KI.Frame
import proofs.«427802_j60163901882525_3_alg».proof.Proof.KI.Chain
import proofs.«427802_j60163901882525_3_alg».proof.Proof.KI.HostTail
import proofs.«427802_j60163901882525_3_alg».proof.Proof.PreDecode
import proofs.«427802_j60163901882525_3_alg».proof.Proof.RefRunP
import proofs.«427802_j60163901882525_3_alg».proof.Proof.RefVal2
import proofs.«427802_j60163901882525_3_alg».proof.Proof.RefLink
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

section Algebraic

open Cert.KernelIdeal Cert.KernelIdeal.Gen Cert.KernelIdeal.Hand

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's memory agrees with the kernel's on the twelve arguments. -/
abbrev Agree : Prop := ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)

theorem lsm_link (z : S10000x40.Idx → EReal) : Cert.ReferenceIdeal.Hand.lsmR z = lsm z := rfl

theorem logits_eq (hpre : Cert.Pre_KernelIdeal m)
    (hagree : Agree m m')
    (c : Dev nD) :
    (Gen.V13 m (outs m) c main_v71 : S10000x40.Idx → EReal) = (Cert.ReferenceIdeal.Value.res_main_v119 m' c : S10000x40.Idx → EReal) := by
  have hr : Cert.Gcn.InRange (m ((c : Thread nD τ).loc main_arg1)) :=
    Cert.Hand.inRange_of_pre _ _ _ _ _ _ _ _ _ _ _ _ (hpre c)
  have hr' : Cert.Gcn.InRange (m' ((c : Thread Cert.ReferenceIdeal.nD Cert.ReferenceIdeal.τ).loc Cert.ReferenceIdeal.main_arg1)) := by
    rw [(hagree c).2.1]; exact hr
  funext i
  obtain ⟨d, j, rfl⟩ : ∃ (d : Fin 10000) (j : Fin 40), i = ix2 d j := ⟨i 0, i 1, eq_ix2 i⟩
  rw [kernel_logits m c hr d j]
  refine Eq.trans ?_ (Cert.ReferenceIdeal.Hand.ref_logits m' c hr' d j).symm
  rw [Cert.ReferenceIdeal.Hand.nrmR_eq_nrmK, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem logp_eq (hpre : Cert.Pre_KernelIdeal m)
    (hagree : Agree m m')
    (c : Dev nD) :
    (Gen.V13 m (outs m) c main_v72 : S10000x40.Idx → EReal) = (Cert.ReferenceIdeal.Value.res_main_v120 m' c : S10000x40.Idx → EReal) :=
  (V13_logp m c (outs m)).trans ((congrArg lsm (logits_eq m m' hpre hagree c)).trans
    ((lsm_link _).symm.trans (Cert.ReferenceIdeal.Hand.ref_logp m' c).symm))

end Algebraic

theorem algebraic : Cert.algebraic_KernelIdeal_ReferenceIdeal := by
  intro m ρ m' ρ' hpre hagree
  refine ⟨fun c => Cert.ReferenceIdeal.Value.res_main_v120 m' c, fun c => Cert.ReferenceIdeal.Value.res_main_v119 m' c, ?_,
    Cert.ReferenceIdeal.Value.run (F := Ideal) m' ρ'⟩
  open Cert.KernelIdeal Cert.KernelIdeal.Hand in
  exact (θ_run Cert.KernelIdeal.defs _ _).mono (fun r h c =>
    ⟨(h c (Proc.devRef .tc main_v72) (Finset.mem_filter.mpr ⟨StableHlo.devRef_mem_tcRefs main_v72, by decide⟩)).trans (logp_eq m m' hpre hagree c),
      (h c (Proc.devRef .tc main_v71) (Finset.mem_filter.mpr ⟨StableHlo.devRef_mem_tcRefs main_v71, by decide⟩)).trans (logits_eq m m' hpre hagree c),
      (h c (Proc.devRef .tc main_arg0) (Finset.mem_filter.mpr ⟨StableHlo.devRef_mem_tcRefs main_arg0, by decide⟩)).trans (Gen.V13_main_arg0 m (outs m) c),
      (h c (Proc.devRef .tc main_arg1) (Finset.mem_filter.mpr ⟨StableHlo.devRef_mem_tcRefs main_arg1, by decide⟩)).trans (Gen.V13_main_arg1 m (outs m) c),
      (h c (Proc.devRef .tc main_arg2) (Finset.mem_filter.mpr ⟨StableHlo.devRef_mem_tcRefs main_arg2, by decide⟩)).trans (Gen.V13_main_arg2 m (outs m) c),
      (h c (Proc.devRef .tc main_arg3) (Finset.mem_filter.mpr ⟨StableHlo.devRef_mem_tcRefs main_arg3, by decide⟩)).trans (Gen.V13_main_arg3 m (outs m) c),
      (h c (Proc.devRef .tc main_arg4) (Finset.mem_filter.mpr ⟨StableHlo.devRef_mem_tcRefs main_arg4, by decide⟩)).trans (Gen.V13_main_arg4 m (outs m) c),
      (h c (Proc.devRef .tc main_arg5) (Finset.mem_filter.mpr ⟨StableHlo.devRef_mem_tcRefs main_arg5, by decide⟩)).trans (Gen.V13_main_arg5 m (outs m) c),
      (h c (Proc.devRef .tc main_arg6) (Finset.mem_filter.mpr ⟨StableHlo.devRef_mem_tcRefs main_arg6, by decide⟩)).trans (Gen.V13_main_arg6 m (outs m) c),
      (h c (Proc.devRef .tc main_arg7) (Finset.mem_filter.mpr ⟨StableHlo.devRef_mem_tcRefs main_arg7, by decide⟩)).trans (Gen.V13_main_arg7 m (outs m) c),
      (h c (Proc.devRef .tc main_arg8) (Finset.mem_filter.mpr ⟨StableHlo.devRef_mem_tcRefs main_arg8, by decide⟩)).trans (Gen.V13_main_arg8 m (outs m) c),
      (h c (Proc.devRef .tc main_arg9) (Finset.mem_filter.mpr ⟨StableHlo.devRef_mem_tcRefs main_arg9, by decide⟩)).trans (Gen.V13_main_arg9 m (outs m) c),
      (h c (Proc.devRef .tc main_arg10) (Finset.mem_filter.mpr ⟨StableHlo.devRef_mem_tcRefs main_arg10, by decide⟩)).trans (Gen.V13_main_arg10 m (outs m) c),
      (h c (Proc.devRef .tc main_arg11) (Finset.mem_filter.mpr ⟨StableHlo.devRef_mem_tcRefs main_arg11, by decide⟩)).trans (Gen.V13_main_arg11 m (outs m) c)⟩)
    (Cert.KernelIdeal.Hand.run_all m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
